-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_v153) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x32 : Shape := ⟨3, ![8, 2048, 32]⟩
abbrev S8x2048x2048 : Shape := ⟨3, ![8, 2048, 2048]⟩
abbrev S3x32x64 : Shape := ⟨3, ![3, 32, 64]⟩
abbrev S64 : Shape := ⟨1, ![64]⟩
abbrev S3x64x64 : Shape := ⟨3, ![3, 64, 64]⟩
abbrev S192x64 : Shape := ⟨2, ![192, 64]⟩
abbrev S_ : Shape := ⟨0, ![]⟩

class Facts : Prop where
  bcast_S_S8x2048x32 : S_.BroadcastsInDim S8x2048x32 (![] : Fin 0 → Fin S8x2048x32.rank)
  reducesTo_S8x2048x32_S_d0_1_2 : S8x2048x32.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S3x32x64 : S_.BroadcastsInDim S3x32x64 (![] : Fin 0 → Fin S3x32x64.rank)
  reducesTo_S3x32x64_S_d0_1_2 : S3x32x64.ReducesTo [0, 1, 2] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S192x64 : S_.BroadcastsInDim S192x64 (![] : Fin 0 → Fin S192x64.rank)
  reducesTo_S192x64_S_d0_1 : S192x64.ReducesTo [0, 1] S_

variable [Facts]

def fn_part2 {F : FTy → Type} [FloatOps F] (main_arg8 : FVec F S64 .f32) (main_arg9 : FVec F S192x64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S192x64 .f32 := Host.absf main_arg9
  let main_cst_14 : FVec F S_ .f32 := constant S_ .f32 0x7F800000#32
  let main_v40 : FVec F S192x64 .f32 := broadcastInDim S192x64 ![] bcast_S_S192x64 main_cst_14
  let main_v41 : IVec S192x64 1 := cmpf .olt main_v39 main_v40
  let main_c_15 : IVec S_ 1 := constantI S_ 1 1#1
  let main_v42 : IVec S_ 1 := (fun x v => Host.reduce IntOp.andi x v reducesTo_S192x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S3x64x64 .f32) (main_arg6 : FVec F S64 .f32) (main_arg7 : FVec F S3x64x64 .f32) (main_arg8 : FVec F S64 .f32) (main_arg9 : FVec F S192x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S3x64x64 .f32 := Host.absf main_arg5
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S3x64x64 .f32 := Host.absf main_arg7
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg8 main_arg9 main_arg10 main_v33

def fn {F : FTy → Type} [FloatOps F] (main_arg0 : FVec F S8x2048x32 .f32) (main_arg1 : IVec S8x2048x2048 32) (main_arg2 : FVec F S8x2048x2048 .f32) (main_arg3 : FVec F S3x32x64 .f32) (main_arg4 : FVec F S64 .f32) (main_arg5 : FVec F S3x64x64 .f32) (main_arg6 : FVec F S64 .f32) (main_arg7 : FVec F S3x64x64 .f32) (main_arg8 : FVec F S64 .f32) (main_arg9 : FVec F S192x64 .f32) (main_arg10 : FVec F S64 .f32) : IVec S_ 1 :=
  let main_v0 : FVec F S8x2048x32 .f32 := Host.absf main_arg0
  let main_cst : FVec F S_ .f32 := constant S_ .f32 0x7F800000#32
  let main_v1 : FVec F S8x2048x32 .f32 := broadcastInDim S8x2048x32 ![] bcast_S_S8x2048x32 main_cst
  let main_v2 : IVec S8x2048x32 1 := cmpf .olt main_v0 main_v1
  let main_c : IVec S_ 1 := constantI S_ 1 1#1
  let main_v3 : IVec S_ 1 := (fun x v => Host.reduce IntOp.andi x v reducesTo_S8x2048x32_S_d0_1_2 h_S_) main_v2 main_c
  let main_v4 : FVec F S8x2048x2048 .f32 := Host.absf main_arg2
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S3x32x64 .f32 := Host.absf main_arg3
  let main_cst_2 : FVec F S_ .f32 := constant S_ .f32 0x7F800000#32
  let main_v10 : FVec F S3x32x64 .f32 := broadcastInDim S3x32x64 ![] bcast_S_S3x32x64 main_cst_2
  let main_v11 : IVec S3x32x64 1 := cmpf .olt main_v9 main_v10
  let main_c_3 : IVec S_ 1 := constantI S_ 1 1#1
  let main_v12 : IVec S_ 1 := (fun x v => Host.reduce IntOp.andi x v reducesTo_S3x32x64_S_d0_1_2 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S8x2048x32 : Shape := ⟨3, ![8, 2048, 32]⟩
abbrev S8x2048x2048 : Shape := ⟨3, ![8, 2048, 2048]⟩
abbrev S3x32x64 : Shape := ⟨3, ![3, 32, 64]⟩
abbrev S64 : Shape := ⟨1, ![64]⟩
abbrev S3x64x64 : Shape := ⟨3, ![3, 64, 64]⟩
abbrev S192x64 : Shape := ⟨2, ![192, 64]⟩
abbrev S8x2048x64 : Shape := ⟨3, ![8, 2048, 64]⟩
abbrev S1x2048x32 : Shape := ⟨3, ![1, 2048, 32]⟩
abbrev S1x256x2048 : Shape := ⟨3, ![1, 256, 2048]⟩
abbrev S1x256x64 : Shape := ⟨3, ![1, 256, 64]⟩
abbrev S3x2048x64 : Shape := ⟨3, ![3, 2048, 64]⟩
abbrev S2048x32 : Shape := ⟨2, ![2048, 32]⟩
abbrev S1x32x64 : Shape := ⟨3, ![1, 32, 64]⟩
abbrev S32x64 : Shape := ⟨2, ![32, 64]⟩
abbrev S2048x64 : Shape := ⟨2, ![2048, 64]⟩
abbrev S1x2048x64 : Shape := ⟨3, ![1, 2048, 64]⟩
abbrev S256x2048 : Shape := ⟨2, ![256, 2048]⟩
abbrev S256x64 : Shape := ⟨2, ![256, 64]⟩
abbrev S1x64 : Shape := ⟨2, ![1, 64]⟩
abbrev S256 : Shape := ⟨1, ![256]⟩
abbrev S256x1 : Shape := ⟨2, ![256, 1]⟩
abbrev S_ : Shape := ⟨0, ![]⟩
abbrev S2048 : Shape := ⟨1, ![2048]⟩
abbrev S1x2048x1 : Shape := ⟨3, ![1, 2048, 1]⟩
abbrev S8x64 : Shape := ⟨2, ![8, 64]⟩
abbrev S1x64x64 : Shape := ⟨3, ![1, 64, 64]⟩
abbrev S64x64 : Shape := ⟨2, ![64, 64]⟩
abbrev S8x192 : Shape := ⟨2, ![8, 192]⟩

abbrev nBuf : Space → Nat
  | .hbm => 78
  | .vmem => 27
  | .smem => 0
  | _ => 0

abbrev bufTy : (tb : Table) → Fin (tcTables nBuf tb) → BufTy
  | .hbm, ⟨0, _⟩ => ⟨S8x2048x32, .f32⟩
  | .hbm, ⟨1, _⟩ => ⟨S8x2048x2048, .i32⟩
  | .hbm, ⟨2, _⟩ => ⟨S8x2048x2048, .f32⟩
  | .hbm, ⟨3, _⟩ => ⟨S3x32x64, .f32⟩
  | .hbm, ⟨4, _⟩ => ⟨S64, .f32⟩
  | .hbm, ⟨5, _⟩ => ⟨S3x64x64, .f32⟩
  | .hbm, ⟨6, _⟩ => ⟨S64, .f32⟩
  | .hbm, ⟨7, _⟩ => ⟨S3x64x64, .f32⟩
  | .hbm, ⟨8, _⟩ => ⟨S64, .f32⟩
  | .hbm, ⟨9, _⟩ => ⟨S192x64, .f32⟩
  | .hbm, ⟨10, _⟩ => ⟨S64, .f32⟩
  | .hbm, ⟨11, _⟩ => ⟨S8x2048x2048, .f32⟩
  | .hbm, ⟨12, _⟩ => ⟨S8x2048x64, .f32⟩
  | .hbm, ⟨13, _⟩ => ⟨S_, .f32⟩
  | .hbm, ⟨14, _⟩ => ⟨S8x2048x64, .f32⟩
  | .hbm, ⟨15, _⟩ => ⟨S8x2048x64, .f32⟩
  | .hbm, ⟨16, _⟩ => ⟨S_, .f32⟩
  | .hbm, ⟨17, _⟩ => ⟨S2048, .f32⟩
  | .hbm, ⟨18, _⟩ => ⟨S1x2048x1, .f32⟩
  | .hbm, ⟨19, _⟩ => ⟨S_, .f32⟩
  | .hbm, ⟨20, _⟩ => ⟨S1x2048x1, .f32⟩
  | .hbm, ⟨21, _⟩ => ⟨S1x2048x1, .f32⟩
  | .hbm, ⟨22, _⟩ => ⟨S8x2048x64, .f32⟩
  | .hbm, ⟨23, _⟩ => ⟨S8x2048x64, .f32⟩
  | .hbm, ⟨24, _⟩ => ⟨S8x2048x64, .f32⟩
  | .hbm, ⟨25, _⟩ => ⟨S_, .f32⟩
  | .hbm, ⟨26, _⟩ => ⟨S2048, .f32⟩
  | .hbm, ⟨27, _⟩ => ⟨S1x2048x1, .f32⟩
  | .hbm, ⟨28, _⟩ => ⟨S_, .f32⟩
  | .hbm, ⟨29, _⟩ => ⟨S1x2048x1, .f32⟩
  | .hbm, ⟨30, _⟩ => ⟨S1x2048x1, .f32⟩
  | .hbm, ⟨31, _⟩ => ⟨S8x2048x64, .f32⟩
  | .hbm, ⟨32, _⟩ => ⟨S8x2048x64, .f32⟩
  | .hbm, ⟨33, _⟩ => ⟨S_, .f32⟩
  | .hbm, ⟨34, _⟩ => ⟨S1x2048x1, .f32⟩
  | .hbm, ⟨35, _⟩ => ⟨S1x2048x1, .f32⟩
  | .hbm, ⟨36, _⟩ => ⟨S1x2048x1, .f32⟩
  | .hbm, ⟨37, _⟩ => ⟨S8x2048x64, .f32⟩
  | .hbm, ⟨38, _⟩ => ⟨S8x2048x64, .f32⟩
  | .hbm, ⟨39, _⟩ => ⟨S_, .f32⟩
  | .hbm, ⟨40, _⟩ => ⟨S8x64, .f32⟩
  | .hbm, ⟨41, _⟩ => ⟨S8x2048x64, .f32⟩
  | .hbm, ⟨42, _⟩ => ⟨S_, .f32⟩
  | .hbm, ⟨43, _⟩ => ⟨S8x2048x64, .f32⟩
  | .hbm, ⟨44, _⟩ => ⟨S8x2048x64, .f32⟩
  | .hbm, ⟨45, _⟩ => ⟨S_, .f32⟩
  | .hbm, ⟨46, _⟩ => ⟨S2048, .f32⟩
  | .hbm, ⟨47, _⟩ => ⟨S1x2048x1, .f32⟩
  | .hbm, ⟨48, _⟩ => ⟨S_, .f32⟩
  | .hbm, ⟨49, _⟩ => ⟨S1x2048x1, .f32⟩
  | .hbm, ⟨50, _⟩ => ⟨S1x2048x1, .f32⟩
  | .hbm, ⟨51, _⟩ => ⟨S8x2048x64, .f32⟩
  | .hbm, ⟨52, _⟩ => ⟨S8x2048x64, .f32⟩
  | .hbm, ⟨53, _⟩ => ⟨S8x2048x64, .f32⟩
  | .hbm, ⟨54, _⟩ => ⟨S_, .f32⟩
  | .hbm, ⟨55, _⟩ => ⟨S2048, .f32⟩
  | .hbm, ⟨56, _⟩ => ⟨S1x2048x1, .f32⟩
  | .hbm, ⟨57, _⟩ => ⟨S_, .f32⟩
  | .hbm, ⟨58, _⟩ => ⟨S1x2048x1, .f32⟩
  | .hbm, ⟨59, _⟩ => ⟨S1x2048x1, .f32⟩
  | .hbm, ⟨60, _⟩ => ⟨S8x2048x64, .f32⟩
  | .hbm, ⟨61, _⟩ => ⟨S8x2048x64, .f32⟩
  | .hbm, ⟨62, _⟩ => ⟨S_, .f32⟩
  | .hbm, ⟨63, _⟩ => ⟨S1x2048x1, .f32⟩
  | .hbm, ⟨64, _⟩ => ⟨S1x2048x1, .f32⟩
  | .hbm, ⟨65, _⟩ => ⟨S1x2048x1, .f32⟩
  | .hbm, ⟨66, _⟩ => ⟨S8x2048x64, .f32⟩
  | .hbm, ⟨67, _⟩ => ⟨S8x2048x64, .f32⟩
  | .hbm, ⟨68, _⟩ => ⟨S_, .f32⟩
  | .hbm, ⟨69, _⟩ => ⟨S8x64, .f32⟩
  | .hbm, ⟨70, _⟩ => ⟨S8x2048x64, .f32⟩
  | .hbm, ⟨71, _⟩ => ⟨S_, .f32⟩
  | .hbm, ⟨72, _⟩ => ⟨S8x64, .f32⟩
  | .hbm, ⟨73, _⟩ => ⟨S8x192, .f32⟩
  | .hbm, ⟨74, _⟩ => ⟨S8x64, .f32⟩
  | .hbm, ⟨75, _⟩ => ⟨S1x64, .f32⟩
  | .hbm, ⟨76, _⟩ => ⟨S8x64, .f32⟩
  | .hbm, ⟨77, _⟩ => ⟨S8x64, .f32⟩
  | .local _ .vmem, ⟨0, _⟩ => ⟨S1x2048x32, .f32⟩
  | .local _ .vmem, ⟨1, _⟩ => ⟨S1x2048x32, .f32⟩
  | .local _ .vmem, ⟨2, _⟩ => ⟨S1x256x2048, .f32⟩
  | .local _ .vmem, ⟨3, _⟩ => ⟨S1x256x2048, .f32⟩
  | .local _ .vmem, ⟨4, _⟩ => ⟨S3x32x64, .f32⟩
  | .local _ .vmem, ⟨5, _⟩ => ⟨S64, .f32⟩
  | .local _ .vmem, ⟨6, _⟩ => ⟨S1x256x64, .f32⟩
  | .local _ .vmem, ⟨7, _⟩ => ⟨S1x256x64, .f32⟩
  | .local _ .vmem, ⟨8, _⟩ => ⟨S3x2048x64, .f32⟩
  | .local _ .vmem, ⟨9, _⟩ => ⟨S1x2048x64, .f32⟩
  | .local _ .vmem, ⟨10, _⟩ => ⟨S1x2048x64, .f32⟩
  | .local _ .vmem, ⟨11, _⟩ => ⟨S1x256x2048, .f32⟩
  | .local _ .vmem, ⟨12, _⟩ => ⟨S1x256x2048, .f32⟩
  | .local _ .vmem, ⟨13, _⟩ => ⟨S3x64x64, .f32⟩
  | .local _ .vmem, ⟨14, _⟩ => ⟨S64, .f32⟩
  | .local _ .vmem, ⟨15, _⟩ => ⟨S1x256x64, .f32⟩
  | .local _ .vmem, ⟨16, _⟩ => ⟨S1x256x64, .f32⟩
  | .local _ .vmem, ⟨17, _⟩ => ⟨S3x2048x64, .f32⟩
  | .local _ .vmem, ⟨18, _⟩ => ⟨S1x2048x64, .f32⟩
  | .local _ .vmem, ⟨19, _⟩ => ⟨S1x2048x64, .f32⟩
  | .local _ .vmem, ⟨20, _⟩ => ⟨S1x256x2048, .f32⟩
  | .local _ .vmem, ⟨21, _⟩ => ⟨S1x256x2048, .f32⟩
  | .local _ .vmem, ⟨22, _⟩ => ⟨S3x64x64, .f32⟩
  | .local _ .vmem, ⟨23, _⟩ => ⟨S64, .f32⟩
  | .local _ .vmem, ⟨24, _⟩ => ⟨S1x256x64, .f32⟩
  | .local _ .vmem, ⟨25, _⟩ => ⟨S1x256x64, .f32⟩
  | .local _ .vmem, ⟨26, _⟩ => ⟨S3x2048x64, .f32⟩
  | _, _ => ⟨S8x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_call0_cst : Ref sig .tc := ⟨.hbm, 13, rfl⟩
abbrev main_call0_v0 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_call1_cst : Ref sig .tc := ⟨.hbm, 42, rfl⟩
abbrev main_call1_v0 : Ref sig .tc := ⟨.hbm, 43, rfl⟩
abbrev main_v23 : Ref sig .tc := ⟨.hbm, 44, rfl⟩
abbrev main_cst_5 : Ref sig .tc := ⟨.hbm, 45, rfl⟩
abbrev main_v24 : Ref sig .tc := ⟨.hbm, 46, rfl⟩
abbrev main_v25 : Ref sig .tc := ⟨.hbm, 47, rfl⟩
abbrev main_cst_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_7 : Ref sig .tc := ⟨.hbm, 54, rfl⟩
abbrev main_v31 : Ref sig .tc := ⟨.hbm, 55, rfl⟩
abbrev main_v32 : Ref sig .tc := ⟨.hbm, 56, rfl⟩
abbrev main_cst_8 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_9 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_v43 : Ref sig .tc := ⟨.hbm, 70, rfl⟩
abbrev main_cst_11 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S3x64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x256x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![8, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x256x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S3x64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x256x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  inb_S1x2048x32_S1x2048x32_0_0_0 : ∀ a, (![0, 0, 0] : Fin 3 → Nat) a + S1x2048x32.size a ≤ S1x2048x32.size a
  h_S1x2048x32 : 0 < S1x2048x32.numel
  shapeCasts_S1x2048x32_S2048x32 : S1x2048x32.ShapeCasts S2048x32
  bitsLt_bf16_f32 : FTy.bits .bf16 < FTy.bits .f32
  inb_S3x32x64_S1x32x64_0_0_0 : ∀ a, (![0, 0, 0] : Fin 3 → Nat) a + S1x32x64.size a ≤ S3x32x64.size a
  h_S1x32x64 : 0 < S1x32x64.numel
  shapeCasts_S1x32x64_S32x64 : S1x32x64.ShapeCasts S32x64
  inb_S3x2048x64_S1x2048x64_0_0_0 : ∀ a, (![0, 0, 0] : Fin 3 → Nat) a + S1x2048x64.size a ≤ S3x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  inb_S3x32x64_S1x32x64_1_0_0 : ∀ a, (![1, 0, 0] : Fin 3 → Nat) a + S1x32x64.size a ≤ S3x32x64.size a
  inb_S3x2048x64_S1x2048x64_1_0_0 : ∀ a, (![1, 0, 0] : Fin 3 → Nat) a + S1x2048x64.size a ≤ S3x2048x64.size a
  inb_S3x32x64_S1x32x64_2_0_0 : ∀ a, (![2, 0, 0] : Fin 3 → Nat) a + S1x32x64.size a ≤ S3x32x64.size a
  inb_S3x2048x64_S1x2048x64_2_0_0 : ∀ a, (![2, 0, 0] : Fin 3 → Nat) a + S1x2048x64.size a ≤ S3x2048x64.size a
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  natLt_1_32 : 1 < 32
  inb_S64_S64_0 : ∀ a, (![0] : Fin 1 → Nat) a + S64.size a ≤ S64.size a
  h_S64 : 0 < S64.numel
  shapeCasts_S64_S1x64 : S64.ShapeCasts S1x64
  broadcasts_S1x64_S256x64 : S1x64.Broadcasts S256x64
  reduces_S256x64_S256 : S256x64.Reduces [1] S256
  shapeCasts_S256_S256x1 : S256.ShapeCasts S256x1
  broadcasts_S256x1_S256x64 : S256x1.Broadcasts S256x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  shapeCasts_S256x64_S1x256x64 : S256x64.ShapeCasts S1x256x64
  bcast_S_S8x2048x64 : S_.BroadcastsInDim S8x2048x64 (![] : Fin 0 → Fin S8x2048x64.rank)
  reducesTo_S8x2048x64_S2048_d0_2 : S8x2048x64.ReducesTo [0, 2] S2048
  h_S_ : 0 < S_.numel
  bcast_S2048_S1x2048x1_1 : S2048.BroadcastsInDim S1x2048x1 (![1] : Fin 1 → Fin S1x2048x1.rank)
  bcast_S_S1x2048x1 : S_.BroadcastsInDim S1x2048x1 (![] : Fin 0 → Fin S1x2048x1.rank)
  bcast_S1x2048x1_S8x2048x64_0_1_2 : S1x2048x1.BroadcastsInDim S8x2048x64 (![0, 1, 2] : Fin 3 → Fin S8x2048x64.rank)
  reducesTo_S8x2048x64_S8x64_d1 : S8x2048x64.ReducesTo [1] S8x64
  inb_S1x2048x64_S1x2048x64_0_0_0 : ∀ a, (![0, 0, 0] : Fin 3 → Nat) a + S1x2048x64.size a ≤ S1x2048x64.size a
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  inb_S3x64x64_S1x64x64_1_0_0 : ∀ a, (![1, 0, 0] : Fin 3 → Nat) a + S1x64x64.size a ≤ S3x64x64.size a
  inb_S3x64x64_S1x64x64_2_0_0 : ∀ a, (![2, 0, 0] : Fin 3 → Nat) a + S1x64x64.size a ≤ S3x64x64.size a
  concatenates_S8x64_S8x64_S8x64_S8x192_d1 : Shape.Concatenates [S8x64, S8x64, S8x64] S8x192 1
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  dot_S2048x32_S32x64_S2048x64_1_0_0_1_n_n_wf : DotDims.WF S2048x32 S32x64 S2048x64 [1] [0] [0] [1] [] []
  dot_S256x2048_S2048x64_S256x64_1_0_0_1_n_n_wf : DotDims.WF S256x2048 S2048x64 S256x64 [1] [0] [0] [1] [] []
  dot_S2048x64_S64x64_S2048x64_1_0_0_1_n_n_wf : DotDims.WF S2048x64 S64x64 S2048x64 [1] [0] [0] [1] [] []
  dot_S8x192_S192x64_S8x64_1_0_0_1_n_n_wf : DotDims.WF S8x192 S192x64 S8x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x32.size a ≤ S8x2048x32.size a
  hwx0_0 : ∀ i : grid0.Coords, EltTy.bits .f32 = 32 ∨ (Rect.block (s := S8x2048x32) S1x2048x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2048.size a ≤ S8x2048x2048.size a
  hwx0_1 : ∀ i : grid0.Coords, EltTy.bits .f32 = 32 ∨ (Rect.block (s := S8x2048x2048) S1x256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x32x64.size a ≤ S3x32x64.size a
  hwx0_2 : ∀ i : grid0.Coords, EltTy.bits .f32 = 32 ∨ (Rect.block (s := S3x32x64) S3x32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x64.size a ≤ S8x2048x64.size a
  hwx0_4 : ∀ i : grid0.Coords, EltTy.bits .f32 = 32 ∨ (Rect.block (s := S8x2048x64) S1x256x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x64.size a ≤ S8x2048x64.size a
  hwx1_0 : ∀ i : grid1.Coords, EltTy.bits .f32 = 32 ∨ (Rect.block (s := S8x2048x64) S1x2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x2048.size a ≤ S8x2048x2048.size a
  hwx1_1 : ∀ i : grid1.Coords, EltTy.bits .f32 = 32 ∨ (Rect.block (s := S8x2048x2048) S1x256x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x64x64.size a ≤ S3x64x64.size a
  hwx1_2 : ∀ i : grid1.Coords, EltTy.bits .f32 = 32 ∨ (Rect.block (s := S3x64x64) S3x64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x64.size a ≤ S8x2048x64.size a
  hwx1_4 : ∀ i : grid1.Coords, EltTy.bits .f32 = 32 ∨ (Rect.block (s := S8x2048x64) S1x256x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048x64.size a ≤ S8x2048x64.size a
  hwx2_0 : ∀ i : grid2.Coords, EltTy.bits .f32 = 32 ∨ (Rect.block (s := S8x2048x64) S1x2048x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x256x2048.size a ≤ S8x2048x2048.size a
  hwx2_1 : ∀ i : grid2.Coords, EltTy.bits .f32 = 32 ∨ (Rect.block (s := S8x2048x2048) S1x256x2048.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S3x64x64.size a ≤ S3x64x64.size a
  hwx2_2 : ∀ i : grid2.Coords, EltTy.bits .f32 = 32 ∨ (Rect.block (s := S3x64x64) S3x64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x256x64.size a ≤ S8x2048x64.size a
  hwx2_4 : ∀ i : grid2.Coords, EltTy.bits .f32 = 32 ∨ (Rect.block (s := S8x2048x64) S1x256x64.size (cc2_transform_4 i) (hinb2_4 i)).WholeWords (EltTy.packing .f32)

variable [Facts₀]

def dot_S2048x32_S32x64_S2048x64_1_0_0_1_n_n : DotDims S2048x32 S32x64 S2048x64 where
  lhsContracting := [1]
  rhsContracting := [0]
  lhsNonContracting := [0]
  rhsNonContracting := [1]
  lhsBatch := []
  rhsBatch := []
  wf := dot_S2048x32_S32x64_S2048x64_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S8x192_S192x64_S8x64_1_0_0_1_n_n : DotDims S8x192 S192x64 S8x64 where
  lhsContracting := [1]
  rhsContracting := [0]
  lhsNonContracting := [0]
  rhsNonContracting := [1]
  lhsBatch := []
  rhsBatch := []
  wf := dot_S8x192_S192x64_S8x64_1_0_0_1_n_n_wf

abbrev win0_0 : Pipeline.Window sig grid0 :=
  Pipeline.Window.ofSpec (Memref.whole main_arg0) S1x2048x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3x32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v20) S1x2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S3x64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x256x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S1x2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S1x256x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S3x64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S1x256x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8x2048x32 : Shape := ⟨3, ![8, 2048, 32]⟩
abbrev S8x2048x2048 : Shape := ⟨3, ![8, 2048, 2048]⟩
abbrev S3x32x64 : Shape := ⟨3, ![3, 32, 64]⟩
abbrev S64 : Shape := ⟨1, ![64]⟩
abbrev S3x64x64 : Shape := ⟨3, ![3, 64, 64]⟩
abbrev S192x64 : Shape := ⟨2, ![192, 64]⟩
abbrev S_ : Shape := ⟨0, ![]⟩
abbrev S8x2048x64 : Shape := ⟨3, ![8, 2048, 64]⟩
abbrev S1x32x64 : Shape := ⟨3, ![1, 32, 64]⟩
abbrev S32x64 : Shape := ⟨2, ![32, 64]⟩
abbrev S1x1x64 : Shape := ⟨3, ![1, 1, 64]⟩
abbrev S8x2048 : Shape := ⟨2, ![8, 2048]⟩
abbrev S8x2048x1 : Shape := ⟨3, ![8, 2048, 1]⟩
abbrev S2048 : Shape := ⟨1, ![2048]⟩
abbrev S1x2048x1 : Shape := ⟨3, ![1, 2048, 1]⟩
abbrev S8x64 : Shape := ⟨2, ![8, 64]⟩
abbrev S1x64x64 : Shape := ⟨3, ![1, 64, 64]⟩
abbrev S64x64 : Shape := ⟨2, ![64, 64]⟩
abbrev S8x192 : Shape := ⟨2, ![8, 192]⟩
abbrev S1x64 : Shape := ⟨2, ![1, 64]⟩

abbrev nBuf : Space → Nat
  | .hbm => 200
  | .vmem => 0
  | .smem => 0
  | _ => 0

abbrev hbmTy0_0 (i : Nat) : BufTy := match i % 128 with
  | 0 => ⟨S8x2048x32, .f32⟩
  | 1 => ⟨S8x2048x2048, .i32⟩
  | 2 => ⟨S8x2048x2048, .f32⟩
  | 3 => ⟨S3x32x64, .f32⟩
  | 4 => ⟨S64, .f32⟩
  | 5 => ⟨S3x64x64, .f32⟩
  | 6 => ⟨S64, .f32⟩
  | 7 => ⟨S3x64x64, .f32⟩
  | 8 => ⟨S64, .f32⟩
  | 9 => ⟨S192x64, .f32⟩
  | 10 => ⟨S64, .f32⟩
  | 11 => ⟨S_, .f32⟩
  | 12 => ⟨S8x2048x64, .f32⟩
  | 13 => ⟨S_, .i32⟩
  | 14 => ⟨S8x2048x2048, .i32⟩
  | 15 => ⟨S8x2048x2048, .i1⟩
  | 16 => ⟨S8x2048x2048, .f32⟩
  | 17 => ⟨S8x2048x32, .f32⟩
  | 18 => ⟨S1x32x64, .f32⟩
  | 19 => ⟨S32x64, .f32⟩
  | 20 => ⟨S8x2048x64, .f32⟩
  | 21 => ⟨S8x2048x64, .f32⟩
  | 22 => ⟨S_, .i32⟩
  | 23 => ⟨S8x2048x2048, .i32⟩
  | 24 => ⟨S8x2048x2048, .i1⟩
  | 25 => ⟨S8x2048x2048, .f32⟩
  | 26 => ⟨S8x2048x32, .f32⟩
  | 27 => ⟨S1x32x64, .f32⟩
  | 28 => ⟨S32x64, .f32⟩
  | 29 => ⟨S8x2048x64, .f32⟩
  | 30 => ⟨S8x2048x64, .f32⟩
  | 31 => ⟨S_, .i32⟩
  | 32 => ⟨S8x2048x2048, .i32⟩
  | 33 => ⟨S8x2048x2048, .i1⟩
  | 34 => ⟨S8x2048x2048, .f32⟩
  | 35 => ⟨S8x2048x32, .f32⟩
  | 36 => ⟨S1x32x64, .f32⟩
  | 37 => ⟨S32x64, .f32⟩
  | 38 => ⟨S8x2048x64, .f32⟩
  | 39 => ⟨S8x2048x64, .f32⟩
  | 40 => ⟨S1x1x64, .f32⟩
  | 41 => ⟨S8x2048x64, .f32⟩
  | 42 => ⟨S8x2048x64, .f32⟩
  | 43 => ⟨S8x2048x64, .f32⟩
  | 44 => ⟨S_, .f32⟩
  | 45 => ⟨S8x2048, .f32⟩
  | 46 => ⟨S8x2048x1, .f32⟩
  | 47 => ⟨S8x2048x1, .f32⟩
  | 48 => ⟨S_, .f32⟩
  | 49 => ⟨S8x2048x1, .f32⟩
  | 50 => ⟨S8x2048x1, .f32⟩
  | 51 => ⟨S8x2048x64, .f32⟩
  | 52 => ⟨S8x2048x64, .f32⟩
  | 53 => ⟨S_, .f32⟩
  | 54 => ⟨S8x2048x64, .f32⟩
  | 55 => ⟨S8x2048x64, .f32⟩
  | 56 => ⟨S_, .f32⟩
  | 57 => ⟨S2048, .f32⟩
  | 58 => ⟨S1x2048x1, .f32⟩
  | 59 => ⟨S_, .f32⟩
  | 60 => ⟨S1x2048x1, .f32⟩
  | 61 => ⟨S1x2048x1, .f32⟩
  | 62 => ⟨S8x2048x64, .f32⟩
  | 63 => ⟨S8x2048x64, .f32⟩
  | 64 => ⟨S8x2048x64, .f32⟩
  | 65 => ⟨S_, .f32⟩
  | 66 => ⟨S2048, .f32⟩
  | 67 => ⟨S1x2048x1, .f32⟩
  | 68 => ⟨S_, .f32⟩
  | 69 => ⟨S1x2048x1, .f32⟩
  | 70 => ⟨S1x2048x1, .f32⟩
  | 71 => ⟨S8x2048x64, .f32⟩
  | 72 => ⟨S8x2048x64, .f32⟩
  | 73 => ⟨S_, .f32⟩
  | 74 => ⟨S1x2048x1, .f32⟩
  | 75 => ⟨S1x2048x1, .f32⟩
  | 76 => ⟨S1x2048x1, .f32⟩
  | 77 => ⟨S8x2048x64, .f32⟩
  | 78 => ⟨S8x2048x64, .f32⟩
  | 79 => ⟨S_, .f32⟩
  | 80 => ⟨S8x64, .f32⟩
  | 81 => ⟨S_, .f32⟩
  | 82 => ⟨S8x2048x64, .f32⟩
  | 83 => ⟨S_, .f32⟩
  | 84 => ⟨S8x2048x2048, .f32⟩
  | 85 => ⟨S8x2048x2048, .i1⟩
  | 86 => ⟨S8x2048x2048, .f32⟩
  | 87 => ⟨S8x2048x64, .f32⟩
  | 88 => ⟨S1x64x64, .f32⟩
  | 89 => ⟨S64x64, .f32⟩
  | 90 => ⟨S8x2048x64, .f32⟩
  | 91 => ⟨S8x2048x64, .f32⟩
  | 92 => ⟨S_, .f32⟩
  | 93 => ⟨S8x2048x2048, .f32⟩
  | 94 => ⟨S8x2048x2048, .i1⟩
  | 95 => ⟨S8x2048x2048, .f32⟩
  | 96 => ⟨S8x2048x64, .f32⟩
  | 97 => ⟨S1x64x64, .f32⟩
  | 98 => ⟨S64x64, .f32⟩
  | 99 => ⟨S8x2048x64, .f32⟩
  | 100 => ⟨S8x2048x64, .f32⟩
  | 101 => ⟨S_, .f32⟩
  | 102 => ⟨S8x2048x2048, .f32⟩
  | 103 => ⟨S8x2048x2048, .i1⟩
  | 104 => ⟨S8x2048x2048, .f32⟩
  | 105 => ⟨S8x2048x64, .f32⟩
  | 106 => ⟨S1x64x64, .f32⟩
  | 107 => ⟨S64x64, .f32⟩
  | 108 => ⟨S8x2048x64, .f32⟩
  | 109 => ⟨S8x2048x64, .f32⟩
  | 110 => ⟨S1x1x64, .f32⟩
  | 111 => ⟨S8x2048x64, .f32⟩
  | 112 => ⟨S8x2048x64, .f32⟩
  | 113 => ⟨S8x2048x64, .f32⟩
  | 114 => ⟨S_, .f32⟩
  | 115 => ⟨S8x2048, .f32⟩
  | 116 => ⟨S8x2048x1, .f32⟩
  | 117 => ⟨S8x2048x1, .f32⟩
  | 118 => ⟨S_, .f32⟩
  | 119 => ⟨S8x2048x1, .f32⟩
  | 120 => ⟨S8x2048x1, .f32⟩
  | 121 => ⟨S8x2048x64, .f32⟩
  | 122 => ⟨S8x2048x64, .f32⟩
  | 123 => ⟨S_, .f32⟩
  | 124 => ⟨S8x2048x64, .f32⟩
  | 125 => ⟨S8x2048x64, .f32⟩
  | 126 => ⟨S_, .f32⟩
  | 127 => ⟨S2048, .f32⟩
  | _ => ⟨S8x2048x32, .f32⟩

abbrev hbmTy0_1 (i : Nat) : BufTy := match i % 128 with
  | 0 => ⟨S1x2048x1, .f32⟩
  | 1 => ⟨S_, .f32⟩
  | 2 => ⟨S1x2048x1, .f32⟩
  | 3 => ⟨S1x2048x1, .f32⟩
  | 4 => ⟨S8x2048x64, .f32⟩
  | 5 => ⟨S8x2048x64, .f32⟩
  | 6 => ⟨S8x2048x64, .f32⟩
  | 7 => ⟨S_, .f32⟩
  | 8 => ⟨S2048, .f32⟩
  | 9 => ⟨S1x2048x1, .f32⟩
  | 10 => ⟨S_, .f32⟩
  | 11 => ⟨S1x2048x1, .f32⟩
  | 12 => ⟨S1x2048x1, .f32⟩
  | 13 => ⟨S8x2048x64, .f32⟩
  | 14 => ⟨S8x2048x64, .f32⟩
  | 15 => ⟨S_, .f32⟩
  | 16 => ⟨S1x2048x1, .f32⟩
  | 17 => ⟨S1x2048x1, .f32⟩
  | 18 => ⟨S1x2048x1, .f32⟩
  | 19 => ⟨S8x2048x64, .f32⟩
  | 20 => ⟨S8x2048x64, .f32⟩
  | 21 => ⟨S_, .f32⟩
  | 22 => ⟨S8x64, .f32⟩
  | 23 => ⟨S_, .f32⟩
  | 24 => ⟨S8x2048x64, .f32⟩
  | 25 => ⟨S_, .f32⟩
  | 26 => ⟨S8x2048x2048, .f32⟩
  | 27 => ⟨S8x2048x2048, .i1⟩
  | 28 => ⟨S8x2048x2048, .f32⟩
  | 29 => ⟨S8x2048x64, .f32⟩
  | 30 => ⟨S1x64x64, .f32⟩
  | 31 => ⟨S64x64, .f32⟩
  | 32 => ⟨S8x2048x64, .f32⟩
  | 33 => ⟨S8x2048x64, .f32⟩
  | 34 => ⟨S_, .f32⟩
  | 35 => ⟨S8x2048x2048, .f32⟩
  | 36 => ⟨S8x2048x2048, .i1⟩
  | 37 => ⟨S8x2048x2048, .f32⟩
  | 38 => ⟨S8x2048x64, .f32⟩
  | 39 => ⟨S1x64x64, .f32⟩
  | 40 => ⟨S64x64, .f32⟩
  | 41 => ⟨S8x2048x64, .f32⟩
  | 42 => ⟨S8x2048x64, .f32⟩
  | 43 => ⟨S_, .f32⟩
  | 44 => ⟨S8x2048x2048, .f32⟩
  | 45 => ⟨S8x2048x2048, .i1⟩
  | 46 => ⟨S8x2048x2048, .f32⟩
  | 47 => ⟨S8x2048x64, .f32⟩
  | 48 => ⟨S1x64x64, .f32⟩
  | 49 => ⟨S64x64, .f32⟩
  | 50 => ⟨S8x2048x64, .f32⟩
  | 51 => ⟨S8x2048x64, .f32⟩
  | 52 => ⟨S1x1x64, .f32⟩
  | 53 => ⟨S8x2048x64, .f32⟩
  | 54 => ⟨S8x2048x64, .f32⟩
  | 55 => ⟨S8x2048x64, .f32⟩
  | 56 => ⟨S_, .f32⟩
  | 57 => ⟨S8x2048, .f32⟩
  | 58 => ⟨S8x2048x1, .f32⟩
  | 59 => ⟨S8x2048x1, .f32⟩
  | 60 => ⟨S_, .f32⟩
  | 61 => ⟨S8x2048x1, .f32⟩
  | 62 => ⟨S8x2048x1, .f32⟩
  | 63 => ⟨S8x2048x64, .f32⟩
  | 64 => ⟨S8x2048x64, .f32⟩
  | 65 => ⟨S_, .f32⟩
  | 66 => ⟨S8x64, .f32⟩
  | 67 => ⟨S8x192, .f32⟩
  | 68 => ⟨S8x64, .f32⟩
  | 69 => ⟨S1x64, .f32⟩
  | 70 => ⟨S8x64, .f32⟩
  | 71 => ⟨S8x64, .f32⟩
  | _ => ⟨S8x2048x32, .f32⟩

abbrev hbmTy (i : Nat) : BufTy := match i / 128 with
  | 0 => hbmTy0_0 i
  | 1 => hbmTy0_1 i
  | _ => ⟨S8x2048x32, .f32⟩

abbrev bufTy : (tb : Table) → Fin (tcTables nBuf tb) → BufTy
  | .hbm, ⟨i, _⟩ => hbmTy i
  | _, _ => ⟨S8x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call0_cst : Ref sig .tc := ⟨.hbm, 53, rfl⟩
abbrev main_call0_v0 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_9 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_12 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_13 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_14 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_15 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_call1_cst : Ref sig .tc := ⟨.hbm, 123, rfl⟩
abbrev main_call1_v0 : Ref sig .tc := ⟨.hbm, 124, rfl⟩
abbrev main_v92 : Ref sig .tc := ⟨.hbm, 125, rfl⟩
abbrev main_cst_16 : Ref sig .tc := ⟨.hbm, 126, rfl⟩
abbrev main_v93 : Ref sig .tc := ⟨.hbm, 127, rfl⟩
abbrev main_v94 : Ref sig .tc := ⟨.hbm, 128, rfl⟩
abbrev main_cst_17 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_18 : Ref sig .tc := ⟨.hbm, 135, rfl⟩
abbrev main_v100 : Ref sig .tc := ⟨.hbm, 136, rfl⟩
abbrev main_v101 : Ref sig .tc := ⟨.hbm, 137, rfl⟩
abbrev main_cst_19 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_20 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_21 : Ref sig .tc := ⟨.hbm, 149, rfl⟩
abbrev main_v111 : Ref sig .tc := ⟨.hbm, 150, rfl⟩
abbrev main_cst_22 : Ref sig .tc := ⟨.hbm, 151, rfl⟩
abbrev main_v112 : Ref sig .tc := ⟨.hbm, 152, rfl⟩
abbrev main_cst_23 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_cst_24 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_cst_25 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_cst_26 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_cst_27 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_cst_28 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩

abbrev nD : Nat := 1
abbrev τ : Topo := Topo.v7x

variable {F : FTy → Type} [FloatOps F]

class Facts₀ : Prop where
  bcast_S_S8x2048x64 : S_.BroadcastsInDim S8x2048x64 (![] : Fin 0 → Fin S8x2048x64.rank)
  bcast_S_S8x2048x2048 : S_.BroadcastsInDim S8x2048x2048 (![] : Fin 0 → Fin S8x2048x2048.rank)
  slices_S3x32x64_S1x32x64_0_0_0 : S3x32x64.Slices ![0, 0, 0] S1x32x64
  shapeCasts_S1x32x64_S32x64 : S1x32x64.ShapeCasts S32x64
  slices_S3x32x64_S1x32x64_1_0_0 : S3x32x64.Slices ![1, 0, 0] S1x32x64
  slices_S3x32x64_S1x32x64_2_0_0 : S3x32x64.Slices ![2, 0, 0] S1x32x64
  bcast_S64_S1x1x64_2 : S64.BroadcastsInDim S1x1x64 (![2] : Fin 1 → Fin S1x1x64.rank)
  bcast_S1x1x64_S8x2048x64_0_1_2 : S1x1x64.BroadcastsInDim S8x2048x64 (![0, 1, 2] : Fin 3 → Fin S8x2048x64.rank)
  reducesTo_S8x2048x64_S8x2048_d2 : S8x2048x64.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x64_0_1_2 : S8x2048x1.BroadcastsInDim S8x2048x64 (![0, 1, 2] : Fin 3 → Fin S8x2048x64.rank)
  reducesTo_S8x2048x64_S2048_d0_2 : S8x2048x64.ReducesTo [0, 2] S2048
  bcast_S2048_S1x2048x1_1 : S2048.BroadcastsInDim S1x2048x1 (![1] : Fin 1 → Fin S1x2048x1.rank)
  bcast_S_S1x2048x1 : S_.BroadcastsInDim S1x2048x1 (![] : Fin 0 → Fin S1x2048x1.rank)
  bcast_S1x2048x1_S8x2048x64_0_1_2 : S1x2048x1.BroadcastsInDim S8x2048x64 (![0, 1, 2] : Fin 3 → Fin S8x2048x64.rank)
  reducesTo_S8x2048x64_S8x64_d1 : S8x2048x64.ReducesTo [1] S8x64
  slices_S3x64x64_S1x64x64_0_0_0 : S3x64x64.Slices ![0, 0, 0] S1x64x64
  shapeCasts_S1x64x64_S64x64 : S1x64x64.ShapeCasts S64x64
  slices_S3x64x64_S1x64x64_1_0_0 : S3x64x64.Slices ![1, 0, 0] S1x64x64
  slices_S3x64x64_S1x64x64_2_0_0 : S3x64x64.Slices ![2, 0, 0] S1x64x64
  concatenates_S8x64_S8x64_S8x64_S8x192_d1 : Shape.Concatenates [S8x64, S8x64, S8x64] S8x192 1
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  dot_S8x2048x2048_S8x2048x32_S8x2048x32_2_1_1_2_0_0_wf : DotDims.WF S8x2048x2048 S8x2048x32 S8x2048x32 [2] [1] [1] [2] [0] [0]
  dot_S8x2048x32_S32x64_S8x2048x64_2_0_01_1_n_n_wf : DotDims.WF S8x2048x32 S32x64 S8x2048x64 [2] [0] [0, 1] [1] [] []
  dot_S8x2048x2048_S8x2048x64_S8x2048x64_2_1_1_2_0_0_wf : DotDims.WF S8x2048x2048 S8x2048x64 S8x2048x64 [2] [1] [1] [2] [0] [0]
  dot_S8x2048x64_S64x64_S8x2048x64_2_0_01_1_n_n_wf : DotDims.WF S8x2048x64 S64x64 S8x2048x64 [2] [0] [0, 1] [1] [] []
  dot_S8x192_S192x64_S8x64_1_0_0_1_n_n_wf : DotDims.WF S8x192 S192x64 S8x64 [1] [0] [0] [1] [] []

variable [Facts₀]

def dot_S8x2048x2048_S8x2048x32_S8x2048x32_2_1_1_2_0_0 : DotDims S8x2048x2048 S8x2048x32 S8x2048x32 where
  lhsContracting := [2]
  rhsContracting := [1]
  lhsNonContracting := [1]
  rhsNonContracting := [2]
  lhsBatch := [0]
  rhsBatch := [0]
  wf := dot_S8x2048x2048_S8x2048x32_S8x2048x32_2_1_1_2_0_0_wf
def dot_S8x2048x32_S32x64_S8x2048x64_2_0_01_1_n_n : DotDims S8x2048x32 S32x64 S8x2048x64 where
  lhsContracting := [2]
  rhsContracting := [0]
  lhsNonContracting := [0, 1]
  rhsNonContracting := [1]
  lhsBatch := []
  rhsBatch := []
  wf := dot_S8x2048x32_S32x64_S8x2048x64_2_0_01_1_n_n_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf
def dot_S8x2048x64_S64x64_S8x2048x64_2_0_01_1_n_n : DotDims S8x2048x64 S64x64 S8x2048x64 where
  lhsContracting := [2]
  rhsContracting := [0]
  lhsNonContracting := [0, 1]
  rhsNonContracting := [1]
  lhsBatch := []
  rhsBatch := []
  wf := dot_S8x2048x64_S64x64_S8x2048x64_2_0_01_1_n_n_wf
def dot_S8x192_S192x64_S8x64_1_0_0_1_n_n : DotDims S8x192 S192x64 S8x64 where
  lhsContracting := [1]
  rhsContracting := [0]
  lhsNonContracting := [0]
  rhsNonContracting := [1]
  lhsBatch := []
  rhsBatch := []
  wf := dot_S8x192_S192x64_S8x64_1_0_0_1_n_n_wf

class Facts : Prop extends Facts₀ where

variable [Facts]
-- ==== Proof.K.Launch.lean ====
import proofs.«149576_j9002251452429_1_alg».proof.Proof.Gen.Kernel.Regions
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev noLevels : GSem nD τ sig → Finset Unit := fun _ => ∅
abbrev levelZero : GSem nD τ sig → Unit → ℕ := fun _ _ => 0

abbrev Beside (c : Dev nD) : sProp 𝕄 := iprop((∃ r, prngReg c r) ∗ ∃ W, owes (c : Thread nD τ) (0 : CellTallies nD τ sig Unit) W)

theorem launch_owes_in {cfg : Cfg sig Λ₀} {c : Dev nD} (dat : Dat τ (Elt F) Unit ℕ (UR sig nD τ) ℕ cfg c)
    (h0 : dat.owed 0 = 0) (hr : dat.recorded 0 = Set.univ) :
    iprop(∃ W, owes (c : Thread nD τ) (0 : CellTallies nD τ sig Unit) W) ⊢ (dat.owesAt () 0 : sProp 𝕄) := by
  unfold Pipeline.Dat.owesAt Pipeline.owesWithin Pipeline.Dat.bound
  rw [h0, hr]
  iintro ⟨%W, HO⟩
  iexists W
  isplitr
  · ipureintro; exact fun x _ => Set.mem_union_left _ (Set.mem_univ x)
  iexact HO

theorem launch_owes_out {cfg : Cfg sig Λ₀} {c : Dev nD} (dat : Dat τ (Elt F) Unit ℕ (UR sig nD τ) ℕ cfg c) (t : Fin (cfg.N + 1))
    (h0 : dat.owed t = 0) :
    (dat.owesAt () t : sProp 𝕄) ⊢ iprop(∃ W, owes (c : Thread nD τ) (0 : CellTallies nD τ sig Unit) W) := by
  unfold Pipeline.Dat.owesAt Pipeline.owesWithin
  rw [h0]
  iintro ⟨%W, -, HO⟩
  iexists W
  iexact HO

theorem launch_mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

section Region

variable (pd : (p : Fin 3) → (c : Dev nD) → Dat τ (Elt F) Unit ℕ (UR sig nD τ) ℕ (cfgs p) c)
  (p : Fin 3) (c : Dev nD) (V : Valuation τ sig (Elt F)) (wo : Fin (cfgs p).W)

-- Every window but `wo` is an input, so its array ends as entered; the arrays are distinct, so updating `wo`'s changes no other.
theorem exit_arr (lf : Pipeline.LaunchFacts (nD := nD) (τ := τ) cfgs p) (hio : ∀ w, w ≠ wo → ((cfgs p).win w).isOut = false)
    (hA : ∀ w, (pd p c).A w = V (Pipeline.arrRef (cfgs p).spec w)) (w : Fin (cfgs p).W) :
    (pd p c).arrAt w (cfgs p).N = Function.update (β := fun b : DevRef τ sig => b.ty.Contents (Elt F)) V
      (Proc.devRef .tc (Pipeline.arrRef (cfgs p).spec wo)) ((pd p c).arrAt wo (cfgs p).N) (Pipeline.arrRef (cfgs p).spec w) := by
  by_cases h : w = wo
  · subst h; exact Eq.symm (Function.update_self ..)
  · exact ((pd p c).arrAt_in w (hio w h) _).trans ((hA w).trans <| Eq.symm <|
      Function.update_of_ne (StableHlo.devRef_ne_of_ne fun e => h (lf.win.arr_inj e)) ..)

theorem exit_rest (x) (b : Ref sig .tc) (hb : b ∉ Finset.univ.image (Pipeline.arrRef (cfgs p).spec)) :
    Function.update (β := fun b : DevRef τ sig => b.ty.Contents (Elt F)) V (Proc.devRef .tc (Pipeline.arrRef (cfgs p).spec wo)) x b = V b :=
  Function.update_of_ne (StableHlo.devRef_ne_of_ne fun e => hb (Finset.mem_image.mpr ⟨wo, Finset.mem_univ _, e.symm⟩)) ..

end Region

section Region

variable (pd : (p : Fin 3) → (c : Dev nD) → Dat τ (Elt F) Unit ℕ (UR sig nD τ) ℕ (cfgs p) c)

-- Region `p` as a segment from the valuation `V` to `V'`, which is `V` updated at the one output array.
def regSeg (p : Fin 3) (lf : Pipeline.LaunchFacts (nD := nD) (τ := τ) cfgs p) (V V' : Dev nD → Valuation τ sig (Elt F))
    (wo : Fin (cfgs p).W) (hio : ∀ w, w ≠ wo → ((cfgs p).win w).isOut = false)
    (hV' : ∀ c, V' c = Function.update (β := fun b : DevRef τ sig => b.ty.Contents (Elt F)) (V c) (Proc.devRef .tc (Pipeline.arrRef (cfgs p).spec wo)) ((pd p c).arrAt wo (cfgs p).N))
    (hA : ∀ c w, (pd p c).A w = V c (Pipeline.arrRef (cfgs p).spec w))
    (hq : ∀ c w, (pd p c).q w = fullShare) (ho : ∀ c t, (pd p c).owed t = 0) (hr : ∀ c, (pd p c).recorded 0 = Set.univ)
    (hb : ∀ c, BodyObligation (pd p c) (defs₀ (F := F)) Variants.none () Set.univ)
    (hΦi : ∀ c, (Pipeline.ΦA (cfgs p).spec c : sProp 𝕄) ⊢ (pd p c).Φ 0)
    (hΦo : ∀ c, (pd p c).Φ (Fin.last (cfgs p).N) ⊢ (Pipeline.ΦA (cfgs p).spec c : sProp 𝕄)) :
    Pipeline.RegionSeg (pcfgs (F := F)) adm pd () defs₀ Variants.none noLevels levelZero p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ noLevels levelZero p ho
  pre c := iprop(StableHlo.held (c : Thread nD τ) (Pipeline.ucRefs τ sig) (V c) ∗ Beside c)
  post c := iprop(StableHlo.held (c : Thread nD τ) (Pipeline.ucRefs τ sig) (V' c) ∗ Beside c)
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := by
    rw [Pipeline.ownSems0_none]
    have hsplit := Pipeline.arrays_of_unscopedBufs (p := p) (pcfgs (F := F)) adm pd lf.win lf.arr_whole c
      ((pd p c).share_full (hq c)) (fun b => V c b) (hA c)
    rw [Pipeline.unscopedBufs_held] at hsplit
    iintro ⟨⟨Hub, Hp, HO⟩, -, -⟩
    ihave H := hsplit $$ Hub
    icases H with ⟨Ha, Hrest⟩
    ihave HO' := launch_owes_in (pd p c) (ho c 0) (hr c) $$ HO
    imodintro
    isplitl [Ha]; · iexact Ha
    isplitr; · unfold Pipeline.prefHeld; rw [show (Finset.univ : Finset (Fin 0)) = ∅ from rfl, BI.bigSep_empty]; iempintro
    isplitl [HO']; · iexact HO'
    isplitl [Hp] <;> iassumption
  hin c := by
    refine .trans ?_ (hΦi c)
    unfold Pipeline.ΦA
    iintro ⟨Hp, -, Hr⟩
    isplitl [Hr] <;> iassumption
  hout c := by
    refine (hΦo c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pd ((pd p c).share_full (hq c)) (fun b => V c b) (fun b => V' c b) ((pd p c).arrAt · (cfgs p).N)
      (fun w => hV' c ▸ exit_arr pd p c (V c) wo lf hio (hA c) w) (fun b hb => hV' c ▸ exit_rest p (V c) wo _ b hb)
    rw [Pipeline.unscopedBufs_held] at hjoin
    iintro ⟨Ha, HO, HY, Hrest⟩
    imodintro
    isplitl [Ha Hrest]
    · iapply hjoin; isplitl [Ha] <;> iassumption
    isplitl [HY]; · iexact HY
    iapply launch_owes_out (pd p c) (Fin.last (cfgs p).N) (ho c _); iexact HO

end Region

variable (m : (ℓ : Loc nD τ sig) → Buf (Elt F) ℓ) (ρ : Dev nD → PrngReg) (outs : Gen.Outs (F := F))
variable (dat0 : (c : Dev nD) → Dat τ (Elt F) Unit ℕ (UR sig nD τ) ℕ cfg0 c)
  (dat1 : (c : Dev nD) → Dat τ (Elt F) Unit ℕ (UR sig nD τ) ℕ cfg1 c)
  (dat2 : (c : Dev nD) → Dat τ (Elt F) Unit ℕ (UR sig nD τ) ℕ cfg2 c)

def launchDats : (p : Fin 3) → (c : Dev nD) → Dat τ (Elt F) Unit ℕ (UR sig nD τ) ℕ (cfgs p) c
  | ⟨0, _⟩ => dat0
  | ⟨1, _⟩ => dat1
  | ⟨2, _⟩ => dat2

abbrev besideAll : Fin 4 → Dev nD → sProp 𝕄 := fun _ c => Beside c

variable
    (hA0 : ∀ c w, (dat0 c).A w = Gen.V1 m c (Pipeline.arrRef spec0 w))
    (hq0 : ∀ c w, (dat0 c).q w = fullShare) (ho0 : ∀ c t, (dat0 c).owed t = 0) (hr0 : ∀ c, (dat0 c).recorded 0 = Set.univ)
    (hb0 : ∀ c, BodyObligation (dat0 c) (defs₀ (F := F)) Variants.none () Set.univ)
    (hin0 : ∀ c, (Pipeline.ΦA spec0 c : sProp (MT nD τ sig Unit (Elt F) ℕ (UR sig nD τ) ℕ)) ⊢ (dat0 c).Φ 0) (hout0 : ∀ c, (dat0 c).Φ (Fin.last cfg0.N) ⊢ (Pipeline.ΦA spec0 c : sProp (MT nD τ sig Unit (Elt F) ℕ (UR sig nD τ) ℕ)))
    (h1 : ∀ c, outs 2 main_v1 c = (dat0 c).arrAt 4 cfg0.N)
    (hA1 : ∀ c w, (dat1 c).A w = Gen.V4 m outs c (Pipeline.arrRef spec1 w))
    (hq1 : ∀ c w, (dat1 c).q w = fullShare) (ho1 : ∀ c t, (dat1 c).owed t = 0) (hr1 : ∀ c, (dat1 c).recorded 0 = Set.univ)
    (hb1 : ∀ c, BodyObligation (dat1 c) (defs₀ (F := F)) Variants.none () Set.univ)
    (hin1 : ∀ c, (Pipeline.ΦA spec1 c : sProp (MT nD τ sig Unit (Elt F) ℕ (UR sig nD τ) ℕ)) ⊢ (dat1 c).Φ 0) (hout1 : ∀ c, (dat1 c).Φ (Fin.last cfg1.N) ⊢ (Pipeline.ΦA spec1 c : sProp (MT nD τ sig Unit (Elt F) ℕ (UR sig nD τ) ℕ)))
    (h2 : ∀ c, outs 5 main_v22 c = (dat1 c).arrAt 4 cfg1.N)
    (hA2 : ∀ c w, (dat2 c).A w = Gen.V7 m outs c (Pipeline.arrRef spec2 w))
    (hq2 : ∀ c w, (dat2 c).q w = fullShare) (ho2 : ∀ c t, (dat2 c).owed t = 0) (hr2 : ∀ c, (dat2 c).recorded 0 = Set.univ)
    (hb2 : ∀ c, BodyObligation (dat2 c) (defs₀ (F := F)) Variants.none () Set.univ)
    (hin2 : ∀ c, (Pipeline.ΦA spec2 c : sProp (MT nD τ sig Unit (Elt F) ℕ (UR sig nD τ) ℕ)) ⊢ (dat2 c).Φ 0) (hout2 : ∀ c, (dat2 c).Φ (Fin.last cfg2.N) ⊢ (Pipeline.ΦA spec2 c : sProp (MT nD τ sig Unit (Elt F) ℕ (UR sig nD τ) ℕ)))
    (h3 : ∀ c, outs 8 main_v43 c = (dat2 c).arrAt 4 cfg2.N)

include hA0 hq0 ho0 hr0 hb0 hin0 hout0 h1 hA1 hq1 ho1 hr1 hb1 hin1 hout1 h2 hA2 hq2 ho2 hr2 hb2 hin2 hout2 h3

theorem run_all :
    θ_run defs (onTc (τ := τ) (main (F := F))) ⟨m, fun _ => 0, ρ⟩
      (fun r => ∀ c : Dev nD, ∀ b ∈ Pipeline.ucRefs τ sig, r.2.mem ((c : Thread nD τ).1, b) = Gen.V9 m outs c b) := by
  let pd := launchDats dat0 dat1 dat2
  let R0 := regSeg pd 0 launch0 (Gen.V1 m) (Gen.V2 m outs) (4 : Fin 5) (by decide) (fun c => congrArg _ (h1 c)) hA0 hq0 ho0 hr0 hb0 hin0 hout0
  let R1 := regSeg pd 1 launch1 (Gen.V4 m outs) (Gen.V5 m outs) (4 : Fin 5) (by decide) (fun c => congrArg _ (h2 c)) hA1 hq1 ho1 hr1 hb1 hin1 hout1
  let R2 := regSeg pd 2 launch2 (Gen.V7 m outs) (Gen.V8 m outs) (4 : Fin 5) (by decide) (fun c => congrArg _ (h3 c)) hA2 hq2 ho2 hr2 hb2 hin2 hout2
  refine Pipeline.θ_run_regions_kit_dev (pcfgs (F := F)) adm pd () cellOf_inj emb₁ defs₀ Variants.none noLevels levelZero m ρ main
    (Gen.segs m outs Variants.none noLevels levelZero besideAll () pd R0 R1 R2)
    (fun c Q => by
      rewrite [main_chain c, Pipeline.Seg.run_eq_chain]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (Gen.V0 m c) ∗ besideAll 0 c))
    (Tₙ := fun c => StableHlo.held (c : Thread nD τ) (Pipeline.ucRefs τ sig) (Gen.V9 m outs c))
    (hch := fun c => ⟨.rfl, .rfl, .rfl, .rfl, .rfl, .rfl, .rfl, .rfl, .rfl,
      sep_mono .rfl (show (besideAll 3 c : sProp 𝕄) ⊢ iprop(∃ W, owes (c : Thread nD τ) (0 : CellTallies nD τ sig Unit) W) from by
        iintro ⟨-, H⟩; iexact H)⟩)
    (hinit := ?_)
    (QY := fun c s => ∀ b ∈ Pipeline.ucRefs τ sig, s.mem ((c : Thread nD τ).1, b) = Gen.V9 m outs c b)
    (hfin := fun c s' => ?_) (hQ := fun _ h => h)
  · iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach noLevels levelZero fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · iintro ⟨Hh, HSI⟩
    unfold StableHlo.held
    imodintro
    iapply (pointsTo_read_all (Pipeline.ucRefs τ sig) (fun b => ((c : Thread nD τ).1, b)) (Gen.V9 m outs c) s')
    isplitl [Hh] <;> iassumption

theorem frame_all :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs (onTc (τ := τ) (main (F := F))) ⟨m, fun _ => 0, ρ⟩).mono (fun r hr c =>
    have key (b : Ref sig .tc) (hb) (hV : Gen.V9 m outs c b = m ((c.tc : Thread nD τ).loc b)) :
        r.2.mem ((c.tc : Thread nD τ).loc b) = m ((c.tc : Thread nD τ).loc b) := (hr c _ (launch_mem_uc b hb)).trans hV
    ⟨key _ (by decide) (Gen.V9_main_arg0 m outs c),
      key _ (by decide) (Gen.V9_main_arg1 m outs c),
      key _ (by decide) (Gen.V9_main_arg2 m outs c),
      key _ (by decide) (Gen.V9_main_arg3 m outs c),
      key _ (by decide) (Gen.V9_main_arg4 m outs c),
      key _ (by decide) (Gen.V9_main_arg5 m outs c),
      key _ (by decide) (Gen.V9_main_arg6 m outs c),
      key _ (by decide) (Gen.V9_main_arg7 m outs c),
      key _ (by decide) (Gen.V9_main_arg8 m outs c),
      key _ (by decide) (Gen.V9_main_arg9 m outs c),
      key _ (by decide) (Gen.V9_main_arg10 m outs c)⟩)
    (run_all m ρ outs dat0 dat1 dat2 hA0 hq0 ho0 hr0 hb0 hin0 hout0 h1 hA1 hq1 ho1 hr1 hb1 hin1 hout1 h2 hA2 hq2 ho2 hr2 hb2 hin2 hout2 h3)

/-- info: 'Cert.Kernel.Hand.run_all' depends on axioms: [propext, Classical.choice, Quot.sound] -/
#guard_msgs in #print axioms run_all
/-- info: 'Cert.Kernel.Hand.frame_all' depends on axioms: [propext, Classical.choice, Quot.sound] -/
#guard_msgs in #print axioms frame_all

end Cert.Kernel.Hand

end
-- ==== Proof.K.Region0.lean ====
import proofs.«149576_j9002251452429_1_alg».proof.Proof.Gen.Kernel.Launch
import proofs.«149576_j9002251452429_1_alg».proof.Proof.Gen.Kernel.Skeleton
import proofs.«149576_j9002251452429_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 8 = 0 :=
  (by decide +kernel : ∀ t : Fin grid0.N, cond0_0 (grid0.coords t) ↔ t.val % 8 = 0)

abbrev ms0_0 (t : Fin cfg0.N) : Memref sig .tc .vmem S1x2048x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x32x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x64 .f32 := win0_4.stage (cfg0.slots t 4)
abbrev hs0_4 (t : Fin cfg0.N) : (ms0_4 t).IsWhole := hstage0_4 ((cfg0.slots t 4).cast nbuf0_4)

abbrev scM0_0 : Memref sig .tc .vmem S3x2048x64 .f32 := Memref.whole cc0_scratch0
abbrev hsM0_0 : scM0_0.IsWhole := Memref.isWhole_whole _

abbrev VS0_0 : View sig .tc .vmem S3x2048x64 .f32 := scM0_0.view

abbrev VO0_4 : View sig .tc .vmem S1x256x64 .f32 := (Memref.whole cc0_stg4_0 : Memref sig .tc .vmem S1x256x64 .f32).view

theorem PhiA0_eq (c : Dev nD) :
    (Pipeline.ΦA spec0 c : sProp 𝕄)
      = iprop(iprop((∃ d, owns (c : Thread nD τ) scM0_0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [bigSepL_singleton, scM0_0, owns_whole]; try rfl

section Body

variable (c : Dev nD) (i : grid0.Coords) {arg2 : Memref sig .tc .vmem S1x2048x32 .f32} (harg2 : arg2.IsWhole) {arg3 : Memref sig .tc .vmem S1x256x2048 .f32} (harg3 : arg3.IsWhole)
  {arg4 : Memref sig .tc .vmem S3x32x64 .f32} (harg4 : arg4.IsWhole) {arg5 : Memref sig .tc .vmem S64 .f32} (harg5 : arg5.IsWhole)
  {arg6 : Memref sig .tc .vmem S1x256x64 .f32} (harg6 : arg6.IsWhole) {arg7 : Memref sig .tc .vmem S3x2048x64 .f32} (harg7 : arg7.IsWhole)
  (x0 : Vec F S1x2048x32 .f32) (x1 : Vec F S1x256x2048 .f32) (x2 : Vec F S3x32x64 .f32) (x3 : Vec F S64 .f32)

set_option maxHeartbeats 4000000 in
/-- At a batch's first row tile the body leaves the three products of the features with the weight matrices in the scratch and the normalised rows in the output block. -/
noncomputable def kernelRun0_A (hc0 : cond0_0 i) :
    Σ' (L4 : List (View.Piece (Elt F) S1x256x64 .f32)), { LS0 : List (View.Piece (Elt F) S3x2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, fun E K => ?run⟩
  case run =>
    simp only [cc0_kernel_eq_skeleton]; unfold cc0_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS0

set_option maxHeartbeats 4000000 in
/-- At a later row tile the body only reads the scratch and hands it back as found. -/
noncomputable def kernelRun0_B (hc0 : ¬cond0_0 i) (xs0 : Vec F S3x2048x64 .f32) :
    { L4 : List (View.Piece (Elt F) S1x256x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ owns (c : Thread nD τ) arg7 fullShare xs0) -∗ K ⟨⟩))
          ⊢ wp frame (wpE (defs₀ (F := F)) Variants.none c none) E (cc0_kernel i arg2 harg2 arg3 harg3 arg4 harg4 arg5 harg5 arg6 harg6 arg7 harg7) K } := by
  refine ⟨?_, fun E K => ?run⟩
  case run =>
    simp only [cc0_kernel_eq_skeleton]; unfold cc0_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; isplitr; · ipureintro; exact harg7.read_unread _
    iexact HS0

theorem cover0_A_4 (hc0 : cond0_0 i) (y : S1x256x64.Idx) :
    ∃ pc ∈ (kernelRun0_A c i harg2 harg3 harg4 harg5 harg6 harg7 x0 x1 x2 x3 hc0).1, y ∈ pc.1.set :=
  View.cover_of_tiledL (kernelRun0_A c i harg2 harg3 harg4 harg5 harg6 harg7 x0 x1 x2 x3 hc0).1 S1x256x64.size (by sl_kernel_rfl) y

def out0_A_4 (hc0 : cond0_0 i) : Vec F S1x256x64 .f32 :=
  VO0_4.read (Elt F) (VO0_4.writes (Elt F) VO0_4.junk (kernelRun0_A c i harg2 harg3 harg4 harg5 harg6 harg7 x0 x1 x2 x3 hc0).1)

theorem scover0_A_0 (hc0 : cond0_0 i) (y : S3x2048x64.Idx) :
    ∃ pc ∈ (kernelRun0_A c i harg2 harg3 harg4 harg5 harg6 harg7 x0 x1 x2 x3 hc0).2.1, y ∈ pc.1.set :=
  View.cover_of_tiledL (kernelRun0_A c i harg2 harg3 harg4 harg5 harg6 harg7 x0 x1 x2 x3 hc0).2.1 S1x2048x64.size (by sl_kernel_rfl) y

def sout0_A_0 (hc0 : cond0_0 i) : Vec F S3x2048x64 .f32 :=
  VS0_0.read (Elt F) (VS0_0.writes (Elt F) VS0_0.junk (kernelRun0_A c i harg2 harg3 harg4 harg5 harg6 harg7 x0 x1 x2 x3 hc0).2.1)

theorem cover0_B_4 (hc0 : ¬cond0_0 i) (xs0 : Vec F S3x2048x64 .f32) (y : S1x256x64.Idx) :
    ∃ pc ∈ (kernelRun0_B c i harg2 harg3 harg4 harg5 harg6 harg7 x0 x1 x2 x3 hc0 xs0).1, y ∈ pc.1.set :=
  View.cover_of_tiledL (kernelRun0_B c i harg2 harg3 harg4 harg5 harg6 harg7 x0 x1 x2 x3 hc0 xs0).1 S1x256x64.size (by sl_kernel_rfl) y

def out0_B_4 (hc0 : ¬cond0_0 i) (xs0 : Vec F S3x2048x64 .f32) : Vec F S1x256x64 .f32 :=
  VO0_4.read (Elt F) (VO0_4.writes (Elt F) VO0_4.junk (kernelRun0_B c i harg2 harg3 harg4 harg5 harg6 harg7 x0 x1 x2 x3 hc0 xs0).1)

end Body

section Region

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def atA0 (c : Dev nD) (t : Fin cfg0.N) (h : cond0_0 (grid0.coords t)) : Vec F S1x256x64 .f32 × Vec F S3x2048x64 .f32 :=
  (out0_A_4 c (grid0.coords t) (hs0_0 t) (hs0_1 t) (hs0_2 t) (hs0_3 t) (hs0_4 t) hsM0_0 (iblk0 V c 0 t) (iblk0 V c 1 t) (iblk0 V c 2 t) (iblk0 V c 3 t) h, sout0_A_0 c (grid0.coords t) (hs0_0 t) (hs0_1 t) (hs0_2 t) (hs0_3 t) (hs0_4 t) hsM0_0 (iblk0 V c 0 t) (iblk0 V c 1 t) (iblk0 V c 2 t) (iblk0 V c 3 t) h)

def atB0 (c : Dev nD) (t : Fin cfg0.N) (h : ¬cond0_0 (grid0.coords t)) (xs : Vec F S3x2048x64 .f32) : Vec F S1x256x64 .f32 × Vec F S3x2048x64 .f32 :=
  (out0_B_4 c (grid0.coords t) (hs0_0 t) (hs0_1 t) (hs0_2 t) (hs0_3 t) (hs0_4 t) hsM0_0 (iblk0 V c 0 t) (iblk0 V c 1 t) (iblk0 V c 2 t) (iblk0 V c 3 t) h xs, xs)

/-- The output block and the scratch after grid position `n`, by the position's case. -/
def outsAt0 (c : Dev nD) : (n : ℕ) → n < cfg0.N → Vec F S1x256x64 .f32 × Vec F S3x2048x64 .f32
  | 0, hn => atA0 V c ⟨0, hn⟩ ((hcond0_0 _).mpr (Nat.zero_mod _))
  | n + 1, hn =>
    if h0 : (n + 1) % 8 = 0 then atA0 V c ⟨n + 1, hn⟩ ((hcond0_0 _).mpr h0)
    else atB0 V c ⟨n + 1, hn⟩ (fun h => h0 ((hcond0_0 _).mp h)) (outsAt0 c n (Nat.lt_of_succ_lt hn)).2

theorem outsAt0_A (c : Dev nD) (t : Fin cfg0.N) (h0 : t.val % 8 = 0) :
    outsAt0 V c t.val t.isLt = atA0 V c t ((hcond0_0 t).mpr h0) := by
  obtain ⟨n, hn⟩ := t
  cases n with
  | zero => exact rfl
  | succ n => exact (dif_pos h0).trans rfl

theorem outsAt0_B (c : Dev nD) (t : Fin cfg0.N) (h0 : ¬t.val % 8 = 0) :
    outsAt0 V c t.val t.isLt = atB0 V c t (fun h => h0 ((hcond0_0 t).mp h)) (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem q_eq0 (c : Dev nD) (w : Fin cfg0.W) : (dat0 V c).q w = fullShare := rfl

theorem owed_eq0 (c : Dev nD) (t : Fin (cfg0.N + 1)) : (dat0 V c).owed t = 0 := rfl

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

/-- At every position the invariant holds the scratch at some contents. -/
theorem Phi_open0 (c : Dev nD) : ∀ (n : ℕ) (h : n ≤ cfg0.N), PhiS0 V c n h ⊢ iprop(iprop((∃ d, owns (c : Thread nD τ) scM0_0 fullShare d) ∗ Pipeline.scopedRestBut (Ix := Unit) (Name := ℕ) (U := UR sig nD τ) (Lvl := ℕ) (Val := Elt F) spec0 c [cc0_scratch0]) ∗ (∃ r, prngReg c r))
  | 0, _ => by rw [PhiS0_zero V c 0 _ rfl, PhiA0_eq]
  | n + 1, hn => by
    rw [PhiS0_succ]
    iintro ⟨⟨HS0, HR⟩, Hg⟩
    iframe HR Hg
    iexists _; iexact HS0

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4]
  by_cases h0 : t.val % 8 = 0
  · rw [outsAt0_A V c t h0]
    unfold atA0 out0_A_4 sout0_A_0; (try dsimp only)
    rw [PhiS0_castSucc V c t]
    iintro ⟨HΦ, Ho, ⟨%d0, H0⟩, ⟨%d1, H1⟩, ⟨%d2, H2⟩, ⟨%d3, H3⟩, ⟨%d4, H4⟩⟩
    ihave HΦ' := Phi_open0 V c _ _ $$ HΦ
    icases HΦ' with ⟨⟨HS0, HR⟩, Hg⟩
    iapply ((kernelRun0_A c (grid0.coords t) _ _ _ _ _ _ (iblk0 V c 0 t) (iblk0 V c 1 t) (iblk0 V c 2 t) (iblk0 V c 3 t) ((hcond0_0 t).mpr h0)).2.2 Set.univ _)
    iframe H0 H1 H2 H3 HS0
    isplitl [H4]; · iexists _; iexact H4
    iintro ⟨H0, H1, H2, H3, ⟨%e4, H4⟩, ⟨%es0, HS0⟩⟩
    iframe HR Hg Ho H0 H1 H2 H3
    isplitl [HS0]
    · unfold owns; iexists _; isplitr
      swap; · iexact HS0
      ipureintro; exact View.read_writes_of_cover _ _ _ _ _ (scover0_A_0 c _ _ _ _ _ _ _ _ _ _ _ _)
    unfold owns; iexists _; isplitr
    swap; · iexact H4
    ipureintro
    exact View.read_writes_of_cover _ _ _ _ _ (cover0_A_4 c _ _ _ _ _ _ _ _ _ _ _ _)
  · rw [outsAt0_B V c t h0]
    unfold atB0 out0_B_4; (try dsimp only)
    have hz : t.val ≠ 0 := fun e => h0 (by rw [e])
    · rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun0_B c (grid0.coords t) _ _ _ _ _ _ (iblk0 V c 0 t) (iblk0 V c 1 t) (iblk0 V c 2 t) (iblk0 V c 3 t) (fun h => h0 ((hcond0_0 t).mp h)) _).2 Set.univ _)
      iframe H0 H1 H2 H3 HS0
      isplitl [H4]; · iexists _; iexact H4
      iintro ⟨H0, H1, H2, H3, ⟨%e4, H4⟩, HS0⟩
      iframe HS0 HR Hg Ho H0 H1 H2 H3
      unfold owns; iexists _; isplitr
      swap; · iexact H4
      ipureintro
      exact View.read_writes_of_cover _ _ _ _ _ (cover0_B_4 c _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  rw [PhiA0_eq]; exact Phi_open0 V c (Fin.last cfg0.N).val (Nat.le_of_lt_succ (Fin.last cfg0.N).isLt)

end Region

end Cert.Kernel.Hand

end
-- ==== Proof.K.Region1.lean ====
import proofs.«149576_j9002251452429_1_alg».proof.Proof.Gen.Kernel.Launch
import proofs.«149576_j9002251452429_1_alg».proof.Proof.Gen.Kernel.Skeleton
import proofs.«149576_j9002251452429_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 8 = 0 :=
  (by decide +kernel : ∀ t : Fin grid1.N, cond1_0 (grid1.coords t) ↔ t.val % 8 = 0)

abbrev ms1_0 (t : Fin cfg1.N) : Memref sig .tc .vmem S1x2048x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S3x64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256x64 .f32 := win1_4.stage (cfg1.slots t 4)
abbrev hs1_4 (t : Fin cfg1.N) : (ms1_4 t).IsWhole := hstage1_4 ((cfg1.slots t 4).cast nbuf1_4)

abbrev scM1_0 : Memref sig .tc .vmem S3x2048x64 .f32 := Memref.whole cc1_scratch0
abbrev hsM1_0 : scM1_0.IsWhole := Memref.isWhole_whole _

abbrev VS1_0 : View sig .tc .vmem S3x2048x64 .f32 := scM1_0.view

abbrev VO1_4 : View sig .tc .vmem S1x256x64 .f32 := (Memref.whole cc1_stg4_0 : Memref sig .tc .vmem S1x256x64 .f32).view

theorem PhiA1_eq (c : Dev nD) :
    (Pipeline.ΦA spec1 c : sProp 𝕄)
      = iprop(iprop((∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [bigSepL_singleton, scM1_0, owns_whole]; try rfl

section Body

variable (c : Dev nD) (i : grid1.Coords) {arg2 : Memref sig .tc .vmem S1x2048x64 .f32} (harg2 : arg2.IsWhole) {arg3 : Memref sig .tc .vmem S1x256x2048 .f32} (harg3 : arg3.IsWhole)
  {arg4 : Memref sig .tc .vmem S3x64x64 .f32} (harg4 : arg4.IsWhole) {arg5 : Memref sig .tc .vmem S64 .f32} (harg5 : arg5.IsWhole)
  {arg6 : Memref sig .tc .vmem S1x256x64 .f32} (harg6 : arg6.IsWhole) {arg7 : Memref sig .tc .vmem S3x2048x64 .f32} (harg7 : arg7.IsWhole)
  (x0 : Vec F S1x2048x64 .f32) (x1 : Vec F S1x256x2048 .f32) (x2 : Vec F S3x64x64 .f32) (x3 : Vec F S64 .f32)

set_option maxHeartbeats 4000000 in
/-- At a batch's first row tile the body leaves the three products of the features with the weight matrices in the scratch and the normalised rows in the output block. -/
noncomputable def kernelRun1_A (hc0 : cond1_0 i) :
    Σ' (L4 : List (View.Piece (Elt F) S1x256x64 .f32)), { LS0 : List (View.Piece (Elt F) S3x2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc1_kernel i arg2 harg2 arg3 harg3 arg4 harg4 arg5 harg5 arg6 harg6 arg7 harg7) K } := by
  refine ⟨?_, ?_, fun E K => ?run⟩
  case run =>
    simp only [cc1_kernel_eq_skeleton]; unfold cc1_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS0

set_option maxHeartbeats 4000000 in
/-- At a later row tile the body only reads the scratch and hands it back as found. -/
noncomputable def kernelRun1_B (hc0 : ¬cond1_0 i) (xs0 : Vec F S3x2048x64 .f32) :
    { L4 : List (View.Piece (Elt F) S1x256x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ owns (c : Thread nD τ) arg7 fullShare xs0) -∗ K ⟨⟩))
          ⊢ wp frame (wpE (defs₀ (F := F)) Variants.none c none) E (cc1_kernel i arg2 harg2 arg3 harg3 arg4 harg4 arg5 harg5 arg6 harg6 arg7 harg7) K } := by
  refine ⟨?_, fun E K => ?run⟩
  case run =>
    simp only [cc1_kernel_eq_skeleton]; unfold cc1_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; isplitr; · ipureintro; exact harg7.read_unread _
    iexact HS0

theorem cover1_A_4 (hc0 : cond1_0 i) (y : S1x256x64.Idx) :
    ∃ pc ∈ (kernelRun1_A c i harg2 harg3 harg4 harg5 harg6 harg7 x0 x1 x2 x3 hc0).1, y ∈ pc.1.set :=
  View.cover_of_tiledL (kernelRun1_A c i harg2 harg3 harg4 harg5 harg6 harg7 x0 x1 x2 x3 hc0).1 S1x256x64.size (by sl_kernel_rfl) y

def out1_A_4 (hc0 : cond1_0 i) : Vec F S1x256x64 .f32 :=
  VO1_4.read (Elt F) (VO1_4.writes (Elt F) VO1_4.junk (kernelRun1_A c i harg2 harg3 harg4 harg5 harg6 harg7 x0 x1 x2 x3 hc0).1)

theorem scover1_A_0 (hc0 : cond1_0 i) (y : S3x2048x64.Idx) :
    ∃ pc ∈ (kernelRun1_A c i harg2 harg3 harg4 harg5 harg6 harg7 x0 x1 x2 x3 hc0).2.1, y ∈ pc.1.set :=
  View.cover_of_tiledL (kernelRun1_A c i harg2 harg3 harg4 harg5 harg6 harg7 x0 x1 x2 x3 hc0).2.1 S1x2048x64.size (by sl_kernel_rfl) y

def sout1_A_0 (hc0 : cond1_0 i) : Vec F S3x2048x64 .f32 :=
  VS1_0.read (Elt F) (VS1_0.writes (Elt F) VS1_0.junk (kernelRun1_A c i harg2 harg3 harg4 harg5 harg6 harg7 x0 x1 x2 x3 hc0).2.1)

theorem cover1_B_4 (hc0 : ¬cond1_0 i) (xs0 : Vec F S3x2048x64 .f32) (y : S1x256x64.Idx) :
    ∃ pc ∈ (kernelRun1_B c i harg2 harg3 harg4 harg5 harg6 harg7 x0 x1 x2 x3 hc0 xs0).1, y ∈ pc.1.set :=
  View.cover_of_tiledL (kernelRun1_B c i harg2 harg3 harg4 harg5 harg6 harg7 x0 x1 x2 x3 hc0 xs0).1 S1x256x64.size (by sl_kernel_rfl) y

def out1_B_4 (hc0 : ¬cond1_0 i) (xs0 : Vec F S3x2048x64 .f32) : Vec F S1x256x64 .f32 :=
  VO1_4.read (Elt F) (VO1_4.writes (Elt F) VO1_4.junk (kernelRun1_B c i harg2 harg3 harg4 harg5 harg6 harg7 x0 x1 x2 x3 hc0 xs0).1)

end Body

section Region

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def atA1 (c : Dev nD) (t : Fin cfg1.N) (h : cond1_0 (grid1.coords t)) : Vec F S1x256x64 .f32 × Vec F S3x2048x64 .f32 :=
  (out1_A_4 c (grid1.coords t) (hs1_0 t) (hs1_1 t) (hs1_2 t) (hs1_3 t) (hs1_4 t) hsM1_0 (iblk1 V c 0 t) (iblk1 V c 1 t) (iblk1 V c 2 t) (iblk1 V c 3 t) h, sout1_A_0 c (grid1.coords t) (hs1_0 t) (hs1_1 t) (hs1_2 t) (hs1_3 t) (hs1_4 t) hsM1_0 (iblk1 V c 0 t) (iblk1 V c 1 t) (iblk1 V c 2 t) (iblk1 V c 3 t) h)

def atB1 (c : Dev nD) (t : Fin cfg1.N) (h : ¬cond1_0 (grid1.coords t)) (xs : Vec F S3x2048x64 .f32) : Vec F S1x256x64 .f32 × Vec F S3x2048x64 .f32 :=
  (out1_B_4 c (grid1.coords t) (hs1_0 t) (hs1_1 t) (hs1_2 t) (hs1_3 t) (hs1_4 t) hsM1_0 (iblk1 V c 0 t) (iblk1 V c 1 t) (iblk1 V c 2 t) (iblk1 V c 3 t) h xs, xs)

/-- The output block and the scratch after grid position `n`, by the position's case. -/
def outsAt1 (c : Dev nD) : (n : ℕ) → n < cfg1.N → Vec F S1x256x64 .f32 × Vec F S3x2048x64 .f32
  | 0, hn => atA1 V c ⟨0, hn⟩ ((hcond1_0 _).mpr (Nat.zero_mod _))
  | n + 1, hn =>
    if h0 : (n + 1) % 8 = 0 then atA1 V c ⟨n + 1, hn⟩ ((hcond1_0 _).mpr h0)
    else atB1 V c ⟨n + 1, hn⟩ (fun h => h0 ((hcond1_0 _).mp h)) (outsAt1 c n (Nat.lt_of_succ_lt hn)).2

theorem outsAt1_A (c : Dev nD) (t : Fin cfg1.N) (h0 : t.val % 8 = 0) :
    outsAt1 V c t.val t.isLt = atA1 V c t ((hcond1_0 t).mpr h0) := by
  obtain ⟨n, hn⟩ := t
  cases n with
  | zero => exact rfl
  | succ n => exact (dif_pos h0).trans rfl

theorem outsAt1_B (c : Dev nD) (t : Fin cfg1.N) (h0 : ¬t.val % 8 = 0) :
    outsAt1 V c t.val t.isLt = atB1 V c t (fun h => h0 ((hcond1_0 t).mp h)) (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem q_eq1 (c : Dev nD) (w : Fin cfg1.W) : (dat1 V c).q w = fullShare := rfl

theorem owed_eq1 (c : Dev nD) (t : Fin (cfg1.N + 1)) : (dat1 V c).owed t = 0 := rfl

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

/-- At every position the invariant holds the scratch at some contents. -/
theorem Phi_open1 (c : Dev nD) : ∀ (n : ℕ) (h : n ≤ cfg1.N), PhiS1 V c n h ⊢ iprop(iprop((∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r))
  | 0, _ => by rw [PhiS1_zero V c 0 _ rfl, PhiA1_eq]
  | n + 1, hn => by
    rw [PhiS1_succ]
    iintro ⟨⟨HS0, HR⟩, Hg⟩
    iframe HR Hg
    iexists _; iexact HS0

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4]
  by_cases h0 : t.val % 8 = 0
  · rw [outsAt1_A V c t h0]
    unfold atA1 out1_A_4 sout1_A_0; (try dsimp only)
    rw [PhiS1_castSucc V c t]
    iintro ⟨HΦ, Ho, ⟨%d0, H0⟩, ⟨%d1, H1⟩, ⟨%d2, H2⟩, ⟨%d3, H3⟩, ⟨%d4, H4⟩⟩
    ihave HΦ' := Phi_open1 V c _ _ $$ HΦ
    icases HΦ' with ⟨⟨HS0, HR⟩, Hg⟩
    iapply ((kernelRun1_A c (grid1.coords t) _ _ _ _ _ _ (iblk1 V c 0 t) (iblk1 V c 1 t) (iblk1 V c 2 t) (iblk1 V c 3 t) ((hcond1_0 t).mpr h0)).2.2 Set.univ _)
    iframe H0 H1 H2 H3 HS0
    isplitl [H4]; · iexists _; iexact H4
    iintro ⟨H0, H1, H2, H3, ⟨%e4, H4⟩, ⟨%es0, HS0⟩⟩
    iframe HR Hg Ho H0 H1 H2 H3
    isplitl [HS0]
    · unfold owns; iexists _; isplitr
      swap; · iexact HS0
      ipureintro; exact View.read_writes_of_cover _ _ _ _ _ (scover1_A_0 c _ _ _ _ _ _ _ _ _ _ _ _)
    unfold owns; iexists _; isplitr
    swap; · iexact H4
    ipureintro
    exact View.read_writes_of_cover _ _ _ _ _ (cover1_A_4 c _ _ _ _ _ _ _ _ _ _ _ _)
  · rw [outsAt1_B V c t h0]
    unfold atB1 out1_B_4; (try dsimp only)
    have hz : t.val ≠ 0 := fun e => h0 (by rw [e])
    · rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun1_B c (grid1.coords t) _ _ _ _ _ _ (iblk1 V c 0 t) (iblk1 V c 1 t) (iblk1 V c 2 t) (iblk1 V c 3 t) (fun h => h0 ((hcond1_0 t).mp h)) _).2 Set.univ _)
      iframe H0 H1 H2 H3 HS0
      isplitl [H4]; · iexists _; iexact H4
      iintro ⟨H0, H1, H2, H3, ⟨%e4, H4⟩, HS0⟩
      iframe HS0 HR Hg Ho H0 H1 H2 H3
      unfold owns; iexists _; isplitr
      swap; · iexact H4
      ipureintro
      exact View.read_writes_of_cover _ _ _ _ _ (cover1_B_4 c _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [PhiA1_eq]; exact Phi_open1 V c (Fin.last cfg1.N).val (Nat.le_of_lt_succ (Fin.last cfg1.N).isLt)

end Region

end Cert.Kernel.Hand

end
-- ==== Proof.K.Region2.lean ====
import proofs.«149576_j9002251452429_1_alg».proof.Proof.Gen.Kernel.Launch
import proofs.«149576_j9002251452429_1_alg».proof.Proof.Gen.Kernel.Skeleton
import proofs.«149576_j9002251452429_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 8 = 0 :=
  (by decide +kernel : ∀ t : Fin grid2.N, cond2_0 (grid2.coords t) ↔ t.val % 8 = 0)

abbrev ms2_0 (t : Fin cfg2.N) : Memref sig .tc .vmem S1x2048x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x256x2048 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S3x64x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x256x64 .f32 := win2_4.stage (cfg2.slots t 4)
abbrev hs2_4 (t : Fin cfg2.N) : (ms2_4 t).IsWhole := hstage2_4 ((cfg2.slots t 4).cast nbuf2_4)

abbrev scM2_0 : Memref sig .tc .vmem S3x2048x64 .f32 := Memref.whole cc2_scratch0
abbrev hsM2_0 : scM2_0.IsWhole := Memref.isWhole_whole _

abbrev VS2_0 : View sig .tc .vmem S3x2048x64 .f32 := scM2_0.view

abbrev VO2_4 : View sig .tc .vmem S1x256x64 .f32 := (Memref.whole cc2_stg4_0 : Memref sig .tc .vmem S1x256x64 .f32).view

theorem PhiA2_eq (c : Dev nD) :
    (Pipeline.ΦA spec2 c : sProp 𝕄)
      = iprop(iprop((∃ d, owns (c : Thread nD τ) scM2_0 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [bigSepL_singleton, scM2_0, owns_whole]; try rfl

section Body

variable (c : Dev nD) (i : grid2.Coords) {arg2 : Memref sig .tc .vmem S1x2048x64 .f32} (harg2 : arg2.IsWhole) {arg3 : Memref sig .tc .vmem S1x256x2048 .f32} (harg3 : arg3.IsWhole)
  {arg4 : Memref sig .tc .vmem S3x64x64 .f32} (harg4 : arg4.IsWhole) {arg5 : Memref sig .tc .vmem S64 .f32} (harg5 : arg5.IsWhole)
  {arg6 : Memref sig .tc .vmem S1x256x64 .f32} (harg6 : arg6.IsWhole) {arg7 : Memref sig .tc .vmem S3x2048x64 .f32} (harg7 : arg7.IsWhole)
  (x0 : Vec F S1x2048x64 .f32) (x1 : Vec F S1x256x2048 .f32) (x2 : Vec F S3x64x64 .f32) (x3 : Vec F S64 .f32)

set_option maxHeartbeats 4000000 in
/-- At a batch's first row tile the body leaves the three products of the features with the weight matrices in the scratch and the normalised rows in the output block. -/
noncomputable def kernelRun2_A (hc0 : cond2_0 i) :
    Σ' (L4 : List (View.Piece (Elt F) S1x256x64 .f32)), { LS0 : List (View.Piece (Elt F) S3x2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc2_kernel i arg2 harg2 arg3 harg3 arg4 harg4 arg5 harg5 arg6 harg6 arg7 harg7) K } := by
  refine ⟨?_, ?_, fun E K => ?run⟩
  case run =>
    simp only [cc2_kernel_eq_skeleton]; unfold cc2_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS0

set_option maxHeartbeats 4000000 in
/-- At a later row tile the body only reads the scratch and hands it back as found. -/
noncomputable def kernelRun2_B (hc0 : ¬cond2_0 i) (xs0 : Vec F S3x2048x64 .f32) :
    { L4 : List (View.Piece (Elt F) S1x256x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ owns (c : Thread nD τ) arg7 fullShare xs0) -∗ K ⟨⟩))
          ⊢ wp frame (wpE (defs₀ (F := F)) Variants.none c none) E (cc2_kernel i arg2 harg2 arg3 harg3 arg4 harg4 arg5 harg5 arg6 harg6 arg7 harg7) K } := by
  refine ⟨?_, fun E K => ?run⟩
  case run =>
    simp only [cc2_kernel_eq_skeleton]; unfold cc2_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; isplitr; · ipureintro; exact harg7.read_unread _
    iexact HS0

theorem cover2_A_4 (hc0 : cond2_0 i) (y : S1x256x64.Idx) :
    ∃ pc ∈ (kernelRun2_A c i harg2 harg3 harg4 harg5 harg6 harg7 x0 x1 x2 x3 hc0).1, y ∈ pc.1.set :=
  View.cover_of_tiledL (kernelRun2_A c i harg2 harg3 harg4 harg5 harg6 harg7 x0 x1 x2 x3 hc0).1 S1x256x64.size (by sl_kernel_rfl) y

def out2_A_4 (hc0 : cond2_0 i) : Vec F S1x256x64 .f32 :=
  VO2_4.read (Elt F) (VO2_4.writes (Elt F) VO2_4.junk (kernelRun2_A c i harg2 harg3 harg4 harg5 harg6 harg7 x0 x1 x2 x3 hc0).1)

theorem scover2_A_0 (hc0 : cond2_0 i) (y : S3x2048x64.Idx) :
    ∃ pc ∈ (kernelRun2_A c i harg2 harg3 harg4 harg5 harg6 harg7 x0 x1 x2 x3 hc0).2.1, y ∈ pc.1.set :=
  View.cover_of_tiledL (kernelRun2_A c i harg2 harg3 harg4 harg5 harg6 harg7 x0 x1 x2 x3 hc0).2.1 S1x2048x64.size (by sl_kernel_rfl) y

def sout2_A_0 (hc0 : cond2_0 i) : Vec F S3x2048x64 .f32 :=
  VS2_0.read (Elt F) (VS2_0.writes (Elt F) VS2_0.junk (kernelRun2_A c i harg2 harg3 harg4 harg5 harg6 harg7 x0 x1 x2 x3 hc0).2.1)

theorem cover2_B_4 (hc0 : ¬cond2_0 i) (xs0 : Vec F S3x2048x64 .f32) (y : S1x256x64.Idx) :
    ∃ pc ∈ (kernelRun2_B c i harg2 harg3 harg4 harg5 harg6 harg7 x0 x1 x2 x3 hc0 xs0).1, y ∈ pc.1.set :=
  View.cover_of_tiledL (kernelRun2_B c i harg2 harg3 harg4 harg5 harg6 harg7 x0 x1 x2 x3 hc0 xs0).1 S1x256x64.size (by sl_kernel_rfl) y

def out2_B_4 (hc0 : ¬cond2_0 i) (xs0 : Vec F S3x2048x64 .f32) : Vec F S1x256x64 .f32 :=
  VO2_4.read (Elt F) (VO2_4.writes (Elt F) VO2_4.junk (kernelRun2_B c i harg2 harg3 harg4 harg5 harg6 harg7 x0 x1 x2 x3 hc0 xs0).1)

end Body

section Region

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def atA2 (c : Dev nD) (t : Fin cfg2.N) (h : cond2_0 (grid2.coords t)) : Vec F S1x256x64 .f32 × Vec F S3x2048x64 .f32 :=
  (out2_A_4 c (grid2.coords t) (hs2_0 t) (hs2_1 t) (hs2_2 t) (hs2_3 t) (hs2_4 t) hsM2_0 (iblk2 V c 0 t) (iblk2 V c 1 t) (iblk2 V c 2 t) (iblk2 V c 3 t) h, sout2_A_0 c (grid2.coords t) (hs2_0 t) (hs2_1 t) (hs2_2 t) (hs2_3 t) (hs2_4 t) hsM2_0 (iblk2 V c 0 t) (iblk2 V c 1 t) (iblk2 V c 2 t) (iblk2 V c 3 t) h)

def atB2 (c : Dev nD) (t : Fin cfg2.N) (h : ¬cond2_0 (grid2.coords t)) (xs : Vec F S3x2048x64 .f32) : Vec F S1x256x64 .f32 × Vec F S3x2048x64 .f32 :=
  (out2_B_4 c (grid2.coords t) (hs2_0 t) (hs2_1 t) (hs2_2 t) (hs2_3 t) (hs2_4 t) hsM2_0 (iblk2 V c 0 t) (iblk2 V c 1 t) (iblk2 V c 2 t) (iblk2 V c 3 t) h xs, xs)

/-- The output block and the scratch after grid position `n`, by the position's case. -/
def outsAt2 (c : Dev nD) : (n : ℕ) → n < cfg2.N → Vec F S1x256x64 .f32 × Vec F S3x2048x64 .f32
  | 0, hn => atA2 V c ⟨0, hn⟩ ((hcond2_0 _).mpr (Nat.zero_mod _))
  | n + 1, hn =>
    if h0 : (n + 1) % 8 = 0 then atA2 V c ⟨n + 1, hn⟩ ((hcond2_0 _).mpr h0)
    else atB2 V c ⟨n + 1, hn⟩ (fun h => h0 ((hcond2_0 _).mp h)) (outsAt2 c n (Nat.lt_of_succ_lt hn)).2

theorem outsAt2_A (c : Dev nD) (t : Fin cfg2.N) (h0 : t.val % 8 = 0) :
    outsAt2 V c t.val t.isLt = atA2 V c t ((hcond2_0 t).mpr h0) := by
  obtain ⟨n, hn⟩ := t
  cases n with
  | zero => exact rfl
  | succ n => exact (dif_pos h0).trans rfl

theorem outsAt2_B (c : Dev nD) (t : Fin cfg2.N) (h0 : ¬t.val % 8 = 0) :
    outsAt2 V c t.val t.isLt = atB2 V c t (fun h => h0 ((hcond2_0 t).mp h)) (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem q_eq2 (c : Dev nD) (w : Fin cfg2.W) : (dat2 V c).q w = fullShare := rfl

theorem owed_eq2 (c : Dev nD) (t : Fin (cfg2.N + 1)) : (dat2 V c).owed t = 0 := rfl

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

/-- At every position the invariant holds the scratch at some contents. -/
theorem Phi_open2 (c : Dev nD) : ∀ (n : ℕ) (h : n ≤ cfg2.N), PhiS2 V c n h ⊢ iprop(iprop((∃ d, owns (c : Thread nD τ) scM2_0 fullShare d) ∗ Pipeline.scopedRestBut (Ix := Unit) (Name := ℕ) (U := UR sig nD τ) (Lvl := ℕ) (Val := Elt F) spec2 c [cc2_scratch0]) ∗ (∃ r, prngReg c r))
  | 0, _ => by rw [PhiS2_zero V c 0 _ rfl, PhiA2_eq]
  | n + 1, hn => by
    rw [PhiS2_succ]
    iintro ⟨⟨HS0, HR⟩, Hg⟩
    iframe HR Hg
    iexists _; iexact HS0

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, after2_4]
  by_cases h0 : t.val % 8 = 0
  · rw [outsAt2_A V c t h0]
    unfold atA2 out2_A_4 sout2_A_0; (try dsimp only)
    rw [PhiS2_castSucc V c t]
    iintro ⟨HΦ, Ho, ⟨%d0, H0⟩, ⟨%d1, H1⟩, ⟨%d2, H2⟩, ⟨%d3, H3⟩, ⟨%d4, H4⟩⟩
    ihave HΦ' := Phi_open2 V c _ _ $$ HΦ
    icases HΦ' with ⟨⟨HS0, HR⟩, Hg⟩
    iapply ((kernelRun2_A c (grid2.coords t) _ _ _ _ _ _ (iblk2 V c 0 t) (iblk2 V c 1 t) (iblk2 V c 2 t) (iblk2 V c 3 t) ((hcond2_0 t).mpr h0)).2.2 Set.univ _)
    iframe H0 H1 H2 H3 HS0
    isplitl [H4]; · iexists _; iexact H4
    iintro ⟨H0, H1, H2, H3, ⟨%e4, H4⟩, ⟨%es0, HS0⟩⟩
    iframe HR Hg Ho H0 H1 H2 H3
    isplitl [HS0]
    · unfold owns; iexists _; isplitr
      swap; · iexact HS0
      ipureintro; exact View.read_writes_of_cover _ _ _ _ _ (scover2_A_0 c _ _ _ _ _ _ _ _ _ _ _ _)
    unfold owns; iexists _; isplitr
    swap; · iexact H4
    ipureintro
    exact View.read_writes_of_cover _ _ _ _ _ (cover2_A_4 c _ _ _ _ _ _ _ _ _ _ _ _)
  · rw [outsAt2_B V c t h0]
    unfold atB2 out2_B_4; (try dsimp only)
    have hz : t.val ≠ 0 := fun e => h0 (by rw [e])
    · rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun2_B c (grid2.coords t) _ _ _ _ _ _ (iblk2 V c 0 t) (iblk2 V c 1 t) (iblk2 V c 2 t) (iblk2 V c 3 t) (fun h => h0 ((hcond2_0 t).mp h)) _).2 Set.univ _)
      iframe H0 H1 H2 H3 HS0
      isplitl [H4]; · iexists _; iexact H4
      iintro ⟨H0, H1, H2, H3, ⟨%e4, H4⟩, HS0⟩
      iframe HS0 HR Hg Ho H0 H1 H2 H3
      unfold owns; iexists _; isplitr
      swap; · iexact H4
      ipureintro
      exact View.read_writes_of_cover _ _ _ _ _ (cover2_B_4 c _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  rw [PhiA2_eq]; exact Phi_open2 V c (Fin.last cfg2.N).val (Nat.le_of_lt_succ (Fin.last cfg2.N).isLt)

end Region

end Cert.Kernel.Hand

end
-- ==== Proof.K.Outs.lean ====
import proofs.«149576_j9002251452429_1_alg».proof.Proof.Gen.Kernel.Regions

noncomputable section

namespace Cert.Kernel.Hand

open Idealize.ShloMosaic Idealize.ShloMosaic.TcCoe Idealize.SL.Sem
open Cert.Kernel Cert.Kernel.Gen

variable {F : FTy → Type} [FloatOps F]

def mkOuts (o1 : (c : Dev nD) → Buf (Elt F) ((c : Thread nD τ).loc main_v1))
    (o2 : (c : Dev nD) → Buf (Elt F) ((c : Thread nD τ).loc main_v22))
    (o3 : (c : Dev nD) → Buf (Elt F) ((c : Thread nD τ).loc main_v43)) : Outs (F := F) :=
  fun _ r c =>
    if h1 : r = main_v1 then h1 ▸ o1 c
    else if h2 : r = main_v22 then h2 ▸ o2 c
    else if h3 : r = main_v43 then h3 ▸ o3 c
    else fun _ => Classical.ofNonempty

variable (o1 : (c : Dev nD) → Buf (Elt F) ((c : Thread nD τ).loc main_v1))
  (o2 : (c : Dev nD) → Buf (Elt F) ((c : Thread nD τ).loc main_v22))
  (o3 : (c : Dev nD) → Buf (Elt F) ((c : Thread nD τ).loc main_v43))

theorem mkOuts_v1 (J : ℕ) (c : Dev nD) : mkOuts o1 o2 o3 J main_v1 c = o1 c := by
  unfold mkOuts; rw [dif_pos rfl]

theorem mkOuts_v22 (J : ℕ) (c : Dev nD) : mkOuts o1 o2 o3 J main_v22 c = o2 c := by
  unfold mkOuts; rw [dif_neg (by decide), dif_pos rfl]

theorem mkOuts_v43 (J : ℕ) (c : Dev nD) : mkOuts o1 o2 o3 J main_v43 c = o3 c := by
  unfold mkOuts; rw [dif_neg (by decide), dif_neg (by decide), dif_pos rfl]

variable (m : (ℓ : Loc nD τ sig) → Buf (Elt F) ℓ)

theorem V4_congr (outs outs' : Outs (F := F)) (h : ∀ c, outs 2 main_v1 c = outs' 2 main_v1 c) (c : Dev nD) :
    V4 m outs c = V4 m outs' c := by
  simp only [V4, V3, V2, h c]

theorem V7_congr (outs outs' : Outs (F := F)) (h : ∀ c, outs 2 main_v1 c = outs' 2 main_v1 c)
    (h' : ∀ c, outs 5 main_v22 c = outs' 5 main_v22 c) (c : Dev nD) :
    V7 m outs c = V7 m outs' c := by
  simp only [V7, V6, V5, V4, V3, V2, h c, h' c]

end Cert.Kernel.Hand

end
-- ==== Proof.K.Wire.lean ====
import proofs.«149576_j9002251452429_1_alg».proof.Proof.K.Region0
import proofs.«149576_j9002251452429_1_alg».proof.Proof.K.Region1
import proofs.«149576_j9002251452429_1_alg».proof.Proof.K.Region2
import proofs.«149576_j9002251452429_1_alg».proof.Proof.K.Outs

noncomputable section

namespace Cert.Kernel.Hand

open Idealize.ShloMosaic Idealize.ShloMosaic.TcCoe Idealize.SL.Sem
open Cert.Kernel Cert.Kernel.Gen

variable {F : FTy → Type} [FloatOps F]
variable (m : (ℓ : Loc nD τ sig) → Buf (Elt F) ℓ)

abbrev entry0 : (c : Dev nD) → (b : Ref sig .tc) → Buf (Elt F) ((c : Thread nD τ).loc b) := fun c b => V1 m c b

abbrev entry1 (outs : Outs (F := F)) : (c : Dev nD) → (b : Ref sig .tc) → Buf (Elt F) ((c : Thread nD τ).loc b) :=
  fun c b => V4 m outs c b

abbrev entry2 (outs : Outs (F := F)) : (c : Dev nD) → (b : Ref sig .tc) → Buf (Elt F) ((c : Thread nD τ).loc b) :=
  fun c b => V7 m outs c b

def noArr (r : Ref sig .tc) : (c : Dev nD) → Buf (Elt F) ((c : Thread nD τ).loc r) := fun _ _ => Classical.ofNonempty

def arr1 (c : Dev nD) : Buf (Elt F) ((c : Thread nD τ).loc main_v1) := (dat0 (entry0 m) c).arrAt 4 cfg0.N

def outsA : Outs (F := F) := mkOuts (arr1 m) (noArr main_v22) (noArr main_v43)

def arr2 (c : Dev nD) : Buf (Elt F) ((c : Thread nD τ).loc main_v22) := (dat1 (entry1 m (outsA m)) c).arrAt 4 cfg1.N

def outsB : Outs (F := F) := mkOuts (arr1 m) (arr2 m) (noArr main_v43)

def arr3 (c : Dev nD) : Buf (Elt F) ((c : Thread nD τ).loc main_v43) := (dat2 (entry2 m (outsB m)) c).arrAt 4 cfg2.N

def outsC : Outs (F := F) := mkOuts (arr1 m) (arr2 m) (arr3 m)

theorem entry1_eq : entry1 m (outsC m) = entry1 m (outsA m) :=
  funext fun c => funext fun b => by
    show V4 m (outsC m) c b = V4 m (outsA m) c b
    rw [V4_congr m (outsC m) (outsA m) (fun c => by unfold outsC outsA; rw [mkOuts_v1, mkOuts_v1]) c]

theorem entry2_eq : entry2 m (outsC m) = entry2 m (outsB m) :=
  funext fun c => funext fun b => by
    show V7 m (outsC m) c b = V7 m (outsB m) c b
    rw [V7_congr m (outsC m) (outsB m) (fun c => by unfold outsC outsB; rw [mkOuts_v1, mkOuts_v1])
      (fun c => by unfold outsC outsB; rw [mkOuts_v22, mkOuts_v22]) c]

theorem outsC_v1 (c : Dev nD) : outsC m 2 main_v1 c = (dat0 (entry0 m) c).arrAt 4 cfg0.N := by
  unfold outsC; rw [mkOuts_v1]; rfl

theorem outsC_v22 (c : Dev nD) : outsC m 5 main_v22 c = (dat1 (entry1 m (outsC m)) c).arrAt 4 cfg1.N := by
  rw [entry1_eq]; unfold outsC; rw [mkOuts_v22]; rfl

theorem outsC_v43 (c : Dev nD) : outsC m 8 main_v43 c = (dat2 (entry2 m (outsC m)) c).arrAt 4 cfg2.N := by
  rw [entry2_eq]; unfold outsC; rw [mkOuts_v43]; rfl

end Cert.Kernel.Hand

end
-- ==== Proof.K.RunAll.lean ====
import proofs.«149576_j9002251452429_1_alg».proof.Proof.K.Launch
import proofs.«149576_j9002251452429_1_alg».proof.Proof.K.Wire

noncomputable section

namespace Cert.Kernel.Hand

open Idealize.ShloMosaic Idealize.ShloMosaic.TcCoe Idealize.SL.Sem
open Cert.Kernel Cert.Kernel.Gen

variable {F : FTy → Type} [FloatOps F]
variable (m : (ℓ : Loc nD τ sig) → Buf (Elt F) ℓ) (ρ : Dev nD → PrngReg)

theorem run :
    θ_run defs (onTc (τ := τ) (main (F := F))) ⟨m, fun _ => 0, ρ⟩
      (fun r => ∀ c : Dev nD, ∀ b ∈ Pipeline.ucRefs τ sig, r.2.mem ((c : Thread nD τ).1, b) = V9 m (outsC m) c b) :=
  run_all m ρ (outsC m) (dat0 (entry0 m)) (dat1 (entry1 m (outsC m))) (dat2 (entry2 m (outsC m)))
    (A_eq0 (entry0 m)) (q_eq0 (entry0 m)) (owed_eq0 (entry0 m)) (fun _ => rfl) (body_obligation0 (entry0 m)) (hin0 (entry0 m)) (hout0 (entry0 m)) (outsC_v1 m)
    (A_eq1 (entry1 m (outsC m))) (q_eq1 (entry1 m (outsC m))) (owed_eq1 (entry1 m (outsC m))) (fun _ => rfl) (body_obligation1 (entry1 m (outsC m))) (hin1 (entry1 m (outsC m))) (hout1 (entry1 m (outsC m))) (outsC_v22 m)
    (A_eq2 (entry2 m (outsC m))) (q_eq2 (entry2 m (outsC m))) (owed_eq2 (entry2 m (outsC m))) (fun _ => rfl) (body_obligation2 (entry2 m (outsC m))) (hin2 (entry2 m (outsC m))) (hout2 (entry2 m (outsC m))) (outsC_v43 m)

theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_all m ρ (outsC m) (dat0 (entry0 m)) (dat1 (entry1 m (outsC m))) (dat2 (entry2 m (outsC m)))
    (A_eq0 (entry0 m)) (q_eq0 (entry0 m)) (owed_eq0 (entry0 m)) (fun _ => rfl) (body_obligation0 (entry0 m)) (hin0 (entry0 m)) (hout0 (entry0 m)) (outsC_v1 m)
    (A_eq1 (entry1 m (outsC m))) (q_eq1 (entry1 m (outsC m))) (owed_eq1 (entry1 m (outsC m))) (fun _ => rfl) (body_obligation1 (entry1 m (outsC m))) (hin1 (entry1 m (outsC m))) (hout1 (entry1 m (outsC m))) (outsC_v22 m)
    (A_eq2 (entry2 m (outsC m))) (q_eq2 (entry2 m (outsC m))) (owed_eq2 (entry2 m (outsC m))) (fun _ => rfl) (body_obligation2 (entry2 m (outsC m))) (hin2 (entry2 m (outsC m))) (hout2 (entry2 m (outsC m))) (outsC_v43 m)

end Cert.Kernel.Hand

end
-- ==== Proof.KI.Launch.lean ====
import proofs.«149576_j9002251452429_1_alg».proof.Proof.Gen.KernelIdeal.Regions
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev noLevels : GSem nD τ sig → Finset Unit := fun _ => ∅
abbrev levelZero : GSem nD τ sig → Unit → ℕ := fun _ _ => 0

abbrev Beside (c : Dev nD) : sProp 𝕄 := iprop((∃ r, prngReg c r) ∗ ∃ W, owes (c : Thread nD τ) (0 : CellTallies nD τ sig Unit) W)

theorem launch_owes_in {cfg : Cfg sig Λ₀} {c : Dev nD} (dat : Dat τ (Elt F) Unit ℕ (UR sig nD τ) ℕ cfg c)
    (h0 : dat.owed 0 = 0) (hr : dat.recorded 0 = Set.univ) :
    iprop(∃ W, owes (c : Thread nD τ) (0 : CellTallies nD τ sig Unit) W) ⊢ (dat.owesAt () 0 : sProp 𝕄) := by
  unfold Pipeline.Dat.owesAt Pipeline.owesWithin Pipeline.Dat.bound
  rw [h0, hr]
  iintro ⟨%W, HO⟩
  iexists W
  isplitr
  · ipureintro; exact fun x _ => Set.mem_union_left _ (Set.mem_univ x)
  iexact HO

theorem launch_owes_out {cfg : Cfg sig Λ₀} {c : Dev nD} (dat : Dat τ (Elt F) Unit ℕ (UR sig nD τ) ℕ cfg c) (t : Fin (cfg.N + 1))
    (h0 : dat.owed t = 0) :
    (dat.owesAt () t : sProp 𝕄) ⊢ iprop(∃ W, owes (c : Thread nD τ) (0 : CellTallies nD τ sig Unit) W) := by
  unfold Pipeline.Dat.owesAt Pipeline.owesWithin
  rw [h0]
  iintro ⟨%W, -, HO⟩
  iexists W
  iexact HO

theorem launch_mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

section Region

variable (pd : (p : Fin 3) → (c : Dev nD) → Dat τ (Elt F) Unit ℕ (UR sig nD τ) ℕ (cfgs p) c)
  (p : Fin 3) (c : Dev nD) (V : Valuation τ sig (Elt F)) (wo : Fin (cfgs p).W)

-- Every window but `wo` is an input, so its array ends as entered; the arrays are distinct, so updating `wo`'s changes no other.
theorem exit_arr (lf : Pipeline.LaunchFacts (nD := nD) (τ := τ) cfgs p) (hio : ∀ w, w ≠ wo → ((cfgs p).win w).isOut = false)
    (hA : ∀ w, (pd p c).A w = V (Pipeline.arrRef (cfgs p).spec w)) (w : Fin (cfgs p).W) :
    (pd p c).arrAt w (cfgs p).N = Function.update (β := fun b : DevRef τ sig => b.ty.Contents (Elt F)) V
      (Proc.devRef .tc (Pipeline.arrRef (cfgs p).spec wo)) ((pd p c).arrAt wo (cfgs p).N) (Pipeline.arrRef (cfgs p).spec w) := by
  by_cases h : w = wo
  · subst h; exact Eq.symm (Function.update_self ..)
  · exact ((pd p c).arrAt_in w (hio w h) _).trans ((hA w).trans <| Eq.symm <|
      Function.update_of_ne (StableHlo.devRef_ne_of_ne fun e => h (lf.win.arr_inj e)) ..)

theorem exit_rest (x) (b : Ref sig .tc) (hb : b ∉ Finset.univ.image (Pipeline.arrRef (cfgs p).spec)) :
    Function.update (β := fun b : DevRef τ sig => b.ty.Contents (Elt F)) V (Proc.devRef .tc (Pipeline.arrRef (cfgs p).spec wo)) x b = V b :=
  Function.update_of_ne (StableHlo.devRef_ne_of_ne fun e => hb (Finset.mem_image.mpr ⟨wo, Finset.mem_univ _, e.symm⟩)) ..

end Region

section Region

variable (pd : (p : Fin 3) → (c : Dev nD) → Dat τ (Elt F) Unit ℕ (UR sig nD τ) ℕ (cfgs p) c)

-- Region `p` as a segment from the valuation `V` to `V'`, which is `V` updated at the one output array.
def regSeg (p : Fin 3) (lf : Pipeline.LaunchFacts (nD := nD) (τ := τ) cfgs p) (V V' : Dev nD → Valuation τ sig (Elt F))
    (wo : Fin (cfgs p).W) (hio : ∀ w, w ≠ wo → ((cfgs p).win w).isOut = false)
    (hV' : ∀ c, V' c = Function.update (β := fun b : DevRef τ sig => b.ty.Contents (Elt F)) (V c) (Proc.devRef .tc (Pipeline.arrRef (cfgs p).spec wo)) ((pd p c).arrAt wo (cfgs p).N))
    (hA : ∀ c w, (pd p c).A w = V c (Pipeline.arrRef (cfgs p).spec w))
    (hq : ∀ c w, (pd p c).q w = fullShare) (ho : ∀ c t, (pd p c).owed t = 0) (hr : ∀ c, (pd p c).recorded 0 = Set.univ)
    (hb : ∀ c, BodyObligation (pd p c) (defs₀ (F := F)) Variants.none () Set.univ)
    (hΦi : ∀ c, (Pipeline.ΦA (cfgs p).spec c : sProp 𝕄) ⊢ (pd p c).Φ 0)
    (hΦo : ∀ c, (pd p c).Φ (Fin.last (cfgs p).N) ⊢ (Pipeline.ΦA (cfgs p).spec c : sProp 𝕄)) :
    Pipeline.RegionSeg (pcfgs (F := F)) adm pd () defs₀ Variants.none noLevels levelZero p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ noLevels levelZero p ho
  pre c := iprop(StableHlo.held (c : Thread nD τ) (Pipeline.ucRefs τ sig) (V c) ∗ Beside c)
  post c := iprop(StableHlo.held (c : Thread nD τ) (Pipeline.ucRefs τ sig) (V' c) ∗ Beside c)
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := by
    rw [Pipeline.ownSems0_none]
    have hsplit := Pipeline.arrays_of_unscopedBufs (p := p) (pcfgs (F := F)) adm pd lf.win lf.arr_whole c
      ((pd p c).share_full (hq c)) (fun b => V c b) (hA c)
    rw [Pipeline.unscopedBufs_held] at hsplit
    iintro ⟨⟨Hub, Hp, HO⟩, -, -⟩
    ihave H := hsplit $$ Hub
    icases H with ⟨Ha, Hrest⟩
    ihave HO' := launch_owes_in (pd p c) (ho c 0) (hr c) $$ HO
    imodintro
    isplitl [Ha]; · iexact Ha
    isplitr; · unfold Pipeline.prefHeld; rw [show (Finset.univ : Finset (Fin 0)) = ∅ from rfl, BI.bigSep_empty]; iempintro
    isplitl [HO']; · iexact HO'
    isplitl [Hp] <;> iassumption
  hin c := by
    refine .trans ?_ (hΦi c)
    unfold Pipeline.ΦA
    iintro ⟨Hp, -, Hr⟩
    isplitl [Hr] <;> iassumption
  hout c := by
    refine (hΦo c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pd ((pd p c).share_full (hq c)) (fun b => V c b) (fun b => V' c b) ((pd p c).arrAt · (cfgs p).N)
      (fun w => hV' c ▸ exit_arr pd p c (V c) wo lf hio (hA c) w) (fun b hb => hV' c ▸ exit_rest p (V c) wo _ b hb)
    rw [Pipeline.unscopedBufs_held] at hjoin
    iintro ⟨Ha, HO, HY, Hrest⟩
    imodintro
    isplitl [Ha Hrest]
    · iapply hjoin; isplitl [Ha] <;> iassumption
    isplitl [HY]; · iexact HY
    iapply launch_owes_out (pd p c) (Fin.last (cfgs p).N) (ho c _); iexact HO

end Region

variable (m : (ℓ : Loc nD τ sig) → Buf (Elt F) ℓ) (ρ : Dev nD → PrngReg) (outs : Gen.Outs (F := F))
variable (dat0 : (c : Dev nD) → Dat τ (Elt F) Unit ℕ (UR sig nD τ) ℕ cfg0 c)
  (dat1 : (c : Dev nD) → Dat τ (Elt F) Unit ℕ (UR sig nD τ) ℕ cfg1 c)
  (dat2 : (c : Dev nD) → Dat τ (Elt F) Unit ℕ (UR sig nD τ) ℕ cfg2 c)

def launchDats : (p : Fin 3) → (c : Dev nD) → Dat τ (Elt F) Unit ℕ (UR sig nD τ) ℕ (cfgs p) c
  | ⟨0, _⟩ => dat0
  | ⟨1, _⟩ => dat1
  | ⟨2, _⟩ => dat2

abbrev besideAll : Fin 4 → Dev nD → sProp 𝕄 := fun _ c => Beside c

variable
    (hA0 : ∀ c w, (dat0 c).A w = Gen.V1 m c (Pipeline.arrRef spec0 w))
    (hq0 : ∀ c w, (dat0 c).q w = fullShare) (ho0 : ∀ c t, (dat0 c).owed t = 0) (hr0 : ∀ c, (dat0 c).recorded 0 = Set.univ)
    (hb0 : ∀ c, BodyObligation (dat0 c) (defs₀ (F := F)) Variants.none () Set.univ)
    (hin0 : ∀ c, (Pipeline.ΦA spec0 c : sProp (MT nD τ sig Unit (Elt F) ℕ (UR sig nD τ) ℕ)) ⊢ (dat0 c).Φ 0) (hout0 : ∀ c, (dat0 c).Φ (Fin.last cfg0.N) ⊢ (Pipeline.ΦA spec0 c : sProp (MT nD τ sig Unit (Elt F) ℕ (UR sig nD τ) ℕ)))
    (h1 : ∀ c, outs 2 main_v1 c = (dat0 c).arrAt 4 cfg0.N)
    (hA1 : ∀ c w, (dat1 c).A w = Gen.V4 m outs c (Pipeline.arrRef spec1 w))
    (hq1 : ∀ c w, (dat1 c).q w = fullShare) (ho1 : ∀ c t, (dat1 c).owed t = 0) (hr1 : ∀ c, (dat1 c).recorded 0 = Set.univ)
    (hb1 : ∀ c, BodyObligation (dat1 c) (defs₀ (F := F)) Variants.none () Set.univ)
    (hin1 : ∀ c, (Pipeline.ΦA spec1 c : sProp (MT nD τ sig Unit (Elt F) ℕ (UR sig nD τ) ℕ)) ⊢ (dat1 c).Φ 0) (hout1 : ∀ c, (dat1 c).Φ (Fin.last cfg1.N) ⊢ (Pipeline.ΦA spec1 c : sProp (MT nD τ sig Unit (Elt F) ℕ (UR sig nD τ) ℕ)))
    (h2 : ∀ c, outs 5 main_v22 c = (dat1 c).arrAt 4 cfg1.N)
    (hA2 : ∀ c w, (dat2 c).A w = Gen.V7 m outs c (Pipeline.arrRef spec2 w))
    (hq2 : ∀ c w, (dat2 c).q w = fullShare) (ho2 : ∀ c t, (dat2 c).owed t = 0) (hr2 : ∀ c, (dat2 c).recorded 0 = Set.univ)
    (hb2 : ∀ c, BodyObligation (dat2 c) (defs₀ (F := F)) Variants.none () Set.univ)
    (hin2 : ∀ c, (Pipeline.ΦA spec2 c : sProp (MT nD τ sig Unit (Elt F) ℕ (UR sig nD τ) ℕ)) ⊢ (dat2 c).Φ 0) (hout2 : ∀ c, (dat2 c).Φ (Fin.last cfg2.N) ⊢ (Pipeline.ΦA spec2 c : sProp (MT nD τ sig Unit (Elt F) ℕ (UR sig nD τ) ℕ)))
    (h3 : ∀ c, outs 8 main_v43 c = (dat2 c).arrAt 4 cfg2.N)

include hA0 hq0 ho0 hr0 hb0 hin0 hout0 h1 hA1 hq1 ho1 hr1 hb1 hin1 hout1 h2 hA2 hq2 ho2 hr2 hb2 hin2 hout2 h3

theorem run_all :
    θ_run defs (onTc (τ := τ) (main (F := F))) ⟨m, fun _ => 0, ρ⟩
      (fun r => ∀ c : Dev nD, ∀ b ∈ Pipeline.ucRefs τ sig, r.2.mem ((c : Thread nD τ).1, b) = Gen.V9 m outs c b) := by
  let pd := launchDats dat0 dat1 dat2
  let R0 := regSeg pd 0 launch0 (Gen.V1 m) (Gen.V2 m outs) (4 : Fin 5) (by decide) (fun c => congrArg _ (h1 c)) hA0 hq0 ho0 hr0 hb0 hin0 hout0
  let R1 := regSeg pd 1 launch1 (Gen.V4 m outs) (Gen.V5 m outs) (4 : Fin 5) (by decide) (fun c => congrArg _ (h2 c)) hA1 hq1 ho1 hr1 hb1 hin1 hout1
  let R2 := regSeg pd 2 launch2 (Gen.V7 m outs) (Gen.V8 m outs) (4 : Fin 5) (by decide) (fun c => congrArg _ (h3 c)) hA2 hq2 ho2 hr2 hb2 hin2 hout2
  refine Pipeline.θ_run_regions_kit_dev (pcfgs (F := F)) adm pd () cellOf_inj emb₁ defs₀ Variants.none noLevels levelZero m ρ main
    (Gen.segs m outs Variants.none noLevels levelZero besideAll () pd R0 R1 R2)
    (fun c Q => by
      rewrite [main_chain c, Pipeline.Seg.run_eq_chain]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (Gen.V0 m c) ∗ besideAll 0 c))
    (Tₙ := fun c => StableHlo.held (c : Thread nD τ) (Pipeline.ucRefs τ sig) (Gen.V9 m outs c))
    (hch := fun c => ⟨.rfl, .rfl, .rfl, .rfl, .rfl, .rfl, .rfl, .rfl, .rfl,
      sep_mono .rfl (show (besideAll 3 c : sProp 𝕄) ⊢ iprop(∃ W, owes (c : Thread nD τ) (0 : CellTallies nD τ sig Unit) W) from by
        iintro ⟨-, H⟩; iexact H)⟩)
    (hinit := ?_)
    (QY := fun c s => ∀ b ∈ Pipeline.ucRefs τ sig, s.mem ((c : Thread nD τ).1, b) = Gen.V9 m outs c b)
    (hfin := fun c s' => ?_) (hQ := fun _ h => h)
  · iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach noLevels levelZero fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · iintro ⟨Hh, HSI⟩
    unfold StableHlo.held
    imodintro
    iapply (pointsTo_read_all (Pipeline.ucRefs τ sig) (fun b => ((c : Thread nD τ).1, b)) (Gen.V9 m outs c) s')
    isplitl [Hh] <;> iassumption

theorem frame_all :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs (onTc (τ := τ) (main (F := F))) ⟨m, fun _ => 0, ρ⟩).mono (fun r hr c =>
    have key (b : Ref sig .tc) (hb) (hV : Gen.V9 m outs c b = m ((c.tc : Thread nD τ).loc b)) :
        r.2.mem ((c.tc : Thread nD τ).loc b) = m ((c.tc : Thread nD τ).loc b) := (hr c _ (launch_mem_uc b hb)).trans hV
    ⟨key _ (by decide) (Gen.V9_main_arg0 m outs c),
      key _ (by decide) (Gen.V9_main_arg1 m outs c),
      key _ (by decide) (Gen.V9_main_arg2 m outs c),
      key _ (by decide) (Gen.V9_main_arg3 m outs c),
      key _ (by decide) (Gen.V9_main_arg4 m outs c),
      key _ (by decide) (Gen.V9_main_arg5 m outs c),
      key _ (by decide) (Gen.V9_main_arg6 m outs c),
      key _ (by decide) (Gen.V9_main_arg7 m outs c),
      key _ (by decide) (Gen.V9_main_arg8 m outs c),
      key _ (by decide) (Gen.V9_main_arg9 m outs c),
      key _ (by decide) (Gen.V9_main_arg10 m outs c)⟩)
    (run_all m ρ outs dat0 dat1 dat2 hA0 hq0 ho0 hr0 hb0 hin0 hout0 h1 hA1 hq1 ho1 hr1 hb1 hin1 hout1 h2 hA2 hq2 ho2 hr2 hb2 hin2 hout2 h3)

/-- info: 'Cert.KernelIdeal.Hand.run_all' depends on axioms: [propext, Classical.choice, Quot.sound] -/
#guard_msgs in #print axioms run_all
/-- info: 'Cert.KernelIdeal.Hand.frame_all' depends on axioms: [propext, Classical.choice, Quot.sound] -/
#guard_msgs in #print axioms frame_all

end Cert.KernelIdeal.Hand

end
-- ==== Proof.KI.Region0.lean ====
import proofs.«149576_j9002251452429_1_alg».proof.Proof.Gen.KernelIdeal.Launch
import proofs.«149576_j9002251452429_1_alg».proof.Proof.Gen.KernelIdeal.Skeleton
import proofs.«149576_j9002251452429_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 8 = 0 :=
  (by decide +kernel : ∀ t : Fin grid0.N, cond0_0 (grid0.coords t) ↔ t.val % 8 = 0)

abbrev ms0_0 (t : Fin cfg0.N) : Memref sig .tc .vmem S1x2048x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x32x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x64 .f32 := win0_4.stage (cfg0.slots t 4)
abbrev hs0_4 (t : Fin cfg0.N) : (ms0_4 t).IsWhole := hstage0_4 ((cfg0.slots t 4).cast nbuf0_4)

abbrev scM0_0 : Memref sig .tc .vmem S3x2048x64 .f32 := Memref.whole cc0_scratch0
abbrev hsM0_0 : scM0_0.IsWhole := Memref.isWhole_whole _

abbrev VS0_0 : View sig .tc .vmem S3x2048x64 .f32 := scM0_0.view

abbrev VO0_4 : View sig .tc .vmem S1x256x64 .f32 := (Memref.whole cc0_stg4_0 : Memref sig .tc .vmem S1x256x64 .f32).view

theorem PhiA0_eq (c : Dev nD) :
    (Pipeline.ΦA spec0 c : sProp 𝕄)
      = iprop(iprop((∃ d, owns (c : Thread nD τ) scM0_0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [bigSepL_singleton, scM0_0, owns_whole]; try rfl

section Body

variable (c : Dev nD) (i : grid0.Coords) {arg2 : Memref sig .tc .vmem S1x2048x32 .f32} (harg2 : arg2.IsWhole) {arg3 : Memref sig .tc .vmem S1x256x2048 .f32} (harg3 : arg3.IsWhole)
  {arg4 : Memref sig .tc .vmem S3x32x64 .f32} (harg4 : arg4.IsWhole) {arg5 : Memref sig .tc .vmem S64 .f32} (harg5 : arg5.IsWhole)
  {arg6 : Memref sig .tc .vmem S1x256x64 .f32} (harg6 : arg6.IsWhole) {arg7 : Memref sig .tc .vmem S3x2048x64 .f32} (harg7 : arg7.IsWhole)
  (x0 : Vec F S1x2048x32 .f32) (x1 : Vec F S1x256x2048 .f32) (x2 : Vec F S3x32x64 .f32) (x3 : Vec F S64 .f32)

set_option maxHeartbeats 4000000 in
/-- At a batch's first row tile the body leaves the three products of the features with the weight matrices in the scratch and the normalised rows in the output block. -/
noncomputable def kernelRun0_A (hc0 : cond0_0 i) :
    Σ' (L4 : List (View.Piece (Elt F) S1x256x64 .f32)), { LS0 : List (View.Piece (Elt F) S3x2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, fun E K => ?run⟩
  case run =>
    simp only [cc0_kernel_eq_skeleton]; unfold cc0_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS0

set_option maxHeartbeats 4000000 in
/-- At a later row tile the body only reads the scratch and hands it back as found. -/
noncomputable def kernelRun0_B (hc0 : ¬cond0_0 i) (xs0 : Vec F S3x2048x64 .f32) :
    { L4 : List (View.Piece (Elt F) S1x256x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ owns (c : Thread nD τ) arg7 fullShare xs0) -∗ K ⟨⟩))
          ⊢ wp frame (wpE (defs₀ (F := F)) Variants.none c none) E (cc0_kernel i arg2 harg2 arg3 harg3 arg4 harg4 arg5 harg5 arg6 harg6 arg7 harg7) K } := by
  refine ⟨?_, fun E K => ?run⟩
  case run =>
    simp only [cc0_kernel_eq_skeleton]; unfold cc0_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; isplitr; · ipureintro; exact harg7.read_unread _
    iexact HS0

theorem cover0_A_4 (hc0 : cond0_0 i) (y : S1x256x64.Idx) :
    ∃ pc ∈ (kernelRun0_A c i harg2 harg3 harg4 harg5 harg6 harg7 x0 x1 x2 x3 hc0).1, y ∈ pc.1.set :=
  View.cover_of_tiledL (kernelRun0_A c i harg2 harg3 harg4 harg5 harg6 harg7 x0 x1 x2 x3 hc0).1 S1x256x64.size (by sl_kernel_rfl) y

def out0_A_4 (hc0 : cond0_0 i) : Vec F S1x256x64 .f32 :=
  VO0_4.read (Elt F) (VO0_4.writes (Elt F) VO0_4.junk (kernelRun0_A c i harg2 harg3 harg4 harg5 harg6 harg7 x0 x1 x2 x3 hc0).1)

theorem scover0_A_0 (hc0 : cond0_0 i) (y : S3x2048x64.Idx) :
    ∃ pc ∈ (kernelRun0_A c i harg2 harg3 harg4 harg5 harg6 harg7 x0 x1 x2 x3 hc0).2.1, y ∈ pc.1.set :=
  View.cover_of_tiledL (kernelRun0_A c i harg2 harg3 harg4 harg5 harg6 harg7 x0 x1 x2 x3 hc0).2.1 S1x2048x64.size (by sl_kernel_rfl) y

def sout0_A_0 (hc0 : cond0_0 i) : Vec F S3x2048x64 .f32 :=
  VS0_0.read (Elt F) (VS0_0.writes (Elt F) VS0_0.junk (kernelRun0_A c i harg2 harg3 harg4 harg5 harg6 harg7 x0 x1 x2 x3 hc0).2.1)

theorem cover0_B_4 (hc0 : ¬cond0_0 i) (xs0 : Vec F S3x2048x64 .f32) (y : S1x256x64.Idx) :
    ∃ pc ∈ (kernelRun0_B c i harg2 harg3 harg4 harg5 harg6 harg7 x0 x1 x2 x3 hc0 xs0).1, y ∈ pc.1.set :=
  View.cover_of_tiledL (kernelRun0_B c i harg2 harg3 harg4 harg5 harg6 harg7 x0 x1 x2 x3 hc0 xs0).1 S1x256x64.size (by sl_kernel_rfl) y

def out0_B_4 (hc0 : ¬cond0_0 i) (xs0 : Vec F S3x2048x64 .f32) : Vec F S1x256x64 .f32 :=
  VO0_4.read (Elt F) (VO0_4.writes (Elt F) VO0_4.junk (kernelRun0_B c i harg2 harg3 harg4 harg5 harg6 harg7 x0 x1 x2 x3 hc0 xs0).1)

end Body

section Region

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def atA0 (c : Dev nD) (t : Fin cfg0.N) (h : cond0_0 (grid0.coords t)) : Vec F S1x256x64 .f32 × Vec F S3x2048x64 .f32 :=
  (out0_A_4 c (grid0.coords t) (hs0_0 t) (hs0_1 t) (hs0_2 t) (hs0_3 t) (hs0_4 t) hsM0_0 (iblk0 V c 0 t) (iblk0 V c 1 t) (iblk0 V c 2 t) (iblk0 V c 3 t) h, sout0_A_0 c (grid0.coords t) (hs0_0 t) (hs0_1 t) (hs0_2 t) (hs0_3 t) (hs0_4 t) hsM0_0 (iblk0 V c 0 t) (iblk0 V c 1 t) (iblk0 V c 2 t) (iblk0 V c 3 t) h)

def atB0 (c : Dev nD) (t : Fin cfg0.N) (h : ¬cond0_0 (grid0.coords t)) (xs : Vec F S3x2048x64 .f32) : Vec F S1x256x64 .f32 × Vec F S3x2048x64 .f32 :=
  (out0_B_4 c (grid0.coords t) (hs0_0 t) (hs0_1 t) (hs0_2 t) (hs0_3 t) (hs0_4 t) hsM0_0 (iblk0 V c 0 t) (iblk0 V c 1 t) (iblk0 V c 2 t) (iblk0 V c 3 t) h xs, xs)

/-- The output block and the scratch after grid position `n`, by the position's case. -/
def outsAt0 (c : Dev nD) : (n : ℕ) → n < cfg0.N → Vec F S1x256x64 .f32 × Vec F S3x2048x64 .f32
  | 0, hn => atA0 V c ⟨0, hn⟩ ((hcond0_0 _).mpr (Nat.zero_mod _))
  | n + 1, hn =>
    if h0 : (n + 1) % 8 = 0 then atA0 V c ⟨n + 1, hn⟩ ((hcond0_0 _).mpr h0)
    else atB0 V c ⟨n + 1, hn⟩ (fun h => h0 ((hcond0_0 _).mp h)) (outsAt0 c n (Nat.lt_of_succ_lt hn)).2

theorem outsAt0_A (c : Dev nD) (t : Fin cfg0.N) (h0 : t.val % 8 = 0) :
    outsAt0 V c t.val t.isLt = atA0 V c t ((hcond0_0 t).mpr h0) := by
  obtain ⟨n, hn⟩ := t
  cases n with
  | zero => exact rfl
  | succ n => exact (dif_pos h0).trans rfl

theorem outsAt0_B (c : Dev nD) (t : Fin cfg0.N) (h0 : ¬t.val % 8 = 0) :
    outsAt0 V c t.val t.isLt = atB0 V c t (fun h => h0 ((hcond0_0 t).mp h)) (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem q_eq0 (c : Dev nD) (w : Fin cfg0.W) : (dat0 V c).q w = fullShare := rfl

theorem owed_eq0 (c : Dev nD) (t : Fin (cfg0.N + 1)) : (dat0 V c).owed t = 0 := rfl

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

/-- At every position the invariant holds the scratch at some contents. -/
theorem Phi_open0 (c : Dev nD) : ∀ (n : ℕ) (h : n ≤ cfg0.N), PhiS0 V c n h ⊢ iprop(iprop((∃ d, owns (c : Thread nD τ) scM0_0 fullShare d) ∗ Pipeline.scopedRestBut (Ix := Unit) (Name := ℕ) (U := UR sig nD τ) (Lvl := ℕ) (Val := Elt F) spec0 c [cc0_scratch0]) ∗ (∃ r, prngReg c r))
  | 0, _ => by rw [PhiS0_zero V c 0 _ rfl, PhiA0_eq]
  | n + 1, hn => by
    rw [PhiS0_succ]
    iintro ⟨⟨HS0, HR⟩, Hg⟩
    iframe HR Hg
    iexists _; iexact HS0

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4]
  by_cases h0 : t.val % 8 = 0
  · rw [outsAt0_A V c t h0]
    unfold atA0 out0_A_4 sout0_A_0; (try dsimp only)
    rw [PhiS0_castSucc V c t]
    iintro ⟨HΦ, Ho, ⟨%d0, H0⟩, ⟨%d1, H1⟩, ⟨%d2, H2⟩, ⟨%d3, H3⟩, ⟨%d4, H4⟩⟩
    ihave HΦ' := Phi_open0 V c _ _ $$ HΦ
    icases HΦ' with ⟨⟨HS0, HR⟩, Hg⟩
    iapply ((kernelRun0_A c (grid0.coords t) _ _ _ _ _ _ (iblk0 V c 0 t) (iblk0 V c 1 t) (iblk0 V c 2 t) (iblk0 V c 3 t) ((hcond0_0 t).mpr h0)).2.2 Set.univ _)
    iframe H0 H1 H2 H3 HS0
    isplitl [H4]; · iexists _; iexact H4
    iintro ⟨H0, H1, H2, H3, ⟨%e4, H4⟩, ⟨%es0, HS0⟩⟩
    iframe HR Hg Ho H0 H1 H2 H3
    isplitl [HS0]
    · unfold owns; iexists _; isplitr
      swap; · iexact HS0
      ipureintro; exact View.read_writes_of_cover _ _ _ _ _ (scover0_A_0 c _ _ _ _ _ _ _ _ _ _ _ _)
    unfold owns; iexists _; isplitr
    swap; · iexact H4
    ipureintro
    exact View.read_writes_of_cover _ _ _ _ _ (cover0_A_4 c _ _ _ _ _ _ _ _ _ _ _ _)
  · rw [outsAt0_B V c t h0]
    unfold atB0 out0_B_4; (try dsimp only)
    have hz : t.val ≠ 0 := fun e => h0 (by rw [e])
    · rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun0_B c (grid0.coords t) _ _ _ _ _ _ (iblk0 V c 0 t) (iblk0 V c 1 t) (iblk0 V c 2 t) (iblk0 V c 3 t) (fun h => h0 ((hcond0_0 t).mp h)) _).2 Set.univ _)
      iframe H0 H1 H2 H3 HS0
      isplitl [H4]; · iexists _; iexact H4
      iintro ⟨H0, H1, H2, H3, ⟨%e4, H4⟩, HS0⟩
      iframe HS0 HR Hg Ho H0 H1 H2 H3
      unfold owns; iexists _; isplitr
      swap; · iexact H4
      ipureintro
      exact View.read_writes_of_cover _ _ _ _ _ (cover0_B_4 c _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  rw [PhiA0_eq]; exact Phi_open0 V c (Fin.last cfg0.N).val (Nat.le_of_lt_succ (Fin.last cfg0.N).isLt)

end Region

end Cert.KernelIdeal.Hand

end
-- ==== Proof.KI.Region1.lean ====
import proofs.«149576_j9002251452429_1_alg».proof.Proof.Gen.KernelIdeal.Launch
import proofs.«149576_j9002251452429_1_alg».proof.Proof.Gen.KernelIdeal.Skeleton
import proofs.«149576_j9002251452429_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 8 = 0 :=
  (by decide +kernel : ∀ t : Fin grid1.N, cond1_0 (grid1.coords t) ↔ t.val % 8 = 0)

abbrev ms1_0 (t : Fin cfg1.N) : Memref sig .tc .vmem S1x2048x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S3x64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256x64 .f32 := win1_4.stage (cfg1.slots t 4)
abbrev hs1_4 (t : Fin cfg1.N) : (ms1_4 t).IsWhole := hstage1_4 ((cfg1.slots t 4).cast nbuf1_4)

abbrev scM1_0 : Memref sig .tc .vmem S3x2048x64 .f32 := Memref.whole cc1_scratch0
abbrev hsM1_0 : scM1_0.IsWhole := Memref.isWhole_whole _

abbrev VS1_0 : View sig .tc .vmem S3x2048x64 .f32 := scM1_0.view

abbrev VO1_4 : View sig .tc .vmem S1x256x64 .f32 := (Memref.whole cc1_stg4_0 : Memref sig .tc .vmem S1x256x64 .f32).view

theorem PhiA1_eq (c : Dev nD) :
    (Pipeline.ΦA spec1 c : sProp 𝕄)
      = iprop(iprop((∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [bigSepL_singleton, scM1_0, owns_whole]; try rfl

section Body

variable (c : Dev nD) (i : grid1.Coords) {arg2 : Memref sig .tc .vmem S1x2048x64 .f32} (harg2 : arg2.IsWhole) {arg3 : Memref sig .tc .vmem S1x256x2048 .f32} (harg3 : arg3.IsWhole)
  {arg4 : Memref sig .tc .vmem S3x64x64 .f32} (harg4 : arg4.IsWhole) {arg5 : Memref sig .tc .vmem S64 .f32} (harg5 : arg5.IsWhole)
  {arg6 : Memref sig .tc .vmem S1x256x64 .f32} (harg6 : arg6.IsWhole) {arg7 : Memref sig .tc .vmem S3x2048x64 .f32} (harg7 : arg7.IsWhole)
  (x0 : Vec F S1x2048x64 .f32) (x1 : Vec F S1x256x2048 .f32) (x2 : Vec F S3x64x64 .f32) (x3 : Vec F S64 .f32)

set_option maxHeartbeats 4000000 in
/-- At a batch's first row tile the body leaves the three products of the features with the weight matrices in the scratch and the normalised rows in the output block. -/
noncomputable def kernelRun1_A (hc0 : cond1_0 i) :
    Σ' (L4 : List (View.Piece (Elt F) S1x256x64 .f32)), { LS0 : List (View.Piece (Elt F) S3x2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc1_kernel i arg2 harg2 arg3 harg3 arg4 harg4 arg5 harg5 arg6 harg6 arg7 harg7) K } := by
  refine ⟨?_, ?_, fun E K => ?run⟩
  case run =>
    simp only [cc1_kernel_eq_skeleton]; unfold cc1_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS0

set_option maxHeartbeats 4000000 in
/-- At a later row tile the body only reads the scratch and hands it back as found. -/
noncomputable def kernelRun1_B (hc0 : ¬cond1_0 i) (xs0 : Vec F S3x2048x64 .f32) :
    { L4 : List (View.Piece (Elt F) S1x256x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ owns (c : Thread nD τ) arg7 fullShare xs0) -∗ K ⟨⟩))
          ⊢ wp frame (wpE (defs₀ (F := F)) Variants.none c none) E (cc1_kernel i arg2 harg2 arg3 harg3 arg4 harg4 arg5 harg5 arg6 harg6 arg7 harg7) K } := by
  refine ⟨?_, fun E K => ?run⟩
  case run =>
    simp only [cc1_kernel_eq_skeleton]; unfold cc1_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; isplitr; · ipureintro; exact harg7.read_unread _
    iexact HS0

theorem cover1_A_4 (hc0 : cond1_0 i) (y : S1x256x64.Idx) :
    ∃ pc ∈ (kernelRun1_A c i harg2 harg3 harg4 harg5 harg6 harg7 x0 x1 x2 x3 hc0).1, y ∈ pc.1.set :=
  View.cover_of_tiledL (kernelRun1_A c i harg2 harg3 harg4 harg5 harg6 harg7 x0 x1 x2 x3 hc0).1 S1x256x64.size (by sl_kernel_rfl) y

def out1_A_4 (hc0 : cond1_0 i) : Vec F S1x256x64 .f32 :=
  VO1_4.read (Elt F) (VO1_4.writes (Elt F) VO1_4.junk (kernelRun1_A c i harg2 harg3 harg4 harg5 harg6 harg7 x0 x1 x2 x3 hc0).1)

theorem scover1_A_0 (hc0 : cond1_0 i) (y : S3x2048x64.Idx) :
    ∃ pc ∈ (kernelRun1_A c i harg2 harg3 harg4 harg5 harg6 harg7 x0 x1 x2 x3 hc0).2.1, y ∈ pc.1.set :=
  View.cover_of_tiledL (kernelRun1_A c i harg2 harg3 harg4 harg5 harg6 harg7 x0 x1 x2 x3 hc0).2.1 S1x2048x64.size (by sl_kernel_rfl) y

def sout1_A_0 (hc0 : cond1_0 i) : Vec F S3x2048x64 .f32 :=
  VS1_0.read (Elt F) (VS1_0.writes (Elt F) VS1_0.junk (kernelRun1_A c i harg2 harg3 harg4 harg5 harg6 harg7 x0 x1 x2 x3 hc0).2.1)

theorem cover1_B_4 (hc0 : ¬cond1_0 i) (xs0 : Vec F S3x2048x64 .f32) (y : S1x256x64.Idx) :
    ∃ pc ∈ (kernelRun1_B c i harg2 harg3 harg4 harg5 harg6 harg7 x0 x1 x2 x3 hc0 xs0).1, y ∈ pc.1.set :=
  View.cover_of_tiledL (kernelRun1_B c i harg2 harg3 harg4 harg5 harg6 harg7 x0 x1 x2 x3 hc0 xs0).1 S1x256x64.size (by sl_kernel_rfl) y

def out1_B_4 (hc0 : ¬cond1_0 i) (xs0 : Vec F S3x2048x64 .f32) : Vec F S1x256x64 .f32 :=
  VO1_4.read (Elt F) (VO1_4.writes (Elt F) VO1_4.junk (kernelRun1_B c i harg2 harg3 harg4 harg5 harg6 harg7 x0 x1 x2 x3 hc0 xs0).1)

end Body

section Region

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def atA1 (c : Dev nD) (t : Fin cfg1.N) (h : cond1_0 (grid1.coords t)) : Vec F S1x256x64 .f32 × Vec F S3x2048x64 .f32 :=
  (out1_A_4 c (grid1.coords t) (hs1_0 t) (hs1_1 t) (hs1_2 t) (hs1_3 t) (hs1_4 t) hsM1_0 (iblk1 V c 0 t) (iblk1 V c 1 t) (iblk1 V c 2 t) (iblk1 V c 3 t) h, sout1_A_0 c (grid1.coords t) (hs1_0 t) (hs1_1 t) (hs1_2 t) (hs1_3 t) (hs1_4 t) hsM1_0 (iblk1 V c 0 t) (iblk1 V c 1 t) (iblk1 V c 2 t) (iblk1 V c 3 t) h)

def atB1 (c : Dev nD) (t : Fin cfg1.N) (h : ¬cond1_0 (grid1.coords t)) (xs : Vec F S3x2048x64 .f32) : Vec F S1x256x64 .f32 × Vec F S3x2048x64 .f32 :=
  (out1_B_4 c (grid1.coords t) (hs1_0 t) (hs1_1 t) (hs1_2 t) (hs1_3 t) (hs1_4 t) hsM1_0 (iblk1 V c 0 t) (iblk1 V c 1 t) (iblk1 V c 2 t) (iblk1 V c 3 t) h xs, xs)

/-- The output block and the scratch after grid position `n`, by the position's case. -/
def outsAt1 (c : Dev nD) : (n : ℕ) → n < cfg1.N → Vec F S1x256x64 .f32 × Vec F S3x2048x64 .f32
  | 0, hn => atA1 V c ⟨0, hn⟩ ((hcond1_0 _).mpr (Nat.zero_mod _))
  | n + 1, hn =>
    if h0 : (n + 1) % 8 = 0 then atA1 V c ⟨n + 1, hn⟩ ((hcond1_0 _).mpr h0)
    else atB1 V c ⟨n + 1, hn⟩ (fun h => h0 ((hcond1_0 _).mp h)) (outsAt1 c n (Nat.lt_of_succ_lt hn)).2

theorem outsAt1_A (c : Dev nD) (t : Fin cfg1.N) (h0 : t.val % 8 = 0) :
    outsAt1 V c t.val t.isLt = atA1 V c t ((hcond1_0 t).mpr h0) := by
  obtain ⟨n, hn⟩ := t
  cases n with
  | zero => exact rfl
  | succ n => exact (dif_pos h0).trans rfl

theorem outsAt1_B (c : Dev nD) (t : Fin cfg1.N) (h0 : ¬t.val % 8 = 0) :
    outsAt1 V c t.val t.isLt = atB1 V c t (fun h => h0 ((hcond1_0 t).mp h)) (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem q_eq1 (c : Dev nD) (w : Fin cfg1.W) : (dat1 V c).q w = fullShare := rfl

theorem owed_eq1 (c : Dev nD) (t : Fin (cfg1.N + 1)) : (dat1 V c).owed t = 0 := rfl

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

/-- At every position the invariant holds the scratch at some contents. -/
theorem Phi_open1 (c : Dev nD) : ∀ (n : ℕ) (h : n ≤ cfg1.N), PhiS1 V c n h ⊢ iprop(iprop((∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r))
  | 0, _ => by rw [PhiS1_zero V c 0 _ rfl, PhiA1_eq]
  | n + 1, hn => by
    rw [PhiS1_succ]
    iintro ⟨⟨HS0, HR⟩, Hg⟩
    iframe HR Hg
    iexists _; iexact HS0

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4]
  by_cases h0 : t.val % 8 = 0
  · rw [outsAt1_A V c t h0]
    unfold atA1 out1_A_4 sout1_A_0; (try dsimp only)
    rw [PhiS1_castSucc V c t]
    iintro ⟨HΦ, Ho, ⟨%d0, H0⟩, ⟨%d1, H1⟩, ⟨%d2, H2⟩, ⟨%d3, H3⟩, ⟨%d4, H4⟩⟩
    ihave HΦ' := Phi_open1 V c _ _ $$ HΦ
    icases HΦ' with ⟨⟨HS0, HR⟩, Hg⟩
    iapply ((kernelRun1_A c (grid1.coords t) _ _ _ _ _ _ (iblk1 V c 0 t) (iblk1 V c 1 t) (iblk1 V c 2 t) (iblk1 V c 3 t) ((hcond1_0 t).mpr h0)).2.2 Set.univ _)
    iframe H0 H1 H2 H3 HS0
    isplitl [H4]; · iexists _; iexact H4
    iintro ⟨H0, H1, H2, H3, ⟨%e4, H4⟩, ⟨%es0, HS0⟩⟩
    iframe HR Hg Ho H0 H1 H2 H3
    isplitl [HS0]
    · unfold owns; iexists _; isplitr
      swap; · iexact HS0
      ipureintro; exact View.read_writes_of_cover _ _ _ _ _ (scover1_A_0 c _ _ _ _ _ _ _ _ _ _ _ _)
    unfold owns; iexists _; isplitr
    swap; · iexact H4
    ipureintro
    exact View.read_writes_of_cover _ _ _ _ _ (cover1_A_4 c _ _ _ _ _ _ _ _ _ _ _ _)
  · rw [outsAt1_B V c t h0]
    unfold atB1 out1_B_4; (try dsimp only)
    have hz : t.val ≠ 0 := fun e => h0 (by rw [e])
    · rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun1_B c (grid1.coords t) _ _ _ _ _ _ (iblk1 V c 0 t) (iblk1 V c 1 t) (iblk1 V c 2 t) (iblk1 V c 3 t) (fun h => h0 ((hcond1_0 t).mp h)) _).2 Set.univ _)
      iframe H0 H1 H2 H3 HS0
      isplitl [H4]; · iexists _; iexact H4
      iintro ⟨H0, H1, H2, H3, ⟨%e4, H4⟩, HS0⟩
      iframe HS0 HR Hg Ho H0 H1 H2 H3
      unfold owns; iexists _; isplitr
      swap; · iexact H4
      ipureintro
      exact View.read_writes_of_cover _ _ _ _ _ (cover1_B_4 c _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [PhiA1_eq]; exact Phi_open1 V c (Fin.last cfg1.N).val (Nat.le_of_lt_succ (Fin.last cfg1.N).isLt)

end Region

end Cert.KernelIdeal.Hand

end
-- ==== Proof.KI.Region2.lean ====
import proofs.«149576_j9002251452429_1_alg».proof.Proof.Gen.KernelIdeal.Launch
import proofs.«149576_j9002251452429_1_alg».proof.Proof.Gen.KernelIdeal.Skeleton
import proofs.«149576_j9002251452429_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 8 = 0 :=
  (by decide +kernel : ∀ t : Fin grid2.N, cond2_0 (grid2.coords t) ↔ t.val % 8 = 0)

abbrev ms2_0 (t : Fin cfg2.N) : Memref sig .tc .vmem S1x2048x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x256x2048 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S3x64x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x256x64 .f32 := win2_4.stage (cfg2.slots t 4)
abbrev hs2_4 (t : Fin cfg2.N) : (ms2_4 t).IsWhole := hstage2_4 ((cfg2.slots t 4).cast nbuf2_4)

abbrev scM2_0 : Memref sig .tc .vmem S3x2048x64 .f32 := Memref.whole cc2_scratch0
abbrev hsM2_0 : scM2_0.IsWhole := Memref.isWhole_whole _

abbrev VS2_0 : View sig .tc .vmem S3x2048x64 .f32 := scM2_0.view

abbrev VO2_4 : View sig .tc .vmem S1x256x64 .f32 := (Memref.whole cc2_stg4_0 : Memref sig .tc .vmem S1x256x64 .f32).view

theorem PhiA2_eq (c : Dev nD) :
    (Pipeline.ΦA spec2 c : sProp 𝕄)
      = iprop(iprop((∃ d, owns (c : Thread nD τ) scM2_0 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [bigSepL_singleton, scM2_0, owns_whole]; try rfl

section Body

variable (c : Dev nD) (i : grid2.Coords) {arg2 : Memref sig .tc .vmem S1x2048x64 .f32} (harg2 : arg2.IsWhole) {arg3 : Memref sig .tc .vmem S1x256x2048 .f32} (harg3 : arg3.IsWhole)
  {arg4 : Memref sig .tc .vmem S3x64x64 .f32} (harg4 : arg4.IsWhole) {arg5 : Memref sig .tc .vmem S64 .f32} (harg5 : arg5.IsWhole)
  {arg6 : Memref sig .tc .vmem S1x256x64 .f32} (harg6 : arg6.IsWhole) {arg7 : Memref sig .tc .vmem S3x2048x64 .f32} (harg7 : arg7.IsWhole)
  (x0 : Vec F S1x2048x64 .f32) (x1 : Vec F S1x256x2048 .f32) (x2 : Vec F S3x64x64 .f32) (x3 : Vec F S64 .f32)

set_option maxHeartbeats 4000000 in
/-- At a batch's first row tile the body leaves the three products of the features with the weight matrices in the scratch and the normalised rows in the output block. -/
noncomputable def kernelRun2_A (hc0 : cond2_0 i) :
    Σ' (L4 : List (View.Piece (Elt F) S1x256x64 .f32)), { LS0 : List (View.Piece (Elt F) S3x2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc2_kernel i arg2 harg2 arg3 harg3 arg4 harg4 arg5 harg5 arg6 harg6 arg7 harg7) K } := by
  refine ⟨?_, ?_, fun E K => ?run⟩
  case run =>
    simp only [cc2_kernel_eq_skeleton]; unfold cc2_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS0

set_option maxHeartbeats 4000000 in
/-- At a later row tile the body only reads the scratch and hands it back as found. -/
noncomputable def kernelRun2_B (hc0 : ¬cond2_0 i) (xs0 : Vec F S3x2048x64 .f32) :
    { L4 : List (View.Piece (Elt F) S1x256x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ owns (c : Thread nD τ) arg7 fullShare xs0) -∗ K ⟨⟩))
          ⊢ wp frame (wpE (defs₀ (F := F)) Variants.none c none) E (cc2_kernel i arg2 harg2 arg3 harg3 arg4 harg4 arg5 harg5 arg6 harg6 arg7 harg7) K } := by
  refine ⟨?_, fun E K => ?run⟩
  case run =>
    simp only [cc2_kernel_eq_skeleton]; unfold cc2_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; isplitr; · ipureintro; exact harg7.read_unread _
    iexact HS0

theorem cover2_A_4 (hc0 : cond2_0 i) (y : S1x256x64.Idx) :
    ∃ pc ∈ (kernelRun2_A c i harg2 harg3 harg4 harg5 harg6 harg7 x0 x1 x2 x3 hc0).1, y ∈ pc.1.set :=
  View.cover_of_tiledL (kernelRun2_A c i harg2 harg3 harg4 harg5 harg6 harg7 x0 x1 x2 x3 hc0).1 S1x256x64.size (by sl_kernel_rfl) y

def out2_A_4 (hc0 : cond2_0 i) : Vec F S1x256x64 .f32 :=
  VO2_4.read (Elt F) (VO2_4.writes (Elt F) VO2_4.junk (kernelRun2_A c i harg2 harg3 harg4 harg5 harg6 harg7 x0 x1 x2 x3 hc0).1)

theorem scover2_A_0 (hc0 : cond2_0 i) (y : S3x2048x64.Idx) :
    ∃ pc ∈ (kernelRun2_A c i harg2 harg3 harg4 harg5 harg6 harg7 x0 x1 x2 x3 hc0).2.1, y ∈ pc.1.set :=
  View.cover_of_tiledL (kernelRun2_A c i harg2 harg3 harg4 harg5 harg6 harg7 x0 x1 x2 x3 hc0).2.1 S1x2048x64.size (by sl_kernel_rfl) y

def sout2_A_0 (hc0 : cond2_0 i) : Vec F S3x2048x64 .f32 :=
  VS2_0.read (Elt F) (VS2_0.writes (Elt F) VS2_0.junk (kernelRun2_A c i harg2 harg3 harg4 harg5 harg6 harg7 x0 x1 x2 x3 hc0).2.1)

theorem cover2_B_4 (hc0 : ¬cond2_0 i) (xs0 : Vec F S3x2048x64 .f32) (y : S1x256x64.Idx) :
    ∃ pc ∈ (kernelRun2_B c i harg2 harg3 harg4 harg5 harg6 harg7 x0 x1 x2 x3 hc0 xs0).1, y ∈ pc.1.set :=
  View.cover_of_tiledL (kernelRun2_B c i harg2 harg3 harg4 harg5 harg6 harg7 x0 x1 x2 x3 hc0 xs0).1 S1x256x64.size (by sl_kernel_rfl) y

def out2_B_4 (hc0 : ¬cond2_0 i) (xs0 : Vec F S3x2048x64 .f32) : Vec F S1x256x64 .f32 :=
  VO2_4.read (Elt F) (VO2_4.writes (Elt F) VO2_4.junk (kernelRun2_B c i harg2 harg3 harg4 harg5 harg6 harg7 x0 x1 x2 x3 hc0 xs0).1)

end Body

section Region

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def atA2 (c : Dev nD) (t : Fin cfg2.N) (h : cond2_0 (grid2.coords t)) : Vec F S1x256x64 .f32 × Vec F S3x2048x64 .f32 :=
  (out2_A_4 c (grid2.coords t) (hs2_0 t) (hs2_1 t) (hs2_2 t) (hs2_3 t) (hs2_4 t) hsM2_0 (iblk2 V c 0 t) (iblk2 V c 1 t) (iblk2 V c 2 t) (iblk2 V c 3 t) h, sout2_A_0 c (grid2.coords t) (hs2_0 t) (hs2_1 t) (hs2_2 t) (hs2_3 t) (hs2_4 t) hsM2_0 (iblk2 V c 0 t) (iblk2 V c 1 t) (iblk2 V c 2 t) (iblk2 V c 3 t) h)

def atB2 (c : Dev nD) (t : Fin cfg2.N) (h : ¬cond2_0 (grid2.coords t)) (xs : Vec F S3x2048x64 .f32) : Vec F S1x256x64 .f32 × Vec F S3x2048x64 .f32 :=
  (out2_B_4 c (grid2.coords t) (hs2_0 t) (hs2_1 t) (hs2_2 t) (hs2_3 t) (hs2_4 t) hsM2_0 (iblk2 V c 0 t) (iblk2 V c 1 t) (iblk2 V c 2 t) (iblk2 V c 3 t) h xs, xs)

/-- The output block and the scratch after grid position `n`, by the position's case. -/
def outsAt2 (c : Dev nD) : (n : ℕ) → n < cfg2.N → Vec F S1x256x64 .f32 × Vec F S3x2048x64 .f32
  | 0, hn => atA2 V c ⟨0, hn⟩ ((hcond2_0 _).mpr (Nat.zero_mod _))
  | n + 1, hn =>
    if h0 : (n + 1) % 8 = 0 then atA2 V c ⟨n + 1, hn⟩ ((hcond2_0 _).mpr h0)
    else atB2 V c ⟨n + 1, hn⟩ (fun h => h0 ((hcond2_0 _).mp h)) (outsAt2 c n (Nat.lt_of_succ_lt hn)).2

theorem outsAt2_A (c : Dev nD) (t : Fin cfg2.N) (h0 : t.val % 8 = 0) :
    outsAt2 V c t.val t.isLt = atA2 V c t ((hcond2_0 t).mpr h0) := by
  obtain ⟨n, hn⟩ := t
  cases n with
  | zero => exact rfl
  | succ n => exact (dif_pos h0).trans rfl

theorem outsAt2_B (c : Dev nD) (t : Fin cfg2.N) (h0 : ¬t.val % 8 = 0) :
    outsAt2 V c t.val t.isLt = atB2 V c t (fun h => h0 ((hcond2_0 t).mp h)) (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem q_eq2 (c : Dev nD) (w : Fin cfg2.W) : (dat2 V c).q w = fullShare := rfl

theorem owed_eq2 (c : Dev nD) (t : Fin (cfg2.N + 1)) : (dat2 V c).owed t = 0 := rfl

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

/-- At every position the invariant holds the scratch at some contents. -/
theorem Phi_open2 (c : Dev nD) : ∀ (n : ℕ) (h : n ≤ cfg2.N), PhiS2 V c n h ⊢ iprop(iprop((∃ d, owns (c : Thread nD τ) scM2_0 fullShare d) ∗ Pipeline.scopedRestBut (Ix := Unit) (Name := ℕ) (U := UR sig nD τ) (Lvl := ℕ) (Val := Elt F) spec2 c [cc2_scratch0]) ∗ (∃ r, prngReg c r))
  | 0, _ => by rw [PhiS2_zero V c 0 _ rfl, PhiA2_eq]
  | n + 1, hn => by
    rw [PhiS2_succ]
    iintro ⟨⟨HS0, HR⟩, Hg⟩
    iframe HR Hg
    iexists _; iexact HS0

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, after2_4]
  by_cases h0 : t.val % 8 = 0
  · rw [outsAt2_A V c t h0]
    unfold atA2 out2_A_4 sout2_A_0; (try dsimp only)
    rw [PhiS2_castSucc V c t]
    iintro ⟨HΦ, Ho, ⟨%d0, H0⟩, ⟨%d1, H1⟩, ⟨%d2, H2⟩, ⟨%d3, H3⟩, ⟨%d4, H4⟩⟩
    ihave HΦ' := Phi_open2 V c _ _ $$ HΦ
    icases HΦ' with ⟨⟨HS0, HR⟩, Hg⟩
    iapply ((kernelRun2_A c (grid2.coords t) _ _ _ _ _ _ (iblk2 V c 0 t) (iblk2 V c 1 t) (iblk2 V c 2 t) (iblk2 V c 3 t) ((hcond2_0 t).mpr h0)).2.2 Set.univ _)
    iframe H0 H1 H2 H3 HS0
    isplitl [H4]; · iexists _; iexact H4
    iintro ⟨H0, H1, H2, H3, ⟨%e4, H4⟩, ⟨%es0, HS0⟩⟩
    iframe HR Hg Ho H0 H1 H2 H3
    isplitl [HS0]
    · unfold owns; iexists _; isplitr
      swap; · iexact HS0
      ipureintro; exact View.read_writes_of_cover _ _ _ _ _ (scover2_A_0 c _ _ _ _ _ _ _ _ _ _ _ _)
    unfold owns; iexists _; isplitr
    swap; · iexact H4
    ipureintro
    exact View.read_writes_of_cover _ _ _ _ _ (cover2_A_4 c _ _ _ _ _ _ _ _ _ _ _ _)
  · rw [outsAt2_B V c t h0]
    unfold atB2 out2_B_4; (try dsimp only)
    have hz : t.val ≠ 0 := fun e => h0 (by rw [e])
    · rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun2_B c (grid2.coords t) _ _ _ _ _ _ (iblk2 V c 0 t) (iblk2 V c 1 t) (iblk2 V c 2 t) (iblk2 V c 3 t) (fun h => h0 ((hcond2_0 t).mp h)) _).2 Set.univ _)
      iframe H0 H1 H2 H3 HS0
      isplitl [H4]; · iexists _; iexact H4
      iintro ⟨H0, H1, H2, H3, ⟨%e4, H4⟩, HS0⟩
      iframe HS0 HR Hg Ho H0 H1 H2 H3
      unfold owns; iexists _; isplitr
      swap; · iexact H4
      ipureintro
      exact View.read_writes_of_cover _ _ _ _ _ (cover2_B_4 c _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  rw [PhiA2_eq]; exact Phi_open2 V c (Fin.last cfg2.N).val (Nat.le_of_lt_succ (Fin.last cfg2.N).isLt)

end Region

end Cert.KernelIdeal.Hand

end
-- ==== Proof.KI.Outs.lean ====
import proofs.«149576_j9002251452429_1_alg».proof.Proof.Gen.KernelIdeal.Regions

noncomputable section

namespace Cert.KernelIdeal.Hand

open Idealize.ShloMosaic Idealize.ShloMosaic.TcCoe Idealize.SL.Sem
open Cert.KernelIdeal Cert.KernelIdeal.Gen

variable {F : FTy → Type} [FloatOps F]

def mkOuts (o1 : (c : Dev nD) → Buf (Elt F) ((c : Thread nD τ).loc main_v1))
    (o2 : (c : Dev nD) → Buf (Elt F) ((c : Thread nD τ).loc main_v22))
    (o3 : (c : Dev nD) → Buf (Elt F) ((c : Thread nD τ).loc main_v43)) : Outs (F := F) :=
  fun _ r c =>
    if h1 : r = main_v1 then h1 ▸ o1 c
    else if h2 : r = main_v22 then h2 ▸ o2 c
    else if h3 : r = main_v43 then h3 ▸ o3 c
    else fun _ => Classical.ofNonempty

variable (o1 : (c : Dev nD) → Buf (Elt F) ((c : Thread nD τ).loc main_v1))
  (o2 : (c : Dev nD) → Buf (Elt F) ((c : Thread nD τ).loc main_v22))
  (o3 : (c : Dev nD) → Buf (Elt F) ((c : Thread nD τ).loc main_v43))

theorem mkOuts_v1 (J : ℕ) (c : Dev nD) : mkOuts o1 o2 o3 J main_v1 c = o1 c := by
  unfold mkOuts; rw [dif_pos rfl]

theorem mkOuts_v22 (J : ℕ) (c : Dev nD) : mkOuts o1 o2 o3 J main_v22 c = o2 c := by
  unfold mkOuts; rw [dif_neg (by decide), dif_pos rfl]

theorem mkOuts_v43 (J : ℕ) (c : Dev nD) : mkOuts o1 o2 o3 J main_v43 c = o3 c := by
  unfold mkOuts; rw [dif_neg (by decide), dif_neg (by decide), dif_pos rfl]

variable (m : (ℓ : Loc nD τ sig) → Buf (Elt F) ℓ)

theorem V4_congr (outs outs' : Outs (F := F)) (h : ∀ c, outs 2 main_v1 c = outs' 2 main_v1 c) (c : Dev nD) :
    V4 m outs c = V4 m outs' c := by
  simp only [V4, V3, V2, h c]

theorem V7_congr (outs outs' : Outs (F := F)) (h : ∀ c, outs 2 main_v1 c = outs' 2 main_v1 c)
    (h' : ∀ c, outs 5 main_v22 c = outs' 5 main_v22 c) (c : Dev nD) :
    V7 m outs c = V7 m outs' c := by
  simp only [V7, V6, V5, V4, V3, V2, h c, h' c]

end Cert.KernelIdeal.Hand

end
-- ==== Proof.KI.Wire.lean ====
import proofs.«149576_j9002251452429_1_alg».proof.Proof.KI.Region0
import proofs.«149576_j9002251452429_1_alg».proof.Proof.KI.Region1
import proofs.«149576_j9002251452429_1_alg».proof.Proof.KI.Region2
import proofs.«149576_j9002251452429_1_alg».proof.Proof.KI.Outs

noncomputable section

namespace Cert.KernelIdeal.Hand

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

abbrev entry0 : (c : Dev nD) → (b : Ref sig .tc) → Buf (Elt F) ((c : Thread nD τ).loc b) := fun c b => V1 m c b

abbrev entry1 (outs : Outs (F := F)) : (c : Dev nD) → (b : Ref sig .tc) → Buf (Elt F) ((c : Thread nD τ).loc b) :=
  fun c b => V4 m outs c b

abbrev entry2 (outs : Outs (F := F)) : (c : Dev nD) → (b : Ref sig .tc) → Buf (Elt F) ((c : Thread nD τ).loc b) :=
  fun c b => V7 m outs c b

def noArr (r : Ref sig .tc) : (c : Dev nD) → Buf (Elt F) ((c : Thread nD τ).loc r) := fun _ _ => Classical.ofNonempty

def arr1 (c : Dev nD) : Buf (Elt F) ((c : Thread nD τ).loc main_v1) := (dat0 (entry0 m) c).arrAt 4 cfg0.N

def outsA : Outs (F := F) := mkOuts (arr1 m) (noArr main_v22) (noArr main_v43)

def arr2 (c : Dev nD) : Buf (Elt F) ((c : Thread nD τ).loc main_v22) := (dat1 (entry1 m (outsA m)) c).arrAt 4 cfg1.N

def outsB : Outs (F := F) := mkOuts (arr1 m) (arr2 m) (noArr main_v43)

def arr3 (c : Dev nD) : Buf (Elt F) ((c : Thread nD τ).loc main_v43) := (dat2 (entry2 m (outsB m)) c).arrAt 4 cfg2.N

def outsC : Outs (F := F) := mkOuts (arr1 m) (arr2 m) (arr3 m)

theorem entry1_eq : entry1 m (outsC m) = entry1 m (outsA m) :=
  funext fun c => funext fun b => by
    show V4 m (outsC m) c b = V4 m (outsA m) c b
    rw [V4_congr m (outsC m) (outsA m) (fun c => by unfold outsC outsA; rw [mkOuts_v1, mkOuts_v1]) c]

theorem entry2_eq : entry2 m (outsC m) = entry2 m (outsB m) :=
  funext fun c => funext fun b => by
    show V7 m (outsC m) c b = V7 m (outsB m) c b
    rw [V7_congr m (outsC m) (outsB m) (fun c => by unfold outsC outsB; rw [mkOuts_v1, mkOuts_v1])
      (fun c => by unfold outsC outsB; rw [mkOuts_v22, mkOuts_v22]) c]

theorem outsC_v1 (c : Dev nD) : outsC m 2 main_v1 c = (dat0 (entry0 m) c).arrAt 4 cfg0.N := by
  unfold outsC; rw [mkOuts_v1]; rfl

theorem outsC_v22 (c : Dev nD) : outsC m 5 main_v22 c = (dat1 (entry1 m (outsC m)) c).arrAt 4 cfg1.N := by
  rw [entry1_eq]; unfold outsC; rw [mkOuts_v22]; rfl

theorem outsC_v43 (c : Dev nD) : outsC m 8 main_v43 c = (dat2 (entry2 m (outsC m)) c).arrAt 4 cfg2.N := by
  rw [entry2_eq]; unfold outsC; rw [mkOuts_v43]; rfl

end Cert.KernelIdeal.Hand

end
-- ==== Proof.KI.RunAll.lean ====
import proofs.«149576_j9002251452429_1_alg».proof.Proof.KI.Launch
import proofs.«149576_j9002251452429_1_alg».proof.Proof.KI.Wire

noncomputable section

namespace Cert.KernelIdeal.Hand

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

theorem run :
    θ_run defs (onTc (τ := τ) (main (F := F))) ⟨m, fun _ => 0, ρ⟩
      (fun r => ∀ c : Dev nD, ∀ b ∈ Pipeline.ucRefs τ sig, r.2.mem ((c : Thread nD τ).1, b) = V9 m (outsC m) c b) :=
  run_all m ρ (outsC m) (dat0 (entry0 m)) (dat1 (entry1 m (outsC m))) (dat2 (entry2 m (outsC m)))
    (A_eq0 (entry0 m)) (q_eq0 (entry0 m)) (owed_eq0 (entry0 m)) (fun _ => rfl) (body_obligation0 (entry0 m)) (hin0 (entry0 m)) (hout0 (entry0 m)) (outsC_v1 m)
    (A_eq1 (entry1 m (outsC m))) (q_eq1 (entry1 m (outsC m))) (owed_eq1 (entry1 m (outsC m))) (fun _ => rfl) (body_obligation1 (entry1 m (outsC m))) (hin1 (entry1 m (outsC m))) (hout1 (entry1 m (outsC m))) (outsC_v22 m)
    (A_eq2 (entry2 m (outsC m))) (q_eq2 (entry2 m (outsC m))) (owed_eq2 (entry2 m (outsC m))) (fun _ => rfl) (body_obligation2 (entry2 m (outsC m))) (hin2 (entry2 m (outsC m))) (hout2 (entry2 m (outsC m))) (outsC_v43 m)

theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_all m ρ (outsC m) (dat0 (entry0 m)) (dat1 (entry1 m (outsC m))) (dat2 (entry2 m (outsC m)))
    (A_eq0 (entry0 m)) (q_eq0 (entry0 m)) (owed_eq0 (entry0 m)) (fun _ => rfl) (body_obligation0 (entry0 m)) (hin0 (entry0 m)) (hout0 (entry0 m)) (outsC_v1 m)
    (A_eq1 (entry1 m (outsC m))) (q_eq1 (entry1 m (outsC m))) (owed_eq1 (entry1 m (outsC m))) (fun _ => rfl) (body_obligation1 (entry1 m (outsC m))) (hin1 (entry1 m (outsC m))) (hout1 (entry1 m (outsC m))) (outsC_v22 m)
    (A_eq2 (entry2 m (outsC m))) (q_eq2 (entry2 m (outsC m))) (owed_eq2 (entry2 m (outsC m))) (fun _ => rfl) (body_obligation2 (entry2 m (outsC m))) (hin2 (entry2 m (outsC m))) (hout2 (entry2 m (outsC m))) (outsC_v43 m)

end Cert.KernelIdeal.Hand

end
-- ==== Proof.Spec.lean ====
import Idealize.ShloMosaic.PureOps.Ideal.Laws
import Idealize.ShloMosaic.Lib.ValueIdx

noncomputable section

namespace Cert.GraphConv

open Idealize.ShloMosaic

def IsR (x : EReal) : Prop := ∃ r : ℝ, x = (r : EReal)

def ind (v k : EReal) : EReal := if v = k then 1 else 0

def label : Fin 3 → EReal :=
  ![Ideal.ofBits .f32 0x3F800000#32, Ideal.ofBits .f32 0x40000000#32, Ideal.ofBits .f32 0x40400000#32]

def epsNorm : EReal := Ideal.ofBits .f32 0x2B8CBCCC#32

section Row

variable {J D : Type} [Fintype J] [Fintype D]

def accK (m : Fin 3 → J → EReal) (x : J → D → EReal) (w : Fin 3 → D → EReal) (bias : EReal) : EReal :=
  ((∑ j, m 0 j * ∑ d, x j d * w 0 d) + (∑ j, m 1 j * ∑ d, x j d * w 1 d) + (∑ j, m 2 j * ∑ d, x j d * w 2 d)) + bias

def accR (m : Fin 3 → J → EReal) (x : J → D → EReal) (w : Fin 3 → D → EReal) (bias : EReal) : EReal :=
  ((∑ d, (∑ j, m 0 j * x j d) * w 0 d) + (∑ d, (∑ j, m 1 j * x j d) * w 1 d) + (∑ d, (∑ j, m 2 j * x j d) * w 2 d)) + bias

end Row

def normRow {E : Type} [Fintype E] (y : E → EReal) (e : E) : EReal :=
  Ideal.div (y e) (max (Ideal.sqrt (∑ k, y k * y k)) epsNorm)

def layerK {D : ℕ} (x : Fin 8 → Fin 2048 → Fin D → EReal) (rel : Fin 8 → Fin 2048 → Fin 2048 → EReal)
    (w : Fin 3 → Fin D → Fin 64 → EReal) (b : Fin 64 → EReal) : Fin 8 → Fin 2048 → Fin 64 → EReal :=
  fun n i e => normRow (fun e' => accK (fun r j => ind (rel n i j) (label r)) (x n) (fun r d => w r d e') (b e')) e

def layerR {D : ℕ} (x : Fin 8 → Fin 2048 → Fin D → EReal) (rel : Fin 8 → Fin 2048 → Fin 2048 → EReal)
    (w : Fin 3 → Fin D → Fin 64 → EReal) (b : Fin 64 → EReal) : Fin 8 → Fin 2048 → Fin 64 → EReal :=
  fun n i e => normRow (fun e' => accR (fun r j => ind (rel n i j) (label r)) (x n) (fun r d => w r d e') (b e')) e

end Cert.GraphConv

end
-- ==== Proof.KI.Pay.lean ====
import proofs.«149576_j9002251452429_1_alg».proof.Proof.Gen.KernelIdeal.Skeleton
import proofs.«149576_j9002251452429_1_alg».proof.Proof.Spec
import Idealize.ShloMosaic.Lib.StackMember
import Idealize.ShloMosaic.Lib.ValueLayout

noncomputable section

namespace Cert.KernelIdeal.Hand

open Idealize.ShloMosaic Idealize.ShloMosaic.ValueIdx Cert.KernelIdeal Cert.KernelIdeal.Gen Cert.GraphConv

section Column
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

theorem mask_eq (v k : EReal) :
    (FloatOps.sitofp (F := Ideal) .f32 ((FloatOps.cmpf (F := Ideal) (φ := .f32) .oeq v k).setWidth 32) : EReal) = ind v k := by
  show (((BitVec.setWidth 32 (Ideal.cmp .oeq v k)).toInt : ℝ) : EReal) = ind v k
  unfold ind Ideal.cmp
  by_cases h : v = k
  · simp [h]
  · simp [h]

theorem label_zero : label 0 = Ideal.ofBits .f32 0x3F800000#32 := rfl
theorem label_one : label 1 = Ideal.ofBits .f32 0x40000000#32 := rfl
theorem label_two : label 2 = Ideal.ofBits .f32 0x40400000#32 := rfl

theorem maskVec_apply (rel : Vec Ideal S1x256x2048 .f32) (k : Ideal .f32) (i : Fin 256) (j : Fin 2048) :
    (truncf .bf16 (sitofp (F := Ideal) .f32 (extui 32 (cmpf .oeq
        (shapeCast S256x2048 rel shapeCasts_S1x256x2048_S256x2048 : FVec Ideal S256x2048 .f32)
        (broadcast S256x2048 k)) natLt_1_32)) bitsLt_bf16_f32 : FVec Ideal S256x2048 .bf16) (ix2 i j)
      = ind (rel (ix3 0 i j)) k :=
  (mask_eq _ _).trans (congrArg (ind · k) (shapeCast_1ab_ab_apply rel _ i j))

-- A rank-2 product with the plain dimension record, into the zero accumulator, is the sum over the contracted coordinate.
theorem mm_apply {M K N : ℕ} {φ₁ φ₂ : FTy} (d : DotDims ⟨2, ![M, K]⟩ ⟨2, ![K, N]⟩ ⟨2, ![M, N]⟩) (hd : d = DotDims.plain M K N)
    (a : FVec Ideal ⟨2, ![M, K]⟩ φ₁) (b : FVec Ideal ⟨2, ![K, N]⟩ φ₂) (i : Fin M) (e : Fin N) :
    matmul d none a b (constant (F := Ideal) ⟨2, ![M, N]⟩ .f32 0x00000000#32) (ix2 i e) = ∑ k : Fin K, a (ix2 i k) * b (ix2 k e) :=
  hd ▸ (congrFun (matmul_zero_eq_dotGeneral _ none a b) _).trans (StackMember.dotGeneral_plain_apply none a b i e)

theorem k0_pay3_apply (x : Vec Ideal S1x2048x32 .f32) (w : Vec Ideal S1x32x64 .f32) (j : Fin 2048) (e : Fin 64) :
    Gen.k0_pay3 (F := Ideal) x w (ix3 0 j e) = ∑ d : Fin 32, x (ix3 0 j d) * w (ix3 0 d e) := by
  unfold Gen.k0_pay3 Gen.k0_pay2
  refine (shapeCast_ab_1ab_apply _ _ 0 j e).trans ?_
  refine (mm_apply _ rfl _ _ j e).trans ?_
  refine Finset.sum_congr rfl fun d _ => ?_
  exact congrArg₂ (· * ·) (shapeCast_1ab_ab_apply x _ j d) (shapeCast_1ab_ab_apply w _ d e)

theorem maskedDot_apply (rel : Vec Ideal S1x256x2048 .f32) (k : Ideal .f32) (s : Vec Ideal S1x2048x64 .f32) (i : Fin 256) (e : Fin 64) :
    matmul dot_S256x2048_S2048x64_S256x64_1_0_0_1_n_n none
        (truncf .bf16 (sitofp (F := Ideal) .f32 (extui 32 (cmpf .oeq
          (shapeCast S256x2048 rel shapeCasts_S1x256x2048_S256x2048 : FVec Ideal S256x2048 .f32)
          (broadcast S256x2048 k)) natLt_1_32)) bitsLt_bf16_f32 : FVec Ideal S256x2048 .bf16)
        (truncf .bf16 (shapeCast S2048x64 s shapeCasts_S1x2048x64_S2048x64 : FVec Ideal S2048x64 .f32) bitsLt_bf16_f32 : FVec Ideal S2048x64 .bf16)
        (constant (F := Ideal) S256x64 .f32 0x00000000#32) (ix2 i e)
      = ∑ j : Fin 2048, ind (rel (ix3 0 i j)) k * s (ix3 0 j e) := by
  refine (mm_apply _ rfl _ _ i e).trans ?_
  refine Finset.sum_congr rfl fun j _ => ?_
  exact congrArg₂ (· * ·) (maskVec_apply rel k i j) (shapeCast_1ab_ab_apply s _ j e)

theorem k0_pay6_apply (rel : Vec Ideal S1x256x2048 .f32) (s0 s1 s2 : Vec Ideal S1x2048x64 .f32) (i : Fin 256) (e : Fin 64) :
    Gen.k0_pay6 (F := Ideal) rel s0 s1 s2 (ix2 i e)
      = (∑ j : Fin 2048, ind (rel (ix3 0 i j)) (label 0) * s0 (ix3 0 j e))
        + (∑ j : Fin 2048, ind (rel (ix3 0 i j)) (label 1) * s1 (ix3 0 j e))
        + (∑ j : Fin 2048, ind (rel (ix3 0 i j)) (label 2) * s2 (ix3 0 j e)) := by
  unfold Gen.k0_pay6
  rw [label_zero, label_one, label_two, ← maskedDot_apply rel _ s0 i e, ← maskedDot_apply rel _ s1 i e, ← maskedDot_apply rel _ s2 i e]
  show ((Ideal.ofBits .f32 0x00000000#32 + _) + _) + _ = _
  rw [Ideal.ofBits_zero_f32, zero_add]
  rfl

theorem rowSum_apply (v : FVec Ideal S256x64 .f32) (i : Fin 256) :
    multiReduction (F := Ideal) .add [1] S256 v 0x00000000#32 reduces_S256x64_S256 (.inl rfl) rfl (ix1 i)
      = ∑ k : Fin 64, v (ix2 i k) := by
  refine (Ideal.multiReduction_add_single v 0x00000000#32 reduces_S256x64_S256 (.inl rfl) rfl (ix1 i)).trans ?_
  refine Finset.sum_congr rfl fun k _ => congrArg v ?_
  funext ax
  match ax with
  | ⟨0, _⟩ => rfl
  | ⟨1, _⟩ => rfl

theorem k0_pay1_apply (acc : FVec Ideal S256x64 .f32) (bias : Vec Ideal S64 .f32) (i : Fin 256) (e : Fin 64) :
    Gen.k0_pay1 (F := Ideal) acc bias (ix3 0 i e) = normRow (fun e' : Fin 64 => acc (ix2 i e') + bias (ix1 e')) e := by
  have h39 : ∀ e' : Fin 64, (addf acc (broadcastTo S256x64 (shapeCast S1x64 bias shapeCasts_S64_S1x64) broadcasts_S1x64_S256x64) : FVec Ideal S256x64 .f32) (ix2 i e')
      = acc (ix2 i e') + bias (ix1 e') := fun e' =>
    congrArg (acc (ix2 i e') + ·) ((broadcastTo_1b_ab_apply _ _ i e').trans (shapeCast_a_1a_apply bias _ 0 e'))
  unfold Gen.k0_pay1 normRow
  refine (shapeCast_ab_1ab_apply _ _ 0 i e).trans ?_
  refine congrArg₂ Ideal.div (h39 e) ?_
  refine (broadcastTo_a1_ab_apply _ _ i e).trans ?_
  refine congrArg (fun t => max (Ideal.sqrt t) epsNorm) ?_
  refine (shapeCast_a_a1_apply _ _ i 0).trans ?_
  refine (rowSum_apply _ i).trans ?_
  exact Finset.sum_congr rfl fun k _ => congrArg₂ (· * ·) (h39 k) (h39 k)

theorem k1_pay3_apply (x : Vec Ideal S1x2048x64 .f32) (w : Vec Ideal S1x64x64 .f32) (j : Fin 2048) (e : Fin 64) :
    Gen.k1_pay3 (F := Ideal) x w (ix3 0 j e) = ∑ d : Fin 64, x (ix3 0 j d) * w (ix3 0 d e) := by
  unfold Gen.k1_pay3 Gen.k1_pay2
  refine (shapeCast_ab_1ab_apply _ _ 0 j e).trans ?_
  refine (mm_apply _ rfl _ _ j e).trans ?_
  refine Finset.sum_congr rfl fun d _ => ?_
  exact congrArg₂ (· * ·) (shapeCast_1ab_ab_apply x _ j d) (shapeCast_1ab_ab_apply w _ d e)

theorem k0_pay4_apply (x : Vec Ideal S1x2048x32 .f32) (w : Vec Ideal S1x32x64 .f32) (j : Fin 2048) (e : Fin 64) :
    Gen.k0_pay4 (F := Ideal) x w (ix3 0 j e) = ∑ d : Fin 32, x (ix3 0 j d) * w (ix3 0 d e) :=
  k0_pay3_apply x w j e
theorem k0_pay5_apply (x : Vec Ideal S1x2048x32 .f32) (w : Vec Ideal S1x32x64 .f32) (j : Fin 2048) (e : Fin 64) :
    Gen.k0_pay5 (F := Ideal) x w (ix3 0 j e) = ∑ d : Fin 32, x (ix3 0 j d) * w (ix3 0 d e) :=
  k0_pay3_apply x w j e

theorem k1_pay4_apply (x : Vec Ideal S1x2048x64 .f32) (w : Vec Ideal S1x64x64 .f32) (j : Fin 2048) (e : Fin 64) :
    Gen.k1_pay4 (F := Ideal) x w (ix3 0 j e) = ∑ d : Fin 64, x (ix3 0 j d) * w (ix3 0 d e) :=
  k1_pay3_apply x w j e
theorem k1_pay5_apply (x : Vec Ideal S1x2048x64 .f32) (w : Vec Ideal S1x64x64 .f32) (j : Fin 2048) (e : Fin 64) :
    Gen.k1_pay5 (F := Ideal) x w (ix3 0 j e) = ∑ d : Fin 64, x (ix3 0 j d) * w (ix3 0 d e) :=
  k1_pay3_apply x w j e
theorem k2_pay3_apply (x : Vec Ideal S1x2048x64 .f32) (w : Vec Ideal S1x64x64 .f32) (j : Fin 2048) (e : Fin 64) :
    Gen.k2_pay3 (F := Ideal) x w (ix3 0 j e) = ∑ d : Fin 64, x (ix3 0 j d) * w (ix3 0 d e) :=
  k1_pay3_apply x w j e
theorem k2_pay4_apply (x : Vec Ideal S1x2048x64 .f32) (w : Vec Ideal S1x64x64 .f32) (j : Fin 2048) (e : Fin 64) :
    Gen.k2_pay4 (F := Ideal) x w (ix3 0 j e) = ∑ d : Fin 64, x (ix3 0 j d) * w (ix3 0 d e) :=
  k1_pay3_apply x w j e
theorem k2_pay5_apply (x : Vec Ideal S1x2048x64 .f32) (w : Vec Ideal S1x64x64 .f32) (j : Fin 2048) (e : Fin 64) :
    Gen.k2_pay5 (F := Ideal) x w (ix3 0 j e) = ∑ d : Fin 64, x (ix3 0 j d) * w (ix3 0 d e) :=
  k1_pay3_apply x w j e

end Cert.KernelIdeal.Hand

end
-- ==== Proof.KI.TileVal.lean ====
import proofs.«149576_j9002251452429_1_alg».proof.Proof.KI.Pay

noncomputable section

namespace Cert.KernelIdeal.Hand

open Idealize.ShloMosaic Idealize.ShloMosaic.ValueIdx Cert.KernelIdeal Cert.KernelIdeal.Gen
open Cert.GraphConv (accK normRow ind label)

theorem tile_entry0 {D : ℕ} (relb : Vec Ideal S1x256x2048 .f32) (s0 s1 s2 : Vec Ideal S1x2048x64 .f32) (bias : Vec Ideal S64 .f32)
    (x : Fin 2048 → Fin D → EReal) (w : Fin 3 → Fin D → Fin 64 → EReal)
    (h0 : ∀ j e, s0 (ix3 0 j e) = ∑ d, x j d * w 0 d e) (h1 : ∀ j e, s1 (ix3 0 j e) = ∑ d, x j d * w 1 d e)
    (h2 : ∀ j e, s2 (ix3 0 j e) = ∑ d, x j d * w 2 d e) (i : Fin 256) (e : Fin 64) :
    Gen.k0_pay1 (F := Ideal) (Gen.k0_pay6 (F := Ideal) relb s0 s1 s2) bias (ix3 0 i e)
      = normRow (fun e' => accK (fun r j => ind (relb (ix3 0 i j)) (label r)) x (fun r d => w r d e') (bias (ix1 e'))) e := by
  rw [k0_pay1_apply]
  refine congrArg (fun y => normRow y e) (funext fun e' => ?_)
  rw [k0_pay6_apply]
  simp only [h0, h1, h2]
  rfl

theorem tile_entry1 {D : ℕ} (relb : Vec Ideal S1x256x2048 .f32) (s0 s1 s2 : Vec Ideal S1x2048x64 .f32) (bias : Vec Ideal S64 .f32)
    (x : Fin 2048 → Fin D → EReal) (w : Fin 3 → Fin D → Fin 64 → EReal)
    (h0 : ∀ j e, s0 (ix3 0 j e) = ∑ d, x j d * w 0 d e) (h1 : ∀ j e, s1 (ix3 0 j e) = ∑ d, x j d * w 1 d e)
    (h2 : ∀ j e, s2 (ix3 0 j e) = ∑ d, x j d * w 2 d e) (i : Fin 256) (e : Fin 64) :
    Gen.k1_pay1 (F := Ideal) (Gen.k1_pay6 (F := Ideal) relb s0 s1 s2) bias (ix3 0 i e)
      = normRow (fun e' => accK (fun r j => ind (relb (ix3 0 i j)) (label r)) x (fun r d => w r d e') (bias (ix1 e'))) e :=
  tile_entry0 relb s0 s1 s2 bias x w h0 h1 h2 i e

theorem tile_entry2 {D : ℕ} (relb : Vec Ideal S1x256x2048 .f32) (s0 s1 s2 : Vec Ideal S1x2048x64 .f32) (bias : Vec Ideal S64 .f32)
    (x : Fin 2048 → Fin D → EReal) (w : Fin 3 → Fin D → Fin 64 → EReal)
    (h0 : ∀ j e, s0 (ix3 0 j e) = ∑ d, x j d * w 0 d e) (h1 : ∀ j e, s1 (ix3 0 j e) = ∑ d, x j d * w 1 d e)
    (h2 : ∀ j e, s2 (ix3 0 j e) = ∑ d, x j d * w 2 d e) (i : Fin 256) (e : Fin 64) :
    Gen.k2_pay1 (F := Ideal) (Gen.k2_pay6 (F := Ideal) relb s0 s1 s2) bias (ix3 0 i e)
      = normRow (fun e' => accK (fun r j => ind (relb (ix3 0 i j)) (label r)) x (fun r d => w r d e') (bias (ix1 e'))) e :=
  tile_entry0 relb s0 s1 s2 bias x w h0 h1 h2 i e

theorem hz3 : (![0, 0, 0] : Fin 3 → Nat) = fun _ => 0 :=
  funext fun a => match a with | ⟨0, _⟩ => rfl | ⟨1, _⟩ => rfl | ⟨2, _⟩ => rfl
theorem hz1 : (![0] : Fin 1 → Nat) = fun _ => 0 := funext fun a => match a with | ⟨0, _⟩ => rfl

section Slabs
variable {F : FTy → Type} [FloatOps F]

abbrev slabOf (r : Fin 3) (S : Vec F S3x2048x64 .f32) : Vec F S1x2048x64 .f32 :=
  match r with
  | 0 => View.ld S (Rect.unit ![0, 0, 0] S1x2048x64.size inb_S3x2048x64_S1x2048x64_0_0_0)
  | 1 => View.ld S (Rect.unit ![1, 0, 0] S1x2048x64.size inb_S3x2048x64_S1x2048x64_1_0_0)
  | 2 => View.ld S (Rect.unit ![2, 0, 0] S1x2048x64.size inb_S3x2048x64_S1x2048x64_2_0_0)

theorem emb_slab (o : ℕ) (inb : ∀ a, (![o, 0, 0] : Fin 3 → ℕ) a + S1x2048x64.size a ≤ S3x2048x64.size a) (r : Fin 3) (hr : r.val = o)
    (j : Fin 2048) (e : Fin 64) : (Rect.unit (s := S3x2048x64) ![o, 0, 0] S1x2048x64.size inb).emb (ix3 (0 : Fin 1) j e) = ix3 r j e := by
  funext a
  apply Fin.ext
  match a with
  | ⟨0, _⟩ => show o + 1 * 0 = r.val; omega
  | ⟨1, _⟩ => show 0 + 1 * j.val = j.val; omega
  | ⟨2, _⟩ => show 0 + 1 * e.val = e.val; omega

theorem not_mem_slab (o : ℕ) (inb : ∀ a, (![o, 0, 0] : Fin 3 → ℕ) a + S1x2048x64.size a ≤ S3x2048x64.size a) (r : Fin 3) (hr : r.val < o)
    (j : Fin 2048) (e : Fin 64) : ix3 r j e ∉ (Rect.unit (s := S3x2048x64) ![o, 0, 0] S1x2048x64.size inb).set := by
  intro h
  have h0 := (Rect.mem_set_unit.mp h) 0
  have h1 : o ≤ r.val := h0.1
  omega

theorem canon3_apply (w2 w1 w0 : Vec F S1x2048x64 .f32) (r : Fin 3) (j : Fin 2048) (e : Fin 64) :
    View.canon ([⟨Rect.unit ![2, 0, 0] S1x2048x64.size inb_S3x2048x64_S1x2048x64_2_0_0, w2⟩,
        ⟨Rect.unit ![1, 0, 0] S1x2048x64.size inb_S3x2048x64_S1x2048x64_1_0_0, w1⟩,
        ⟨Rect.unit ![0, 0, 0] S1x2048x64.size inb_S3x2048x64_S1x2048x64_0_0_0, w0⟩] : List (View.Piece (Elt F) S3x2048x64 .f32)) (ix3 r j e)
      = (match r with | 0 => w0 | 1 => w1 | 2 => w2) (ix3 0 j e) := by
  have e2 := View.canon_cons_emb (Val := Elt F) (Rect.unit (s := S3x2048x64) ![2, 0, 0] S1x2048x64.size inb_S3x2048x64_S1x2048x64_2_0_0) w2
    [⟨Rect.unit ![1, 0, 0] S1x2048x64.size inb_S3x2048x64_S1x2048x64_1_0_0, w1⟩, ⟨Rect.unit ![0, 0, 0] S1x2048x64.size inb_S3x2048x64_S1x2048x64_0_0_0, w0⟩] (ix3 0 j e)
  have e1 := View.canon_cons_emb (Val := Elt F) (Rect.unit (s := S3x2048x64) ![1, 0, 0] S1x2048x64.size inb_S3x2048x64_S1x2048x64_1_0_0) w1
    [⟨Rect.unit ![0, 0, 0] S1x2048x64.size inb_S3x2048x64_S1x2048x64_0_0_0, w0⟩] (ix3 0 j e)
  have e0 := View.canon_cons_emb (Val := Elt F) (Rect.unit (s := S3x2048x64) ![0, 0, 0] S1x2048x64.size inb_S3x2048x64_S1x2048x64_0_0_0) w0
    [] (ix3 0 j e)
  rw [emb_slab 2 _ 2 rfl j e] at e2
  rw [emb_slab 1 _ 1 rfl j e] at e1
  rw [emb_slab 0 _ 0 rfl j e] at e0
  match r with
  | 2 => exact e2
  | 1 =>
    exact (View.canon_cons_of_not_mem (Val := Elt F) ⟨Rect.unit (s := S3x2048x64) ![2, 0, 0] S1x2048x64.size inb_S3x2048x64_S1x2048x64_2_0_0, w2⟩
      [⟨Rect.unit ![1, 0, 0] S1x2048x64.size inb_S3x2048x64_S1x2048x64_1_0_0, w1⟩, ⟨Rect.unit ![0, 0, 0] S1x2048x64.size inb_S3x2048x64_S1x2048x64_0_0_0, w0⟩]
      (not_mem_slab 2 inb_S3x2048x64_S1x2048x64_2_0_0 1 (by decide) j e)).trans e1
  | 0 =>
    exact ((View.canon_cons_of_not_mem (Val := Elt F) ⟨Rect.unit (s := S3x2048x64) ![2, 0, 0] S1x2048x64.size inb_S3x2048x64_S1x2048x64_2_0_0, w2⟩
      [⟨Rect.unit ![1, 0, 0] S1x2048x64.size inb_S3x2048x64_S1x2048x64_1_0_0, w1⟩, ⟨Rect.unit ![0, 0, 0] S1x2048x64.size inb_S3x2048x64_S1x2048x64_0_0_0, w0⟩]
      (not_mem_slab 2 inb_S3x2048x64_S1x2048x64_2_0_0 0 (by decide) j e)).trans
      (View.canon_cons_of_not_mem (Val := Elt F) ⟨Rect.unit (s := S3x2048x64) ![1, 0, 0] S1x2048x64.size inb_S3x2048x64_S1x2048x64_1_0_0, w1⟩
      [⟨Rect.unit ![0, 0, 0] S1x2048x64.size inb_S3x2048x64_S1x2048x64_0_0_0, w0⟩]
      (not_mem_slab 1 inb_S3x2048x64_S1x2048x64_1_0_0 0 (by decide) j e))).trans e0

end Slabs

theorem slabOf_apply (r : Fin 3) (S : Vec Ideal S3x2048x64 .f32) (j : Fin 2048) (e : Fin 64) : slabOf r S (ix3 0 j e) = S (ix3 r j e) := by
  match r with
  | 0 => exact congrArg S (emb_slab 0 _ 0 rfl j e)
  | 1 => exact congrArg S (emb_slab 1 _ 1 rfl j e)
  | 2 => exact congrArg S (emb_slab 2 _ 2 rfl j e)

end Cert.KernelIdeal.Hand

end
-- ==== Proof.HostFns.lean ====
import Idealize.ShloMosaic.PureOps.Ideal.Laws
import Idealize.ShloMosaic.Lib.ValueIdx
import Idealize.ShloMosaic.Lib.StableHlo.Run

noncomputable section

namespace Cert.GraphConv

open Idealize.ShloMosaic Idealize.ShloMosaic.TcCoe

abbrev S_ : Shape := ⟨0, ![]⟩
abbrev S64 : Shape := ⟨1, ![64]⟩
abbrev S2048 : Shape := ⟨1, ![2048]⟩
abbrev S1x64 : Shape := ⟨2, ![1, 64]⟩
abbrev S8x64 : Shape := ⟨2, ![8, 64]⟩
abbrev S8x192 : Shape := ⟨2, ![8, 192]⟩
abbrev S192x64 : Shape := ⟨2, ![192, 64]⟩
abbrev S1x2048x1 : Shape := ⟨3, ![1, 2048, 1]⟩
abbrev S8x2048x64 : Shape := ⟨3, ![8, 2048, 64]⟩

theorem h_S_ : 0 < S_.numel := by decide
theorem bcast_S_S8x2048x64 : S_.BroadcastsInDim S8x2048x64 (![] : Fin 0 → Fin S8x2048x64.rank) := by decide
theorem reducesTo_S8x2048x64_S2048_d0_2 : S8x2048x64.ReducesTo [0, 2] S2048 := by decide
theorem bcast_S2048_S1x2048x1_1 : S2048.BroadcastsInDim S1x2048x1 (![1] : Fin 1 → Fin S1x2048x1.rank) := by decide
theorem bcast_S_S1x2048x1 : S_.BroadcastsInDim S1x2048x1 (![] : Fin 0 → Fin S1x2048x1.rank) := by decide
theorem bcast_S1x2048x1_S8x2048x64_0_1_2 : S1x2048x1.BroadcastsInDim S8x2048x64 (![0, 1, 2] : Fin 3 → Fin S8x2048x64.rank) := by decide
theorem reducesTo_S8x2048x64_S8x64_d1 : S8x2048x64.ReducesTo [1] S8x64 := by decide
theorem concatenates_S8x64_S8x64_S8x64_S8x192_d1 : Shape.Concatenates [S8x64, S8x64, S8x64] S8x192 1 := by decide
theorem dot_S8x192_S192x64_S8x64_wf : DotDims.WF S8x192 S192x64 S8x64 [1] [0] [0] [1] [] [] := by decide
theorem bcast_S64_S1x64_1 : S64.BroadcastsInDim S1x64 (![1] : Fin 1 → Fin S1x64.rank) := by decide
theorem bcast_S1x64_S8x64_0_1 : S1x64.BroadcastsInDim S8x64 (![0, 1] : Fin 2 → Fin S8x64.rank) := by decide

def dotHead : DotDims S8x192 S192x64 S8x64 where
  lhsContracting := [1]
  rhsContracting := [0]
  lhsNonContracting := [0]
  rhsNonContracting := [1]
  lhsBatch := []
  rhsBatch := []
  wf := dot_S8x192_S192x64_S8x64_wf

def relu (y : FVec Ideal S8x2048x64 .f32) : FVec Ideal S8x2048x64 .f32 :=
  maximumf y (broadcastInDim S8x2048x64 ![] bcast_S_S8x2048x64 (constant (F := Ideal) S_ .f32 0x00000000#32))

def meanB (h : FVec Ideal S8x2048x64 .f32) : FVec Ideal S1x2048x1 .f32 :=
  Host.divf
    (broadcastInDim S1x2048x1 ![1] bcast_S2048_S1x2048x1_1
      (Host.reduceAdd h (constant (F := Ideal) S_ .f32 0x00000000#32) reducesTo_S8x2048x64_S2048_d0_2 h_S_))
    (broadcastInDim S1x2048x1 ![] bcast_S_S1x2048x1 (constant (F := Ideal) S_ .f32 0x44000000#32))

def bn (h : FVec Ideal S8x2048x64 .f32) : FVec Ideal S8x2048x64 .f32 :=
  mulf
    (subf h (broadcastInDim S8x2048x64 ![0, 1, 2] bcast_S1x2048x1_S8x2048x64_0_1_2 (meanB h)))
    (broadcastInDim S8x2048x64 ![0, 1, 2] bcast_S1x2048x1_S8x2048x64_0_1_2
      (Host.rsqrt (addf
        (Host.divf
          (broadcastInDim S1x2048x1 ![1] bcast_S2048_S1x2048x1_1
            (Host.reduceAdd
              (mulf (subf h (broadcastInDim S8x2048x64 ![0, 1, 2] bcast_S1x2048x1_S8x2048x64_0_1_2 (meanB h)))
                    (subf h (broadcastInDim S8x2048x64 ![0, 1, 2] bcast_S1x2048x1_S8x2048x64_0_1_2 (meanB h))))
              (constant (F := Ideal) S_ .f32 0x00000000#32) reducesTo_S8x2048x64_S2048_d0_2 h_S_))
          (broadcastInDim S1x2048x1 ![] bcast_S_S1x2048x1 (constant (F := Ideal) S_ .f32 0x44000000#32)))
        (broadcastInDim S1x2048x1 ![] bcast_S_S1x2048x1 (constant (F := Ideal) S_ .f32 0x3727C5AC#32)))))

def bnrelu (y : FVec Ideal S8x2048x64 .f32) : FVec Ideal S8x2048x64 .f32 := bn (relu y)

def maxNodes (h : FVec Ideal S8x2048x64 .f32) : FVec Ideal S8x64 .f32 :=
  Host.reduce FloatOps.maximumf h (constant (F := Ideal) S_ .f32 0xFF800000#32) reducesTo_S8x2048x64_S8x64_d1 h_S_

def headOut (o0 o1 o2 : FVec Ideal S8x64 .f32) : FVec Ideal S8x192 .f32 :=
  concatenate S8x192 1 [⟨S8x64, o0⟩, ⟨S8x64, o1⟩, ⟨S8x64, o2⟩] concatenates_S8x64_S8x64_S8x64_S8x192_d1

def headPred (out : FVec Ideal S8x192 .f32) (wmap : FVec Ideal S192x64 .f32) (bmap : FVec Ideal S64 .f32) : FVec Ideal S8x64 .f32 :=
  addf (Host.dotGeneral dotHead none out wmap)
    (broadcastInDim S8x64 ![0, 1] bcast_S1x64_S8x64_0_1 (broadcastInDim S1x64 ![1] bcast_S64_S1x64_1 bmap))

end Cert.GraphConv

end
-- ==== Proof.Layers.lean ====
import proofs.«149576_j9002251452429_1_alg».proof.Proof.Spec
import proofs.«149576_j9002251452429_1_alg».proof.Proof.HostFns

noncomputable section

namespace Cert.GraphConv

open Idealize.ShloMosaic Idealize.ShloMosaic.ValueIdx

def cur3 {n0 n1 n2 : ℕ} (a : (⟨3, ![n0, n1, n2]⟩ : Shape).Idx → EReal) : Fin n0 → Fin n1 → Fin n2 → EReal :=
  fun p q r => a (ix3 p q r)

def cur1 {n0 : ℕ} (a : (⟨1, ![n0]⟩ : Shape).Idx → EReal) : Fin n0 → EReal := fun p => a (ix1 p)

def unc3 {n0 n1 n2 : ℕ} (f : Fin n0 → Fin n1 → Fin n2 → EReal) : (⟨3, ![n0, n1, n2]⟩ : Shape).Idx → EReal :=
  fun idx => f (idx 0) (idx 1) (idx 2)

theorem unc3_ix3 {n0 n1 n2 : ℕ} (f : Fin n0 → Fin n1 → Fin n2 → EReal) (p : Fin n0) (q : Fin n1) (r : Fin n2) :
    unc3 f (ix3 p q r) = f p q r := rfl

theorem cur3_unc3 {n0 n1 n2 : ℕ} (f : Fin n0 → Fin n1 → Fin n2 → EReal) : cur3 (unc3 f) = f := rfl

abbrev S8x2048x2048 : Shape := ⟨3, ![8, 2048, 2048]⟩

def gcK {D : ℕ} (x : FVec Ideal ⟨3, ![8, 2048, D]⟩ .f32) (rel : FVec Ideal S8x2048x2048 .f32)
    (w : FVec Ideal ⟨3, ![3, D, 64]⟩ .f32) (b : FVec Ideal S64 .f32) : FVec Ideal S8x2048x64 .f32 :=
  unc3 (layerK (cur3 x) (cur3 rel) (cur3 w) (cur1 b))

def gcR {D : ℕ} (x : FVec Ideal ⟨3, ![8, 2048, D]⟩ .f32) (rel : FVec Ideal S8x2048x2048 .f32)
    (w : FVec Ideal ⟨3, ![3, D, 64]⟩ .f32) (b : FVec Ideal S64 .f32) : FVec Ideal S8x2048x64 .f32 :=
  unc3 (layerR (cur3 x) (cur3 rel) (cur3 w) (cur1 b))

def netOut (g1 g2 g3 : FVec Ideal S8x2048x64 .f32) : FVec Ideal S8x192 .f32 :=
  headOut (maxNodes (bnrelu g1)) (maxNodes (bnrelu g2)) (maxNodes g3)

end Cert.GraphConv

end
-- ==== Proof.KI.RegionVal0.lean ====
import proofs.«149576_j9002251452429_1_alg».proof.Proof.KI.Region0
import proofs.«149576_j9002251452429_1_alg».proof.Proof.KI.TileVal
import proofs.«149576_j9002251452429_1_alg».proof.Proof.Layers
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic Idealize.ShloMosaic.ValueIdx Cert.KernelIdeal Cert.KernelIdeal.Gen
open Idealize.SL.Sem
open Cert.GraphConv (gcK layerK accK normRow ind label cur3 cur1 unc3 unc3_ix3)
open Idealize.ShloMosaic.Pipeline (Dat)

section Pieces
variable {F : FTy → Type} [FloatOps F]
variable (c : Dev nD) (i : grid0.Coords) {arg2 : Memref sig .tc .vmem S1x2048x32 .f32} (harg2 : arg2.IsWhole) {arg3 : Memref sig .tc .vmem S1x256x2048 .f32} (harg3 : arg3.IsWhole)
  {arg4 : Memref sig .tc .vmem S3x32x64 .f32} (harg4 : arg4.IsWhole) {arg5 : Memref sig .tc .vmem S64 .f32} (harg5 : arg5.IsWhole)
  {arg6 : Memref sig .tc .vmem S1x256x64 .f32} (harg6 : arg6.IsWhole) {arg7 : Memref sig .tc .vmem S3x2048x64 .f32} (harg7 : arg7.IsWhole)
  (x0 : Vec F S1x2048x32 .f32) (x1 : Vec F S1x256x2048 .f32) (x2 : Vec F S3x32x64 .f32) (x3 : Vec F S64 .f32)

theorem out0_A_eq (hc0 : cond0_0 i) :
    out0_A_4 c i harg2 harg3 harg4 harg5 harg6 harg7 x0 x1 x2 x3 hc0
      = k0_pay1 (k0_pay6 x1 (slabOf 0 (sout0_A_0 c i harg2 harg3 harg4 harg5 harg6 harg7 x0 x1 x2 x3 hc0)) (slabOf 1 (sout0_A_0 c i harg2 harg3 harg4 harg5 harg6 harg7 x0 x1 x2 x3 hc0)) (slabOf 2 (sout0_A_0 c i harg2 harg3 harg4 harg5 harg6 harg7 x0 x1 x2 x3 hc0))) x3 := by
  unfold out0_A_4 sout0_A_0
  rw [View.read_writes_eq_canon _ _ _ (cover0_A_4 c i harg2 harg3 harg4 harg5 harg6 harg7 x0 x1 x2 x3 hc0), View.read_writes_junk_eq_canon]
  unfold kernelRun0_A
  dsimp only
  sl_unfold_words
  rw [View.canon_unit_zero hz3]
  simp only [View.readCov_eq_canon', View.readAt_eq_ld, harg3.read_unread, harg5.read_unread, View.ld_unit_zero (S := S1x256x2048) hz3, View.ld_unit_zero (S := S64) hz1]
  rfl

theorem out0_B_eq (hc0 : ¬cond0_0 i) (xs0 : Vec F S3x2048x64 .f32) :
    out0_B_4 c i harg2 harg3 harg4 harg5 harg6 harg7 x0 x1 x2 x3 hc0 xs0 = k0_pay1 (k0_pay6 x1 (slabOf 0 xs0) (slabOf 1 xs0) (slabOf 2 xs0)) x3 := by
  unfold out0_B_4
  rw [View.read_writes_eq_canon _ _ _ (cover0_B_4 c i harg2 harg3 harg4 harg5 harg6 harg7 x0 x1 x2 x3 hc0 xs0)]
  unfold kernelRun0_B
  dsimp only
  sl_unfold_words
  rw [View.canon_unit_zero hz3]
  simp only [View.readAt_eq_ld, harg3.read_unread, harg5.read_unread, harg7.read_unread, View.ld_unit_zero (S := S1x256x2048) hz3, View.ld_unit_zero (S := S64) hz1]

abbrev wslab0 (r : Fin 3) (W : Vec F S3x32x64 .f32) : Vec F S1x32x64 .f32 :=
  match r with
  | 0 => View.ld W (Rect.unit ![0, 0, 0] S1x32x64.size inb_S3x32x64_S1x32x64_0_0_0)
  | 1 => View.ld W (Rect.unit ![1, 0, 0] S1x32x64.size inb_S3x32x64_S1x32x64_1_0_0)
  | 2 => View.ld W (Rect.unit ![2, 0, 0] S1x32x64.size inb_S3x32x64_S1x32x64_2_0_0)

theorem sout0_A_eq (hc0 : cond0_0 i) :
    sout0_A_0 c i harg2 harg3 harg4 harg5 harg6 harg7 x0 x1 x2 x3 hc0
      = View.canon ([⟨Rect.unit ![2, 0, 0] S1x2048x64.size inb_S3x2048x64_S1x2048x64_2_0_0, k0_pay5 x0 (wslab0 2 x2)⟩,
          ⟨Rect.unit ![1, 0, 0] S1x2048x64.size inb_S3x2048x64_S1x2048x64_1_0_0, k0_pay4 x0 (wslab0 1 x2)⟩,
          ⟨Rect.unit ![0, 0, 0] S1x2048x64.size inb_S3x2048x64_S1x2048x64_0_0_0, k0_pay3 x0 (wslab0 0 x2)⟩] :
            List (View.Piece (Elt F) S3x2048x64 .f32)) := by
  unfold sout0_A_0
  rw [View.read_writes_junk_eq_canon]
  unfold kernelRun0_A
  dsimp only
  sl_unfold_words
  simp only [View.readAt_eq_ld, harg2.read_unread, harg4.read_unread, View.ld_unit_zero (S := S1x2048x32) hz3]

end Pieces

theorem emb_wslab0 (o : ℕ) (inb : ∀ a, (![o, 0, 0] : Fin 3 → ℕ) a + S1x32x64.size a ≤ S3x32x64.size a) (r : Fin 3) (hr : r.val = o)
    (d : Fin 32) (e : Fin 64) : (Rect.unit (s := S3x32x64) ![o, 0, 0] S1x32x64.size inb).emb (ix3 (0 : Fin 1) d e) = ix3 r d e := by
  funext a
  apply Fin.ext
  match a with
  | ⟨0, _⟩ => show o + 1 * 0 = r.val; omega
  | ⟨1, _⟩ => show 0 + 1 * d.val = d.val; omega
  | ⟨2, _⟩ => show 0 + 1 * e.val = e.val; omega

theorem wslab0_apply (r : Fin 3) (W : Vec Ideal S3x32x64 .f32) (d : Fin 32) (e : Fin 64) : wslab0 r W (ix3 0 d e) = W (ix3 r d e) := by
  match r with
  | 0 => exact congrArg W (emb_wslab0 0 _ 0 rfl d e)
  | 1 => exact congrArg W (emb_wslab0 1 _ 1 rfl d e)
  | 2 => exact congrArg W (emb_wslab0 2 _ 2 rfl d e)

section

variable (c : Dev nD) (i : grid0.Coords) {arg2 : Memref sig .tc .vmem S1x2048x32 .f32} (harg2 : arg2.IsWhole) {arg3 : Memref sig .tc .vmem S1x256x2048 .f32} (harg3 : arg3.IsWhole)
  {arg4 : Memref sig .tc .vmem S3x32x64 .f32} (harg4 : arg4.IsWhole) {arg5 : Memref sig .tc .vmem S64 .f32} (harg5 : arg5.IsWhole)
  {arg6 : Memref sig .tc .vmem S1x256x64 .f32} (harg6 : arg6.IsWhole) {arg7 : Memref sig .tc .vmem S3x2048x64 .f32} (harg7 : arg7.IsWhole)
  (x0 : Vec Ideal S1x2048x32 .f32) (x1 : Vec Ideal S1x256x2048 .f32) (x2 : Vec Ideal S3x32x64 .f32) (x3 : Vec Ideal S64 .f32)

theorem sout0_A_apply (hc0 : cond0_0 i) (r : Fin 3) (j : Fin 2048) (e : Fin 64) :
    sout0_A_0 (F := Ideal) c i harg2 harg3 harg4 harg5 harg6 harg7 x0 x1 x2 x3 hc0 (ix3 r j e) = ∑ d : Fin 32, x0 (ix3 0 j d) * x2 (ix3 r d e) := by
  rw [sout0_A_eq]
  refine (canon3_apply (F := Ideal) _ _ _ r j e).trans ?_
  match r with
  | 2 => exact (k0_pay5_apply x0 _ j e).trans (Finset.sum_congr rfl fun d _ => congrArg (x0 (ix3 0 j d) * ·) (wslab0_apply 2 x2 d e))
  | 1 => exact (k0_pay4_apply x0 _ j e).trans (Finset.sum_congr rfl fun d _ => congrArg (x0 (ix3 0 j d) * ·) (wslab0_apply 1 x2 d e))
  | 0 => exact (k0_pay3_apply x0 _ j e).trans (Finset.sum_congr rfl fun d _ => congrArg (x0 (ix3 0 j d) * ·) (wslab0_apply 0 x2 d e))

end

theorem idx0_0 : ∀ t : Fin cfg0.N, win0_0.index t 0 = t.val / 8 ∧ win0_0.index t 1 = 0 ∧ win0_0.index t 2 = 0 :=
  (by decide +kernel : ∀ t : Fin grid0.N, win0_0.index t 0 = t.val / 8 ∧ win0_0.index t 1 = 0 ∧ win0_0.index t 2 = 0)
theorem idx0_1 : ∀ t : Fin cfg0.N, win0_1.index t 0 = t.val / 8 ∧ win0_1.index t 1 = t.val % 8 ∧ win0_1.index t 2 = 0 :=
  (by decide +kernel : ∀ t : Fin grid0.N, win0_1.index t 0 = t.val / 8 ∧ win0_1.index t 1 = t.val % 8 ∧ win0_1.index t 2 = 0)
theorem idx0_2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)
theorem idx0_3 : ∀ t : Fin cfg0.N, win0_3.index t 0 = 0 :=
  (by decide +kernel : ∀ t : Fin grid0.N, win0_3.index t 0 = 0)
theorem idx0_4 : ∀ t : Fin cfg0.N, win0_4.index t 0 = t.val / 8 ∧ win0_4.index t 1 = t.val % 8 ∧ win0_4.index t 2 = 0 :=
  (by decide +kernel : ∀ t : Fin grid0.N, win0_4.index t 0 = t.val / 8 ∧ win0_4.index t 1 = t.val % 8 ∧ win0_4.index t 2 = 0)

theorem xblk0_apply (A : Vec Ideal S8x2048x32 .f32) (t : Fin cfg0.N) (j : Fin 2048) (d : Fin 32) (b : Fin 8) (hb : b.val = t.val / 8) :
    ((cfg0.win 0).blk t).view.read (Elt Ideal) A (ix3 (0 : Fin 1) j d) = A (ix3 b j d) := by
  rw [View.read_apply]
  show A _ = A _
  congr 1
  funext a
  apply Fin.ext
  match a with
  | ⟨0, _⟩ => show win0_0.index t 0 * 1 + 1 * 0 = b.val; rw [(idx0_0 t).1]; omega
  | ⟨1, _⟩ => show win0_0.index t 1 * 2048 + 1 * j.val = j.val; rw [(idx0_0 t).2.1]; omega
  | ⟨2, _⟩ => show win0_0.index t 2 * 32 + 1 * d.val = d.val; rw [(idx0_0 t).2.2]; omega

theorem relblk0_apply (A : Vec Ideal S8x2048x2048 .f32) (t : Fin cfg0.N) (i : Fin 256) (j : Fin 2048) (b : Fin 8) (q : Fin 2048)
    (hb : b.val = t.val / 8) (hq : q.val = 256 * (t.val % 8) + i.val) :
    ((cfg0.win 1).blk t).view.read (Elt Ideal) A (ix3 (0 : Fin 1) i j) = A (ix3 b q j) := by
  rw [View.read_apply]
  show A _ = A _
  congr 1
  funext a
  apply Fin.ext
  match a with
  | ⟨0, _⟩ => show win0_1.index t 0 * 1 + 1 * 0 = b.val; rw [(idx0_1 t).1]; omega
  | ⟨1, _⟩ => show win0_1.index t 1 * 256 + 1 * i.val = q.val; rw [(idx0_1 t).2.1]; omega
  | ⟨2, _⟩ => show win0_1.index t 2 * 2048 + 1 * j.val = j.val; rw [(idx0_1 t).2.2]; omega

theorem wblk0_apply (A : Vec Ideal S3x32x64 .f32) (t : Fin cfg0.N) (r : Fin 3) (d : Fin 32) (e : Fin 64) :
    ((cfg0.win 2).blk t).view.read (Elt Ideal) A (ix3 r d e) = A (ix3 r d e) := by
  rw [View.read_apply]
  show A _ = A _
  congr 1
  funext a
  apply Fin.ext
  match a with
  | ⟨0, _⟩ => show win0_2.index t 0 * 3 + 1 * r.val = r.val; rw [(idx0_2 t).1]; omega
  | ⟨1, _⟩ => show win0_2.index t 1 * 32 + 1 * d.val = d.val; rw [(idx0_2 t).2.1]; omega
  | ⟨2, _⟩ => show win0_2.index t 2 * 64 + 1 * e.val = e.val; rw [(idx0_2 t).2.2]; omega

theorem bblk0_apply (A : Vec Ideal S64 .f32) (t : Fin cfg0.N) (e : Fin 64) :
    ((cfg0.win 3).blk t).view.read (Elt Ideal) A (ix1 e) = A (ix1 e) := by
  rw [View.read_apply]
  show A _ = A _
  congr 1
  funext a
  apply Fin.ext
  match a with
  | ⟨0, _⟩ => show win0_3.index t 0 * 64 + 1 * e.val = e.val; rw [idx0_3 t]; omega

theorem oblk0_apply (A : Vec Ideal S8x2048x64 .f32) (t : Fin cfg0.N) (i : Fin 256) (e : Fin 64) (b : Fin 8) (q : Fin 2048)
    (hb : b.val = t.val / 8) (hq : q.val = 256 * (t.val % 8) + i.val) :
    ((cfg0.win 4).blk t).view.read (Elt Ideal) A (ix3 (0 : Fin 1) i e) = A (ix3 b q e) := by
  rw [View.read_apply]
  show A _ = A _
  congr 1
  funext a
  apply Fin.ext
  match a with
  | ⟨0, _⟩ => show win0_4.index t 0 * 1 + 1 * 0 = b.val; rw [(idx0_4 t).1]; omega
  | ⟨1, _⟩ => show win0_4.index t 1 * 256 + 1 * i.val = q.val; rw [(idx0_4 t).2.1]; omega
  | ⟨2, _⟩ => show win0_4.index t 2 * 64 + 1 * e.val = e.val; rw [(idx0_4 t).2.2]; omega

theorem cover0 (c : Dev nD) (i : ((cfg0.win 4).arr.view.loc (c.tc : Thread nD τ)).2.ty.Idx) :
    ∃ t : Fin cfg0.N, (cfg0.win 4).flush t = true ∧ i ∈ ((cfg0.win 4).blk t).view.set := by
  have h0 : (i 0 : Nat) < 8 := (i 0).isLt
  have h1 : (i 1 : Nat) < 2048 := (i 1).isLt
  have h2 : (i 2 : Nat) < 64 := (i 2).isLt
  obtain ⟨t, ht⟩ : ∃ t : Fin cfg0.N, t.val = 8 * (i 0).val + (i 1).val / 256 :=
    ⟨⟨_, by rw [show cfg0.N = 64 from N_0]; omega⟩, rfl⟩
  refine ⟨t, flush0_4 t, ?_⟩
  show i ∈ ((View.whole main_v1).slice (win0_4.rect t)).set
  rw [View.set_slice_whole, Rect.mem_set_unit]
  intro a
  match a with
  | ⟨0, _⟩ =>
    show win0_4.index t 0 * 1 ≤ (i 0 : Nat) ∧ (i 0 : Nat) < win0_4.index t 0 * 1 + 1
    rw [(idx0_4 t).1]; omega
  | ⟨1, _⟩ =>
    show win0_4.index t 1 * 256 ≤ (i 1 : Nat) ∧ (i 1 : Nat) < win0_4.index t 1 * 256 + 256
    rw [(idx0_4 t).2.1]; omega
  | ⟨2, _⟩ =>
    show win0_4.index t 2 * 64 ≤ (i 2 : Nat) ∧ (i 2 : Nat) < win0_4.index t 2 * 64 + 64
    rw [(idx0_4 t).2.2]; omega

section Region
variable (V : (c : Dev nD) → (b : Ref sig .tc) → Buf (Elt Ideal) ((c : Thread nD τ).loc b))

abbrev xarr0 (c : Dev nD) : FVec Ideal S8x2048x32 .f32 := V c main_arg0
abbrev relarr0 (c : Dev nD) : FVec Ideal S8x2048x2048 .f32 := V c main_v0
abbrev warr0 (c : Dev nD) : FVec Ideal S3x32x64 .f32 := V c main_arg3
abbrev barr0 (c : Dev nD) : FVec Ideal S64 .f32 := V c main_arg4

theorem scratch0_A (c : Dev nD) (t : Fin cfg0.N) (h0 : t.val % 8 = 0) (b : Fin 8) (hb : b.val = t.val / 8) (r : Fin 3) (j : Fin 2048) (e : Fin 64) :
    (outsAt0 V c t.val t.isLt).2 (ix3 r j e) = ∑ d : Fin 32, xarr0 V c (ix3 b j d) * warr0 V c (ix3 r d e) := by
  rw [outsAt0_A V c t h0]
  unfold atA0; dsimp only
  refine (sout0_A_apply c (grid0.coords t) (hs0_0 t) (hs0_1 t) (hs0_2 t) (hs0_3 t) (hs0_4 t) hsM0_0 (iblk0 V c 0 t) (iblk0 V c 1 t) (iblk0 V c 2 t) (iblk0 V c 3 t) ((hcond0_0 t).mpr h0) r j e).trans ?_
  refine Finset.sum_congr rfl fun d _ => congrArg₂ (· * ·) ?_ ?_
  · exact xblk0_apply (V c main_arg0) t j d b hb
  · exact wblk0_apply (V c main_arg3) t r d e

/-- After every position the scratch holds the products for that position's batch: stored at the batch's first row tile, kept by the others. -/
theorem scratch0_apply (c : Dev nD) : ∀ (n : ℕ) (hn : n < cfg0.N) (b : Fin 8), b.val = n / 8 → ∀ (r : Fin 3) (j : Fin 2048) (e : Fin 64),
    (outsAt0 V c n hn).2 (ix3 r j e) = ∑ d : Fin 32, xarr0 V c (ix3 b j d) * warr0 V c (ix3 r d e)
  | 0, hn, b, hb, r, j, e => scratch0_A V c ⟨0, hn⟩ rfl b hb r j e
  | n + 1, hn, b, hb, r, j, e => by
    by_cases h0 : (n + 1) % 8 = 0
    · exact scratch0_A V c ⟨n + 1, hn⟩ h0 b hb r j e
    · rw [outsAt0_B V c ⟨n + 1, hn⟩ h0]
      unfold atB0; dsimp only
      show (outsAt0 V c n _).2 (ix3 r j e) = _
      exact scratch0_apply c n _ b (by omega) r j e

end Region

section RegionValue
variable (V : (c : Dev nD) → (b : Ref sig .tc) → Buf (Elt Ideal) ((c : Thread nD τ).loc b))

theorem out0_eq (c : Dev nD) (t : Fin cfg0.N) :
    (outsAt0 V c t.val t.isLt).1
      = k0_pay1 (F := Ideal) (k0_pay6 (F := Ideal) (iblk0 V c 1 t) (slabOf 0 (outsAt0 V c t.val t.isLt).2) (slabOf 1 (outsAt0 V c t.val t.isLt).2)
          (slabOf 2 (outsAt0 V c t.val t.isLt).2)) (iblk0 V c 3 t) := by
  by_cases h0 : t.val % 8 = 0
  · rw [outsAt0_A V c t h0]
    unfold atA0; dsimp only
    exact out0_A_eq (F := Ideal) c (grid0.coords t) (hs0_0 t) (hs0_1 t) (hs0_2 t) (hs0_3 t) (hs0_4 t) hsM0_0 (iblk0 V c 0 t) (iblk0 V c 1 t) (iblk0 V c 2 t) (iblk0 V c 3 t) ((hcond0_0 t).mpr h0)
  · rw [outsAt0_B V c t h0]
    unfold atB0; dsimp only
    exact out0_B_eq (F := Ideal) c (grid0.coords t) (hs0_0 t) (hs0_1 t) (hs0_2 t) (hs0_3 t) (hs0_4 t) hsM0_0 (iblk0 V c 0 t) (iblk0 V c 1 t) (iblk0 V c 2 t) (iblk0 V c 3 t) (fun h => h0 ((hcond0_0 t).mp h))
      (outsAt0 V c (t.val - 1) (Nat.lt_of_le_of_lt (Nat.sub_le _ _) t.isLt)).2

theorem out0_apply (c : Dev nD) (t : Fin cfg0.N) (i : Fin 256) (e : Fin 64) (b : Fin 8) (q : Fin 2048)
    (hb : b.val = t.val / 8) (hq : q.val = 256 * (t.val % 8) + i.val) :
    (outsAt0 V c t.val t.isLt).1 (ix3 0 i e) = gcK (xarr0 V c) (relarr0 V c) (warr0 V c) (barr0 V c) (ix3 b q e) := by
  rw [out0_eq V c t]
  refine (tile_entry0 (D := 32) (iblk0 V c 1 t) _ _ _ (iblk0 V c 3 t) (fun j d => xarr0 V c (ix3 b j d)) (fun r d e => warr0 V c (ix3 r d e))
    (fun j e => (slabOf_apply 0 _ j e).trans (scratch0_apply V c t.val t.isLt b hb 0 j e))
    (fun j e => (slabOf_apply 1 _ j e).trans (scratch0_apply V c t.val t.isLt b hb 1 j e))
    (fun j e => (slabOf_apply 2 _ j e).trans (scratch0_apply V c t.val t.isLt b hb 2 j e)) i e).trans ?_
  show _ = normRow (fun e' => accK (fun r j => ind (relarr0 V c (ix3 b q j)) (label r)) (fun j d => xarr0 V c (ix3 b j d))
    (fun r d => warr0 V c (ix3 r d e')) (barr0 V c (ix1 e'))) e
  refine congrArg (fun y => normRow y e) (funext fun e' => ?_)
  have hrel : ∀ j, iblk0 V c 1 t (ix3 0 i j) = relarr0 V c (ix3 b q j) := fun j => relblk0_apply (V c main_v0) t i j b q hb hq
  have hbias : iblk0 V c 3 t (ix1 e') = barr0 V c (ix1 e') := bblk0_apply (V c main_arg4) t e'
  simp only [hrel, hbias]

theorem flushed0_eq (c : Dev nD) (t : Fin cfg0.N) (hf : (cfg0.win 4).flush t = true) :
    (dat0 V c).flushed 4 t = ((cfg0.win 4).blk t).view.read (Elt Ideal) (gcK (xarr0 V c) (relarr0 V c) (warr0 V c) (barr0 V c)) := by
  show (cfg0.win 4).cut (grid0.coords t) ((dat0 V c).after 4 t) = _
  rw [after0_4]
  have hN : cfg0.N = 64 := N_0
  refine funext fun (y : S1x256x64.Idx) => ?_
  obtain ⟨u, i, e, rfl⟩ : ∃ (u : Fin 1) (i : Fin 256) (e : Fin 64), y = ix3 u i e := ⟨y 0, y 1, y 2, eq_ix3 y⟩
  obtain rfl : u = 0 := Subsingleton.elim _ _
  refine (out0_apply V c t i e ⟨t.val / 8, by omega⟩ ⟨256 * (t.val % 8) + i.val, by omega⟩ rfl rfl).trans ?_
  exact (oblk0_apply _ t i e _ _ rfl rfl).symm

/-- The call's output array is the layer, in the kernel's association, of its four input arrays. -/
theorem region0_val (c : Dev nD) :
    (dat0 (F := Ideal) V c).arrAt 4 cfg0.N = gcK (D := 32) (V c main_arg0) (V c main_v0) (V c main_arg3) (V c main_arg4) :=
  (dat0 V c).arrAt_eq_of_cover 4 (gcK (xarr0 V c) (relarr0 V c) (warr0 V c) (barr0 V c)) (flushed0_eq V c) (cover0 c)

end RegionValue

end Cert.KernelIdeal.Hand

end
-- ==== Proof.KI.RegionVal1.lean ====
import proofs.«149576_j9002251452429_1_alg».proof.Proof.KI.Region1
import proofs.«149576_j9002251452429_1_alg».proof.Proof.KI.TileVal
import proofs.«149576_j9002251452429_1_alg».proof.Proof.Layers
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic Idealize.ShloMosaic.ValueIdx Cert.KernelIdeal Cert.KernelIdeal.Gen
open Idealize.SL.Sem
open Cert.GraphConv (gcK layerK accK normRow ind label cur3 cur1 unc3 unc3_ix3)
open Idealize.ShloMosaic.Pipeline (Dat)

section Pieces
variable {F : FTy → Type} [FloatOps F]
variable (c : Dev nD) (i : grid1.Coords) {arg2 : Memref sig .tc .vmem S1x2048x64 .f32} (harg2 : arg2.IsWhole) {arg3 : Memref sig .tc .vmem S1x256x2048 .f32} (harg3 : arg3.IsWhole)
  {arg4 : Memref sig .tc .vmem S3x64x64 .f32} (harg4 : arg4.IsWhole) {arg5 : Memref sig .tc .vmem S64 .f32} (harg5 : arg5.IsWhole)
  {arg6 : Memref sig .tc .vmem S1x256x64 .f32} (harg6 : arg6.IsWhole) {arg7 : Memref sig .tc .vmem S3x2048x64 .f32} (harg7 : arg7.IsWhole)
  (x0 : Vec F S1x2048x64 .f32) (x1 : Vec F S1x256x2048 .f32) (x2 : Vec F S3x64x64 .f32) (x3 : Vec F S64 .f32)

theorem out1_A_eq (hc0 : cond1_0 i) :
    out1_A_4 c i harg2 harg3 harg4 harg5 harg6 harg7 x0 x1 x2 x3 hc0
      = k1_pay1 (k1_pay6 x1 (slabOf 0 (sout1_A_0 c i harg2 harg3 harg4 harg5 harg6 harg7 x0 x1 x2 x3 hc0)) (slabOf 1 (sout1_A_0 c i harg2 harg3 harg4 harg5 harg6 harg7 x0 x1 x2 x3 hc0)) (slabOf 2 (sout1_A_0 c i harg2 harg3 harg4 harg5 harg6 harg7 x0 x1 x2 x3 hc0))) x3 := by
  unfold out1_A_4 sout1_A_0
  rw [View.read_writes_eq_canon _ _ _ (cover1_A_4 c i harg2 harg3 harg4 harg5 harg6 harg7 x0 x1 x2 x3 hc0), View.read_writes_junk_eq_canon]
  unfold kernelRun1_A
  dsimp only
  sl_unfold_words
  rw [View.canon_unit_zero hz3]
  simp only [View.readCov_eq_canon', View.readAt_eq_ld, harg3.read_unread, harg5.read_unread, View.ld_unit_zero (S := S1x256x2048) hz3, View.ld_unit_zero (S := S64) hz1]
  rfl

theorem out1_B_eq (hc0 : ¬cond1_0 i) (xs0 : Vec F S3x2048x64 .f32) :
    out1_B_4 c i harg2 harg3 harg4 harg5 harg6 harg7 x0 x1 x2 x3 hc0 xs0 = k1_pay1 (k1_pay6 x1 (slabOf 0 xs0) (slabOf 1 xs0) (slabOf 2 xs0)) x3 := by
  unfold out1_B_4
  rw [View.read_writes_eq_canon _ _ _ (cover1_B_4 c i harg2 harg3 harg4 harg5 harg6 harg7 x0 x1 x2 x3 hc0 xs0)]
  unfold kernelRun1_B
  dsimp only
  sl_unfold_words
  rw [View.canon_unit_zero hz3]
  simp only [View.readAt_eq_ld, harg3.read_unread, harg5.read_unread, harg7.read_unread, View.ld_unit_zero (S := S1x256x2048) hz3, View.ld_unit_zero (S := S64) hz1]

abbrev wslab1 (r : Fin 3) (W : Vec F S3x64x64 .f32) : Vec F S1x64x64 .f32 :=
  match r with
  | 0 => View.ld W (Rect.unit ![0, 0, 0] S1x64x64.size inb_S3x64x64_S1x64x64_0_0_0)
  | 1 => View.ld W (Rect.unit ![1, 0, 0] S1x64x64.size inb_S3x64x64_S1x64x64_1_0_0)
  | 2 => View.ld W (Rect.unit ![2, 0, 0] S1x64x64.size inb_S3x64x64_S1x64x64_2_0_0)

theorem sout1_A_eq (hc0 : cond1_0 i) :
    sout1_A_0 c i harg2 harg3 harg4 harg5 harg6 harg7 x0 x1 x2 x3 hc0
      = View.canon ([⟨Rect.unit ![2, 0, 0] S1x2048x64.size inb_S3x2048x64_S1x2048x64_2_0_0, k1_pay5 x0 (wslab1 2 x2)⟩,
          ⟨Rect.unit ![1, 0, 0] S1x2048x64.size inb_S3x2048x64_S1x2048x64_1_0_0, k1_pay4 x0 (wslab1 1 x2)⟩,
          ⟨Rect.unit ![0, 0, 0] S1x2048x64.size inb_S3x2048x64_S1x2048x64_0_0_0, k1_pay3 x0 (wslab1 0 x2)⟩] :
            List (View.Piece (Elt F) S3x2048x64 .f32)) := by
  unfold sout1_A_0
  rw [View.read_writes_junk_eq_canon]
  unfold kernelRun1_A
  dsimp only
  sl_unfold_words
  simp only [View.readAt_eq_ld, harg2.read_unread, harg4.read_unread, View.ld_unit_zero (S := S1x2048x64) hz3]

end Pieces

theorem emb_wslab1 (o : ℕ) (inb : ∀ a, (![o, 0, 0] : Fin 3 → ℕ) a + S1x64x64.size a ≤ S3x64x64.size a) (r : Fin 3) (hr : r.val = o)
    (d : Fin 64) (e : Fin 64) : (Rect.unit (s := S3x64x64) ![o, 0, 0] S1x64x64.size inb).emb (ix3 (0 : Fin 1) d e) = ix3 r d e := by
  funext a
  apply Fin.ext
  match a with
  | ⟨0, _⟩ => show o + 1 * 0 = r.val; omega
  | ⟨1, _⟩ => show 0 + 1 * d.val = d.val; omega
  | ⟨2, _⟩ => show 0 + 1 * e.val = e.val; omega

theorem wslab1_apply (r : Fin 3) (W : Vec Ideal S3x64x64 .f32) (d : Fin 64) (e : Fin 64) : wslab1 r W (ix3 0 d e) = W (ix3 r d e) := by
  match r with
  | 0 => exact congrArg W (emb_wslab1 0 _ 0 rfl d e)
  | 1 => exact congrArg W (emb_wslab1 1 _ 1 rfl d e)
  | 2 => exact congrArg W (emb_wslab1 2 _ 2 rfl d e)

section

variable (c : Dev nD) (i : grid1.Coords) {arg2 : Memref sig .tc .vmem S1x2048x64 .f32} (harg2 : arg2.IsWhole) {arg3 : Memref sig .tc .vmem S1x256x2048 .f32} (harg3 : arg3.IsWhole)
  {arg4 : Memref sig .tc .vmem S3x64x64 .f32} (harg4 : arg4.IsWhole) {arg5 : Memref sig .tc .vmem S64 .f32} (harg5 : arg5.IsWhole)
  {arg6 : Memref sig .tc .vmem S1x256x64 .f32} (harg6 : arg6.IsWhole) {arg7 : Memref sig .tc .vmem S3x2048x64 .f32} (harg7 : arg7.IsWhole)
  (x0 : Vec Ideal S1x2048x64 .f32) (x1 : Vec Ideal S1x256x2048 .f32) (x2 : Vec Ideal S3x64x64 .f32) (x3 : Vec Ideal S64 .f32)

theorem sout1_A_apply (hc0 : cond1_0 i) (r : Fin 3) (j : Fin 2048) (e : Fin 64) :
    sout1_A_0 (F := Ideal) c i harg2 harg3 harg4 harg5 harg6 harg7 x0 x1 x2 x3 hc0 (ix3 r j e) = ∑ d : Fin 64, x0 (ix3 0 j d) * x2 (ix3 r d e) := by
  rw [sout1_A_eq]
  refine (canon3_apply (F := Ideal) _ _ _ r j e).trans ?_
  match r with
  | 2 => exact (k1_pay5_apply x0 _ j e).trans (Finset.sum_congr rfl fun d _ => congrArg (x0 (ix3 0 j d) * ·) (wslab1_apply 2 x2 d e))
  | 1 => exact (k1_pay4_apply x0 _ j e).trans (Finset.sum_congr rfl fun d _ => congrArg (x0 (ix3 0 j d) * ·) (wslab1_apply 1 x2 d e))
  | 0 => exact (k1_pay3_apply x0 _ j e).trans (Finset.sum_congr rfl fun d _ => congrArg (x0 (ix3 0 j d) * ·) (wslab1_apply 0 x2 d e))

end

theorem idx1_0 : ∀ t : Fin cfg1.N, win1_0.index t 0 = t.val / 8 ∧ win1_0.index t 1 = 0 ∧ win1_0.index t 2 = 0 :=
  (by decide +kernel : ∀ t : Fin grid1.N, win1_0.index t 0 = t.val / 8 ∧ win1_0.index t 1 = 0 ∧ win1_0.index t 2 = 0)
theorem idx1_1 : ∀ t : Fin cfg1.N, win1_1.index t 0 = t.val / 8 ∧ win1_1.index t 1 = t.val % 8 ∧ win1_1.index t 2 = 0 :=
  (by decide +kernel : ∀ t : Fin grid1.N, win1_1.index t 0 = t.val / 8 ∧ win1_1.index t 1 = t.val % 8 ∧ win1_1.index t 2 = 0)
theorem idx1_2 : ∀ t : Fin cfg1.N, win1_2.index t 0 = 0 ∧ win1_2.index t 1 = 0 ∧ win1_2.index t 2 = 0 :=
  (by decide +kernel : ∀ t : Fin grid1.N, win1_2.index t 0 = 0 ∧ win1_2.index t 1 = 0 ∧ win1_2.index t 2 = 0)
theorem idx1_3 : ∀ t : Fin cfg1.N, win1_3.index t 0 = 0 :=
  (by decide +kernel : ∀ t : Fin grid1.N, win1_3.index t 0 = 0)
theorem idx1_4 : ∀ t : Fin cfg1.N, win1_4.index t 0 = t.val / 8 ∧ win1_4.index t 1 = t.val % 8 ∧ win1_4.index t 2 = 0 :=
  (by decide +kernel : ∀ t : Fin grid1.N, win1_4.index t 0 = t.val / 8 ∧ win1_4.index t 1 = t.val % 8 ∧ win1_4.index t 2 = 0)

theorem xblk1_apply (A : Vec Ideal S8x2048x64 .f32) (t : Fin cfg1.N) (j : Fin 2048) (d : Fin 64) (b : Fin 8) (hb : b.val = t.val / 8) :
    ((cfg1.win 0).blk t).view.read (Elt Ideal) A (ix3 (0 : Fin 1) j d) = A (ix3 b j d) := by
  rw [View.read_apply]
  show A _ = A _
  congr 1
  funext a
  apply Fin.ext
  match a with
  | ⟨0, _⟩ => show win1_0.index t 0 * 1 + 1 * 0 = b.val; rw [(idx1_0 t).1]; omega
  | ⟨1, _⟩ => show win1_0.index t 1 * 2048 + 1 * j.val = j.val; rw [(idx1_0 t).2.1]; omega
  | ⟨2, _⟩ => show win1_0.index t 2 * 64 + 1 * d.val = d.val; rw [(idx1_0 t).2.2]; omega

theorem relblk1_apply (A : Vec Ideal S8x2048x2048 .f32) (t : Fin cfg1.N) (i : Fin 256) (j : Fin 2048) (b : Fin 8) (q : Fin 2048)
    (hb : b.val = t.val / 8) (hq : q.val = 256 * (t.val % 8) + i.val) :
    ((cfg1.win 1).blk t).view.read (Elt Ideal) A (ix3 (0 : Fin 1) i j) = A (ix3 b q j) := by
  rw [View.read_apply]
  show A _ = A _
  congr 1
  funext a
  apply Fin.ext
  match a with
  | ⟨0, _⟩ => show win1_1.index t 0 * 1 + 1 * 0 = b.val; rw [(idx1_1 t).1]; omega
  | ⟨1, _⟩ => show win1_1.index t 1 * 256 + 1 * i.val = q.val; rw [(idx1_1 t).2.1]; omega
  | ⟨2, _⟩ => show win1_1.index t 2 * 2048 + 1 * j.val = j.val; rw [(idx1_1 t).2.2]; omega

theorem wblk1_apply (A : Vec Ideal S3x64x64 .f32) (t : Fin cfg1.N) (r : Fin 3) (d : Fin 64) (e : Fin 64) :
    ((cfg1.win 2).blk t).view.read (Elt Ideal) A (ix3 r d e) = A (ix3 r d e) := by
  rw [View.read_apply]
  show A _ = A _
  congr 1
  funext a
  apply Fin.ext
  match a with
  | ⟨0, _⟩ => show win1_2.index t 0 * 3 + 1 * r.val = r.val; rw [(idx1_2 t).1]; omega
  | ⟨1, _⟩ => show win1_2.index t 1 * 64 + 1 * d.val = d.val; rw [(idx1_2 t).2.1]; omega
  | ⟨2, _⟩ => show win1_2.index t 2 * 64 + 1 * e.val = e.val; rw [(idx1_2 t).2.2]; omega

theorem bblk1_apply (A : Vec Ideal S64 .f32) (t : Fin cfg1.N) (e : Fin 64) :
    ((cfg1.win 3).blk t).view.read (Elt Ideal) A (ix1 e) = A (ix1 e) := by
  rw [View.read_apply]
  show A _ = A _
  congr 1
  funext a
  apply Fin.ext
  match a with
  | ⟨0, _⟩ => show win1_3.index t 0 * 64 + 1 * e.val = e.val; rw [idx1_3 t]; omega

theorem oblk1_apply (A : Vec Ideal S8x2048x64 .f32) (t : Fin cfg1.N) (i : Fin 256) (e : Fin 64) (b : Fin 8) (q : Fin 2048)
    (hb : b.val = t.val / 8) (hq : q.val = 256 * (t.val % 8) + i.val) :
    ((cfg1.win 4).blk t).view.read (Elt Ideal) A (ix3 (0 : Fin 1) i e) = A (ix3 b q e) := by
  rw [View.read_apply]
  show A _ = A _
  congr 1
  funext a
  apply Fin.ext
  match a with
  | ⟨0, _⟩ => show win1_4.index t 0 * 1 + 1 * 0 = b.val; rw [(idx1_4 t).1]; omega
  | ⟨1, _⟩ => show win1_4.index t 1 * 256 + 1 * i.val = q.val; rw [(idx1_4 t).2.1]; omega
  | ⟨2, _⟩ => show win1_4.index t 2 * 64 + 1 * e.val = e.val; rw [(idx1_4 t).2.2]; omega

theorem cover1 (c : Dev nD) (i : ((cfg1.win 4).arr.view.loc (c.tc : Thread nD τ)).2.ty.Idx) :
    ∃ t : Fin cfg1.N, (cfg1.win 4).flush t = true ∧ i ∈ ((cfg1.win 4).blk t).view.set := by
  have h0 : (i 0 : Nat) < 8 := (i 0).isLt
  have h1 : (i 1 : Nat) < 2048 := (i 1).isLt
  have h2 : (i 2 : Nat) < 64 := (i 2).isLt
  obtain ⟨t, ht⟩ : ∃ t : Fin cfg1.N, t.val = 8 * (i 0).val + (i 1).val / 256 :=
    ⟨⟨_, by rw [show cfg1.N = 64 from N_1]; omega⟩, rfl⟩
  refine ⟨t, flush1_4 t, ?_⟩
  show i ∈ ((View.whole main_v22).slice (win1_4.rect t)).set
  rw [View.set_slice_whole, Rect.mem_set_unit]
  intro a
  match a with
  | ⟨0, _⟩ =>
    show win1_4.index t 0 * 1 ≤ (i 0 : Nat) ∧ (i 0 : Nat) < win1_4.index t 0 * 1 + 1
    rw [(idx1_4 t).1]; omega
  | ⟨1, _⟩ =>
    show win1_4.index t 1 * 256 ≤ (i 1 : Nat) ∧ (i 1 : Nat) < win1_4.index t 1 * 256 + 256
    rw [(idx1_4 t).2.1]; omega
  | ⟨2, _⟩ =>
    show win1_4.index t 2 * 64 ≤ (i 2 : Nat) ∧ (i 2 : Nat) < win1_4.index t 2 * 64 + 64
    rw [(idx1_4 t).2.2]; omega

section Region
variable (V : (c : Dev nD) → (b : Ref sig .tc) → Buf (Elt Ideal) ((c : Thread nD τ).loc b))

abbrev xarr1 (c : Dev nD) : FVec Ideal S8x2048x64 .f32 := V c main_v20
abbrev relarr1 (c : Dev nD) : FVec Ideal S8x2048x2048 .f32 := V c main_arg2
abbrev warr1 (c : Dev nD) : FVec Ideal S3x64x64 .f32 := V c main_arg5
abbrev barr1 (c : Dev nD) : FVec Ideal S64 .f32 := V c main_arg6

theorem scratch1_A (c : Dev nD) (t : Fin cfg1.N) (h0 : t.val % 8 = 0) (b : Fin 8) (hb : b.val = t.val / 8) (r : Fin 3) (j : Fin 2048) (e : Fin 64) :
    (outsAt1 V c t.val t.isLt).2 (ix3 r j e) = ∑ d : Fin 64, xarr1 V c (ix3 b j d) * warr1 V c (ix3 r d e) := by
  rw [outsAt1_A V c t h0]
  unfold atA1; dsimp only
  refine (sout1_A_apply c (grid1.coords t) (hs1_0 t) (hs1_1 t) (hs1_2 t) (hs1_3 t) (hs1_4 t) hsM1_0 (iblk1 V c 0 t) (iblk1 V c 1 t) (iblk1 V c 2 t) (iblk1 V c 3 t) ((hcond1_0 t).mpr h0) r j e).trans ?_
  refine Finset.sum_congr rfl fun d _ => congrArg₂ (· * ·) ?_ ?_
  · exact xblk1_apply (V c main_v20) t j d b hb
  · exact wblk1_apply (V c main_arg5) t r d e

/-- After every position the scratch holds the products for that position's batch: stored at the batch's first row tile, kept by the others. -/
theorem scratch1_apply (c : Dev nD) : ∀ (n : ℕ) (hn : n < cfg1.N) (b : Fin 8), b.val = n / 8 → ∀ (r : Fin 3) (j : Fin 2048) (e : Fin 64),
    (outsAt1 V c n hn).2 (ix3 r j e) = ∑ d : Fin 64, xarr1 V c (ix3 b j d) * warr1 V c (ix3 r d e)
  | 0, hn, b, hb, r, j, e => scratch1_A V c ⟨0, hn⟩ rfl b hb r j e
  | n + 1, hn, b, hb, r, j, e => by
    by_cases h0 : (n + 1) % 8 = 0
    · exact scratch1_A V c ⟨n + 1, hn⟩ h0 b hb r j e
    · rw [outsAt1_B V c ⟨n + 1, hn⟩ h0]
      unfold atB1; dsimp only
      show (outsAt1 V c n _).2 (ix3 r j e) = _
      exact scratch1_apply c n _ b (by omega) r j e

end Region

section RegionValue
variable (V : (c : Dev nD) → (b : Ref sig .tc) → Buf (Elt Ideal) ((c : Thread nD τ).loc b))

theorem out1_eq (c : Dev nD) (t : Fin cfg1.N) :
    (outsAt1 V c t.val t.isLt).1
      = k1_pay1 (F := Ideal) (k1_pay6 (F := Ideal) (iblk1 V c 1 t) (slabOf 0 (outsAt1 V c t.val t.isLt).2) (slabOf 1 (outsAt1 V c t.val t.isLt).2)
          (slabOf 2 (outsAt1 V c t.val t.isLt).2)) (iblk1 V c 3 t) := by
  by_cases h0 : t.val % 8 = 0
  · rw [outsAt1_A V c t h0]
    unfold atA1; dsimp only
    exact out1_A_eq (F := Ideal) c (grid1.coords t) (hs1_0 t) (hs1_1 t) (hs1_2 t) (hs1_3 t) (hs1_4 t) hsM1_0 (iblk1 V c 0 t) (iblk1 V c 1 t) (iblk1 V c 2 t) (iblk1 V c 3 t) ((hcond1_0 t).mpr h0)
  · rw [outsAt1_B V c t h0]
    unfold atB1; dsimp only
    exact out1_B_eq (F := Ideal) c (grid1.coords t) (hs1_0 t) (hs1_1 t) (hs1_2 t) (hs1_3 t) (hs1_4 t) hsM1_0 (iblk1 V c 0 t) (iblk1 V c 1 t) (iblk1 V c 2 t) (iblk1 V c 3 t) (fun h => h0 ((hcond1_0 t).mp h))
      (outsAt1 V c (t.val - 1) (Nat.lt_of_le_of_lt (Nat.sub_le _ _) t.isLt)).2

theorem out1_apply (c : Dev nD) (t : Fin cfg1.N) (i : Fin 256) (e : Fin 64) (b : Fin 8) (q : Fin 2048)
    (hb : b.val = t.val / 8) (hq : q.val = 256 * (t.val % 8) + i.val) :
    (outsAt1 V c t.val t.isLt).1 (ix3 0 i e) = gcK (xarr1 V c) (relarr1 V c) (warr1 V c) (barr1 V c) (ix3 b q e) := by
  rw [out1_eq V c t]
  refine (tile_entry1 (D := 64) (iblk1 V c 1 t) _ _ _ (iblk1 V c 3 t) (fun j d => xarr1 V c (ix3 b j d)) (fun r d e => warr1 V c (ix3 r d e))
    (fun j e => (slabOf_apply 0 _ j e).trans (scratch1_apply V c t.val t.isLt b hb 0 j e))
    (fun j e => (slabOf_apply 1 _ j e).trans (scratch1_apply V c t.val t.isLt b hb 1 j e))
    (fun j e => (slabOf_apply 2 _ j e).trans (scratch1_apply V c t.val t.isLt b hb 2 j e)) i e).trans ?_
  show _ = normRow (fun e' => accK (fun r j => ind (relarr1 V c (ix3 b q j)) (label r)) (fun j d => xarr1 V c (ix3 b j d))
    (fun r d => warr1 V c (ix3 r d e')) (barr1 V c (ix1 e'))) e
  refine congrArg (fun y => normRow y e) (funext fun e' => ?_)
  have hrel : ∀ j, iblk1 V c 1 t (ix3 0 i j) = relarr1 V c (ix3 b q j) := fun j => relblk1_apply (V c main_arg2) t i j b q hb hq
  have hbias : iblk1 V c 3 t (ix1 e') = barr1 V c (ix1 e') := bblk1_apply (V c main_arg6) t e'
  simp only [hrel, hbias]

theorem flushed1_eq (c : Dev nD) (t : Fin cfg1.N) (hf : (cfg1.win 4).flush t = true) :
    (dat1 V c).flushed 4 t = ((cfg1.win 4).blk t).view.read (Elt Ideal) (gcK (xarr1 V c) (relarr1 V c) (warr1 V c) (barr1 V c)) := by
  show (cfg1.win 4).cut (grid1.coords t) ((dat1 V c).after 4 t) = _
  rw [after1_4]
  have hN : cfg1.N = 64 := N_1
  refine funext fun (y : S1x256x64.Idx) => ?_
  obtain ⟨u, i, e, rfl⟩ : ∃ (u : Fin 1) (i : Fin 256) (e : Fin 64), y = ix3 u i e := ⟨y 0, y 1, y 2, eq_ix3 y⟩
  obtain rfl : u = 0 := Subsingleton.elim _ _
  refine (out1_apply V c t i e ⟨t.val / 8, by omega⟩ ⟨256 * (t.val % 8) + i.val, by omega⟩ rfl rfl).trans ?_
  exact (oblk1_apply _ t i e _ _ rfl rfl).symm

/-- The call's output array is the layer, in the kernel's association, of its four input arrays. -/
theorem region1_val (c : Dev nD) :
    (dat1 (F := Ideal) V c).arrAt 4 cfg1.N = gcK (D := 64) (V c main_v20) (V c main_arg2) (V c main_arg5) (V c main_arg6) :=
  (dat1 V c).arrAt_eq_of_cover 4 (gcK (xarr1 V c) (relarr1 V c) (warr1 V c) (barr1 V c)) (flushed1_eq V c) (cover1 c)

end RegionValue

end Cert.KernelIdeal.Hand

end
-- ==== Proof.KI.RegionVal2.lean ====
import proofs.«149576_j9002251452429_1_alg».proof.Proof.KI.Region2
import proofs.«149576_j9002251452429_1_alg».proof.Proof.KI.TileVal
import proofs.«149576_j9002251452429_1_alg».proof.Proof.Layers
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic Idealize.ShloMosaic.ValueIdx Cert.KernelIdeal Cert.KernelIdeal.Gen
open Idealize.SL.Sem
open Cert.GraphConv (gcK layerK accK normRow ind label cur3 cur1 unc3 unc3_ix3)
open Idealize.ShloMosaic.Pipeline (Dat)

section Pieces
variable {F : FTy → Type} [FloatOps F]
variable (c : Dev nD) (i : grid2.Coords) {arg2 : Memref sig .tc .vmem S1x2048x64 .f32} (harg2 : arg2.IsWhole) {arg3 : Memref sig .tc .vmem S1x256x2048 .f32} (harg3 : arg3.IsWhole)
  {arg4 : Memref sig .tc .vmem S3x64x64 .f32} (harg4 : arg4.IsWhole) {arg5 : Memref sig .tc .vmem S64 .f32} (harg5 : arg5.IsWhole)
  {arg6 : Memref sig .tc .vmem S1x256x64 .f32} (harg6 : arg6.IsWhole) {arg7 : Memref sig .tc .vmem S3x2048x64 .f32} (harg7 : arg7.IsWhole)
  (x0 : Vec F S1x2048x64 .f32) (x1 : Vec F S1x256x2048 .f32) (x2 : Vec F S3x64x64 .f32) (x3 : Vec F S64 .f32)

theorem out2_A_eq (hc0 : cond2_0 i) :
    out2_A_4 c i harg2 harg3 harg4 harg5 harg6 harg7 x0 x1 x2 x3 hc0
      = k2_pay1 (k2_pay6 x1 (slabOf 0 (sout2_A_0 c i harg2 harg3 harg4 harg5 harg6 harg7 x0 x1 x2 x3 hc0)) (slabOf 1 (sout2_A_0 c i harg2 harg3 harg4 harg5 harg6 harg7 x0 x1 x2 x3 hc0)) (slabOf 2 (sout2_A_0 c i harg2 harg3 harg4 harg5 harg6 harg7 x0 x1 x2 x3 hc0))) x3 := by
  unfold out2_A_4 sout2_A_0
  rw [View.read_writes_eq_canon _ _ _ (cover2_A_4 c i harg2 harg3 harg4 harg5 harg6 harg7 x0 x1 x2 x3 hc0), View.read_writes_junk_eq_canon]
  unfold kernelRun2_A
  dsimp only
  sl_unfold_words
  rw [View.canon_unit_zero hz3]
  simp only [View.readCov_eq_canon', View.readAt_eq_ld, harg3.read_unread, harg5.read_unread, View.ld_unit_zero (S := S1x256x2048) hz3, View.ld_unit_zero (S := S64) hz1]
  rfl

theorem out2_B_eq (hc0 : ¬cond2_0 i) (xs0 : Vec F S3x2048x64 .f32) :
    out2_B_4 c i harg2 harg3 harg4 harg5 harg6 harg7 x0 x1 x2 x3 hc0 xs0 = k2_pay1 (k2_pay6 x1 (slabOf 0 xs0) (slabOf 1 xs0) (slabOf 2 xs0)) x3 := by
  unfold out2_B_4
  rw [View.read_writes_eq_canon _ _ _ (cover2_B_4 c i harg2 harg3 harg4 harg5 harg6 harg7 x0 x1 x2 x3 hc0 xs0)]
  unfold kernelRun2_B
  dsimp only
  sl_unfold_words
  rw [View.canon_unit_zero hz3]
  simp only [View.readAt_eq_ld, harg3.read_unread, harg5.read_unread, harg7.read_unread, View.ld_unit_zero (S := S1x256x2048) hz3, View.ld_unit_zero (S := S64) hz1]

abbrev wslab2 (r : Fin 3) (W : Vec F S3x64x64 .f32) : Vec F S1x64x64 .f32 :=
  match r with
  | 0 => View.ld W (Rect.unit ![0, 0, 0] S1x64x64.size inb_S3x64x64_S1x64x64_0_0_0)
  | 1 => View.ld W (Rect.unit ![1, 0, 0] S1x64x64.size inb_S3x64x64_S1x64x64_1_0_0)
  | 2 => View.ld W (Rect.unit ![2, 0, 0] S1x64x64.size inb_S3x64x64_S1x64x64_2_0_0)

theorem sout2_A_eq (hc0 : cond2_0 i) :
    sout2_A_0 c i harg2 harg3 harg4 harg5 harg6 harg7 x0 x1 x2 x3 hc0
      = View.canon ([⟨Rect.unit ![2, 0, 0] S1x2048x64.size inb_S3x2048x64_S1x2048x64_2_0_0, k2_pay5 x0 (wslab2 2 x2)⟩,
          ⟨Rect.unit ![1, 0, 0] S1x2048x64.size inb_S3x2048x64_S1x2048x64_1_0_0, k2_pay4 x0 (wslab2 1 x2)⟩,
          ⟨Rect.unit ![0, 0, 0] S1x2048x64.size inb_S3x2048x64_S1x2048x64_0_0_0, k2_pay3 x0 (wslab2 0 x2)⟩] :
            List (View.Piece (Elt F) S3x2048x64 .f32)) := by
  unfold sout2_A_0
  rw [View.read_writes_junk_eq_canon]
  unfold kernelRun2_A
  dsimp only
  sl_unfold_words
  simp only [View.readAt_eq_ld, harg2.read_unread, harg4.read_unread, View.ld_unit_zero (S := S1x2048x64) hz3]

end Pieces

theorem emb_wslab2 (o : ℕ) (inb : ∀ a, (![o, 0, 0] : Fin 3 → ℕ) a + S1x64x64.size a ≤ S3x64x64.size a) (r : Fin 3) (hr : r.val = o)
    (d : Fin 64) (e : Fin 64) : (Rect.unit (s := S3x64x64) ![o, 0, 0] S1x64x64.size inb).emb (ix3 (0 : Fin 1) d e) = ix3 r d e := by
  funext a
  apply Fin.ext
  match a with
  | ⟨0, _⟩ => show o + 1 * 0 = r.val; omega
  | ⟨1, _⟩ => show 0 + 1 * d.val = d.val; omega
  | ⟨2, _⟩ => show 0 + 1 * e.val = e.val; omega

theorem wslab2_apply (r : Fin 3) (W : Vec Ideal S3x64x64 .f32) (d : Fin 64) (e : Fin 64) : wslab2 r W (ix3 0 d e) = W (ix3 r d e) := by
  match r with
  | 0 => exact congrArg W (emb_wslab2 0 _ 0 rfl d e)
  | 1 => exact congrArg W (emb_wslab2 1 _ 1 rfl d e)
  | 2 => exact congrArg W (emb_wslab2 2 _ 2 rfl d e)

section

variable (c : Dev nD) (i : grid2.Coords) {arg2 : Memref sig .tc .vmem S1x2048x64 .f32} (harg2 : arg2.IsWhole) {arg3 : Memref sig .tc .vmem S1x256x2048 .f32} (harg3 : arg3.IsWhole)
  {arg4 : Memref sig .tc .vmem S3x64x64 .f32} (harg4 : arg4.IsWhole) {arg5 : Memref sig .tc .vmem S64 .f32} (harg5 : arg5.IsWhole)
  {arg6 : Memref sig .tc .vmem S1x256x64 .f32} (harg6 : arg6.IsWhole) {arg7 : Memref sig .tc .vmem S3x2048x64 .f32} (harg7 : arg7.IsWhole)
  (x0 : Vec Ideal S1x2048x64 .f32) (x1 : Vec Ideal S1x256x2048 .f32) (x2 : Vec Ideal S3x64x64 .f32) (x3 : Vec Ideal S64 .f32)

theorem sout2_A_apply (hc0 : cond2_0 i) (r : Fin 3) (j : Fin 2048) (e : Fin 64) :
    sout2_A_0 (F := Ideal) c i harg2 harg3 harg4 harg5 harg6 harg7 x0 x1 x2 x3 hc0 (ix3 r j e) = ∑ d : Fin 64, x0 (ix3 0 j d) * x2 (ix3 r d e) := by
  rw [sout2_A_eq]
  refine (canon3_apply (F := Ideal) _ _ _ r j e).trans ?_
  match r with
  | 2 => exact (k2_pay5_apply x0 _ j e).trans (Finset.sum_congr rfl fun d _ => congrArg (x0 (ix3 0 j d) * ·) (wslab2_apply 2 x2 d e))
  | 1 => exact (k2_pay4_apply x0 _ j e).trans (Finset.sum_congr rfl fun d _ => congrArg (x0 (ix3 0 j d) * ·) (wslab2_apply 1 x2 d e))
  | 0 => exact (k2_pay3_apply x0 _ j e).trans (Finset.sum_congr rfl fun d _ => congrArg (x0 (ix3 0 j d) * ·) (wslab2_apply 0 x2 d e))

end

theorem idx2_0 : ∀ t : Fin cfg2.N, win2_0.index t 0 = t.val / 8 ∧ win2_0.index t 1 = 0 ∧ win2_0.index t 2 = 0 :=
  (by decide +kernel : ∀ t : Fin grid2.N, win2_0.index t 0 = t.val / 8 ∧ win2_0.index t 1 = 0 ∧ win2_0.index t 2 = 0)
theorem idx2_1 : ∀ t : Fin cfg2.N, win2_1.index t 0 = t.val / 8 ∧ win2_1.index t 1 = t.val % 8 ∧ win2_1.index t 2 = 0 :=
  (by decide +kernel : ∀ t : Fin grid2.N, win2_1.index t 0 = t.val / 8 ∧ win2_1.index t 1 = t.val % 8 ∧ win2_1.index t 2 = 0)
theorem idx2_2 : ∀ t : Fin cfg2.N, win2_2.index t 0 = 0 ∧ win2_2.index t 1 = 0 ∧ win2_2.index t 2 = 0 :=
  (by decide +kernel : ∀ t : Fin grid2.N, win2_2.index t 0 = 0 ∧ win2_2.index t 1 = 0 ∧ win2_2.index t 2 = 0)
theorem idx2_3 : ∀ t : Fin cfg2.N, win2_3.index t 0 = 0 :=
  (by decide +kernel : ∀ t : Fin grid2.N, win2_3.index t 0 = 0)
theorem idx2_4 : ∀ t : Fin cfg2.N, win2_4.index t 0 = t.val / 8 ∧ win2_4.index t 1 = t.val % 8 ∧ win2_4.index t 2 = 0 :=
  (by decide +kernel : ∀ t : Fin grid2.N, win2_4.index t 0 = t.val / 8 ∧ win2_4.index t 1 = t.val % 8 ∧ win2_4.index t 2 = 0)

theorem xblk2_apply (A : Vec Ideal S8x2048x64 .f32) (t : Fin cfg2.N) (j : Fin 2048) (d : Fin 64) (b : Fin 8) (hb : b.val = t.val / 8) :
    ((cfg2.win 0).blk t).view.read (Elt Ideal) A (ix3 (0 : Fin 1) j d) = A (ix3 b j d) := by
  rw [View.read_apply]
  show A _ = A _
  congr 1
  funext a
  apply Fin.ext
  match a with
  | ⟨0, _⟩ => show win2_0.index t 0 * 1 + 1 * 0 = b.val; rw [(idx2_0 t).1]; omega
  | ⟨1, _⟩ => show win2_0.index t 1 * 2048 + 1 * j.val = j.val; rw [(idx2_0 t).2.1]; omega
  | ⟨2, _⟩ => show win2_0.index t 2 * 64 + 1 * d.val = d.val; rw [(idx2_0 t).2.2]; omega

theorem relblk2_apply (A : Vec Ideal S8x2048x2048 .f32) (t : Fin cfg2.N) (i : Fin 256) (j : Fin 2048) (b : Fin 8) (q : Fin 2048)
    (hb : b.val = t.val / 8) (hq : q.val = 256 * (t.val % 8) + i.val) :
    ((cfg2.win 1).blk t).view.read (Elt Ideal) A (ix3 (0 : Fin 1) i j) = A (ix3 b q j) := by
  rw [View.read_apply]
  show A _ = A _
  congr 1
  funext a
  apply Fin.ext
  match a with
  | ⟨0, _⟩ => show win2_1.index t 0 * 1 + 1 * 0 = b.val; rw [(idx2_1 t).1]; omega
  | ⟨1, _⟩ => show win2_1.index t 1 * 256 + 1 * i.val = q.val; rw [(idx2_1 t).2.1]; omega
  | ⟨2, _⟩ => show win2_1.index t 2 * 2048 + 1 * j.val = j.val; rw [(idx2_1 t).2.2]; omega

theorem wblk2_apply (A : Vec Ideal S3x64x64 .f32) (t : Fin cfg2.N) (r : Fin 3) (d : Fin 64) (e : Fin 64) :
    ((cfg2.win 2).blk t).view.read (Elt Ideal) A (ix3 r d e) = A (ix3 r d e) := by
  rw [View.read_apply]
  show A _ = A _
  congr 1
  funext a
  apply Fin.ext
  match a with
  | ⟨0, _⟩ => show win2_2.index t 0 * 3 + 1 * r.val = r.val; rw [(idx2_2 t).1]; omega
  | ⟨1, _⟩ => show win2_2.index t 1 * 64 + 1 * d.val = d.val; rw [(idx2_2 t).2.1]; omega
  | ⟨2, _⟩ => show win2_2.index t 2 * 64 + 1 * e.val = e.val; rw [(idx2_2 t).2.2]; omega

theorem bblk2_apply (A : Vec Ideal S64 .f32) (t : Fin cfg2.N) (e : Fin 64) :
    ((cfg2.win 3).blk t).view.read (Elt Ideal) A (ix1 e) = A (ix1 e) := by
  rw [View.read_apply]
  show A _ = A _
  congr 1
  funext a
  apply Fin.ext
  match a with
  | ⟨0, _⟩ => show win2_3.index t 0 * 64 + 1 * e.val = e.val; rw [idx2_3 t]; omega

theorem oblk2_apply (A : Vec Ideal S8x2048x64 .f32) (t : Fin cfg2.N) (i : Fin 256) (e : Fin 64) (b : Fin 8) (q : Fin 2048)
    (hb : b.val = t.val / 8) (hq : q.val = 256 * (t.val % 8) + i.val) :
    ((cfg2.win 4).blk t).view.read (Elt Ideal) A (ix3 (0 : Fin 1) i e) = A (ix3 b q e) := by
  rw [View.read_apply]
  show A _ = A _
  congr 1
  funext a
  apply Fin.ext
  match a with
  | ⟨0, _⟩ => show win2_4.index t 0 * 1 + 1 * 0 = b.val; rw [(idx2_4 t).1]; omega
  | ⟨1, _⟩ => show win2_4.index t 1 * 256 + 1 * i.val = q.val; rw [(idx2_4 t).2.1]; omega
  | ⟨2, _⟩ => show win2_4.index t 2 * 64 + 1 * e.val = e.val; rw [(idx2_4 t).2.2]; omega

theorem cover2 (c : Dev nD) (i : ((cfg2.win 4).arr.view.loc (c.tc : Thread nD τ)).2.ty.Idx) :
    ∃ t : Fin cfg2.N, (cfg2.win 4).flush t = true ∧ i ∈ ((cfg2.win 4).blk t).view.set := by
  have h0 : (i 0 : Nat) < 8 := (i 0).isLt
  have h1 : (i 1 : Nat) < 2048 := (i 1).isLt
  have h2 : (i 2 : Nat) < 64 := (i 2).isLt
  obtain ⟨t, ht⟩ : ∃ t : Fin cfg2.N, t.val = 8 * (i 0).val + (i 1).val / 256 :=
    ⟨⟨_, by rw [show cfg2.N = 64 from N_2]; omega⟩, rfl⟩
  refine ⟨t, flush2_4 t, ?_⟩
  show i ∈ ((View.whole main_v43).slice (win2_4.rect t)).set
  rw [View.set_slice_whole, Rect.mem_set_unit]
  intro a
  match a with
  | ⟨0, _⟩ =>
    show win2_4.index t 0 * 1 ≤ (i 0 : Nat) ∧ (i 0 : Nat) < win2_4.index t 0 * 1 + 1
    rw [(idx2_4 t).1]; omega
  | ⟨1, _⟩ =>
    show win2_4.index t 1 * 256 ≤ (i 1 : Nat) ∧ (i 1 : Nat) < win2_4.index t 1 * 256 + 256
    rw [(idx2_4 t).2.1]; omega
  | ⟨2, _⟩ =>
    show win2_4.index t 2 * 64 ≤ (i 2 : Nat) ∧ (i 2 : Nat) < win2_4.index t 2 * 64 + 64
    rw [(idx2_4 t).2.2]; omega

section Region
variable (V : (c : Dev nD) → (b : Ref sig .tc) → Buf (Elt Ideal) ((c : Thread nD τ).loc b))

abbrev xarr2 (c : Dev nD) : FVec Ideal S8x2048x64 .f32 := V c main_v41
abbrev relarr2 (c : Dev nD) : FVec Ideal S8x2048x2048 .f32 := V c main_arg2
abbrev warr2 (c : Dev nD) : FVec Ideal S3x64x64 .f32 := V c main_arg7
abbrev barr2 (c : Dev nD) : FVec Ideal S64 .f32 := V c main_arg8

theorem scratch2_A (c : Dev nD) (t : Fin cfg2.N) (h0 : t.val % 8 = 0) (b : Fin 8) (hb : b.val = t.val / 8) (r : Fin 3) (j : Fin 2048) (e : Fin 64) :
    (outsAt2 V c t.val t.isLt).2 (ix3 r j e) = ∑ d : Fin 64, xarr2 V c (ix3 b j d) * warr2 V c (ix3 r d e) := by
  rw [outsAt2_A V c t h0]
  unfold atA2; dsimp only
  refine (sout2_A_apply c (grid2.coords t) (hs2_0 t) (hs2_1 t) (hs2_2 t) (hs2_3 t) (hs2_4 t) hsM2_0 (iblk2 V c 0 t) (iblk2 V c 1 t) (iblk2 V c 2 t) (iblk2 V c 3 t) ((hcond2_0 t).mpr h0) r j e).trans ?_
  refine Finset.sum_congr rfl fun d _ => congrArg₂ (· * ·) ?_ ?_
  · exact xblk2_apply (V c main_v41) t j d b hb
  · exact wblk2_apply (V c main_arg7) t r d e

/-- After every position the scratch holds the products for that position's batch: stored at the batch's first row tile, kept by the others. -/
theorem scratch2_apply (c : Dev nD) : ∀ (n : ℕ) (hn : n < cfg2.N) (b : Fin 8), b.val = n / 8 → ∀ (r : Fin 3) (j : Fin 2048) (e : Fin 64),
    (outsAt2 V c n hn).2 (ix3 r j e) = ∑ d : Fin 64, xarr2 V c (ix3 b j d) * warr2 V c (ix3 r d e)
  | 0, hn, b, hb, r, j, e => scratch2_A V c ⟨0, hn⟩ rfl b hb r j e
  | n + 1, hn, b, hb, r, j, e => by
    by_cases h0 : (n + 1) % 8 = 0
    · exact scratch2_A V c ⟨n + 1, hn⟩ h0 b hb r j e
    · rw [outsAt2_B V c ⟨n + 1, hn⟩ h0]
      unfold atB2; dsimp only
      show (outsAt2 V c n _).2 (ix3 r j e) = _
      exact scratch2_apply c n _ b (by omega) r j e

end Region

section RegionValue
variable (V : (c : Dev nD) → (b : Ref sig .tc) → Buf (Elt Ideal) ((c : Thread nD τ).loc b))

theorem out2_eq (c : Dev nD) (t : Fin cfg2.N) :
    (outsAt2 V c t.val t.isLt).1
      = k2_pay1 (F := Ideal) (k2_pay6 (F := Ideal) (iblk2 V c 1 t) (slabOf 0 (outsAt2 V c t.val t.isLt).2) (slabOf 1 (outsAt2 V c t.val t.isLt).2)
          (slabOf 2 (outsAt2 V c t.val t.isLt).2)) (iblk2 V c 3 t) := by
  by_cases h0 : t.val % 8 = 0
  · rw [outsAt2_A V c t h0]
    unfold atA2; dsimp only
    exact out2_A_eq (F := Ideal) c (grid2.coords t) (hs2_0 t) (hs2_1 t) (hs2_2 t) (hs2_3 t) (hs2_4 t) hsM2_0 (iblk2 V c 0 t) (iblk2 V c 1 t) (iblk2 V c 2 t) (iblk2 V c 3 t) ((hcond2_0 t).mpr h0)
  · rw [outsAt2_B V c t h0]
    unfold atB2; dsimp only
    exact out2_B_eq (F := Ideal) c (grid2.coords t) (hs2_0 t) (hs2_1 t) (hs2_2 t) (hs2_3 t) (hs2_4 t) hsM2_0 (iblk2 V c 0 t) (iblk2 V c 1 t) (iblk2 V c 2 t) (iblk2 V c 3 t) (fun h => h0 ((hcond2_0 t).mp h))
      (outsAt2 V c (t.val - 1) (Nat.lt_of_le_of_lt (Nat.sub_le _ _) t.isLt)).2

theorem out2_apply (c : Dev nD) (t : Fin cfg2.N) (i : Fin 256) (e : Fin 64) (b : Fin 8) (q : Fin 2048)
    (hb : b.val = t.val / 8) (hq : q.val = 256 * (t.val % 8) + i.val) :
    (outsAt2 V c t.val t.isLt).1 (ix3 0 i e) = gcK (xarr2 V c) (relarr2 V c) (warr2 V c) (barr2 V c) (ix3 b q e) := by
  rw [out2_eq V c t]
  refine (tile_entry2 (D := 64) (iblk2 V c 1 t) _ _ _ (iblk2 V c 3 t) (fun j d => xarr2 V c (ix3 b j d)) (fun r d e => warr2 V c (ix3 r d e))
    (fun j e => (slabOf_apply 0 _ j e).trans (scratch2_apply V c t.val t.isLt b hb 0 j e))
    (fun j e => (slabOf_apply 1 _ j e).trans (scratch2_apply V c t.val t.isLt b hb 1 j e))
    (fun j e => (slabOf_apply 2 _ j e).trans (scratch2_apply V c t.val t.isLt b hb 2 j e)) i e).trans ?_
  show _ = normRow (fun e' => accK (fun r j => ind (relarr2 V c (ix3 b q j)) (label r)) (fun j d => xarr2 V c (ix3 b j d))
    (fun r d => warr2 V c (ix3 r d e')) (barr2 V c (ix1 e'))) e
  refine congrArg (fun y => normRow y e) (funext fun e' => ?_)
  have hrel : ∀ j, iblk2 V c 1 t (ix3 0 i j) = relarr2 V c (ix3 b q j) := fun j => relblk2_apply (V c main_arg2) t i j b q hb hq
  have hbias : iblk2 V c 3 t (ix1 e') = barr2 V c (ix1 e') := bblk2_apply (V c main_arg8) t e'
  simp only [hrel, hbias]

theorem flushed2_eq (c : Dev nD) (t : Fin cfg2.N) (hf : (cfg2.win 4).flush t = true) :
    (dat2 V c).flushed 4 t = ((cfg2.win 4).blk t).view.read (Elt Ideal) (gcK (xarr2 V c) (relarr2 V c) (warr2 V c) (barr2 V c)) := by
  show (cfg2.win 4).cut (grid2.coords t) ((dat2 V c).after 4 t) = _
  rw [after2_4]
  have hN : cfg2.N = 64 := N_2
  refine funext fun (y : S1x256x64.Idx) => ?_
  obtain ⟨u, i, e, rfl⟩ : ∃ (u : Fin 1) (i : Fin 256) (e : Fin 64), y = ix3 u i e := ⟨y 0, y 1, y 2, eq_ix3 y⟩
  obtain rfl : u = 0 := Subsingleton.elim _ _
  refine (out2_apply V c t i e ⟨t.val / 8, by omega⟩ ⟨256 * (t.val % 8) + i.val, by omega⟩ rfl rfl).trans ?_
  exact (oblk2_apply _ t i e _ _ rfl rfl).symm

/-- The call's output array is the layer, in the kernel's association, of its four input arrays. -/
theorem region2_val (c : Dev nD) :
    (dat2 (F := Ideal) V c).arrAt 4 cfg2.N = gcK (D := 64) (V c main_v41) (V c main_arg2) (V c main_arg7) (V c main_arg8) :=
  (dat2 V c).arrAt_eq_of_cover 4 (gcK (xarr2 V c) (relarr2 V c) (warr2 V c) (barr2 V c)) (flushed2_eq V c) (cover2 c)

end RegionValue

end Cert.KernelIdeal.Hand

end
-- ==== Proof.KI.HostChain.lean ====
import proofs.«149576_j9002251452429_1_alg».proof.Proof.Gen.KernelIdeal.Regions
import proofs.«149576_j9002251452429_1_alg».proof.Proof.HostFns

noncomputable section

namespace Cert.KernelIdeal.Hand

open Idealize.ShloMosaic Idealize.ShloMosaic.TcCoe
open Cert.KernelIdeal Cert.KernelIdeal.Gen

variable (m : (ℓ : Loc nD τ sig) → Buf (Elt Ideal) ℓ) (outs : Gen.Outs (F := Ideal))

local macro "results_rw" : tactic =>
  `(tactic| (repeat (first
      | rw [StableHlo.nullary_result] | rw [StableHlo.unary_result] | rw [StableHlo.binary_result] | rw [StableHlo.nary_result]
      | (rw [StableHlo.nullary_result_ne]; rotate_left; decide)
      | (rw [StableHlo.unary_result_ne]; rotate_left; decide)
      | (rw [StableHlo.binary_result_ne]; rotate_left; decide)
      | (rw [StableHlo.nary_result_ne]; rotate_left; decide))))

-- A buffer no item so far writes still holds its launch contents.
abbrev Unwritten4 (r : Ref sig .tc) : Prop := r ∉ hostOps0_W ∧ r ∉ [main_v1] ∧ r ∉ hostOps1_W ∧ r ∉ hostOps1_1_W
abbrev Unwritten7 (r : Ref sig .tc) : Prop := r ∉ [main_v22] ∧ r ∉ hostOps2_W ∧ r ∉ hostOps2_1_W

theorem V1_launch (c : Dev nD) (r : Ref sig .tc) (h : r ∉ hostOps0_W) : Gen.V1 m c r = m ((c : Thread nD τ).loc r) :=
  (Gen.V1_of m c r h).trans rfl
theorem V4_launch (c : Dev nD) (r : Ref sig .tc) (h : Unwritten4 r) : Gen.V4 m outs c r = m ((c : Thread nD τ).loc r) :=
  (Gen.V4_of m outs c r h.2.2.2).trans <| (Gen.V3_of m outs c r h.2.2.1).trans <| (Gen.V2_of m outs c r h.2.1).trans (V1_launch m c r h.1)
theorem V7_launch (c : Dev nD) (r : Ref sig .tc) (h4 : Unwritten4 r) (h : Unwritten7 r) : Gen.V7 m outs c r = m ((c : Thread nD τ).loc r) :=
  (Gen.V7_of m outs c r h.2.2).trans <| (Gen.V6_of m outs c r h.2.1).trans <| (Gen.V5_of m outs c r h.1).trans (V4_launch m outs c r h4)
theorem V8_launch (c : Dev nD) (r : Ref sig .tc) (h4 : Unwritten4 r) (h7 : Unwritten7 r) (h : r ∉ [main_v43]) :
    Gen.V8 m outs c r = m ((c : Thread nD τ).loc r) :=
  (Gen.V8_of m outs c r h).trans (V7_launch m outs c r h4 h7)

theorem V1_v0 (c : Dev nD) :
    (Gen.V1 m c main_v0 : FVec Ideal S8x2048x2048 .f32)
      = sitofp (F := Ideal) .f32 (m ((c : Thread nD τ).loc main_arg1) : IVec S8x2048x2048 32) := by
  dsimp only [Gen.V1, Gen.hostOps0]
  after_results

theorem V1_arg0 (c : Dev nD) : Gen.V1 m c main_arg0 = m ((c : Thread nD τ).loc main_arg0) :=
  V1_launch m c _ (by decide)
theorem V1_arg3 (c : Dev nD) : Gen.V1 m c main_arg3 = m ((c : Thread nD τ).loc main_arg3) :=
  V1_launch m c _ (by decide)
theorem V1_arg4 (c : Dev nD) : Gen.V1 m c main_arg4 = m ((c : Thread nD τ).loc main_arg4) :=
  V1_launch m c _ (by decide)

theorem V2_v1 (c : Dev nD) : Gen.V2 m outs c main_v1 = outs 2 main_v1 c := by
  simp only [Gen.V2, Function.update_self]

theorem V3_v2 (c : Dev nD) :
    (Gen.V3 m outs c main_v2 : FVec Ideal S8x2048x64 .f32) = GraphConv.relu (outs 2 main_v1 c) := by
  rw [← V2_v1 m outs c]
  dsimp only [Gen.V3, Gen.hostOps1]
  after_results
  rfl

theorem after_hostOps1_1_v20 (V : Valuation τ sig (Elt Ideal)) :
    (StableHlo.after (Gen.hostOps1_1 (F := Ideal)) V (Proc.devRef .tc main_v20) : FVec Ideal S8x2048x64 .f32)
      = GraphConv.bn (V (Proc.devRef .tc main_v2)) := by
  after_results_simp
  rfl

theorem V4_v20 (c : Dev nD) :
    (Gen.V4 m outs c main_v20 : FVec Ideal S8x2048x64 .f32) = GraphConv.bnrelu (outs 2 main_v1 c) := by
  unfold GraphConv.bnrelu
  rw [← V3_v2 m outs c]
  exact after_hostOps1_1_v20 (Gen.V3 m outs c)

theorem after_hostOps1_1_v21 (V : Valuation τ sig (Elt Ideal)) :
    (StableHlo.after (Gen.hostOps1_1 (F := Ideal)) V (Proc.devRef .tc main_v21) : FVec Ideal S8x64 .f32)
      = GraphConv.maxNodes (GraphConv.bn (V (Proc.devRef .tc main_v2))) := by
  after_results_simp
  rfl

theorem V4_v21 (c : Dev nD) :
    (Gen.V4 m outs c main_v21 : FVec Ideal S8x64 .f32) = GraphConv.maxNodes (GraphConv.bnrelu (outs 2 main_v1 c)) := by
  unfold GraphConv.bnrelu
  rw [← V3_v2 m outs c]
  exact after_hostOps1_1_v21 (Gen.V3 m outs c)

theorem V4_arg2 (c : Dev nD) : Gen.V4 m outs c main_arg2 = m ((c : Thread nD τ).loc main_arg2) :=
  V4_launch m outs c _ (by decide)
theorem V4_arg5 (c : Dev nD) : Gen.V4 m outs c main_arg5 = m ((c : Thread nD τ).loc main_arg5) :=
  V4_launch m outs c _ (by decide)
theorem V4_arg6 (c : Dev nD) : Gen.V4 m outs c main_arg6 = m ((c : Thread nD τ).loc main_arg6) :=
  V4_launch m outs c _ (by decide)

theorem V5_v22 (c : Dev nD) : Gen.V5 m outs c main_v22 = outs 5 main_v22 c := by
  simp only [Gen.V5, Function.update_self]

theorem V6_v23 (c : Dev nD) :
    (Gen.V6 m outs c main_v23 : FVec Ideal S8x2048x64 .f32) = GraphConv.relu (outs 5 main_v22 c) := by
  rw [← V5_v22 m outs c]
  dsimp only [Gen.V6, Gen.hostOps2]
  after_results
  rfl

theorem after_hostOps2_1_v41 (V : Valuation τ sig (Elt Ideal)) :
    (StableHlo.after (Gen.hostOps2_1 (F := Ideal)) V (Proc.devRef .tc main_v41) : FVec Ideal S8x2048x64 .f32)
      = GraphConv.bn (V (Proc.devRef .tc main_v23)) := by
  after_results_simp
  rfl

theorem after_hostOps2_1_v42 (V : Valuation τ sig (Elt Ideal)) :
    (StableHlo.after (Gen.hostOps2_1 (F := Ideal)) V (Proc.devRef .tc main_v42) : FVec Ideal S8x64 .f32)
      = GraphConv.maxNodes (GraphConv.bn (V (Proc.devRef .tc main_v23))) := by
  after_results_simp
  rfl

theorem V7_v41 (c : Dev nD) :
    (Gen.V7 m outs c main_v41 : FVec Ideal S8x2048x64 .f32) = GraphConv.bnrelu (outs 5 main_v22 c) := by
  unfold GraphConv.bnrelu
  rw [← V6_v23 m outs c]
  exact after_hostOps2_1_v41 (Gen.V6 m outs c)

theorem V7_v42 (c : Dev nD) :
    (Gen.V7 m outs c main_v42 : FVec Ideal S8x64 .f32) = GraphConv.maxNodes (GraphConv.bnrelu (outs 5 main_v22 c)) := by
  unfold GraphConv.bnrelu
  rw [← V6_v23 m outs c]
  exact after_hostOps2_1_v42 (Gen.V6 m outs c)

theorem V7_v21 (c : Dev nD) :
    (Gen.V7 m outs c main_v21 : FVec Ideal S8x64 .f32) = GraphConv.maxNodes (GraphConv.bnrelu (outs 2 main_v1 c)) :=
  (Gen.V7_of m outs c main_v21 (by decide)).trans <| (Gen.V6_of m outs c main_v21 (by decide)).trans <|
    (Gen.V5_of m outs c main_v21 (by decide)).trans <| V4_v21 m outs c

theorem V7_arg2 (c : Dev nD) : Gen.V7 m outs c main_arg2 = m ((c : Thread nD τ).loc main_arg2) :=
  V7_launch m outs c _ (by decide) (by decide)
theorem V7_arg7 (c : Dev nD) : Gen.V7 m outs c main_arg7 = m ((c : Thread nD τ).loc main_arg7) :=
  V7_launch m outs c _ (by decide) (by decide)
theorem V7_arg8 (c : Dev nD) : Gen.V7 m outs c main_arg8 = m ((c : Thread nD τ).loc main_arg8) :=
  V7_launch m outs c _ (by decide) (by decide)

theorem V8_v43 (c : Dev nD) : Gen.V8 m outs c main_v43 = outs 8 main_v43 c := by
  simp only [Gen.V8, Function.update_self]

theorem after_hostOps3_v45 (V : Valuation τ sig (Elt Ideal)) :
    (StableHlo.after (Gen.hostOps3 (F := Ideal)) V (Proc.devRef .tc main_v45) : FVec Ideal S8x192 .f32)
      = GraphConv.headOut (V (Proc.devRef .tc main_v21)) (V (Proc.devRef .tc main_v42))
          (GraphConv.maxNodes (V (Proc.devRef .tc main_v43))) := by
  after_results_simp
  dsimp only [Matrix.cons_val]
  results_rw
  rfl

theorem after_hostOps3_v49 (V : Valuation τ sig (Elt Ideal)) :
    (StableHlo.after (Gen.hostOps3 (F := Ideal)) V (Proc.devRef .tc main_v49) : FVec Ideal S8x64 .f32)
      = GraphConv.headPred
          (GraphConv.headOut (V (Proc.devRef .tc main_v21)) (V (Proc.devRef .tc main_v42))
            (GraphConv.maxNodes (V (Proc.devRef .tc main_v43))))
          (V (Proc.devRef .tc main_arg9)) (V (Proc.devRef .tc main_arg10)) := by
  after_results_simp
  dsimp only [Matrix.cons_val]
  results_rw
  rfl

theorem V8_v21 (c : Dev nD) :
    (Gen.V8 m outs c main_v21 : FVec Ideal S8x64 .f32) = GraphConv.maxNodes (GraphConv.bnrelu (outs 2 main_v1 c)) :=
  (Gen.V8_of m outs c main_v21 (by decide)).trans (V7_v21 m outs c)
theorem V8_v42 (c : Dev nD) :
    (Gen.V8 m outs c main_v42 : FVec Ideal S8x64 .f32) = GraphConv.maxNodes (GraphConv.bnrelu (outs 5 main_v22 c)) :=
  (Gen.V8_of m outs c main_v42 (by decide)).trans (V7_v42 m outs c)
theorem V9_v45 (c : Dev nD) :
    (Gen.V9 m outs c main_v45 : FVec Ideal S8x192 .f32)
      = GraphConv.headOut (GraphConv.maxNodes (GraphConv.bnrelu (outs 2 main_v1 c)))
          (GraphConv.maxNodes (GraphConv.bnrelu (outs 5 main_v22 c))) (GraphConv.maxNodes (outs 8 main_v43 c)) := by
  rw [← V8_v21 m outs c, ← V8_v42 m outs c, ← V8_v43 m outs c]
  exact after_hostOps3_v45 (Gen.V8 m outs c)

theorem V9_v49 (c : Dev nD) :
    (Gen.V9 m outs c main_v49 : FVec Ideal S8x64 .f32)
      = GraphConv.headPred
          (GraphConv.headOut (GraphConv.maxNodes (GraphConv.bnrelu (outs 2 main_v1 c)))
            (GraphConv.maxNodes (GraphConv.bnrelu (outs 5 main_v22 c))) (GraphConv.maxNodes (outs 8 main_v43 c)))
          (m ((c : Thread nD τ).loc main_arg9)) (m ((c : Thread nD τ).loc main_arg10)) := by
  rw [← V8_v21 m outs c, ← V8_v42 m outs c, ← V8_v43 m outs c, ← V8_launch m outs c main_arg9 (by decide) (by decide) (by decide),
    ← V8_launch m outs c main_arg10 (by decide) (by decide) (by decide)]
  exact after_hostOps3_v49 (Gen.V8 m outs c)

end Cert.KernelIdeal.Hand

end
-- ==== Proof.KI.Net.lean ====
import proofs.«149576_j9002251452429_1_alg».proof.Proof.KI.Wire
import proofs.«149576_j9002251452429_1_alg».proof.Proof.KI.RegionVal0
import proofs.«149576_j9002251452429_1_alg».proof.Proof.KI.RegionVal1
import proofs.«149576_j9002251452429_1_alg».proof.Proof.KI.RegionVal2
import proofs.«149576_j9002251452429_1_alg».proof.Proof.KI.HostChain
import proofs.«149576_j9002251452429_1_alg».proof.Proof.Layers

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ)

theorem arr1_val (c : Dev nD) :
    (arr1 (F := Ideal) m c : FVec Ideal S8x2048x64 .f32)
      = GraphConv.gcK (m ((c : Thread nD τ).loc main_arg0))
          (sitofp (F := Ideal) .f32 (m ((c : Thread nD τ).loc main_arg1) : IVec S8x2048x2048 32))
          (m ((c : Thread nD τ).loc main_arg3)) (m ((c : Thread nD τ).loc main_arg4)) := by
  unfold arr1
  rw [region0_val]
  show GraphConv.gcK (Gen.V1 m c main_arg0) (Gen.V1 m c main_v0) (Gen.V1 m c main_arg3) (Gen.V1 m c main_arg4) = _
  rw [V1_arg0, V1_v0, V1_arg3, V1_arg4]

theorem arr2_val (c : Dev nD) :
    (arr2 (F := Ideal) m c : FVec Ideal S8x2048x64 .f32)
      = GraphConv.gcK (GraphConv.bnrelu (arr1 (F := Ideal) m c)) (m ((c : Thread nD τ).loc main_arg2))
          (m ((c : Thread nD τ).loc main_arg5)) (m ((c : Thread nD τ).loc main_arg6)) := by
  unfold arr2
  rw [region1_val]
  show GraphConv.gcK (Gen.V4 m (outsA m) c main_v20) (Gen.V4 m (outsA m) c main_arg2) (Gen.V4 m (outsA m) c main_arg5)
    (Gen.V4 m (outsA m) c main_arg6) = _
  rw [V4_v20, V4_arg2, V4_arg5, V4_arg6]
  unfold outsA
  rw [mkOuts_v1]

theorem arr3_val (c : Dev nD) :
    (arr3 (F := Ideal) m c : FVec Ideal S8x2048x64 .f32)
      = GraphConv.gcK (GraphConv.bnrelu (arr2 (F := Ideal) m c)) (m ((c : Thread nD τ).loc main_arg2))
          (m ((c : Thread nD τ).loc main_arg7)) (m ((c : Thread nD τ).loc main_arg8)) := by
  unfold arr3
  rw [region2_val]
  show GraphConv.gcK (Gen.V7 m (outsB m) c main_v41) (Gen.V7 m (outsB m) c main_arg2) (Gen.V7 m (outsB m) c main_arg7)
    (Gen.V7 m (outsB m) c main_arg8) = _
  rw [V7_v41, V7_arg2, V7_arg7, V7_arg8]
  unfold outsB
  rw [mkOuts_v22]

theorem out0_val (c : Dev nD) :
    (Gen.V9 m (outsC m) c main_v45 : FVec Ideal S8x192 .f32)
      = GraphConv.netOut (arr1 (F := Ideal) m c) (arr2 (F := Ideal) m c) (arr3 (F := Ideal) m c) := by
  rw [V9_v45]
  unfold outsC GraphConv.netOut
  rw [mkOuts_v1, mkOuts_v22, mkOuts_v43]

theorem out1_val (c : Dev nD) :
    (Gen.V9 m (outsC m) c main_v49 : FVec Ideal S8x64 .f32)
      = GraphConv.headPred (GraphConv.netOut (arr1 (F := Ideal) m c) (arr2 (F := Ideal) m c) (arr3 (F := Ideal) m c))
          (m ((c : Thread nD τ).loc main_arg9)) (m ((c : Thread nD τ).loc main_arg10)) := by
  rw [V9_v49]
  unfold outsC GraphConv.netOut
  rw [mkOuts_v1, mkOuts_v22, mkOuts_v43]

end Cert.KernelIdeal.Hand

end
-- ==== Proof.RefReadBase.lean ====
import proofs.«149576_j9002251452429_1_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

section

variable {F : FTy → Type} [FloatOps F]
variable (x0 : (⟨S8x2048x32, .f32⟩ : BufTy).Contents (Elt F))
  (x1 : (⟨S8x2048x2048, .i32⟩ : BufTy).Contents (Elt F))
  (x2 : (⟨S8x2048x2048, .f32⟩ : BufTy).Contents (Elt F))
  (x3 : (⟨S3x32x64, .f32⟩ : BufTy).Contents (Elt F))
  (x4 : (⟨S64, .f32⟩ : BufTy).Contents (Elt F))
  (x5 : (⟨S3x64x64, .f32⟩ : BufTy).Contents (Elt F))
  (x6 : (⟨S64, .f32⟩ : BufTy).Contents (Elt F))
  (x7 : (⟨S3x64x64, .f32⟩ : BufTy).Contents (Elt F))
  (x8 : (⟨S64, .f32⟩ : BufTy).Contents (Elt F))
  (x9 : (⟨S192x64, .f32⟩ : BufTy).Contents (Elt F))
  (x10 : (⟨S64, .f32⟩ : BufTy).Contents (Elt F))

def val_main_cst : (⟨S_, .f32⟩ : BufTy).Contents (Elt F) :=
  constant S_ .f32 0x00000000#32
theorem val_main_cst_apply (i : S_.Idx) :
    val_main_cst (F := F) i = FloatOps.ofBits .f32 0x00000000#32 := rfl
def val_main_v0 : (⟨S8x2048x64, .f32⟩ : BufTy).Contents (Elt F) :=
  broadcastInDim S8x2048x64 ![] bcast_S_S8x2048x64 (val_main_cst (F := F))
abbrev idx_main_v0 (i : S8x2048x64.Idx) : S_.Idx := fun a => a.elim0
theorem val_main_v0_apply (i : S8x2048x64.Idx) :
    val_main_v0 (F := F) i = val_main_cst (F := F) (idx_main_v0 i) := by
  unfold val_main_v0
  generalize val_main_cst (F := F) = y
  exact broadcastInDim_apply _ bcast_S_S8x2048x64 y i (idx_main_v0 i) (fun a => a.elim0)
def val_main_c : (⟨S_, .i32⟩ : BufTy).Contents (Elt F) :=
  constantI S_ 32 1#32
theorem val_main_c_apply (i : S_.Idx) :
    val_main_c (F := F) i = 1#32 := rfl
def val_main_v1 : (⟨S8x2048x2048, .i32⟩ : BufTy).Contents (Elt F) :=
  broadcastInDim S8x2048x2048 ![] bcast_S_S8x2048x2048 (val_main_c (F := F))
abbrev idx_main_v1 (i : S8x2048x2048.Idx) : S_.Idx := fun a => a.elim0
theorem val_main_v1_apply (i : S8x2048x2048.Idx) :
    val_main_v1 (F := F) i = val_main_c (F := F) (idx_main_v1 i) := by
  unfold val_main_v1
  generalize val_main_c (F := F) = y
  exact broadcastInDim_apply _ bcast_S_S8x2048x2048 y i (idx_main_v1 i) (fun a => a.elim0)
def val_main_v2 : (⟨S8x2048x2048, .i1⟩ : BufTy).Contents (Elt F) :=
  cmpi .eq (x1) (val_main_v1 (F := F))
theorem val_main_v2_apply (i : S8x2048x2048.Idx) :
    val_main_v2 x1 i = IntOp.cmpi .eq (x1 i) (val_main_v1 (F := F) i) := rfl
def val_main_v3 : (⟨S8x2048x2048, .f32⟩ : BufTy).Contents (Elt F) :=
  uitofp .f32 (val_main_v2 x1)
theorem val_main_v3_apply (i : S8x2048x2048.Idx) :
    val_main_v3 x1 i = FloatOps.uitofp .f32 (val_main_v2 x1 i) := rfl
def val_main_v4 : (⟨S8x2048x32, .f32⟩ : BufTy).Contents (Elt F) :=
  Host.dotGeneral dot_S8x2048x2048_S8x2048x32_S8x2048x32_2_1_1_2_0_0 none (val_main_v3 x1) (x0)
def val_main_v5 : (⟨S1x32x64, .f32⟩ : BufTy).Contents (Elt F) :=
  extractStridedSlice S1x32x64 ![0, 0, 0] (x3) slices_S3x32x64_S1x32x64_0_0_0
abbrev idx_main_v5 (i : S1x32x64.Idx) : S3x32x64.Idx := fun a => match a with
  | ⟨0, _⟩ => ⟨(i 0).val, by have h0 : (i 0).val < 1 := (i 0).isLt; show (i 0).val < 3; omega⟩
  | ⟨1, _⟩ => ⟨(i 1).val, (i 1).isLt⟩
  | ⟨2, _⟩ => ⟨(i 2).val, (i 2).isLt⟩
theorem val_main_v5_apply (i : S1x32x64.Idx) :
    val_main_v5 x3 i = x3 (idx_main_v5 i) := by
  unfold val_main_v5
  exact extractStridedSlice_apply ![0, 0, 0] x3 slices_S3x32x64_S1x32x64_0_0_0 i (idx_main_v5 i) (fun a => match a with
    | ⟨0, _⟩ => by show (i 0).val = 0 + (i 0).val; omega
    | ⟨1, _⟩ => by show (i 1).val = 0 + (i 1).val; omega
    | ⟨2, _⟩ => by show (i 2).val = 0 + (i 2).val; omega)
def val_main_v6 : (⟨S32x64, .f32⟩ : BufTy).Contents (Elt F) :=
  shapeCast _ (val_main_v5 x3) shapeCasts_S1x32x64_S32x64
abbrev idx_main_v6 (i : S32x64.Idx) : S1x32x64.Idx := fun a => match a with
  | ⟨0, _⟩ => ⟨0, Nat.one_pos⟩
  | ⟨1, _⟩ => ⟨((i 0).val * 64 + (i 1).val) / 64 % 32, by have h0 : (i 0).val < 32 := (i 0).isLt; have h1 : (i 1).val < 64 := (i 1).isLt; show ((i 0).val * 64 + (i 1).val) / 64 % 32 < 32; omega⟩
  | ⟨2, _⟩ => ⟨((i 0).val * 64 + (i 1).val) % 64, by have h0 : (i 0).val < 32 := (i 0).isLt; have h1 : (i 1).val < 64 := (i 1).isLt; show ((i 0).val * 64 + (i 1).val) % 64 < 64; omega⟩
theorem shapeCasts_S1x32x64_S32x64_read (y : (⟨S1x32x64, .f32⟩ : BufTy).Contents (Elt F)) (i : S32x64.Idx) :
    (shapeCast _ y shapeCasts_S1x32x64_S32x64 : (⟨S32x64, .f32⟩ : BufTy).Contents (Elt F)) i = y (idx_main_v6 i) := by
  exact shapeCast_apply y shapeCasts_S1x32x64_S32x64 i (idx_main_v6 i)
    (by rewrite [Shape.rowMajor_val_three, Shape.rowMajor_val_two]; have h0 : (i 0).val < 32 := (i 0).isLt; have h1 : (i 1).val < 64 := (i 1).isLt; show (0 * 32 + ((i 0).val * 64 + (i 1).val) / 64 % 32) * 64 + ((i 0).val * 64 + (i 1).val) % 64 = (i 0).val * 64 + (i 1).val; omega)
theorem val_main_v6_apply (i : S32x64.Idx) :
    val_main_v6 x3 i = val_main_v5 x3 (idx_main_v6 i) :=
  shapeCasts_S1x32x64_S32x64_read _ i
def val_main_v7 : (⟨S8x2048x64, .f32⟩ : BufTy).Contents (Elt F) :=
  Host.dotGeneral dot_S8x2048x32_S32x64_S8x2048x64_2_0_01_1_n_n none (val_main_v4 x0 x1) (val_main_v6 x3)
def val_main_v8 : (⟨S8x2048x64, .f32⟩ : BufTy).Contents (Elt F) :=
  addf (val_main_v0 (F := F)) (val_main_v7 x0 x1 x3)
theorem val_main_v8_apply (i : S8x2048x64.Idx) :
    val_main_v8 x0 x1 x3 i = FloatOps.addf (val_main_v0 (F := F) i) (val_main_v7 x0 x1 x3 i) := rfl
def val_main_c_0 : (⟨S_, .i32⟩ : BufTy).Contents (Elt F) :=
  constantI S_ 32 2#32
theorem val_main_c_0_apply (i : S_.Idx) :
    val_main_c_0 (F := F) i = 2#32 := rfl
def val_main_v9 : (⟨S8x2048x2048, .i32⟩ : BufTy).Contents (Elt F) :=
  broadcastInDim S8x2048x2048 ![] bcast_S_S8x2048x2048 (val_main_c_0 (F := F))
abbrev idx_main_v9 (i : S8x2048x2048.Idx) : S_.Idx := fun a => a.elim0
theorem val_main_v9_apply (i : S8x2048x2048.Idx) :
    val_main_v9 (F := F) i = val_main_c_0 (F := F) (idx_main_v9 i) := by
  unfold val_main_v9
  generalize val_main_c_0 (F := F) = y
  exact broadcastInDim_apply _ bcast_S_S8x2048x2048 y i (idx_main_v9 i) (fun a => a.elim0)
def val_main_v10 : (⟨S8x2048x2048, .i1⟩ : BufTy).Contents (Elt F) :=
  cmpi .eq (x1) (val_main_v9 (F := F))
theorem val_main_v10_apply (i : S8x2048x2048.Idx) :
    val_main_v10 x1 i = IntOp.cmpi .eq (x1 i) (val_main_v9 (F := F) i) := rfl
def val_main_v11 : (⟨S8x2048x2048, .f32⟩ : BufTy).Contents (Elt F) :=
  uitofp .f32 (val_main_v10 x1)
theorem val_main_v11_apply (i : S8x2048x2048.Idx) :
    val_main_v11 x1 i = FloatOps.uitofp .f32 (val_main_v10 x1 i) := rfl
def val_main_v12 : (⟨S8x2048x32, .f32⟩ : BufTy).Contents (Elt F) :=
  Host.dotGeneral dot_S8x2048x2048_S8x2048x32_S8x2048x32_2_1_1_2_0_0 none (val_main_v11 x1) (x0)
def val_main_v13 : (⟨S1x32x64, .f32⟩ : BufTy).Contents (Elt F) :=
  extractStridedSlice S1x32x64 ![1, 0, 0] (x3) slices_S3x32x64_S1x32x64_1_0_0
abbrev idx_main_v13 (i : S1x32x64.Idx) : S3x32x64.Idx := fun a => match a with
  | ⟨0, _⟩ => ⟨1 + (i 0).val, by have h0 : (i 0).val < 1 := (i 0).isLt; show 1 + (i 0).val < 3; omega⟩
  | ⟨1, _⟩ => ⟨(i 1).val, (i 1).isLt⟩
  | ⟨2, _⟩ => ⟨(i 2).val, (i 2).isLt⟩
theorem val_main_v13_apply (i : S1x32x64.Idx) :
    val_main_v13 x3 i = x3 (idx_main_v13 i) := by
  unfold val_main_v13
  exact extractStridedSlice_apply ![1, 0, 0] x3 slices_S3x32x64_S1x32x64_1_0_0 i (idx_main_v13 i) (fun a => match a with
    | ⟨0, _⟩ => by show 1 + (i 0).val = 1 + (i 0).val; omega
    | ⟨1, _⟩ => by show (i 1).val = 0 + (i 1).val; omega
    | ⟨2, _⟩ => by show (i 2).val = 0 + (i 2).val; omega)
def val_main_v14 : (⟨S32x64, .f32⟩ : BufTy).Contents (Elt F) :=
  shapeCast _ (val_main_v13 x3) shapeCasts_S1x32x64_S32x64
abbrev idx_main_v14 := idx_main_v6
theorem val_main_v14_apply (i : S32x64.Idx) :
    val_main_v14 x3 i = val_main_v13 x3 (idx_main_v14 i) :=
  shapeCasts_S1x32x64_S32x64_read _ i
def val_main_v15 : (⟨S8x2048x64, .f32⟩ : BufTy).Contents (Elt F) :=
  Host.dotGeneral dot_S8x2048x32_S32x64_S8x2048x64_2_0_01_1_n_n none (val_main_v12 x0 x1) (val_main_v14 x3)
def val_main_v16 : (⟨S8x2048x64, .f32⟩ : BufTy).Contents (Elt F) :=
  addf (val_main_v8 x0 x1 x3) (val_main_v15 x0 x1 x3)
theorem val_main_v16_apply (i : S8x2048x64.Idx) :
    val_main_v16 x0 x1 x3 i = FloatOps.addf (val_main_v8 x0 x1 x3 i) (val_main_v15 x0 x1 x3 i) := rfl
def val_main_c_1 : (⟨S_, .i32⟩ : BufTy).Contents (Elt F) :=
  constantI S_ 32 3#32
theorem val_main_c_1_apply (i : S_.Idx) :
    val_main_c_1 (F := F) i = 3#32 := rfl
def val_main_v17 : (⟨S8x2048x2048, .i32⟩ : BufTy).Contents (Elt F) :=
  broadcastInDim S8x2048x2048 ![] bcast_S_S8x2048x2048 (val_main_c_1 (F := F))
abbrev idx_main_v17 := idx_main_v9
theorem val_main_v17_apply (i : S8x2048x2048.Idx) :
    val_main_v17 (F := F) i = val_main_c_1 (F := F) (idx_main_v17 i) := by
  unfold val_main_v17
  generalize val_main_c_1 (F := F) = y
  exact broadcastInDim_apply _ bcast_S_S8x2048x2048 y i (idx_main_v17 i) (fun a => a.elim0)
def val_main_v18 : (⟨S8x2048x2048, .i1⟩ : BufTy).Contents (Elt F) :=
  cmpi .eq (x1) (val_main_v17 (F := F))
theorem val_main_v18_apply (i : S8x2048x2048.Idx) :
    val_main_v18 x1 i = IntOp.cmpi .eq (x1 i) (val_main_v17 (F := F) i) := rfl
def val_main_v19 : (⟨S8x2048x2048, .f32⟩ : BufTy).Contents (Elt F) :=
  uitofp .f32 (val_main_v18 x1)
theorem val_main_v19_apply (i : S8x2048x2048.Idx) :
    val_main_v19 x1 i = FloatOps.uitofp .f32 (val_main_v18 x1 i) := rfl
def val_main_v20 : (⟨S8x2048x32, .f32⟩ : BufTy).Contents (Elt F) :=
  Host.dotGeneral dot_S8x2048x2048_S8x2048x32_S8x2048x32_2_1_1_2_0_0 none (val_main_v19 x1) (x0)
def val_main_v21 : (⟨S1x32x64, .f32⟩ : BufTy).Contents (Elt F) :=
  extractStridedSlice S1x32x64 ![2, 0, 0] (x3) slices_S3x32x64_S1x32x64_2_0_0
abbrev idx_main_v21 (i : S1x32x64.Idx) : S3x32x64.Idx := fun a => match a with
  | ⟨0, _⟩ => ⟨2 + (i 0).val, by have h0 : (i 0).val < 1 := (i 0).isLt; show 2 + (i 0).val < 3; omega⟩
  | ⟨1, _⟩ => ⟨(i 1).val, (i 1).isLt⟩
  | ⟨2, _⟩ => ⟨(i 2).val, (i 2).isLt⟩
theorem val_main_v21_apply (i : S1x32x64.Idx) :
    val_main_v21 x3 i = x3 (idx_main_v21 i) := by
  unfold val_main_v21
  exact extractStridedSlice_apply ![2, 0, 0] x3 slices_S3x32x64_S1x32x64_2_0_0 i (idx_main_v21 i) (fun a => match a with
    | ⟨0, _⟩ => by show 2 + (i 0).val = 2 + (i 0).val; omega
    | ⟨1, _⟩ => by show (i 1).val = 0 + (i 1).val; omega
    | ⟨2, _⟩ => by show (i 2).val = 0 + (i 2).val; omega)
def val_main_v22 : (⟨S32x64, .f32⟩ : BufTy).Contents (Elt F) :=
  shapeCast _ (val_main_v21 x3) shapeCasts_S1x32x64_S32x64
abbrev idx_main_v22 := idx_main_v6
theorem val_main_v22_apply (i : S32x64.Idx) :
    val_main_v22 x3 i = val_main_v21 x3 (idx_main_v22 i) :=
  shapeCasts_S1x32x64_S32x64_read _ i
def val_main_v23 : (⟨S8x2048x64, .f32⟩ : BufTy).Contents (Elt F) :=
  Host.dotGeneral dot_S8x2048x32_S32x64_S8x2048x64_2_0_01_1_n_n none (val_main_v20 x0 x1) (val_main_v22 x3)
def val_main_v24 : (⟨S8x2048x64, .f32⟩ : BufTy).Contents (Elt F) :=
  addf (val_main_v16 x0 x1 x3) (val_main_v23 x0 x1 x3)
theorem val_main_v24_apply (i : S8x2048x64.Idx) :
    val_main_v24 x0 x1 x3 i = FloatOps.addf (val_main_v16 x0 x1 x3 i) (val_main_v23 x0 x1 x3 i) := rfl
def val_main_v25 : (⟨S1x1x64, .f32⟩ : BufTy).Contents (Elt F) :=
  broadcastInDim S1x1x64 ![2] bcast_S64_S1x1x64_2 (x4)
abbrev idx_main_v25 (i : S1x1x64.Idx) : S64.Idx := fun a => match a with
  | ⟨0, _⟩ => ⟨(i 2).val, (i 2).isLt⟩
theorem val_main_v25_apply (i : S1x1x64.Idx) :
    val_main_v25 x4 i = x4 (idx_main_v25 i) := by
  unfold val_main_v25
  exact broadcastInDim_apply _ bcast_S64_S1x1x64_2 x4 i (idx_main_v25 i) (fun a => match a with
    | ⟨0, _⟩ => by show (i 2).val = if (64 : Nat) = 1 then 0 else (i 2).val; rw [if_neg (by decide +revert)])
def val_main_v26 : (⟨S8x2048x64, .f32⟩ : BufTy).Contents (Elt F) :=
  broadcastInDim S8x2048x64 ![0, 1, 2] bcast_S1x1x64_S8x2048x64_0_1_2 (val_main_v25 x4)
abbrev idx_main_v26 (i : S8x2048x64.Idx) : S1x1x64.Idx := fun a => match a with
  | ⟨0, _⟩ => ⟨0, Nat.one_pos⟩
  | ⟨1, _⟩ => ⟨0, Nat.one_pos⟩
  | ⟨2, _⟩ => ⟨(i 2).val, (i 2).isLt⟩
theorem bcast_S1x1x64_S8x2048x64_0_1_2_read (y : (⟨S1x1x64, .f32⟩ : BufTy).Contents (Elt F)) (i : S8x2048x64.Idx) :
    (broadcastInDim S8x2048x64 ![0, 1, 2] bcast_S1x1x64_S8x2048x64_0_1_2 y : (⟨S8x2048x64, .f32⟩ : BufTy).Contents (Elt F)) i = y (idx_main_v26 i) := by
  exact broadcastInDim_apply _ bcast_S1x1x64_S8x2048x64_0_1_2 y i (idx_main_v26 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (64 : Nat) = 1 then 0 else (i 2).val; rw [if_neg (by decide +revert)])
theorem val_main_v26_apply (i : S8x2048x64.Idx) :
    val_main_v26 x4 i = val_main_v25 x4 (idx_main_v26 i) :=
  bcast_S1x1x64_S8x2048x64_0_1_2_read _ i
def val_main_v27 : (⟨S8x2048x64, .f32⟩ : BufTy).Contents (Elt F) :=
  addf (val_main_v24 x0 x1 x3) (val_main_v26 x4)
theorem val_main_v27_apply (i : S8x2048x64.Idx) :
    val_main_v27 x0 x1 x3 x4 i = FloatOps.addf (val_main_v24 x0 x1 x3 i) (val_main_v26 x4 i) := rfl
def val_main_v28 : (⟨S8x2048x64, .f32⟩ : BufTy).Contents (Elt F) :=
  mulf (val_main_v27 x0 x1 x3 x4) (val_main_v27 x0 x1 x3 x4)
theorem val_main_v28_apply (i : S8x2048x64.Idx) :
    val_main_v28 x0 x1 x3 x4 i = FloatOps.mulf (val_main_v27 x0 x1 x3 x4 i) (val_main_v27 x0 x1 x3 x4 i) := rfl
def val_main_cst_2 : (⟨S_, .f32⟩ : BufTy).Contents (Elt F) :=
  constant S_ .f32 0x00000000#32
theorem val_main_cst_2_apply (i : S_.Idx) :
    val_main_cst_2 (F := F) i = FloatOps.ofBits .f32 0x00000000#32 := rfl
def val_main_v29 : (⟨S8x2048, .f32⟩ : BufTy).Contents (Elt F) :=
  Host.reduceAdd (val_main_v28 x0 x1 x3 x4) (val_main_cst_2 (F := F)) reducesTo_S8x2048x64_S8x2048_d2 h_S_
abbrev idx_main_v29 (i : S8x2048.Idx) (k : Fin 64) : S8x2048x64.Idx := fun a => match a with
  | ⟨0, _⟩ => ⟨(i 0).val, (i 0).isLt⟩
  | ⟨1, _⟩ => ⟨(i 1).val, (i 1).isLt⟩
  | ⟨2, _⟩ => ⟨k.val, k.isLt⟩
def val_main_v30 : (⟨S8x2048x1, .f32⟩ : BufTy).Contents (Elt F) :=
  broadcastInDim S8x2048x1 ![0, 1] bcast_S8x2048_S8x2048x1_0_1 (val_main_v29 x0 x1 x3 x4)
abbrev idx_main_v30 (i : S8x2048x1.Idx) : S8x2048.Idx := fun a => match a with
  | ⟨0, _⟩ => ⟨(i 0).val, (i 0).isLt⟩
  | ⟨1, _⟩ => ⟨(i 1).val, (i 1).isLt⟩
theorem bcast_S8x2048_S8x2048x1_0_1_read (y : (⟨S8x2048, .f32⟩ : BufTy).Contents (Elt F)) (i : S8x2048x1.Idx) :
    (broadcastInDim S8x2048x1 ![0, 1] bcast_S8x2048_S8x2048x1_0_1 y : (⟨S8x2048x1, .f32⟩ : BufTy).Contents (Elt F)) i = y (idx_main_v30 i) := by
  exact broadcastInDim_apply _ bcast_S8x2048_S8x2048x1_0_1 y i (idx_main_v30 i) (fun a => match a with
    | ⟨0, _⟩ => by show (i 0).val = if (8 : Nat) = 1 then 0 else (i 0).val; rw [if_neg (by decide +revert)]
    | ⟨1, _⟩ => by show (i 1).val = if (2048 : Nat) = 1 then 0 else (i 1).val; rw [if_neg (by decide +revert)])
theorem val_main_v30_apply (i : S8x2048x1.Idx) :
    val_main_v30 x0 x1 x3 x4 i = val_main_v29 x0 x1 x3 x4 (idx_main_v30 i) :=
  bcast_S8x2048_S8x2048x1_0_1_read _ i
def val_main_v31 : (⟨S8x2048x1, .f32⟩ : BufTy).Contents (Elt F) :=
  Host.sqrt (val_main_v30 x0 x1 x3 x4)
theorem val_main_v31_apply (i : S8x2048x1.Idx) :
    val_main_v31 x0 x1 x3 x4 i = FloatOps.hostUnary .sqrt (val_main_v30 x0 x1 x3 x4 i) := rfl
def val_main_cst_3 : (⟨S_, .f32⟩ : BufTy).Contents (Elt F) :=
  constant S_ .f32 0x2B8CBCCC#32
theorem val_main_cst_3_apply (i : S_.Idx) :
    val_main_cst_3 (F := F) i = FloatOps.ofBits .f32 0x2B8CBCCC#32 := rfl
def val_main_v32 : (⟨S8x2048x1, .f32⟩ : BufTy).Contents (Elt F) :=
  broadcastInDim S8x2048x1 ![] bcast_S_S8x2048x1 (val_main_cst_3 (F := F))
abbrev idx_main_v32 (i : S8x2048x1.Idx) : S_.Idx := fun a => a.elim0
theorem val_main_v32_apply (i : S8x2048x1.Idx) :
    val_main_v32 (F := F) i = val_main_cst_3 (F := F) (idx_main_v32 i) := by
  unfold val_main_v32
  generalize val_main_cst_3 (F := F) = y
  exact broadcastInDim_apply _ bcast_S_S8x2048x1 y i (idx_main_v32 i) (fun a => a.elim0)
def val_main_v33 : (⟨S8x2048x1, .f32⟩ : BufTy).Contents (Elt F) :=
  maximumf (val_main_v31 x0 x1 x3 x4) (val_main_v32 (F := F))
theorem val_main_v33_apply (i : S8x2048x1.Idx) :
    val_main_v33 x0 x1 x3 x4 i = FloatOps.maximumf (val_main_v31 x0 x1 x3 x4 i) (val_main_v32 (F := F) i) := rfl
def val_main_v34 : (⟨S8x2048x64, .f32⟩ : BufTy).Contents (Elt F) :=
  broadcastInDim S8x2048x64 ![0, 1, 2] bcast_S8x2048x1_S8x2048x64_0_1_2 (val_main_v33 x0 x1 x3 x4)
abbrev idx_main_v34 (i : S8x2048x64.Idx) : S8x2048x1.Idx := fun a => match a with
  | ⟨0, _⟩ => ⟨(i 0).val, (i 0).isLt⟩
  | ⟨1, _⟩ => ⟨(i 1).val, (i 1).isLt⟩
  | ⟨2, _⟩ => ⟨0, Nat.one_pos⟩
theorem bcast_S8x2048x1_S8x2048x64_0_1_2_read (y : (⟨S8x2048x1, .f32⟩ : BufTy).Contents (Elt F)) (i : S8x2048x64.Idx) :
    (broadcastInDim S8x2048x64 ![0, 1, 2] bcast_S8x2048x1_S8x2048x64_0_1_2 y : (⟨S8x2048x64, .f32⟩ : BufTy).Contents (Elt F)) i = y (idx_main_v34 i) := by
  exact broadcastInDim_apply _ bcast_S8x2048x1_S8x2048x64_0_1_2 y i (idx_main_v34 i) (fun a => match a with
    | ⟨0, _⟩ => by show (i 0).val = if (8 : Nat) = 1 then 0 else (i 0).val; rw [if_neg (by decide +revert)]
    | ⟨1, _⟩ => by show (i 1).val = if (2048 : Nat) = 1 then 0 else (i 1).val; rw [if_neg (by decide +revert)]
    | ⟨2, _⟩ => by show 0 = if (1 : Nat) = 1 then 0 else (i 2).val; rw [if_pos rfl])
theorem val_main_v34_apply (i : S8x2048x64.Idx) :
    val_main_v34 x0 x1 x3 x4 i = val_main_v33 x0 x1 x3 x4 (idx_main_v34 i) :=
  bcast_S8x2048x1_S8x2048x64_0_1_2_read _ i
def val_main_v35 : (⟨S8x2048x64, .f32⟩ : BufTy).Contents (Elt F) :=
  Host.divf (val_main_v27 x0 x1 x3 x4) (val_main_v34 x0 x1 x3 x4)
theorem val_main_v35_apply (i : S8x2048x64.Idx) :
    val_main_v35 x0 x1 x3 x4 i = FloatOps.hostDivf (val_main_v27 x0 x1 x3 x4 i) (val_main_v34 x0 x1 x3 x4 i) := rfl
def val_main_call0_cst : (⟨S_, .f32⟩ : BufTy).Contents (Elt F) :=
  constant S_ .f32 0x00000000#32
def val_main_call0_v0 : (⟨S8x2048x64, .f32⟩ : BufTy).Contents (Elt F) :=
  broadcastInDim S8x2048x64 ![] bcast_S_S8x2048x64 (val_main_call0_cst (F := F))
def val_main_v36 : (⟨S8x2048x64, .f32⟩ : BufTy).Contents (Elt F) :=
  maximumf (val_main_v35 x0 x1 x3 x4) (val_main_call0_v0 (F := F))
def val_main_cst_4 : (⟨S_, .f32⟩ : BufTy).Contents (Elt F) :=
  constant S_ .f32 0x00000000#32
def val_main_v37 : (⟨S2048, .f32⟩ : BufTy).Contents (Elt F) :=
  Host.reduceAdd (val_main_v36 x0 x1 x3 x4) (val_main_cst_4 (F := F)) reducesTo_S8x2048x64_S2048_d0_2 h_S_
def val_main_v38 : (⟨S1x2048x1, .f32⟩ : BufTy).Contents (Elt F) :=
  broadcastInDim S1x2048x1 ![1] bcast_S2048_S1x2048x1_1 (val_main_v37 x0 x1 x3 x4)
def val_main_cst_5 : (⟨S_, .f32⟩ : BufTy).Contents (Elt F) :=
  constant S_ .f32 0x44000000#32
def val_main_v39 : (⟨S1x2048x1, .f32⟩ : BufTy).Contents (Elt F) :=
  broadcastInDim S1x2048x1 ![] bcast_S_S1x2048x1 (val_main_cst_5 (F := F))
def val_main_v40 : (⟨S1x2048x1, .f32⟩ : BufTy).Contents (Elt F) :=
  Host.divf (val_main_v38 x0 x1 x3 x4) (val_main_v39 (F := F))
def val_main_v41 : (⟨S8x2048x64, .f32⟩ : BufTy).Contents (Elt F) :=
  broadcastInDim S8x2048x64 ![0, 1, 2] bcast_S1x2048x1_S8x2048x64_0_1_2 (val_main_v40 x0 x1 x3 x4)
def val_main_v42 : (⟨S8x2048x64, .f32⟩ : BufTy).Contents (Elt F) :=
  subf (val_main_v36 x0 x1 x3 x4) (val_main_v41 x0 x1 x3 x4)
def val_main_v43 : (⟨S8x2048x64, .f32⟩ : BufTy).Contents (Elt F) :=
  mulf (val_main_v42 x0 x1 x3 x4) (val_main_v42 x0 x1 x3 x4)
def val_main_cst_6 : (⟨S_, .f32⟩ : BufTy).Contents (Elt F) :=
  constant S_ .f32 0x00000000#32
def val_main_v44 : (⟨S2048, .f32⟩ : BufTy).Contents (Elt F) :=
  Host.reduceAdd (val_main_v43 x0 x1 x3 x4) (val_main_cst_6 (F := F)) reducesTo_S8x2048x64_S2048_d0_2 h_S_
def val_main_v45 : (⟨S1x2048x1, .f32⟩ : BufTy).Contents (Elt F) :=
  broadcastInDim S1x2048x1 ![1] bcast_S2048_S1x2048x1_1 (val_main_v44 x0 x1 x3 x4)
def val_main_cst_7 : (⟨S_, .f32⟩ : BufTy).Contents (Elt F) :=
  constant S_ .f32 0x44000000#32
def val_main_v46 : (⟨S1x2048x1, .f32⟩ : BufTy).Contents (Elt F) :=
  broadcastInDim S1x2048x1 ![] bcast_S_S1x2048x1 (val_main_cst_7 (F := F))
def val_main_v47 : (⟨S1x2048x1, .f32⟩ : BufTy).Contents (Elt F) :=
  Host.divf (val_main_v45 x0 x1 x3 x4) (val_main_v46 (F := F))
def val_main_v48 : (⟨S8x2048x64, .f32⟩ : BufTy).Contents (Elt F) :=
  broadcastInDim S8x2048x64 ![0, 1, 2] bcast_S1x2048x1_S8x2048x64_0_1_2 (val_main_v40 x0 x1 x3 x4)
def val_main_v49 : (⟨S8x2048x64, .f32⟩ : BufTy).Contents (Elt F) :=
  subf (val_main_v36 x0 x1 x3 x4) (val_main_v48 x0 x1 x3 x4)
def val_main_cst_8 : (⟨S_, .f32⟩ : BufTy).Contents (Elt F) :=
  constant S_ .f32 0x3727C5AC#32
def val_main_v50 : (⟨S1x2048x1, .f32⟩ : BufTy).Contents (Elt F) :=
  broadcastInDim S1x2048x1 ![] bcast_S_S1x2048x1 (val_main_cst_8 (F := F))
def val_main_v51 : (⟨S1x2048x1, .f32⟩ : BufTy).Contents (Elt F) :=
  addf (val_main_v47 x0 x1 x3 x4) (val_main_v50 (F := F))
def val_main_v52 : (⟨S1x2048x1, .f32⟩ : BufTy).Contents (Elt F) :=
  Host.rsqrt (val_main_v51 x0 x1 x3 x4)
def val_main_v53 : (⟨S8x2048x64, .f32⟩ : BufTy).Contents (Elt F) :=
  broadcastInDim S8x2048x64 ![0, 1, 2] bcast_S1x2048x1_S8x2048x64_0_1_2 (val_main_v52 x0 x1 x3 x4)
def val_main_v54 : (⟨S8x2048x64, .f32⟩ : BufTy).Contents (Elt F) :=
  mulf (val_main_v49 x0 x1 x3 x4) (val_main_v53 x0 x1 x3 x4)
def val_main_cst_9 : (⟨S_, .f32⟩ : BufTy).Contents (Elt F) :=
  constant S_ .f32 0xFF800000#32
def val_main_v55 : (⟨S8x64, .f32⟩ : BufTy).Contents (Elt F) :=
  Host.reduce FloatOps.maximumf (val_main_v54 x0 x1 x3 x4) (val_main_cst_9 (F := F)) reducesTo_S8x2048x64_S8x64_d1 h_S_
def val_main_cst_10 : (⟨S_, .f32⟩ : BufTy).Contents (Elt F) :=
  constant S_ .f32 0x00000000#32
theorem val_main_cst_10_apply (i : S_.Idx) :
    val_main_cst_10 (F := F) i = FloatOps.ofBits .f32 0x00000000#32 := rfl
def val_main_v56 : (⟨S8x2048x64, .f32⟩ : BufTy).Contents (Elt F) :=
  broadcastInDim S8x2048x64 ![] bcast_S_S8x2048x64 (val_main_cst_10 (F := F))
abbrev idx_main_v56 (i : S8x2048x64.Idx) : S_.Idx := fun a => a.elim0
theorem val_main_v56_apply (i : S8x2048x64.Idx) :
    val_main_v56 (F := F) i = val_main_cst_10 (F := F) (idx_main_v56 i) := by
  unfold val_main_v56
  generalize val_main_cst_10 (F := F) = y
  exact broadcastInDim_apply _ bcast_S_S8x2048x64 y i (idx_main_v56 i) (fun a => a.elim0)
def val_main_cst_11 : (⟨S_, .f32⟩ : BufTy).Contents (Elt F) :=
  constant S_ .f32 0x3F800000#32
theorem val_main_cst_11_apply (i : S_.Idx) :
    val_main_cst_11 (F := F) i = FloatOps.ofBits .f32 0x3F800000#32 := rfl
def val_main_v57 : (⟨S8x2048x2048, .f32⟩ : BufTy).Contents (Elt F) :=
  broadcastInDim S8x2048x2048 ![] bcast_S_S8x2048x2048 (val_main_cst_11 (F := F))
abbrev idx_main_v57 (i : S8x2048x2048.Idx) : S_.Idx := fun a => a.elim0
theorem bcast_S_S8x2048x2048_read (y : (⟨S_, .f32⟩ : BufTy).Contents (Elt F)) (i : S8x2048x2048.Idx) :
    (broadcastInDim S8x2048x2048 ![] bcast_S_S8x2048x2048 y : (⟨S8x2048x2048, .f32⟩ : BufTy).Contents (Elt F)) i = y (idx_main_v57 i) := by
  exact broadcastInDim_apply _ bcast_S_S8x2048x2048 y i (idx_main_v57 i) (fun a => a.elim0)
theorem val_main_v57_apply (i : S8x2048x2048.Idx) :
    val_main_v57 (F := F) i = val_main_cst_11 (F := F) (idx_main_v57 i) :=
  bcast_S_S8x2048x2048_read _ i
def val_main_v58 : (⟨S8x2048x2048, .i1⟩ : BufTy).Contents (Elt F) :=
  cmpf .oeq (x2) (val_main_v57 (F := F))
theorem val_main_v58_apply (i : S8x2048x2048.Idx) :
    val_main_v58 x2 i = FloatOps.cmpf .oeq (x2 i) (val_main_v57 (F := F) i) := rfl
def val_main_v59 : (⟨S8x2048x2048, .f32⟩ : BufTy).Contents (Elt F) :=
  uitofp .f32 (val_main_v58 x2)
theorem val_main_v59_apply (i : S8x2048x2048.Idx) :
    val_main_v59 x2 i = FloatOps.uitofp .f32 (val_main_v58 x2 i) := rfl
def val_main_v60 : (⟨S8x2048x64, .f32⟩ : BufTy).Contents (Elt F) :=
  Host.dotGeneral dot_S8x2048x2048_S8x2048x64_S8x2048x64_2_1_1_2_0_0 none (val_main_v59 x2) (val_main_v54 x0 x1 x3 x4)
def val_main_v61 : (⟨S1x64x64, .f32⟩ : BufTy).Contents (Elt F) :=
  extractStridedSlice S1x64x64 ![0, 0, 0] (x5) slices_S3x64x64_S1x64x64_0_0_0
abbrev idx_main_v61 (i : S1x64x64.Idx) : S3x64x64.Idx := fun a => match a with
  | ⟨0, _⟩ => ⟨(i 0).val, by have h0 : (i 0).val < 1 := (i 0).isLt; show (i 0).val < 3; omega⟩
  | ⟨1, _⟩ => ⟨(i 1).val, (i 1).isLt⟩
  | ⟨2, _⟩ => ⟨(i 2).val, (i 2).isLt⟩
theorem val_main_v61_apply (i : S1x64x64.Idx) :
    val_main_v61 x5 i = x5 (idx_main_v61 i) := by
  unfold val_main_v61
  exact extractStridedSlice_apply ![0, 0, 0] x5 slices_S3x64x64_S1x64x64_0_0_0 i (idx_main_v61 i) (fun a => match a with
    | ⟨0, _⟩ => by show (i 0).val = 0 + (i 0).val; omega
    | ⟨1, _⟩ => by show (i 1).val = 0 + (i 1).val; omega
    | ⟨2, _⟩ => by show (i 2).val = 0 + (i 2).val; omega)
def val_main_v62 : (⟨S64x64, .f32⟩ : BufTy).Contents (Elt F) :=
  shapeCast _ (val_main_v61 x5) shapeCasts_S1x64x64_S64x64
abbrev idx_main_v62 (i : S64x64.Idx) : S1x64x64.Idx := fun a => match a with
  | ⟨0, _⟩ => ⟨0, Nat.one_pos⟩
  | ⟨1, _⟩ => ⟨((i 0).val * 64 + (i 1).val) / 64 % 64, by have h0 : (i 0).val < 64 := (i 0).isLt; have h1 : (i 1).val < 64 := (i 1).isLt; show ((i 0).val * 64 + (i 1).val) / 64 % 64 < 64; omega⟩
  | ⟨2, _⟩ => ⟨((i 0).val * 64 + (i 1).val) % 64, by have h0 : (i 0).val < 64 := (i 0).isLt; have h1 : (i 1).val < 64 := (i 1).isLt; show ((i 0).val * 64 + (i 1).val) % 64 < 64; omega⟩
theorem shapeCasts_S1x64x64_S64x64_read (y : (⟨S1x64x64, .f32⟩ : BufTy).Contents (Elt F)) (i : S64x64.Idx) :
    (shapeCast _ y shapeCasts_S1x64x64_S64x64 : (⟨S64x64, .f32⟩ : BufTy).Contents (Elt F)) i = y (idx_main_v62 i) := by
  exact shapeCast_apply y shapeCasts_S1x64x64_S64x64 i (idx_main_v62 i)
    (by rewrite [Shape.rowMajor_val_three, Shape.rowMajor_val_two]; have h0 : (i 0).val < 64 := (i 0).isLt; have h1 : (i 1).val < 64 := (i 1).isLt; show (0 * 64 + ((i 0).val * 64 + (i 1).val) / 64 % 64) * 64 + ((i 0).val * 64 + (i 1).val) % 64 = (i 0).val * 64 + (i 1).val; omega)
theorem val_main_v62_apply (i : S64x64.Idx) :
    val_main_v62 x5 i = val_main_v61 x5 (idx_main_v62 i) :=
  shapeCasts_S1x64x64_S64x64_read _ i
def val_main_v63 : (⟨S8x2048x64, .f32⟩ : BufTy).Contents (Elt F) :=
  Host.dotGeneral dot_S8x2048x64_S64x64_S8x2048x64_2_0_01_1_n_n none (val_main_v60 x0 x1 x2 x3 x4) (val_main_v62 x5)
def val_main_v64 : (⟨S8x2048x64, .f32⟩ : BufTy).Contents (Elt F) :=
  addf (val_main_v56 (F := F)) (val_main_v63 x0 x1 x2 x3 x4 x5)
theorem val_main_v64_apply (i : S8x2048x64.Idx) :
    val_main_v64 x0 x1 x2 x3 x4 x5 i = FloatOps.addf (val_main_v56 (F := F) i) (val_main_v63 x0 x1 x2 x3 x4 x5 i) := rfl
def val_main_cst_12 : (⟨S_, .f32⟩ : BufTy).Contents (Elt F) :=
  constant S_ .f32 0x40000000#32
theorem val_main_cst_12_apply (i : S_.Idx) :
    val_main_cst_12 (F := F) i = FloatOps.ofBits .f32 0x40000000#32 := rfl
def val_main_v65 : (⟨S8x2048x2048, .f32⟩ : BufTy).Contents (Elt F) :=
  broadcastInDim S8x2048x2048 ![] bcast_S_S8x2048x2048 (val_main_cst_12 (F := F))
abbrev idx_main_v65 := idx_main_v57
theorem val_main_v65_apply (i : S8x2048x2048.Idx) :
    val_main_v65 (F := F) i = val_main_cst_12 (F := F) (idx_main_v65 i) :=
  bcast_S_S8x2048x2048_read _ i
def val_main_v66 : (⟨S8x2048x2048, .i1⟩ : BufTy).Contents (Elt F) :=
  cmpf .oeq (x2) (val_main_v65 (F := F))
theorem val_main_v66_apply (i : S8x2048x2048.Idx) :
    val_main_v66 x2 i = FloatOps.cmpf .oeq (x2 i) (val_main_v65 (F := F) i) := rfl
def val_main_v67 : (⟨S8x2048x2048, .f32⟩ : BufTy).Contents (Elt F) :=
  uitofp .f32 (val_main_v66 x2)
theorem val_main_v67_apply (i : S8x2048x2048.Idx) :
    val_main_v67 x2 i = FloatOps.uitofp .f32 (val_main_v66 x2 i) := rfl
def val_main_v68 : (⟨S8x2048x64, .f32⟩ : BufTy).Contents (Elt F) :=
  Host.dotGeneral dot_S8x2048x2048_S8x2048x64_S8x2048x64_2_1_1_2_0_0 none (val_main_v67 x2) (val_main_v54 x0 x1 x3 x4)
def val_main_v69 : (⟨S1x64x64, .f32⟩ : BufTy).Contents (Elt F) :=
  extractStridedSlice S1x64x64 ![1, 0, 0] (x5) slices_S3x64x64_S1x64x64_1_0_0
abbrev idx_main_v69 (i : S1x64x64.Idx) : S3x64x64.Idx := fun a => match a with
  | ⟨0, _⟩ => ⟨1 + (i 0).val, by have h0 : (i 0).val < 1 := (i 0).isLt; show 1 + (i 0).val < 3; omega⟩
  | ⟨1, _⟩ => ⟨(i 1).val, (i 1).isLt⟩
  | ⟨2, _⟩ => ⟨(i 2).val, (i 2).isLt⟩
theorem val_main_v69_apply (i : S1x64x64.Idx) :
    val_main_v69 x5 i = x5 (idx_main_v69 i) := by
  unfold val_main_v69
  exact extractStridedSlice_apply ![1, 0, 0] x5 slices_S3x64x64_S1x64x64_1_0_0 i (idx_main_v69 i) (fun a => match a with
    | ⟨0, _⟩ => by show 1 + (i 0).val = 1 + (i 0).val; omega
    | ⟨1, _⟩ => by show (i 1).val = 0 + (i 1).val; omega
    | ⟨2, _⟩ => by show (i 2).val = 0 + (i 2).val; omega)
def val_main_v70 : (⟨S64x64, .f32⟩ : BufTy).Contents (Elt F) :=
  shapeCast _ (val_main_v69 x5) shapeCasts_S1x64x64_S64x64
abbrev idx_main_v70 := idx_main_v62
theorem val_main_v70_apply (i : S64x64.Idx) :
    val_main_v70 x5 i = val_main_v69 x5 (idx_main_v70 i) :=
  shapeCasts_S1x64x64_S64x64_read _ i
def val_main_v71 : (⟨S8x2048x64, .f32⟩ : BufTy).Contents (Elt F) :=
  Host.dotGeneral dot_S8x2048x64_S64x64_S8x2048x64_2_0_01_1_n_n none (val_main_v68 x0 x1 x2 x3 x4) (val_main_v70 x5)
def val_main_v72 : (⟨S8x2048x64, .f32⟩ : BufTy).Contents (Elt F) :=
  addf (val_main_v64 x0 x1 x2 x3 x4 x5) (val_main_v71 x0 x1 x2 x3 x4 x5)
theorem val_main_v72_apply (i : S8x2048x64.Idx) :
    val_main_v72 x0 x1 x2 x3 x4 x5 i = FloatOps.addf (val_main_v64 x0 x1 x2 x3 x4 x5 i) (val_main_v71 x0 x1 x2 x3 x4 x5 i) := rfl
def val_main_cst_13 : (⟨S_, .f32⟩ : BufTy).Contents (Elt F) :=
  constant S_ .f32 0x40400000#32
theorem val_main_cst_13_apply (i : S_.Idx) :
    val_main_cst_13 (F := F) i = FloatOps.ofBits .f32 0x40400000#32 := rfl
def val_main_v73 : (⟨S8x2048x2048, .f32⟩ : BufTy).Contents (Elt F) :=
  broadcastInDim S8x2048x2048 ![] bcast_S_S8x2048x2048 (val_main_cst_13 (F := F))
abbrev idx_main_v73 := idx_main_v57
theorem val_main_v73_apply (i : S8x2048x2048.Idx) :
    val_main_v73 (F := F) i = val_main_cst_13 (F := F) (idx_main_v73 i) :=
  bcast_S_S8x2048x2048_read _ i
def val_main_v74 : (⟨S8x2048x2048, .i1⟩ : BufTy).Contents (Elt F) :=
  cmpf .oeq (x2) (val_main_v73 (F := F))
theorem val_main_v74_apply (i : S8x2048x2048.Idx) :
    val_main_v74 x2 i = FloatOps.cmpf .oeq (x2 i) (val_main_v73 (F := F) i) := rfl
def val_main_v75 : (⟨S8x2048x2048, .f32⟩ : BufTy).Contents (Elt F) :=
  uitofp .f32 (val_main_v74 x2)
theorem val_main_v75_apply (i : S8x2048x2048.Idx) :
    val_main_v75 x2 i = FloatOps.uitofp .f32 (val_main_v74 x2 i) := rfl
def val_main_v76 : (⟨S8x2048x64, .f32⟩ : BufTy).Contents (Elt F) :=
  Host.dotGeneral dot_S8x2048x2048_S8x2048x64_S8x2048x64_2_1_1_2_0_0 none (val_main_v75 x2) (val_main_v54 x0 x1 x3 x4)
def val_main_v77 : (⟨S1x64x64, .f32⟩ : BufTy).Contents (Elt F) :=
  extractStridedSlice S1x64x64 ![2, 0, 0] (x5) slices_S3x64x64_S1x64x64_2_0_0
abbrev idx_main_v77 (i : S1x64x64.Idx) : S3x64x64.Idx := fun a => match a with
  | ⟨0, _⟩ => ⟨2 + (i 0).val, by have h0 : (i 0).val < 1 := (i 0).isLt; show 2 + (i 0).val < 3; omega⟩
  | ⟨1, _⟩ => ⟨(i 1).val, (i 1).isLt⟩
  | ⟨2, _⟩ => ⟨(i 2).val, (i 2).isLt⟩
theorem val_main_v77_apply (i : S1x64x64.Idx) :
    val_main_v77 x5 i = x5 (idx_main_v77 i) := by
  unfold val_main_v77
  exact extractStridedSlice_apply ![2, 0, 0] x5 slices_S3x64x64_S1x64x64_2_0_0 i (idx_main_v77 i) (fun a => match a with
    | ⟨0, _⟩ => by show 2 + (i 0).val = 2 + (i 0).val; omega
    | ⟨1, _⟩ => by show (i 1).val = 0 + (i 1).val; omega
    | ⟨2, _⟩ => by show (i 2).val = 0 + (i 2).val; omega)
def val_main_v78 : (⟨S64x64, .f32⟩ : BufTy).Contents (Elt F) :=
  shapeCast _ (val_main_v77 x5) shapeCasts_S1x64x64_S64x64
abbrev idx_main_v78 := idx_main_v62
theorem val_main_v78_apply (i : S64x64.Idx) :
    val_main_v78 x5 i = val_main_v77 x5 (idx_main_v78 i) :=
  shapeCasts_S1x64x64_S64x64_read _ i
def val_main_v79 : (⟨S8x2048x64, .f32⟩ : BufTy).Contents (Elt F) :=
  Host.dotGeneral dot_S8x2048x64_S64x64_S8x2048x64_2_0_01_1_n_n none (val_main_v76 x0 x1 x2 x3 x4) (val_main_v78 x5)
def val_main_v80 : (⟨S8x2048x64, .f32⟩ : BufTy).Contents (Elt F) :=
  addf (val_main_v72 x0 x1 x2 x3 x4 x5) (val_main_v79 x0 x1 x2 x3 x4 x5)
theorem val_main_v80_apply (i : S8x2048x64.Idx) :
    val_main_v80 x0 x1 x2 x3 x4 x5 i = FloatOps.addf (val_main_v72 x0 x1 x2 x3 x4 x5 i) (val_main_v79 x0 x1 x2 x3 x4 x5 i) := rfl
def val_main_v81 : (⟨S1x1x64, .f32⟩ : BufTy).Contents (Elt F) :=
  broadcastInDim S1x1x64 ![2] bcast_S64_S1x1x64_2 (x6)
abbrev idx_main_v81 := idx_main_v25
theorem val_main_v81_apply (i : S1x1x64.Idx) :
    val_main_v81 x6 i = x6 (idx_main_v81 i) := by
  unfold val_main_v81
  exact broadcastInDim_apply _ bcast_S64_S1x1x64_2 x6 i (idx_main_v81 i) (fun a => match a with
    | ⟨0, _⟩ => by show (i 2).val = if (64 : Nat) = 1 then 0 else (i 2).val; rw [if_neg (by decide +revert)])
def val_main_v82 : (⟨S8x2048x64, .f32⟩ : BufTy).Contents (Elt F) :=
  broadcastInDim S8x2048x64 ![0, 1, 2] bcast_S1x1x64_S8x2048x64_0_1_2 (val_main_v81 x6)
abbrev idx_main_v82 := idx_main_v26
theorem val_main_v82_apply (i : S8x2048x64.Idx) :
    val_main_v82 x6 i = val_main_v81 x6 (idx_main_v82 i) :=
  bcast_S1x1x64_S8x2048x64_0_1_2_read _ i
def val_main_v83 : (⟨S8x2048x64, .f32⟩ : BufTy).Contents (Elt F) :=
  addf (val_main_v80 x0 x1 x2 x3 x4 x5) (val_main_v82 x6)
theorem val_main_v83_apply (i : S8x2048x64.Idx) :
    val_main_v83 x0 x1 x2 x3 x4 x5 x6 i = FloatOps.addf (val_main_v80 x0 x1 x2 x3 x4 x5 i) (val_main_v82 x6 i) := rfl
def val_main_v84 : (⟨S8x2048x64, .f32⟩ : BufTy).Contents (Elt F) :=
  mulf (val_main_v83 x0 x1 x2 x3 x4 x5 x6) (val_main_v83 x0 x1 x2 x3 x4 x5 x6)
theorem val_main_v84_apply (i : S8x2048x64.Idx) :
    val_main_v84 x0 x1 x2 x3 x4 x5 x6 i = FloatOps.mulf (val_main_v83 x0 x1 x2 x3 x4 x5 x6 i) (val_main_v83 x0 x1 x2 x3 x4 x5 x6 i) := rfl
def val_main_cst_14 : (⟨S_, .f32⟩ : BufTy).Contents (Elt F) :=
  constant S_ .f32 0x00000000#32
theorem val_main_cst_14_apply (i : S_.Idx) :
    val_main_cst_14 (F := F) i = FloatOps.ofBits .f32 0x00000000#32 := rfl
def val_main_v85 : (⟨S8x2048, .f32⟩ : BufTy).Contents (Elt F) :=
  Host.reduceAdd (val_main_v84 x0 x1 x2 x3 x4 x5 x6) (val_main_cst_14 (F := F)) reducesTo_S8x2048x64_S8x2048_d2 h_S_
abbrev idx_main_v85 := idx_main_v29
def val_main_v86 : (⟨S8x2048x1, .f32⟩ : BufTy).Contents (Elt F) :=
  broadcastInDim S8x2048x1 ![0, 1] bcast_S8x2048_S8x2048x1_0_1 (val_main_v85 x0 x1 x2 x3 x4 x5 x6)
abbrev idx_main_v86 := idx_main_v30
theorem val_main_v86_apply (i : S8x2048x1.Idx) :
    val_main_v86 x0 x1 x2 x3 x4 x5 x6 i = val_main_v85 x0 x1 x2 x3 x4 x5 x6 (idx_main_v86 i) :=
  bcast_S8x2048_S8x2048x1_0_1_read _ i
def val_main_v87 : (⟨S8x2048x1, .f32⟩ : BufTy).Contents (Elt F) :=
  Host.sqrt (val_main_v86 x0 x1 x2 x3 x4 x5 x6)
theorem val_main_v87_apply (i : S8x2048x1.Idx) :
    val_main_v87 x0 x1 x2 x3 x4 x5 x6 i = FloatOps.hostUnary .sqrt (val_main_v86 x0 x1 x2 x3 x4 x5 x6 i) := rfl
def val_main_cst_15 : (⟨S_, .f32⟩ : BufTy).Contents (Elt F) :=
  constant S_ .f32 0x2B8CBCCC#32
theorem val_main_cst_15_apply (i : S_.Idx) :
    val_main_cst_15 (F := F) i = FloatOps.ofBits .f32 0x2B8CBCCC#32 := rfl
def val_main_v88 : (⟨S8x2048x1, .f32⟩ : BufTy).Contents (Elt F) :=
  broadcastInDim S8x2048x1 ![] bcast_S_S8x2048x1 (val_main_cst_15 (F := F))
abbrev idx_main_v88 := idx_main_v32
theorem val_main_v88_apply (i : S8x2048x1.Idx) :
    val_main_v88 (F := F) i = val_main_cst_15 (F := F) (idx_main_v88 i) := by
  unfold val_main_v88
  generalize val_main_cst_15 (F := F) = y
  exact broadcastInDim_apply _ bcast_S_S8x2048x1 y i (idx_main_v88 i) (fun a => a.elim0)
def val_main_v89 : (⟨S8x2048x1, .f32⟩ : BufTy).Contents (Elt F) :=
  maximumf (val_main_v87 x0 x1 x2 x3 x4 x5 x6) (val_main_v88 (F := F))
theorem val_main_v89_apply (i : S8x2048x1.Idx) :
    val_main_v89 x0 x1 x2 x3 x4 x5 x6 i = FloatOps.maximumf (val_main_v87 x0 x1 x2 x3 x4 x5 x6 i) (val_main_v88 (F := F) i) := rfl
def val_main_v90 : (⟨S8x2048x64, .f32⟩ : BufTy).Contents (Elt F) :=
  broadcastInDim S8x2048x64 ![0, 1, 2] bcast_S8x2048x1_S8x2048x64_0_1_2 (val_main_v89 x0 x1 x2 x3 x4 x5 x6)
abbrev idx_main_v90 := idx_main_v34
theorem val_main_v90_apply (i : S8x2048x64.Idx) :
    val_main_v90 x0 x1 x2 x3 x4 x5 x6 i = val_main_v89 x0 x1 x2 x3 x4 x5 x6 (idx_main_v90 i) :=
  bcast_S8x2048x1_S8x2048x64_0_1_2_read _ i
def val_main_v91 : (⟨S8x2048x64, .f32⟩ : BufTy).Contents (Elt F) :=
  Host.divf (val_main_v83 x0 x1 x2 x3 x4 x5 x6) (val_main_v90 x0 x1 x2 x3 x4 x5 x6)
theorem val_main_v91_apply (i : S8x2048x64.Idx) :
    val_main_v91 x0 x1 x2 x3 x4 x5 x6 i = FloatOps.hostDivf (val_main_v83 x0 x1 x2 x3 x4 x5 x6 i) (val_main_v90 x0 x1 x2 x3 x4 x5 x6 i) := rfl
def val_main_call1_cst : (⟨S_, .f32⟩ : BufTy).Contents (Elt F) :=
  constant S_ .f32 0x00000000#32
def val_main_call1_v0 : (⟨S8x2048x64, .f32⟩ : BufTy).Contents (Elt F) :=
  broadcastInDim S8x2048x64 ![] bcast_S_S8x2048x64 (val_main_call1_cst (F := F))
def val_main_v92 : (⟨S8x2048x64, .f32⟩ : BufTy).Contents (Elt F) :=
  maximumf (val_main_v91 x0 x1 x2 x3 x4 x5 x6) (val_main_call1_v0 (F := F))
def val_main_cst_16 : (⟨S_, .f32⟩ : BufTy).Contents (Elt F) :=
  constant S_ .f32 0x00000000#32
def val_main_v93 : (⟨S2048, .f32⟩ : BufTy).Contents (Elt F) :=
  Host.reduceAdd (val_main_v92 x0 x1 x2 x3 x4 x5 x6) (val_main_cst_16 (F := F)) reducesTo_S8x2048x64_S2048_d0_2 h_S_
def val_main_v94 : (⟨S1x2048x1, .f32⟩ : BufTy).Contents (Elt F) :=
  broadcastInDim S1x2048x1 ![1] bcast_S2048_S1x2048x1_1 (val_main_v93 x0 x1 x2 x3 x4 x5 x6)
def val_main_cst_17 : (⟨S_, .f32⟩ : BufTy).Contents (Elt F) :=
  constant S_ .f32 0x44000000#32
def val_main_v95 : (⟨S1x2048x1, .f32⟩ : BufTy).Contents (Elt F) :=
  broadcastInDim S1x2048x1 ![] bcast_S_S1x2048x1 (val_main_cst_17 (F := F))
def val_main_v96 : (⟨S1x2048x1, .f32⟩ : BufTy).Contents (Elt F) :=
  Host.divf (val_main_v94 x0 x1 x2 x3 x4 x5 x6) (val_main_v95 (F := F))
def val_main_v97 : (⟨S8x2048x64, .f32⟩ : BufTy).Contents (Elt F) :=
  broadcastInDim S8x2048x64 ![0, 1, 2] bcast_S1x2048x1_S8x2048x64_0_1_2 (val_main_v96 x0 x1 x2 x3 x4 x5 x6)
def val_main_v98 : (⟨S8x2048x64, .f32⟩ : BufTy).Contents (Elt F) :=
  subf (val_main_v92 x0 x1 x2 x3 x4 x5 x6) (val_main_v97 x0 x1 x2 x3 x4 x5 x6)
def val_main_v99 : (⟨S8x2048x64, .f32⟩ : BufTy).Contents (Elt F) :=
  mulf (val_main_v98 x0 x1 x2 x3 x4 x5 x6) (val_main_v98 x0 x1 x2 x3 x4 x5 x6)
def val_main_cst_18 : (⟨S_, .f32⟩ : BufTy).Contents (Elt F) :=
  constant S_ .f32 0x00000000#32
def val_main_v100 : (⟨S2048, .f32⟩ : BufTy).Contents (Elt F) :=
  Host.reduceAdd (val_main_v99 x0 x1 x2 x3 x4 x5 x6) (val_main_cst_18 (F := F)) reducesTo_S8x2048x64_S2048_d0_2 h_S_
def val_main_v101 : (⟨S1x2048x1, .f32⟩ : BufTy).Contents (Elt F) :=
  broadcastInDim S1x2048x1 ![1] bcast_S2048_S1x2048x1_1 (val_main_v100 x0 x1 x2 x3 x4 x5 x6)
def val_main_cst_19 : (⟨S_, .f32⟩ : BufTy).Contents (Elt F) :=
  constant S_ .f32 0x44000000#32
def val_main_v102 : (⟨S1x2048x1, .f32⟩ : BufTy).Contents (Elt F) :=
  broadcastInDim S1x2048x1 ![] bcast_S_S1x2048x1 (val_main_cst_19 (F := F))
def val_main_v103 : (⟨S1x2048x1, .f32⟩ : BufTy).Contents (Elt F) :=
  Host.divf (val_main_v101 x0 x1 x2 x3 x4 x5 x6) (val_main_v102 (F := F))
def val_main_v104 : (⟨S8x2048x64, .f32⟩ : BufTy).Contents (Elt F) :=
  broadcastInDim S8x2048x64 ![0, 1, 2] bcast_S1x2048x1_S8x2048x64_0_1_2 (val_main_v96 x0 x1 x2 x3 x4 x5 x6)
def val_main_v105 : (⟨S8x2048x64, .f32⟩ : BufTy).Contents (Elt F) :=
  subf (val_main_v92 x0 x1 x2 x3 x4 x5 x6) (val_main_v104 x0 x1 x2 x3 x4 x5 x6)
def val_main_cst_20 : (⟨S_, .f32⟩ : BufTy).Contents (Elt F) :=
  constant S_ .f32 0x3727C5AC#32
def val_main_v106 : (⟨S1x2048x1, .f32⟩ : BufTy).Contents (Elt F) :=
  broadcastInDim S1x2048x1 ![] bcast_S_S1x2048x1 (val_main_cst_20 (F := F))
def val_main_v107 : (⟨S1x2048x1, .f32⟩ : BufTy).Contents (Elt F) :=
  addf (val_main_v103 x0 x1 x2 x3 x4 x5 x6) (val_main_v106 (F := F))
def val_main_v108 : (⟨S1x2048x1, .f32⟩ : BufTy).Contents (Elt F) :=
  Host.rsqrt (val_main_v107 x0 x1 x2 x3 x4 x5 x6)
def val_main_v109 : (⟨S8x2048x64, .f32⟩ : BufTy).Contents (Elt F) :=
  broadcastInDim S8x2048x64 ![0, 1, 2] bcast_S1x2048x1_S8x2048x64_0_1_2 (val_main_v108 x0 x1 x2 x3 x4 x5 x6)
def val_main_v110 : (⟨S8x2048x64, .f32⟩ : BufTy).Contents (Elt F) :=
  mulf (val_main_v105 x0 x1 x2 x3 x4 x5 x6) (val_main_v109 x0 x1 x2 x3 x4 x5 x6)
def val_main_cst_21 : (⟨S_, .f32⟩ : BufTy).Contents (Elt F) :=
  constant S_ .f32 0xFF800000#32
def val_main_v111 : (⟨S8x64, .f32⟩ : BufTy).Contents (Elt F) :=
  Host.reduce FloatOps.maximumf (val_main_v110 x0 x1 x2 x3 x4 x5 x6) (val_main_cst_21 (F := F)) reducesTo_S8x2048x64_S8x64_d1 h_S_
def val_main_cst_22 : (⟨S_, .f32⟩ : BufTy).Contents (Elt F) :=
  constant S_ .f32 0x00000000#32
theorem val_main_cst_22_apply (i : S_.Idx) :
    val_main_cst_22 (F := F) i = FloatOps.ofBits .f32 0x00000000#32 := rfl
def val_main_v112 : (⟨S8x2048x64, .f32⟩ : BufTy).Contents (Elt F) :=
  broadcastInDim S8x2048x64 ![] bcast_S_S8x2048x64 (val_main_cst_22 (F := F))
abbrev idx_main_v112 := idx_main_v56
theorem val_main_v112_apply (i : S8x2048x64.Idx) :
    val_main_v112 (F := F) i = val_main_cst_22 (F := F) (idx_main_v112 i) := by
  unfold val_main_v112
  generalize val_main_cst_22 (F := F) = y
  exact broadcastInDim_apply _ bcast_S_S8x2048x64 y i (idx_main_v112 i) (fun a => a.elim0)
def val_main_cst_23 : (⟨S_, .f32⟩ : BufTy).Contents (Elt F) :=
  constant S_ .f32 0x3F800000#32
theorem val_main_cst_23_apply (i : S_.Idx) :
    val_main_cst_23 (F := F) i = FloatOps.ofBits .f32 0x3F800000#32 := rfl
def val_main_v113 : (⟨S8x2048x2048, .f32⟩ : BufTy).Contents (Elt F) :=
  broadcastInDim S8x2048x2048 ![] bcast_S_S8x2048x2048 (val_main_cst_23 (F := F))
abbrev idx_main_v113 := idx_main_v57
theorem val_main_v113_apply (i : S8x2048x2048.Idx) :
    val_main_v113 (F := F) i = val_main_cst_23 (F := F) (idx_main_v113 i) :=
  bcast_S_S8x2048x2048_read _ i
def val_main_v114 : (⟨S8x2048x2048, .i1⟩ : BufTy).Contents (Elt F) :=
  cmpf .oeq (x2) (val_main_v113 (F := F))
theorem val_main_v114_apply (i : S8x2048x2048.Idx) :
    val_main_v114 x2 i = FloatOps.cmpf .oeq (x2 i) (val_main_v113 (F := F) i) := rfl
def val_main_v115 : (⟨S8x2048x2048, .f32⟩ : BufTy).Contents (Elt F) :=
  uitofp .f32 (val_main_v114 x2)
theorem val_main_v115_apply (i : S8x2048x2048.Idx) :
    val_main_v115 x2 i = FloatOps.uitofp .f32 (val_main_v114 x2 i) := rfl
def val_main_v116 : (⟨S8x2048x64, .f32⟩ : BufTy).Contents (Elt F) :=
  Host.dotGeneral dot_S8x2048x2048_S8x2048x64_S8x2048x64_2_1_1_2_0_0 none (val_main_v115 x2) (val_main_v110 x0 x1 x2 x3 x4 x5 x6)
def val_main_v117 : (⟨S1x64x64, .f32⟩ : BufTy).Contents (Elt F) :=
  extractStridedSlice S1x64x64 ![0, 0, 0] (x7) slices_S3x64x64_S1x64x64_0_0_0
abbrev idx_main_v117 := idx_main_v61
theorem val_main_v117_apply (i : S1x64x64.Idx) :
    val_main_v117 x7 i = x7 (idx_main_v117 i) := by
  unfold val_main_v117
  exact extractStridedSlice_apply ![0, 0, 0] x7 slices_S3x64x64_S1x64x64_0_0_0 i (idx_main_v117 i) (fun a => match a with
    | ⟨0, _⟩ => by show (i 0).val = 0 + (i 0).val; omega
    | ⟨1, _⟩ => by show (i 1).val = 0 + (i 1).val; omega
    | ⟨2, _⟩ => by show (i 2).val = 0 + (i 2).val; omega)
def val_main_v118 : (⟨S64x64, .f32⟩ : BufTy).Contents (Elt F) :=
  shapeCast _ (val_main_v117 x7) shapeCasts_S1x64x64_S64x64
abbrev idx_main_v118 := idx_main_v62
theorem val_main_v118_apply (i : S64x64.Idx) :
    val_main_v118 x7 i = val_main_v117 x7 (idx_main_v118 i) :=
  shapeCasts_S1x64x64_S64x64_read _ i
def val_main_v119 : (⟨S8x2048x64, .f32⟩ : BufTy).Contents (Elt F) :=
  Host.dotGeneral dot_S8x2048x64_S64x64_S8x2048x64_2_0_01_1_n_n none (val_main_v116 x0 x1 x2 x3 x4 x5 x6) (val_main_v118 x7)
def val_main_v120 : (⟨S8x2048x64, .f32⟩ : BufTy).Contents (Elt F) :=
  addf (val_main_v112 (F := F)) (val_main_v119 x0 x1 x2 x3 x4 x5 x6 x7)
theorem val_main_v120_apply (i : S8x2048x64.Idx) :
    val_main_v120 x0 x1 x2 x3 x4 x5 x6 x7 i = FloatOps.addf (val_main_v112 (F := F) i) (val_main_v119 x0 x1 x2 x3 x4 x5 x6 x7 i) := rfl
def val_main_cst_24 : (⟨S_, .f32⟩ : BufTy).Contents (Elt F) :=
  constant S_ .f32 0x40000000#32
theorem val_main_cst_24_apply (i : S_.Idx) :
    val_main_cst_24 (F := F) i = FloatOps.ofBits .f32 0x40000000#32 := rfl
def val_main_v121 : (⟨S8x2048x2048, .f32⟩ : BufTy).Contents (Elt F) :=
  broadcastInDim S8x2048x2048 ![] bcast_S_S8x2048x2048 (val_main_cst_24 (F := F))
abbrev idx_main_v121 := idx_main_v57
theorem val_main_v121_apply (i : S8x2048x2048.Idx) :
    val_main_v121 (F := F) i = val_main_cst_24 (F := F) (idx_main_v121 i) :=
  bcast_S_S8x2048x2048_read _ i
def val_main_v122 : (⟨S8x2048x2048, .i1⟩ : BufTy).Contents (Elt F) :=
  cmpf .oeq (x2) (val_main_v121 (F := F))
theorem val_main_v122_apply (i : S8x2048x2048.Idx) :
    val_main_v122 x2 i = FloatOps.cmpf .oeq (x2 i) (val_main_v121 (F := F) i) := rfl
def val_main_v123 : (⟨S8x2048x2048, .f32⟩ : BufTy).Contents (Elt F) :=
  uitofp .f32 (val_main_v122 x2)
theorem val_main_v123_apply (i : S8x2048x2048.Idx) :
    val_main_v123 x2 i = FloatOps.uitofp .f32 (val_main_v122 x2 i) := rfl
def val_main_v124 : (⟨S8x2048x64, .f32⟩ : BufTy).Contents (Elt F) :=
  Host.dotGeneral dot_S8x2048x2048_S8x2048x64_S8x2048x64_2_1_1_2_0_0 none (val_main_v123 x2) (val_main_v110 x0 x1 x2 x3 x4 x5 x6)
def val_main_v125 : (⟨S1x64x64, .f32⟩ : BufTy).Contents (Elt F) :=
  extractStridedSlice S1x64x64 ![1, 0, 0] (x7) slices_S3x64x64_S1x64x64_1_0_0
abbrev idx_main_v125 := idx_main_v69
theorem val_main_v125_apply (i : S1x64x64.Idx) :
    val_main_v125 x7 i = x7 (idx_main_v125 i) := by
  unfold val_main_v125
  exact extractStridedSlice_apply ![1, 0, 0] x7 slices_S3x64x64_S1x64x64_1_0_0 i (idx_main_v125 i) (fun a => match a with
    | ⟨0, _⟩ => by show 1 + (i 0).val = 1 + (i 0).val; omega
    | ⟨1, _⟩ => by show (i 1).val = 0 + (i 1).val; omega
    | ⟨2, _⟩ => by show (i 2).val = 0 + (i 2).val; omega)
def val_main_v126 : (⟨S64x64, .f32⟩ : BufTy).Contents (Elt F) :=
  shapeCast _ (val_main_v125 x7) shapeCasts_S1x64x64_S64x64
abbrev idx_main_v126 := idx_main_v62
theorem val_main_v126_apply (i : S64x64.Idx) :
    val_main_v126 x7 i = val_main_v125 x7 (idx_main_v126 i) :=
  shapeCasts_S1x64x64_S64x64_read _ i
def val_main_v127 : (⟨S8x2048x64, .f32⟩ : BufTy).Contents (Elt F) :=
  Host.dotGeneral dot_S8x2048x64_S64x64_S8x2048x64_2_0_01_1_n_n none (val_main_v124 x0 x1 x2 x3 x4 x5 x6) (val_main_v126 x7)
def val_main_v128 : (⟨S8x2048x64, .f32⟩ : BufTy).Contents (Elt F) :=
  addf (val_main_v120 x0 x1 x2 x3 x4 x5 x6 x7) (val_main_v127 x0 x1 x2 x3 x4 x5 x6 x7)
theorem val_main_v128_apply (i : S8x2048x64.Idx) :
    val_main_v128 x0 x1 x2 x3 x4 x5 x6 x7 i = FloatOps.addf (val_main_v120 x0 x1 x2 x3 x4 x5 x6 x7 i) (val_main_v127 x0 x1 x2 x3 x4 x5 x6 x7 i) := rfl
def val_main_cst_25 : (⟨S_, .f32⟩ : BufTy).Contents (Elt F) :=
  constant S_ .f32 0x40400000#32
theorem val_main_cst_25_apply (i : S_.Idx) :
    val_main_cst_25 (F := F) i = FloatOps.ofBits .f32 0x40400000#32 := rfl
def val_main_v129 : (⟨S8x2048x2048, .f32⟩ : BufTy).Contents (Elt F) :=
  broadcastInDim S8x2048x2048 ![] bcast_S_S8x2048x2048 (val_main_cst_25 (F := F))
abbrev idx_main_v129 := idx_main_v57
theorem val_main_v129_apply (i : S8x2048x2048.Idx) :
    val_main_v129 (F := F) i = val_main_cst_25 (F := F) (idx_main_v129 i) :=
  bcast_S_S8x2048x2048_read _ i
def val_main_v130 : (⟨S8x2048x2048, .i1⟩ : BufTy).Contents (Elt F) :=
  cmpf .oeq (x2) (val_main_v129 (F := F))
theorem val_main_v130_apply (i : S8x2048x2048.Idx) :
    val_main_v130 x2 i = FloatOps.cmpf .oeq (x2 i) (val_main_v129 (F := F) i) := rfl
def val_main_v131 : (⟨S8x2048x2048, .f32⟩ : BufTy).Contents (Elt F) :=
  uitofp .f32 (val_main_v130 x2)
theorem val_main_v131_apply (i : S8x2048x2048.Idx) :
    val_main_v131 x2 i = FloatOps.uitofp .f32 (val_main_v130 x2 i) := rfl
def val_main_v132 : (⟨S8x2048x64, .f32⟩ : BufTy).Contents (Elt F) :=
  Host.dotGeneral dot_S8x2048x2048_S8x2048x64_S8x2048x64_2_1_1_2_0_0 none (val_main_v131 x2) (val_main_v110 x0 x1 x2 x3 x4 x5 x6)
def val_main_v133 : (⟨S1x64x64, .f32⟩ : BufTy).Contents (Elt F) :=
  extractStridedSlice S1x64x64 ![2, 0, 0] (x7) slices_S3x64x64_S1x64x64_2_0_0
abbrev idx_main_v133 := idx_main_v77
theorem val_main_v133_apply (i : S1x64x64.Idx) :
    val_main_v133 x7 i = x7 (idx_main_v133 i) := by
  unfold val_main_v133
  exact extractStridedSlice_apply ![2, 0, 0] x7 slices_S3x64x64_S1x64x64_2_0_0 i (idx_main_v133 i) (fun a => match a with
    | ⟨0, _⟩ => by show 2 + (i 0).val = 2 + (i 0).val; omega
    | ⟨1, _⟩ => by show (i 1).val = 0 + (i 1).val; omega
    | ⟨2, _⟩ => by show (i 2).val = 0 + (i 2).val; omega)
def val_main_v134 : (⟨S64x64, .f32⟩ : BufTy).Contents (Elt F) :=
  shapeCast _ (val_main_v133 x7) shapeCasts_S1x64x64_S64x64
abbrev idx_main_v134 := idx_main_v62
theorem val_main_v134_apply (i : S64x64.Idx) :
    val_main_v134 x7 i = val_main_v133 x7 (idx_main_v134 i) :=
  shapeCasts_S1x64x64_S64x64_read _ i
def val_main_v135 : (⟨S8x2048x64, .f32⟩ : BufTy).Contents (Elt F) :=
  Host.dotGeneral dot_S8x2048x64_S64x64_S8x2048x64_2_0_01_1_n_n none (val_main_v132 x0 x1 x2 x3 x4 x5 x6) (val_main_v134 x7)
def val_main_v136 : (⟨S8x2048x64, .f32⟩ : BufTy).Contents (Elt F) :=
  addf (val_main_v128 x0 x1 x2 x3 x4 x5 x6 x7) (val_main_v135 x0 x1 x2 x3 x4 x5 x6 x7)
theorem val_main_v136_apply (i : S8x2048x64.Idx) :
    val_main_v136 x0 x1 x2 x3 x4 x5 x6 x7 i = FloatOps.addf (val_main_v128 x0 x1 x2 x3 x4 x5 x6 x7 i) (val_main_v135 x0 x1 x2 x3 x4 x5 x6 x7 i) := rfl
def val_main_v137 : (⟨S1x1x64, .f32⟩ : BufTy).Contents (Elt F) :=
  broadcastInDim S1x1x64 ![2] bcast_S64_S1x1x64_2 (x8)
abbrev idx_main_v137 := idx_main_v25
theorem val_main_v137_apply (i : S1x1x64.Idx) :
    val_main_v137 x8 i = x8 (idx_main_v137 i) := by
  unfold val_main_v137
  exact broadcastInDim_apply _ bcast_S64_S1x1x64_2 x8 i (idx_main_v137 i) (fun a => match a with
    | ⟨0, _⟩ => by show (i 2).val = if (64 : Nat) = 1 then 0 else (i 2).val; rw [if_neg (by decide +revert)])
def val_main_v138 : (⟨S8x2048x64, .f32⟩ : BufTy).Contents (Elt F) :=
  broadcastInDim S8x2048x64 ![0, 1, 2] bcast_S1x1x64_S8x2048x64_0_1_2 (val_main_v137 x8)
abbrev idx_main_v138 := idx_main_v26
theorem val_main_v138_apply (i : S8x2048x64.Idx) :
    val_main_v138 x8 i = val_main_v137 x8 (idx_main_v138 i) :=
  bcast_S1x1x64_S8x2048x64_0_1_2_read _ i
def val_main_v139 : (⟨S8x2048x64, .f32⟩ : BufTy).Contents (Elt F) :=
  addf (val_main_v136 x0 x1 x2 x3 x4 x5 x6 x7) (val_main_v138 x8)
theorem val_main_v139_apply (i : S8x2048x64.Idx) :
    val_main_v139 x0 x1 x2 x3 x4 x5 x6 x7 x8 i = FloatOps.addf (val_main_v136 x0 x1 x2 x3 x4 x5 x6 x7 i) (val_main_v138 x8 i) := rfl
def val_main_v140 : (⟨S8x2048x64, .f32⟩ : BufTy).Contents (Elt F) :=
  mulf (val_main_v139 x0 x1 x2 x3 x4 x5 x6 x7 x8) (val_main_v139 x0 x1 x2 x3 x4 x5 x6 x7 x8)
theorem val_main_v140_apply (i : S8x2048x64.Idx) :
    val_main_v140 x0 x1 x2 x3 x4 x5 x6 x7 x8 i = FloatOps.mulf (val_main_v139 x0 x1 x2 x3 x4 x5 x6 x7 x8 i) (val_main_v139 x0 x1 x2 x3 x4 x5 x6 x7 x8 i) := rfl
def val_main_cst_26 : (⟨S_, .f32⟩ : BufTy).Contents (Elt F) :=
  constant S_ .f32 0x00000000#32
theorem val_main_cst_26_apply (i : S_.Idx) :
    val_main_cst_26 (F := F) i = FloatOps.ofBits .f32 0x00000000#32 := rfl
def val_main_v141 : (⟨S8x2048, .f32⟩ : BufTy).Contents (Elt F) :=
  Host.reduceAdd (val_main_v140 x0 x1 x2 x3 x4 x5 x6 x7 x8) (val_main_cst_26 (F := F)) reducesTo_S8x2048x64_S8x2048_d2 h_S_
abbrev idx_main_v141 (i : S8x2048.Idx) (k : Fin 64) : S8x2048x64.Idx := fun a => match a with
  | ⟨0, _⟩ => ⟨(i 0).val, (i 0).isLt⟩
  | ⟨1, _⟩ => ⟨(i 1).val, (i 1).isLt⟩
  | ⟨2, _⟩ => ⟨k.val, k.isLt⟩
def val_main_v142 : (⟨S8x2048x1, .f32⟩ : BufTy).Contents (Elt F) :=
  broadcastInDim S8x2048x1 ![0, 1] bcast_S8x2048_S8x2048x1_0_1 (val_main_v141 x0 x1 x2 x3 x4 x5 x6 x7 x8)
abbrev idx_main_v142 := idx_main_v30
theorem val_main_v142_apply (i : S8x2048x1.Idx) :
    val_main_v142 x0 x1 x2 x3 x4 x5 x6 x7 x8 i = val_main_v141 x0 x1 x2 x3 x4 x5 x6 x7 x8 (idx_main_v142 i) :=
  bcast_S8x2048_S8x2048x1_0_1_read _ i
def val_main_v143 : (⟨S8x2048x1, .f32⟩ : BufTy).Contents (Elt F) :=
  Host.sqrt (val_main_v142 x0 x1 x2 x3 x4 x5 x6 x7 x8)
theorem val_main_v143_apply (i : S8x2048x1.Idx) :
    val_main_v143 x0 x1 x2 x3 x4 x5 x6 x7 x8 i = FloatOps.hostUnary .sqrt (val_main_v142 x0 x1 x2 x3 x4 x5 x6 x7 x8 i) := rfl
def val_main_cst_27 : (⟨S_, .f32⟩ : BufTy).Contents (Elt F) :=
  constant S_ .f32 0x2B8CBCCC#32
theorem val_main_cst_27_apply (i : S_.Idx) :
    val_main_cst_27 (F := F) i = FloatOps.ofBits .f32 0x2B8CBCCC#32 := rfl
def val_main_v144 : (⟨S8x2048x1, .f32⟩ : BufTy).Contents (Elt F) :=
  broadcastInDim S8x2048x1 ![] bcast_S_S8x2048x1 (val_main_cst_27 (F := F))
abbrev idx_main_v144 := idx_main_v32
theorem val_main_v144_apply (i : S8x2048x1.Idx) :
    val_main_v144 (F := F) i = val_main_cst_27 (F := F) (idx_main_v144 i) := by
  unfold val_main_v144
  generalize val_main_cst_27 (F := F) = y
  exact broadcastInDim_apply _ bcast_S_S8x2048x1 y i (idx_main_v144 i) (fun a => a.elim0)
def val_main_v145 : (⟨S8x2048x1, .f32⟩ : BufTy).Contents (Elt F) :=
  maximumf (val_main_v143 x0 x1 x2 x3 x4 x5 x6 x7 x8) (val_main_v144 (F := F))
theorem val_main_v145_apply (i : S8x2048x1.Idx) :
    val_main_v145 x0 x1 x2 x3 x4 x5 x6 x7 x8 i = FloatOps.maximumf (val_main_v143 x0 x1 x2 x3 x4 x5 x6 x7 x8 i) (val_main_v144 (F := F) i) := rfl
def val_main_v146 : (⟨S8x2048x64, .f32⟩ : BufTy).Contents (Elt F) :=
  broadcastInDim S8x2048x64 ![0, 1, 2] bcast_S8x2048x1_S8x2048x64_0_1_2 (val_main_v145 x0 x1 x2 x3 x4 x5 x6 x7 x8)
abbrev idx_main_v146 := idx_main_v34
theorem val_main_v146_apply (i : S8x2048x64.Idx) :
    val_main_v146 x0 x1 x2 x3 x4 x5 x6 x7 x8 i = val_main_v145 x0 x1 x2 x3 x4 x5 x6 x7 x8 (idx_main_v146 i) :=
  bcast_S8x2048x1_S8x2048x64_0_1_2_read _ i
def val_main_v147 : (⟨S8x2048x64, .f32⟩ : BufTy).Contents (Elt F) :=
  Host.divf (val_main_v139 x0 x1 x2 x3 x4 x5 x6 x7 x8) (val_main_v146 x0 x1 x2 x3 x4 x5 x6 x7 x8)
theorem val_main_v147_apply (i : S8x2048x64.Idx) :
    val_main_v147 x0 x1 x2 x3 x4 x5 x6 x7 x8 i = FloatOps.hostDivf (val_main_v139 x0 x1 x2 x3 x4 x5 x6 x7 x8 i) (val_main_v146 x0 x1 x2 x3 x4 x5 x6 x7 x8 i) := rfl
def val_main_cst_28 : (⟨S_, .f32⟩ : BufTy).Contents (Elt F) :=
  constant S_ .f32 0xFF800000#32
def val_main_v148 : (⟨S8x64, .f32⟩ : BufTy).Contents (Elt F) :=
  Host.reduce FloatOps.maximumf (val_main_v147 x0 x1 x2 x3 x4 x5 x6 x7 x8) (val_main_cst_28 (F := F)) reducesTo_S8x2048x64_S8x64_d1 h_S_
def val_main_v149 : (⟨S8x192, .f32⟩ : BufTy).Contents (Elt F) :=
  concatenate S8x192 1 [⟨S8x64, (val_main_v55 x0 x1 x3 x4)⟩, ⟨S8x64, (val_main_v111 x0 x1 x2 x3 x4 x5 x6)⟩, ⟨S8x64, (val_main_v148 x0 x1 x2 x3 x4 x5 x6 x7 x8)⟩] concatenates_S8x64_S8x64_S8x64_S8x192_d1
def val_main_v150 : (⟨S8x64, .f32⟩ : BufTy).Contents (Elt F) :=
  Host.dotGeneral dot_S8x192_S192x64_S8x64_1_0_0_1_n_n none (val_main_v149 x0 x1 x2 x3 x4 x5 x6 x7 x8) (x9)
def val_main_v151 : (⟨S1x64, .f32⟩ : BufTy).Contents (Elt F) :=
  broadcastInDim S1x64 ![1] bcast_S64_S1x64_1 (x10)
def val_main_v152 : (⟨S8x64, .f32⟩ : BufTy).Contents (Elt F) :=
  broadcastInDim S8x64 ![0, 1] bcast_S1x64_S8x64_0_1 (val_main_v151 x10)
def val_main_v153 : (⟨S8x64, .f32⟩ : BufTy).Contents (Elt F) :=
  addf (val_main_v150 x0 x1 x2 x3 x4 x5 x6 x7 x8 x9) (val_main_v152 x10)

end

section

variable (x0 : (⟨S8x2048x32, .f32⟩ : BufTy).Contents (Elt Ideal))
  (x1 : (⟨S8x2048x2048, .i32⟩ : BufTy).Contents (Elt Ideal))
  (x2 : (⟨S8x2048x2048, .f32⟩ : BufTy).Contents (Elt Ideal))
  (x3 : (⟨S3x32x64, .f32⟩ : BufTy).Contents (Elt Ideal))
  (x4 : (⟨S64, .f32⟩ : BufTy).Contents (Elt Ideal))
  (x5 : (⟨S3x64x64, .f32⟩ : BufTy).Contents (Elt Ideal))
  (x6 : (⟨S64, .f32⟩ : BufTy).Contents (Elt Ideal))
  (x7 : (⟨S3x64x64, .f32⟩ : BufTy).Contents (Elt Ideal))
  (x8 : (⟨S64, .f32⟩ : BufTy).Contents (Elt Ideal))
  (x9 : (⟨S192x64, .f32⟩ : BufTy).Contents (Elt Ideal))
  (x10 : (⟨S64, .f32⟩ : BufTy).Contents (Elt Ideal))
abbrev lidx_adj32 (i : S8x2048x32.Idx) (k : Fin 2048) : S8x2048x2048.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_adj32 (i : S8x2048x32.Idx) (k : Fin 2048) : S8x2048x32.Idx := fun a => match a with
  | ⟨0, _⟩ => ⟨(i 0).val, (i 0).isLt⟩
  | ⟨1, _⟩ => ⟨k.val, k.isLt⟩
  | ⟨2, _⟩ => ⟨(i 2).val, (i 2).isLt⟩
-- An entry of the batched product of a 2048 × 2048 and a 2048 × 32 matrix is the sum over the shared axis.
theorem dot_adj32_apply (y0 : FVec Ideal S8x2048x2048 .f32) (y1 : FVec Ideal S8x2048x32 .f32) (i : S8x2048x32.Idx) :
    Host.dotGeneral (F := Ideal) dot_S8x2048x2048_S8x2048x32_S8x2048x32_2_1_1_2_0_0 none y0 y1 i = ∑ k : Fin 2048, y0 (lidx_adj32 i k) * y1 (ridx_adj32 i k) := by
  simp only [Host.dotGeneral]
  rw [Ideal.dotGeneral_apply, ← Equiv.sum_comp (ValueIdx.contrEquiv1 dot_S8x2048x2048_S8x2048x32_S8x2048x32_2_1_1_2_0_0 2048 rfl rfl).symm]
  refine Finset.sum_congr rfl fun k _ => ?_
  have hk := ValueIdx.contrEquiv1_symm_val dot_S8x2048x2048_S8x2048x32_S8x2048x32_2_1_1_2_0_0 2048 rfl rfl k
  have el : dot_S8x2048x2048_S8x2048x32_S8x2048x32_2_1_1_2_0_0.lhsIdx i ((ValueIdx.contrEquiv1 dot_S8x2048x2048_S8x2048x32_S8x2048x32_2_1_1_2_0_0 2048 rfl rfl).symm k) = lidx_adj32 i k := funext fun a => Fin.ext (by
    match a with
    | ⟨0, _⟩ => unfold DotDims.lhsIdx; rw [dif_pos (by decide +revert)]; rfl
    | ⟨1, _⟩ => unfold DotDims.lhsIdx; rw [dif_neg (by decide +revert), dif_pos (by decide +revert)]; rfl
    | ⟨2, _⟩ => exact (dot_S8x2048x2048_S8x2048x32_S8x2048x32_2_1_1_2_0_0.lhsIdx_val_of_single rfl i _).trans hk)
  have er : dot_S8x2048x2048_S8x2048x32_S8x2048x32_2_1_1_2_0_0.rhsIdx i ((ValueIdx.contrEquiv1 dot_S8x2048x2048_S8x2048x32_S8x2048x32_2_1_1_2_0_0 2048 rfl rfl).symm k) = ridx_adj32 i k := funext fun a => Fin.ext (by
    match a with
    | ⟨0, _⟩ => unfold DotDims.rhsIdx; rw [dif_pos (by decide +revert)]; rfl
    | ⟨1, _⟩ => exact (dot_S8x2048x2048_S8x2048x32_S8x2048x32_2_1_1_2_0_0.rhsIdx_val_of_single rfl i _).trans hk
    | ⟨2, _⟩ => unfold DotDims.rhsIdx; rw [dif_neg (by decide +revert), dif_pos (by decide +revert)]; rfl)
  rw [el, er]
abbrev lidx_main_v4 := lidx_adj32
abbrev ridx_main_v4 := ridx_adj32
theorem val_main_v4_apply (i : S8x2048x32.Idx) :
    val_main_v4 x0 x1 i = ∑ k : Fin 2048, (val_main_v3 x1) (lidx_main_v4 i k) * x0 (ridx_main_v4 i k) :=
  dot_adj32_apply _ _ i
abbrev lidx_lin32 (i : S8x2048x64.Idx) (k : Fin 32) : S8x2048x32.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_lin32 (i : S8x2048x64.Idx) (k : Fin 32) : S32x64.Idx := fun a => match a with
  | ⟨0, _⟩ => ⟨k.val, k.isLt⟩
  | ⟨1, _⟩ => ⟨(i 2).val, (i 2).isLt⟩
-- An entry of a batch of 2048 × 32 matrices times one shared 32 × 64 matrix is the sum over the shared axis.
theorem dot_lin32_apply (y0 : FVec Ideal S8x2048x32 .f32) (y1 : FVec Ideal S32x64 .f32) (i : S8x2048x64.Idx) :
    Host.dotGeneral (F := Ideal) dot_S8x2048x32_S32x64_S8x2048x64_2_0_01_1_n_n none y0 y1 i = ∑ k : Fin 32, y0 (lidx_lin32 i k) * y1 (ridx_lin32 i k) := by
  simp only [Host.dotGeneral]
  rw [Ideal.dotGeneral_apply, ← Equiv.sum_comp (ValueIdx.contrEquiv1 dot_S8x2048x32_S32x64_S8x2048x64_2_0_01_1_n_n 32 rfl rfl).symm]
  refine Finset.sum_congr rfl fun k _ => ?_
  have hk := ValueIdx.contrEquiv1_symm_val dot_S8x2048x32_S32x64_S8x2048x64_2_0_01_1_n_n 32 rfl rfl k
  have el : dot_S8x2048x32_S32x64_S8x2048x64_2_0_01_1_n_n.lhsIdx i ((ValueIdx.contrEquiv1 dot_S8x2048x32_S32x64_S8x2048x64_2_0_01_1_n_n 32 rfl rfl).symm k) = lidx_lin32 i k := funext fun a => Fin.ext (by
    match a with
    | ⟨0, _⟩ => unfold DotDims.lhsIdx; rw [dif_neg (by decide +revert), dif_pos (by decide +revert)]; rfl
    | ⟨1, _⟩ => unfold DotDims.lhsIdx; rw [dif_neg (by decide +revert), dif_pos (by decide +revert)]; rfl
    | ⟨2, _⟩ => exact (dot_S8x2048x32_S32x64_S8x2048x64_2_0_01_1_n_n.lhsIdx_val_of_single rfl i _).trans hk)
  have er : dot_S8x2048x32_S32x64_S8x2048x64_2_0_01_1_n_n.rhsIdx i ((ValueIdx.contrEquiv1 dot_S8x2048x32_S32x64_S8x2048x64_2_0_01_1_n_n 32 rfl rfl).symm k) = ridx_lin32 i k := funext fun a => Fin.ext (by
    match a with
    | ⟨0, _⟩ => exact (dot_S8x2048x32_S32x64_S8x2048x64_2_0_01_1_n_n.rhsIdx_val_of_single rfl i _).trans hk
    | ⟨1, _⟩ => unfold DotDims.rhsIdx; rw [dif_neg (by decide +revert), dif_pos (by decide +revert)]; rfl)
  rw [el, er]
abbrev lidx_main_v7 := lidx_lin32
abbrev ridx_main_v7 := ridx_lin32
theorem val_main_v7_apply (i : S8x2048x64.Idx) :
    val_main_v7 x0 x1 x3 i = ∑ k : Fin 32, (val_main_v4 x0 x1) (lidx_main_v7 i k) * (val_main_v6 x3) (ridx_main_v7 i k) :=
  dot_lin32_apply _ _ i
abbrev lidx_main_v12 := lidx_adj32
abbrev ridx_main_v12 := ridx_adj32
theorem val_main_v12_apply (i : S8x2048x32.Idx) :
    val_main_v12 x0 x1 i = ∑ k : Fin 2048, (val_main_v11 x1) (lidx_main_v12 i k) * x0 (ridx_main_v12 i k) :=
  dot_adj32_apply _ _ i
abbrev lidx_main_v15 := lidx_lin32
abbrev ridx_main_v15 := ridx_lin32
theorem val_main_v15_apply (i : S8x2048x64.Idx) :
    val_main_v15 x0 x1 x3 i = ∑ k : Fin 32, (val_main_v12 x0 x1) (lidx_main_v15 i k) * (val_main_v14 x3) (ridx_main_v15 i k) :=
  dot_lin32_apply _ _ i
abbrev lidx_main_v20 := lidx_adj32
abbrev ridx_main_v20 := ridx_adj32
theorem val_main_v20_apply (i : S8x2048x32.Idx) :
    val_main_v20 x0 x1 i = ∑ k : Fin 2048, (val_main_v19 x1) (lidx_main_v20 i k) * x0 (ridx_main_v20 i k) :=
  dot_adj32_apply _ _ i
abbrev lidx_main_v23 := lidx_lin32
abbrev ridx_main_v23 := ridx_lin32
theorem val_main_v23_apply (i : S8x2048x64.Idx) :
    val_main_v23 x0 x1 x3 i = ∑ k : Fin 32, (val_main_v20 x0 x1) (lidx_main_v23 i k) * (val_main_v22 x3) (ridx_main_v23 i k) :=
  dot_lin32_apply _ _ i
theorem val_main_v29_apply (i : S8x2048.Idx) :
    val_main_v29 x0 x1 x3 x4 i = (val_main_cst_2 (F := Ideal)) (Shape.Idx.first h_S_) + ∑ k : Fin 64, (val_main_v28 x0 x1 x3 x4) (idx_main_v29 i k) := by
  unfold val_main_v29
  generalize val_main_v28 x0 x1 x3 x4 = y0
  simp only [Host.reduceAdd, Ideal.hostReduceAdd_def]
  rw [Ideal.hostReduceAdd_single reducesTo_S8x2048x64_S8x2048_d2 (by decide +revert)]
  refine congrArg (_ + ·) (Finset.sum_congr rfl fun k _ => ?_)
  exact congrArg y0 (funext fun a => Fin.ext (by match a with | ⟨0, _⟩ => rfl | ⟨1, _⟩ => rfl | ⟨2, _⟩ => rfl))
abbrev lidx_adj64 (i : S8x2048x64.Idx) (k : Fin 2048) : S8x2048x2048.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_adj64 (i : S8x2048x64.Idx) (k : Fin 2048) : S8x2048x64.Idx := fun a => match a with
  | ⟨0, _⟩ => ⟨(i 0).val, (i 0).isLt⟩
  | ⟨1, _⟩ => ⟨k.val, k.isLt⟩
  | ⟨2, _⟩ => ⟨(i 2).val, (i 2).isLt⟩
-- The same with 2048 × 64 on the right.
theorem dot_adj64_apply (y0 : FVec Ideal S8x2048x2048 .f32) (y1 : FVec Ideal S8x2048x64 .f32) (i : S8x2048x64.Idx) :
    Host.dotGeneral (F := Ideal) dot_S8x2048x2048_S8x2048x64_S8x2048x64_2_1_1_2_0_0 none y0 y1 i = ∑ k : Fin 2048, y0 (lidx_adj64 i k) * y1 (ridx_adj64 i k) := by
  simp only [Host.dotGeneral]
  rw [Ideal.dotGeneral_apply, ← Equiv.sum_comp (ValueIdx.contrEquiv1 dot_S8x2048x2048_S8x2048x64_S8x2048x64_2_1_1_2_0_0 2048 rfl rfl).symm]
  refine Finset.sum_congr rfl fun k _ => ?_
  have hk := ValueIdx.contrEquiv1_symm_val dot_S8x2048x2048_S8x2048x64_S8x2048x64_2_1_1_2_0_0 2048 rfl rfl k
  have el : dot_S8x2048x2048_S8x2048x64_S8x2048x64_2_1_1_2_0_0.lhsIdx i ((ValueIdx.contrEquiv1 dot_S8x2048x2048_S8x2048x64_S8x2048x64_2_1_1_2_0_0 2048 rfl rfl).symm k) = lidx_adj64 i k := funext fun a => Fin.ext (by
    match a with
    | ⟨0, _⟩ => unfold DotDims.lhsIdx; rw [dif_pos (by decide +revert)]; rfl
    | ⟨1, _⟩ => unfold DotDims.lhsIdx; rw [dif_neg (by decide +revert), dif_pos (by decide +revert)]; rfl
    | ⟨2, _⟩ => exact (dot_S8x2048x2048_S8x2048x64_S8x2048x64_2_1_1_2_0_0.lhsIdx_val_of_single rfl i _).trans hk)
  have er : dot_S8x2048x2048_S8x2048x64_S8x2048x64_2_1_1_2_0_0.rhsIdx i ((ValueIdx.contrEquiv1 dot_S8x2048x2048_S8x2048x64_S8x2048x64_2_1_1_2_0_0 2048 rfl rfl).symm k) = ridx_adj64 i k := funext fun a => Fin.ext (by
    match a with
    | ⟨0, _⟩ => unfold DotDims.rhsIdx; rw [dif_pos (by decide +revert)]; rfl
    | ⟨1, _⟩ => exact (dot_S8x2048x2048_S8x2048x64_S8x2048x64_2_1_1_2_0_0.rhsIdx_val_of_single rfl i _).trans hk
    | ⟨2, _⟩ => unfold DotDims.rhsIdx; rw [dif_neg (by decide +revert), dif_pos (by decide +revert)]; rfl)
  rw [el, er]
abbrev lidx_main_v60 := lidx_adj64
abbrev ridx_main_v60 := ridx_adj64
theorem val_main_v60_apply (i : S8x2048x64.Idx) :
    val_main_v60 x0 x1 x2 x3 x4 i = ∑ k : Fin 2048, (val_main_v59 x2) (lidx_main_v60 i k) * (val_main_v54 x0 x1 x3 x4) (ridx_main_v60 i k) :=
  dot_adj64_apply _ _ i
abbrev lidx_lin64 (i : S8x2048x64.Idx) (k : Fin 64) : S8x2048x64.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_lin64 (i : S8x2048x64.Idx) (k : Fin 64) : S64x64.Idx := fun a => match a with
  | ⟨0, _⟩ => ⟨k.val, k.isLt⟩
  | ⟨1, _⟩ => ⟨(i 2).val, (i 2).isLt⟩
-- The same with 2048 × 64 on the left and a shared 64 × 64 matrix.
theorem dot_lin64_apply (y0 : FVec Ideal S8x2048x64 .f32) (y1 : FVec Ideal S64x64 .f32) (i : S8x2048x64.Idx) :
    Host.dotGeneral (F := Ideal) dot_S8x2048x64_S64x64_S8x2048x64_2_0_01_1_n_n none y0 y1 i = ∑ k : Fin 64, y0 (lidx_lin64 i k) * y1 (ridx_lin64 i k) := by
  simp only [Host.dotGeneral]
  rw [Ideal.dotGeneral_apply, ← Equiv.sum_comp (ValueIdx.contrEquiv1 dot_S8x2048x64_S64x64_S8x2048x64_2_0_01_1_n_n 64 rfl rfl).symm]
  refine Finset.sum_congr rfl fun k _ => ?_
  have hk := ValueIdx.contrEquiv1_symm_val dot_S8x2048x64_S64x64_S8x2048x64_2_0_01_1_n_n 64 rfl rfl k
  have el : dot_S8x2048x64_S64x64_S8x2048x64_2_0_01_1_n_n.lhsIdx i ((ValueIdx.contrEquiv1 dot_S8x2048x64_S64x64_S8x2048x64_2_0_01_1_n_n 64 rfl rfl).symm k) = lidx_lin64 i k := funext fun a => Fin.ext (by
    match a with
    | ⟨0, _⟩ => unfold DotDims.lhsIdx; rw [dif_neg (by decide +revert), dif_pos (by decide +revert)]; rfl
    | ⟨1, _⟩ => unfold DotDims.lhsIdx; rw [dif_neg (by decide +revert), dif_pos (by decide +revert)]; rfl
    | ⟨2, _⟩ => exact (dot_S8x2048x64_S64x64_S8x2048x64_2_0_01_1_n_n.lhsIdx_val_of_single rfl i _).trans hk)
  have er : dot_S8x2048x64_S64x64_S8x2048x64_2_0_01_1_n_n.rhsIdx i ((ValueIdx.contrEquiv1 dot_S8x2048x64_S64x64_S8x2048x64_2_0_01_1_n_n 64 rfl rfl).symm k) = ridx_lin64 i k := funext fun a => Fin.ext (by
    match a with
    | ⟨0, _⟩ => exact (dot_S8x2048x64_S64x64_S8x2048x64_2_0_01_1_n_n.rhsIdx_val_of_single rfl i _).trans hk
    | ⟨1, _⟩ => unfold DotDims.rhsIdx; rw [dif_neg (by decide +revert), dif_pos (by decide +revert)]; rfl)
  rw [el, er]
abbrev lidx_main_v63 := lidx_lin64
abbrev ridx_main_v63 := ridx_lin64
theorem val_main_v63_apply (i : S8x2048x64.Idx) :
    val_main_v63 x0 x1 x2 x3 x4 x5 i = ∑ k : Fin 64, (val_main_v60 x0 x1 x2 x3 x4) (lidx_main_v63 i k) * (val_main_v62 x5) (ridx_main_v63 i k) :=
  dot_lin64_apply _ _ i
abbrev lidx_main_v68 := lidx_adj64
abbrev ridx_main_v68 := ridx_adj64
theorem val_main_v68_apply (i : S8x2048x64.Idx) :
    val_main_v68 x0 x1 x2 x3 x4 i = ∑ k : Fin 2048, (val_main_v67 x2) (lidx_main_v68 i k) * (val_main_v54 x0 x1 x3 x4) (ridx_main_v68 i k) :=
  dot_adj64_apply _ _ i
abbrev lidx_main_v71 := lidx_lin64
abbrev ridx_main_v71 := ridx_lin64
theorem val_main_v71_apply (i : S8x2048x64.Idx) :
    val_main_v71 x0 x1 x2 x3 x4 x5 i = ∑ k : Fin 64, (val_main_v68 x0 x1 x2 x3 x4) (lidx_main_v71 i k) * (val_main_v70 x5) (ridx_main_v71 i k) :=
  dot_lin64_apply _ _ i
abbrev lidx_main_v76 := lidx_adj64
abbrev ridx_main_v76 := ridx_adj64
theorem val_main_v76_apply (i : S8x2048x64.Idx) :
    val_main_v76 x0 x1 x2 x3 x4 i = ∑ k : Fin 2048, (val_main_v75 x2) (lidx_main_v76 i k) * (val_main_v54 x0 x1 x3 x4) (ridx_main_v76 i k) :=
  dot_adj64_apply _ _ i
abbrev lidx_main_v79 := lidx_lin64
abbrev ridx_main_v79 := ridx_lin64
theorem val_main_v79_apply (i : S8x2048x64.Idx) :
    val_main_v79 x0 x1 x2 x3 x4 x5 i = ∑ k : Fin 64, (val_main_v76 x0 x1 x2 x3 x4) (lidx_main_v79 i k) * (val_main_v78 x5) (ridx_main_v79 i k) :=
  dot_lin64_apply _ _ i
theorem val_main_v85_apply (i : S8x2048.Idx) :
    val_main_v85 x0 x1 x2 x3 x4 x5 x6 i = (val_main_cst_14 (F := Ideal)) (Shape.Idx.first h_S_) + ∑ k : Fin 64, (val_main_v84 x0 x1 x2 x3 x4 x5 x6) (idx_main_v85 i k) := by
  unfold val_main_v85
  generalize val_main_v84 x0 x1 x2 x3 x4 x5 x6 = y0
  simp only [Host.reduceAdd, Ideal.hostReduceAdd_def]
  rw [Ideal.hostReduceAdd_single reducesTo_S8x2048x64_S8x2048_d2 (by decide +revert)]
  refine congrArg (_ + ·) (Finset.sum_congr rfl fun k _ => ?_)
  exact congrArg y0 (funext fun a => Fin.ext (by match a with | ⟨0, _⟩ => rfl | ⟨1, _⟩ => rfl | ⟨2, _⟩ => rfl))
abbrev lidx_main_v116 := lidx_adj64
abbrev ridx_main_v116 := ridx_adj64
theorem val_main_v116_apply (i : S8x2048x64.Idx) :
    val_main_v116 x0 x1 x2 x3 x4 x5 x6 i = ∑ k : Fin 2048, (val_main_v115 x2) (lidx_main_v116 i k) * (val_main_v110 x0 x1 x2 x3 x4 x5 x6) (ridx_main_v116 i k) :=
  dot_adj64_apply _ _ i
abbrev lidx_main_v119 := lidx_lin64
abbrev ridx_main_v119 := ridx_lin64
theorem val_main_v119_apply (i : S8x2048x64.Idx) :
    val_main_v119 x0 x1 x2 x3 x4 x5 x6 x7 i = ∑ k : Fin 64, (val_main_v116 x0 x1 x2 x3 x4 x5 x6) (lidx_main_v119 i k) * (val_main_v118 x7) (ridx_main_v119 i k) :=
  dot_lin64_apply _ _ i
abbrev lidx_main_v124 := lidx_adj64
abbrev ridx_main_v124 := ridx_adj64
theorem val_main_v124_apply (i : S8x2048x64.Idx) :
    val_main_v124 x0 x1 x2 x3 x4 x5 x6 i = ∑ k : Fin 2048, (val_main_v123 x2) (lidx_main_v124 i k) * (val_main_v110 x0 x1 x2 x3 x4 x5 x6) (ridx_main_v124 i k) :=
  dot_adj64_apply _ _ i
abbrev lidx_main_v127 := lidx_lin64
abbrev ridx_main_v127 := ridx_lin64
theorem val_main_v127_apply (i : S8x2048x64.Idx) :
    val_main_v127 x0 x1 x2 x3 x4 x5 x6 x7 i = ∑ k : Fin 64, (val_main_v124 x0 x1 x2 x3 x4 x5 x6) (lidx_main_v127 i k) * (val_main_v126 x7) (ridx_main_v127 i k) :=
  dot_lin64_apply _ _ i
abbrev lidx_main_v132 := lidx_adj64
abbrev ridx_main_v132 := ridx_adj64
theorem val_main_v132_apply (i : S8x2048x64.Idx) :
    val_main_v132 x0 x1 x2 x3 x4 x5 x6 i = ∑ k : Fin 2048, (val_main_v131 x2) (lidx_main_v132 i k) * (val_main_v110 x0 x1 x2 x3 x4 x5 x6) (ridx_main_v132 i k) :=
  dot_adj64_apply _ _ i
abbrev lidx_main_v135 := lidx_lin64
abbrev ridx_main_v135 := ridx_lin64
theorem val_main_v135_apply (i : S8x2048x64.Idx) :
    val_main_v135 x0 x1 x2 x3 x4 x5 x6 x7 i = ∑ k : Fin 64, (val_main_v132 x0 x1 x2 x3 x4 x5 x6) (lidx_main_v135 i k) * (val_main_v134 x7) (ridx_main_v135 i k) :=
  dot_lin64_apply _ _ i
theorem val_main_v141_apply (i : S8x2048.Idx) :
    val_main_v141 x0 x1 x2 x3 x4 x5 x6 x7 x8 i = (val_main_cst_26 (F := Ideal)) (Shape.Idx.first h_S_) + ∑ k : Fin 64, (val_main_v140 x0 x1 x2 x3 x4 x5 x6 x7 x8) (idx_main_v141 i k) := by
  unfold val_main_v141
  generalize val_main_v140 x0 x1 x2 x3 x4 x5 x6 x7 x8 = y0
  simp only [Host.reduceAdd, Ideal.hostReduceAdd_def]
  rw [Ideal.hostReduceAdd_single reducesTo_S8x2048x64_S8x2048_d2 (by decide +revert)]
  refine congrArg (_ + ·) (Finset.sum_congr rfl fun k _ => ?_)
  exact congrArg y0 (funext fun a => Fin.ext (by match a with | ⟨0, _⟩ => rfl | ⟨1, _⟩ => rfl | ⟨2, _⟩ => rfl))

end
end Cert.ReferenceIdeal.ReadP

end
-- ==== Proof.RefVal.lean ====
import proofs.«149576_j9002251452429_1_alg».proof.Proof.RefReadBase
import proofs.«149576_j9002251452429_1_alg».proof.Proof.Layers

noncomputable section

namespace Cert.ReferenceIdeal.Hand

open Idealize.ShloMosaic Idealize.ShloMosaic.TcCoe Idealize.ShloMosaic.ValueIdx
open Cert.GraphConv (IsR ind label epsNorm accR normRow layerR cur3 cur1 unc3 unc3_ix3 gcR relu meanB bn bnrelu maxNodes headOut headPred dotHead netOut)

theorem label_zero : label 0 = ((1 : ℝ) : EReal) := by
  show Ideal.ofBits .f32 0x3F800000#32 = _
  simp [Ideal.ofBits, Ideal.ieee, -EReal.coe_mul]; norm_num
theorem label_one : label 1 = ((2 : ℝ) : EReal) := by
  show Ideal.ofBits .f32 0x40000000#32 = _
  simp [Ideal.ofBits, Ideal.ieee, -EReal.coe_mul]; norm_num
theorem label_two : label 2 = ((3 : ℝ) : EReal) := by
  show Ideal.ofBits .f32 0x40400000#32 = _
  simp [Ideal.ofBits, Ideal.ieee, -EReal.coe_mul]; norm_num

theorem sitofp_one : FloatOps.sitofp (F := Ideal) .f32 (1#32) = label 0 := by
  rw [label_zero]; show (((1#32 : BitVec 32).toInt : ℝ) : EReal) = _; norm_num [show (1#32 : BitVec 32).toInt = 1 from by decide]
theorem sitofp_two : FloatOps.sitofp (F := Ideal) .f32 (2#32) = label 1 := by
  rw [label_one]; show (((2#32 : BitVec 32).toInt : ℝ) : EReal) = _; norm_num [show (2#32 : BitVec 32).toInt = 2 from by decide]
theorem sitofp_three : FloatOps.sitofp (F := Ideal) .f32 (3#32) = label 2 := by
  rw [label_two]; show (((3#32 : BitVec 32).toInt : ℝ) : EReal) = _; norm_num [show (3#32 : BitVec 32).toInt = 3 from by decide]

theorem uitofp_cmpi_eq (a k : BitVec 32) :
    FloatOps.uitofp (F := Ideal) .f32 (IntOp.cmpi .eq a k)
      = ind (FloatOps.sitofp (F := Ideal) .f32 a) (FloatOps.sitofp (F := Ideal) .f32 k) := by
  show (((BitVec.ofBool (a == k)).toNat : ℝ) : EReal) = if ((a.toInt : ℝ) : EReal) = ((k.toInt : ℝ) : EReal) then 1 else 0
  by_cases h : a = k
  · subst h; simp
  · have hne : ¬ ((a.toInt : ℝ) : EReal) = ((k.toInt : ℝ) : EReal) := by
      intro hc
      exact h (BitVec.eq_of_toInt_eq (by exact_mod_cast EReal.coe_eq_coe_iff.mp hc))
    rw [if_neg hne]
    have hb : (a == k) = false := by simpa using h
    rw [hb]; simp

theorem uitofp_cmpf_oeq (v k : EReal) :
    FloatOps.uitofp (F := Ideal) .f32 (FloatOps.cmpf (F := Ideal) (φ := .f32) .oeq v k) = ind v k := by
  show (((BitVec.ofBool (decide (v = k))).toNat : ℝ) : EReal) = if v = k then 1 else 0
  by_cases h : v = k
  · simp [h]
  · simp [h]

theorem gcR_of_stages {D : ℕ} (x : FVec Ideal ⟨3, ![8, 2048, D]⟩ .f32) (rel : FVec Ideal Cert.GraphConv.S8x2048x2048 .f32)
    (w : FVec Ideal ⟨3, ![3, D, 64]⟩ .f32) (b : FVec Ideal Cert.GraphConv.S64 .f32)
    (pre out : FVec Ideal Cert.GraphConv.S8x2048x64 .f32)
    (hpre : ∀ (n : Fin 8) (i : Fin 2048) (e : Fin 64), pre (ix3 n i e) =
      accR (fun r j => ind (rel (ix3 n i j)) (label r)) (fun j d => x (ix3 n j d)) (fun r d => w (ix3 r d e)) (b (ix1 e)))
    (hout : ∀ (n : Fin 8) (i : Fin 2048) (e : Fin 64), out (ix3 n i e) =
      Ideal.div (pre (ix3 n i e)) (max (Ideal.sqrt (∑ k : Fin 64, pre (ix3 n i k) * pre (ix3 n i k))) epsNorm)) :
    out = gcR x rel w b := by
  funext idx
  obtain ⟨n, i, e, rfl⟩ : ∃ (n : Fin 8) (i : Fin 2048) (e : Fin 64), idx = ix3 n i e := ⟨idx 0, idx 1, idx 2, eq_ix3 idx⟩
  rw [hout n i e]
  have hrow : (fun e' : Fin 64 => pre (ix3 n i e')) =
      fun e' => accR (fun r j => ind (cur3 rel n i j) (label r)) (cur3 x n) (fun r d => cur3 w r d e') (cur1 b e') :=
    funext fun e' => hpre n i e'
  show _ = normRow (fun e' => accR (fun r j => ind (cur3 rel n i j) (label r)) (cur3 x n) (fun r d => cur3 w r d e') (cur1 b e')) e
  rw [← hrow]
  rfl

open Cert.ReferenceIdeal Cert.ReferenceIdeal.Gen Cert.ReferenceIdeal.ReadP

local macro "idx1" : tactic => `(tactic| (funext a; match a with | ⟨0, _⟩ => rfl))
local macro "idx2" : tactic => `(tactic| (funext a; match a with | ⟨0, _⟩ => rfl | ⟨1, _⟩ => rfl))
local macro "idx3" : tactic => `(tactic| (funext a; match a with | ⟨0, _⟩ => rfl | ⟨1, _⟩ => rfl | ⟨2, _⟩ => rfl))

abbrev TX : Type := (⟨S8x2048x32, .f32⟩ : BufTy).Contents (Elt Ideal)
abbrev TI : Type := (⟨S8x2048x2048, .i32⟩ : BufTy).Contents (Elt Ideal)
abbrev TR : Type := (⟨S8x2048x2048, .f32⟩ : BufTy).Contents (Elt Ideal)
abbrev TW1 : Type := (⟨S3x32x64, .f32⟩ : BufTy).Contents (Elt Ideal)
abbrev TW : Type := (⟨S3x64x64, .f32⟩ : BufTy).Contents (Elt Ideal)
abbrev TB : Type := (⟨S64, .f32⟩ : BufTy).Contents (Elt Ideal)
abbrev TM : Type := (⟨S192x64, .f32⟩ : BufTy).Contents (Elt Ideal)

theorem wread32 (S : (⟨S1x32x64, .f32⟩ : BufTy).Contents (Elt Ideal)) (w : Fin 32 → Fin 64 → Ideal .f32)
    (hS : ∀ d e, S (ix3 0 d e) = w d e) (d : Fin 32) (e : Fin 64) :
    (shapeCast _ S shapeCasts_S1x32x64_S32x64 : (⟨S32x64, .f32⟩ : BufTy).Contents (Elt Ideal)) (ix2 d e) = w d e := by
  rw [shapeCasts_S1x32x64_S32x64_read, ← hS]
  refine congrArg S (funext fun a => Fin.ext ?_)
  have hd := d.isLt; have he := e.isLt
  match a with
  | ⟨0, _⟩ => rfl
  | ⟨1, _⟩ => show (d.val * 64 + e.val) / 64 % 32 = d.val; omega
  | ⟨2, _⟩ => show (d.val * 64 + e.val) % 64 = e.val; omega

theorem wread64 (S : (⟨S1x64x64, .f32⟩ : BufTy).Contents (Elt Ideal)) (w : Fin 64 → Fin 64 → Ideal .f32)
    (hS : ∀ d e, S (ix3 0 d e) = w d e) (d e : Fin 64) :
    (shapeCast _ S shapeCasts_S1x64x64_S64x64 : (⟨S64x64, .f32⟩ : BufTy).Contents (Elt Ideal)) (ix2 d e) = w d e := by
  rw [shapeCasts_S1x64x64_S64x64_read, ← hS]
  refine congrArg S (funext fun a => Fin.ext ?_)
  have hd := d.isLt; have he := e.isLt
  match a with
  | ⟨0, _⟩ => rfl
  | ⟨1, _⟩ => show (d.val * 64 + e.val) / 64 % 64 = d.val; omega
  | ⟨2, _⟩ => show (d.val * 64 + e.val) % 64 = e.val; omega

-- A product of a product, read at (n, i, e), is the double sum over the two shared axes.
theorem dd32 (M : FVec Ideal S8x2048x2048 .f32) (X : FVec Ideal S8x2048x32 .f32) (V : FVec Ideal S32x64 .f32)
    (m : S8x2048x2048.Idx → Ideal .f32) (w : Fin 32 → Fin 64 → Ideal .f32)
    (hm : ∀ p, M p = m p) (hw : ∀ d e, V (ix2 d e) = w d e) (n : Fin 8) (i : Fin 2048) (e : Fin 64) :
    Host.dotGeneral (F := Ideal) dot_S8x2048x32_S32x64_S8x2048x64_2_0_01_1_n_n none
      (Host.dotGeneral (F := Ideal) dot_S8x2048x2048_S8x2048x32_S8x2048x32_2_1_1_2_0_0 none M X) V (ix3 n i e) =
      ∑ d : Fin 32, (∑ j : Fin 2048, m (ix3 n i j) * X (ix3 n j d)) * w d e := by
  rw [dot_lin32_apply]
  refine Finset.sum_congr rfl fun d _ => ?_
  rw [show lidx_lin32 (ix3 n i e) d = ix3 n i d from by idx3, show ridx_lin32 (ix3 n i e) d = ix2 d e from by idx2, hw, dot_adj32_apply]
  congr 1
  refine Finset.sum_congr rfl fun j _ => ?_
  rw [show lidx_adj32 (ix3 n i d) j = ix3 n i j from by idx3, show ridx_adj32 (ix3 n i d) j = ix3 n j d from by idx3, hm]

theorem dd64 (M : FVec Ideal S8x2048x2048 .f32) (X : FVec Ideal S8x2048x64 .f32) (V : FVec Ideal S64x64 .f32)
    (m : S8x2048x2048.Idx → Ideal .f32) (w : Fin 64 → Fin 64 → Ideal .f32)
    (hm : ∀ p, M p = m p) (hw : ∀ d e, V (ix2 d e) = w d e) (n : Fin 8) (i : Fin 2048) (e : Fin 64) :
    Host.dotGeneral (F := Ideal) dot_S8x2048x64_S64x64_S8x2048x64_2_0_01_1_n_n none
      (Host.dotGeneral (F := Ideal) dot_S8x2048x2048_S8x2048x64_S8x2048x64_2_1_1_2_0_0 none M X) V (ix3 n i e) =
      ∑ d : Fin 64, (∑ j : Fin 2048, m (ix3 n i j) * X (ix3 n j d)) * w d e := by
  rw [dot_lin64_apply]
  refine Finset.sum_congr rfl fun d _ => ?_
  rw [show lidx_lin64 (ix3 n i e) d = ix3 n i d from by idx3, show ridx_lin64 (ix3 n i e) d = ix2 d e from by idx2, hw, dot_adj64_apply]
  congr 1
  refine Finset.sum_congr rfl fun j _ => ?_
  rw [show lidx_adj64 (ix3 n i d) j = ix3 n i j from by idx3, show ridx_adj64 (ix3 n i d) j = ix3 n j d from by idx3, hm]

section Layer1
variable (x0 : TX) (x1 : TI) (x3 : TW1) (x4 : TB)

theorem w0_L1 (d : Fin 32) (e : Fin 64) : val_main_v6 x3 (ix2 d e) = x3 (ix3 0 d e) :=
  wread32 _ _ (fun d e => (val_main_v5_apply x3 _).trans (congrArg x3 (by idx3))) d e
theorem w1_L1 (d : Fin 32) (e : Fin 64) : val_main_v14 x3 (ix2 d e) = x3 (ix3 1 d e) :=
  wread32 _ _ (fun d e => (val_main_v13_apply x3 _).trans (congrArg x3 (by idx3))) d e
theorem w2_L1 (d : Fin 32) (e : Fin 64) : val_main_v22 x3 (ix2 d e) = x3 (ix3 2 d e) :=
  wread32 _ _ (fun d e => (val_main_v21_apply x3 _).trans (congrArg x3 (by idx3))) d e

theorem m0_L1 (p : S8x2048x2048.Idx) :
    val_main_v3 x1 p = ind (FloatOps.sitofp (F := Ideal) .f32 (x1 p)) (label 0) := by
  rw [val_main_v3_apply, val_main_v2_apply, val_main_v1_apply, val_main_c_apply, uitofp_cmpi_eq, sitofp_one]
theorem m1_L1 (p : S8x2048x2048.Idx) :
    val_main_v11 x1 p = ind (FloatOps.sitofp (F := Ideal) .f32 (x1 p)) (label 1) := by
  rw [val_main_v11_apply, val_main_v10_apply, val_main_v9_apply, val_main_c_0_apply, uitofp_cmpi_eq, sitofp_two]
theorem m2_L1 (p : S8x2048x2048.Idx) :
    val_main_v19 x1 p = ind (FloatOps.sitofp (F := Ideal) .f32 (x1 p)) (label 2) := by
  rw [val_main_v19_apply, val_main_v18_apply, val_main_v17_apply, val_main_c_1_apply, uitofp_cmpi_eq, sitofp_three]

theorem pre_L1 (n : Fin 8) (i : Fin 2048) (e : Fin 64) :
    val_main_v27 x0 x1 x3 x4 (ix3 n i e) =
      accR (fun r j => ind (FloatOps.sitofp (F := Ideal) .f32 (x1 (ix3 n i j))) (label r)) (fun j d => x0 (ix3 n j d))
        (fun r d => x3 (ix3 r d e)) (x4 (ix1 e)) := by
  rw [val_main_v27_apply, val_main_v24_apply, val_main_v16_apply, val_main_v8_apply, val_main_v0_apply, val_main_cst_apply,
    val_main_v26_apply, val_main_v25_apply, show val_main_v7 x0 x1 x3 (ix3 n i e) = _ from dd32 _ _ _ _ _ (m0_L1 x1) (w0_L1 x3) n i e,
    show val_main_v15 x0 x1 x3 (ix3 n i e) = _ from dd32 _ _ _ _ _ (m1_L1 x1) (w1_L1 x3) n i e,
    show val_main_v23 x0 x1 x3 (ix3 n i e) = _ from dd32 _ _ _ _ _ (m2_L1 x1) (w2_L1 x3) n i e,
    show idx_main_v25 (idx_main_v26 (ix3 n i e)) = ix1 e from by idx1]
  simp only [Ideal.addf_def, Ideal.ofBits_def, Ideal.ofBits_zero_f32, zero_add]
  rfl

theorem out_L1 (n : Fin 8) (i : Fin 2048) (e : Fin 64) :
    val_main_v35 x0 x1 x3 x4 (ix3 n i e) =
      Ideal.div (val_main_v27 x0 x1 x3 x4 (ix3 n i e))
        (max (Ideal.sqrt (∑ k : Fin 64, val_main_v27 x0 x1 x3 x4 (ix3 n i k) * val_main_v27 x0 x1 x3 x4 (ix3 n i k)))
          epsNorm) := by
  rw [val_main_v35_apply, val_main_v34_apply, val_main_v33_apply, val_main_v31_apply, val_main_v30_apply, val_main_v29_apply,
    val_main_v32_apply, val_main_cst_3_apply, val_main_cst_2_apply]
  have ek : ∀ k : Fin 64, idx_main_v29 (idx_main_v30 (idx_main_v34 (ix3 n i e))) k = ix3 n i k := fun k => by idx3
  simp only [ek, val_main_v28_apply, Ideal.hostDivf_def, Ideal.maximumf_def, Ideal.hostUnary_sqrt_def, Ideal.mulf_def,
    Ideal.ofBits_def, Ideal.ofBits_zero_f32, zero_add]
  rfl

theorem ref_layer1 :
    val_main_v35 x0 x1 x3 x4 = gcR (D := 32) x0 (sitofp .f32 x1 : FVec Ideal S8x2048x2048 .f32) x3 x4 :=
  gcR_of_stages (D := 32) x0 (sitofp .f32 x1 : FVec Ideal S8x2048x2048 .f32) x3 x4 (val_main_v27 x0 x1 x3 x4) _
    (pre_L1 x0 x1 x3 x4) (out_L1 x0 x1 x3 x4)

theorem ref_chain1 : val_main_v54 x0 x1 x3 x4 = bnrelu (val_main_v35 x0 x1 x3 x4) := rfl
theorem ref_max1 : val_main_v55 x0 x1 x3 x4 = maxNodes (val_main_v54 x0 x1 x3 x4) := rfl

end Layer1

section Layer2
variable (x0 : TX) (x1 : TI) (x2 : TR) (x3 : TW1) (x4 : TB) (x5 : TW) (x6 : TB)

theorem w0_L2 (d : Fin 64) (e : Fin 64) : val_main_v62 x5 (ix2 d e) = x5 (ix3 0 d e) :=
  wread64 _ _ (fun d e => (val_main_v61_apply x5 _).trans (congrArg x5 (by idx3))) d e
theorem w1_L2 (d : Fin 64) (e : Fin 64) : val_main_v70 x5 (ix2 d e) = x5 (ix3 1 d e) :=
  wread64 _ _ (fun d e => (val_main_v69_apply x5 _).trans (congrArg x5 (by idx3))) d e
theorem w2_L2 (d : Fin 64) (e : Fin 64) : val_main_v78 x5 (ix2 d e) = x5 (ix3 2 d e) :=
  wread64 _ _ (fun d e => (val_main_v77_apply x5 _).trans (congrArg x5 (by idx3))) d e

theorem m0_L2 (p : S8x2048x2048.Idx) : val_main_v59 x2 p = ind (x2 p) (label 0) := by
  rw [val_main_v59_apply, val_main_v58_apply, val_main_v57_apply, val_main_cst_11_apply, uitofp_cmpf_oeq]
  rfl
theorem m1_L2 (p : S8x2048x2048.Idx) : val_main_v67 x2 p = ind (x2 p) (label 1) := by
  rw [val_main_v67_apply, val_main_v66_apply, val_main_v65_apply, val_main_cst_12_apply, uitofp_cmpf_oeq]
  rfl
theorem m2_L2 (p : S8x2048x2048.Idx) : val_main_v75 x2 p = ind (x2 p) (label 2) := by
  rw [val_main_v75_apply, val_main_v74_apply, val_main_v73_apply, val_main_cst_13_apply, uitofp_cmpf_oeq]
  rfl

theorem pre_L2 (n : Fin 8) (i : Fin 2048) (e : Fin 64) :
    val_main_v83 x0 x1 x2 x3 x4 x5 x6 (ix3 n i e) =
      accR (fun r j => ind (x2 (ix3 n i j)) (label r)) (fun j d => val_main_v54 x0 x1 x3 x4 (ix3 n j d))
        (fun r d => x5 (ix3 r d e)) (x6 (ix1 e)) := by
  rw [val_main_v83_apply, val_main_v80_apply, val_main_v72_apply, val_main_v64_apply, val_main_v56_apply, val_main_cst_10_apply,
    val_main_v82_apply, val_main_v81_apply, show val_main_v63 x0 x1 x2 x3 x4 x5 (ix3 n i e) = _ from dd64 _ _ _ _ _ (m0_L2 x2) (w0_L2 x5) n i e,
    show val_main_v71 x0 x1 x2 x3 x4 x5 (ix3 n i e) = _ from dd64 _ _ _ _ _ (m1_L2 x2) (w1_L2 x5) n i e,
    show val_main_v79 x0 x1 x2 x3 x4 x5 (ix3 n i e) = _ from dd64 _ _ _ _ _ (m2_L2 x2) (w2_L2 x5) n i e,
    show idx_main_v81 (idx_main_v82 (ix3 n i e)) = ix1 e from by idx1]
  simp only [Ideal.addf_def, Ideal.ofBits_def, Ideal.ofBits_zero_f32, zero_add]
  rfl

theorem out_L2 (n : Fin 8) (i : Fin 2048) (e : Fin 64) :
    val_main_v91 x0 x1 x2 x3 x4 x5 x6 (ix3 n i e) =
      Ideal.div (val_main_v83 x0 x1 x2 x3 x4 x5 x6 (ix3 n i e))
        (max (Ideal.sqrt (∑ k : Fin 64, val_main_v83 x0 x1 x2 x3 x4 x5 x6 (ix3 n i k) * val_main_v83 x0 x1 x2 x3 x4 x5 x6 (ix3 n i k)))
          epsNorm) := by
  rw [val_main_v91_apply, val_main_v90_apply, val_main_v89_apply, val_main_v87_apply, val_main_v86_apply, val_main_v85_apply,
    val_main_v88_apply, val_main_cst_15_apply, val_main_cst_14_apply]
  have ek : ∀ k : Fin 64, idx_main_v85 (idx_main_v86 (idx_main_v90 (ix3 n i e))) k = ix3 n i k := fun k => by idx3
  simp only [ek, val_main_v84_apply, Ideal.hostDivf_def, Ideal.maximumf_def, Ideal.hostUnary_sqrt_def, Ideal.mulf_def,
    Ideal.ofBits_def, Ideal.ofBits_zero_f32, zero_add]
  rfl

theorem ref_layer2 :
    val_main_v91 x0 x1 x2 x3 x4 x5 x6 = gcR (D := 64) (val_main_v54 x0 x1 x3 x4) x2 x5 x6 :=
  gcR_of_stages (D := 64) (val_main_v54 x0 x1 x3 x4) x2 x5 x6 (val_main_v83 x0 x1 x2 x3 x4 x5 x6) _
    (pre_L2 x0 x1 x2 x3 x4 x5 x6) (out_L2 x0 x1 x2 x3 x4 x5 x6)

theorem ref_chain2 : val_main_v110 x0 x1 x2 x3 x4 x5 x6 = bnrelu (val_main_v91 x0 x1 x2 x3 x4 x5 x6) := rfl
theorem ref_max2 : val_main_v111 x0 x1 x2 x3 x4 x5 x6 = maxNodes (val_main_v110 x0 x1 x2 x3 x4 x5 x6) := rfl

end Layer2

section Layer3
variable (x0 : TX) (x1 : TI) (x2 : TR) (x3 : TW1) (x4 : TB) (x5 : TW) (x6 : TB) (x7 : TW) (x8 : TB)

theorem w0_L3 (d : Fin 64) (e : Fin 64) : val_main_v118 x7 (ix2 d e) = x7 (ix3 0 d e) :=
  wread64 _ _ (fun d e => (val_main_v117_apply x7 _).trans (congrArg x7 (by idx3))) d e
theorem w1_L3 (d : Fin 64) (e : Fin 64) : val_main_v126 x7 (ix2 d e) = x7 (ix3 1 d e) :=
  wread64 _ _ (fun d e => (val_main_v125_apply x7 _).trans (congrArg x7 (by idx3))) d e
theorem w2_L3 (d : Fin 64) (e : Fin 64) : val_main_v134 x7 (ix2 d e) = x7 (ix3 2 d e) :=
  wread64 _ _ (fun d e => (val_main_v133_apply x7 _).trans (congrArg x7 (by idx3))) d e

theorem m0_L3 (p : S8x2048x2048.Idx) : val_main_v115 x2 p = ind (x2 p) (label 0) := by
  rw [val_main_v115_apply, val_main_v114_apply, val_main_v113_apply, val_main_cst_23_apply, uitofp_cmpf_oeq]
  rfl
theorem m1_L3 (p : S8x2048x2048.Idx) : val_main_v123 x2 p = ind (x2 p) (label 1) := by
  rw [val_main_v123_apply, val_main_v122_apply, val_main_v121_apply, val_main_cst_24_apply, uitofp_cmpf_oeq]
  rfl
theorem m2_L3 (p : S8x2048x2048.Idx) : val_main_v131 x2 p = ind (x2 p) (label 2) := by
  rw [val_main_v131_apply, val_main_v130_apply, val_main_v129_apply, val_main_cst_25_apply, uitofp_cmpf_oeq]
  rfl

theorem pre_L3 (n : Fin 8) (i : Fin 2048) (e : Fin 64) :
    val_main_v139 x0 x1 x2 x3 x4 x5 x6 x7 x8 (ix3 n i e) =
      accR (fun r j => ind (x2 (ix3 n i j)) (label r)) (fun j d => val_main_v110 x0 x1 x2 x3 x4 x5 x6 (ix3 n j d))
        (fun r d => x7 (ix3 r d e)) (x8 (ix1 e)) := by
  rw [val_main_v139_apply, val_main_v136_apply, val_main_v128_apply, val_main_v120_apply, val_main_v112_apply, val_main_cst_22_apply,
    val_main_v138_apply, val_main_v137_apply, show val_main_v119 x0 x1 x2 x3 x4 x5 x6 x7 (ix3 n i e) = _ from dd64 _ _ _ _ _ (m0_L3 x2) (w0_L3 x7) n i e,
    show val_main_v127 x0 x1 x2 x3 x4 x5 x6 x7 (ix3 n i e) = _ from dd64 _ _ _ _ _ (m1_L3 x2) (w1_L3 x7) n i e,
    show val_main_v135 x0 x1 x2 x3 x4 x5 x6 x7 (ix3 n i e) = _ from dd64 _ _ _ _ _ (m2_L3 x2) (w2_L3 x7) n i e,
    show idx_main_v137 (idx_main_v138 (ix3 n i e)) = ix1 e from by idx1]
  simp only [Ideal.addf_def, Ideal.ofBits_def, Ideal.ofBits_zero_f32, zero_add]
  rfl

theorem out_L3 (n : Fin 8) (i : Fin 2048) (e : Fin 64) :
    val_main_v147 x0 x1 x2 x3 x4 x5 x6 x7 x8 (ix3 n i e) =
      Ideal.div (val_main_v139 x0 x1 x2 x3 x4 x5 x6 x7 x8 (ix3 n i e))
        (max (Ideal.sqrt (∑ k : Fin 64, val_main_v139 x0 x1 x2 x3 x4 x5 x6 x7 x8 (ix3 n i k) * val_main_v139 x0 x1 x2 x3 x4 x5 x6 x7 x8 (ix3 n i k)))
          epsNorm) := by
  rw [val_main_v147_apply, val_main_v146_apply, val_main_v145_apply, val_main_v143_apply, val_main_v142_apply, val_main_v141_apply,
    val_main_v144_apply, val_main_cst_27_apply, val_main_cst_26_apply]
  have ek : ∀ k : Fin 64, idx_main_v141 (idx_main_v142 (idx_main_v146 (ix3 n i e))) k = ix3 n i k := fun k => by idx3
  simp only [ek, val_main_v140_apply, Ideal.hostDivf_def, Ideal.maximumf_def, Ideal.hostUnary_sqrt_def, Ideal.mulf_def,
    Ideal.ofBits_def, Ideal.ofBits_zero_f32, zero_add]
  rfl

theorem ref_layer3 :
    val_main_v147 x0 x1 x2 x3 x4 x5 x6 x7 x8 =
      gcR (D := 64) (val_main_v110 x0 x1 x2 x3 x4 x5 x6) x2 x7 x8 :=
  gcR_of_stages (D := 64) (val_main_v110 x0 x1 x2 x3 x4 x5 x6) x2 x7 x8 (val_main_v139 x0 x1 x2 x3 x4 x5 x6 x7 x8) _
    (pre_L3 x0 x1 x2 x3 x4 x5 x6 x7 x8) (out_L3 x0 x1 x2 x3 x4 x5 x6 x7 x8)

theorem ref_max3 : val_main_v148 x0 x1 x2 x3 x4 x5 x6 x7 x8 = maxNodes (val_main_v147 x0 x1 x2 x3 x4 x5 x6 x7 x8) := rfl

end Layer3

section Results
variable (x0 : TX) (x1 : TI) (x2 : TR) (x3 : TW1) (x4 : TB) (x5 : TW) (x6 : TB) (x7 : TW) (x8 : TB) (x9 : TM) (x10 : TB)

abbrev G1 : FVec Ideal Cert.GraphConv.S8x2048x64 .f32 :=
  gcR (D := 32) x0 (sitofp .f32 x1 : FVec Ideal S8x2048x2048 .f32) x3 x4
abbrev G2 : FVec Ideal Cert.GraphConv.S8x2048x64 .f32 := gcR (D := 64) (bnrelu (G1 x0 x1 x3 x4)) x2 x5 x6
abbrev G3 : FVec Ideal Cert.GraphConv.S8x2048x64 .f32 := gcR (D := 64) (bnrelu (G2 x0 x1 x2 x3 x4 x5 x6)) x2 x7 x8

theorem stage_v54 : val_main_v54 x0 x1 x3 x4 = bnrelu (G1 x0 x1 x3 x4) := by
  rw [ref_chain1, ref_layer1]
theorem stage_v91 : val_main_v91 x0 x1 x2 x3 x4 x5 x6 = G2 x0 x1 x2 x3 x4 x5 x6 := by
  rw [ref_layer2, stage_v54]
theorem stage_v110 : val_main_v110 x0 x1 x2 x3 x4 x5 x6 = bnrelu (G2 x0 x1 x2 x3 x4 x5 x6) := by
  rw [ref_chain2, stage_v91]
theorem stage_v147 : val_main_v147 x0 x1 x2 x3 x4 x5 x6 x7 x8 = G3 x0 x1 x2 x3 x4 x5 x6 x7 x8 := by
  rw [ref_layer3, stage_v110]

theorem ref_out0 :
    val_main_v149 x0 x1 x2 x3 x4 x5 x6 x7 x8 =
      netOut (G1 x0 x1 x3 x4) (G2 x0 x1 x2 x3 x4 x5 x6) (G3 x0 x1 x2 x3 x4 x5 x6 x7 x8) := by
  unfold val_main_v149
  rw [ref_max1, ref_max2, ref_max3, stage_v54, stage_v110, stage_v147]
  rfl

theorem ref_pred :
    val_main_v153 x0 x1 x2 x3 x4 x5 x6 x7 x8 x9 x10 =
      headPred (val_main_v149 x0 x1 x2 x3 x4 x5 x6 x7 x8) x9 x10 := rfl

theorem ref_out1 :
    val_main_v153 x0 x1 x2 x3 x4 x5 x6 x7 x8 x9 x10 =
      headPred (netOut (G1 x0 x1 x3 x4) (G2 x0 x1 x2 x3 x4 x5 x6) (G3 x0 x1 x2 x3 x4 x5 x6 x7 x8)) x9 x10 := by
  rw [ref_pred, ref_out0]

end Results

end Cert.ReferenceIdeal.Hand

end
-- ==== Proof.RefRunOps.lean ====
import proofs.«149576_j9002251452429_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

local macro "writes_mem" : tactic =>
  `(tactic| (simp only [StableHlo.nullary_writes, StableHlo.unary_writes, StableHlo.binary_writes, StableHlo.reshape_writes, StableHlo.nary_writes, Finset.singleton_subset_iff, List.mem_toFinset]; exact List.mem_map_of_mem (by decide)))

abbrev ops1 : List (HloOp τ sig (Elt F)) :=
  [ nullary main_cst (constant S_ .f32 0x00000000#32),
    unary main_cst main_v0 (broadcastInDim S8x2048x64 ![] bcast_S_S8x2048x64 : (⟨S_, .f32⟩ : BufTy).Contents (Elt F) → (⟨S8x2048x64, .f32⟩ : BufTy).Contents (Elt F)),
    nullary main_c (constantI S_ 32 1#32),
    unary main_c main_v1 (broadcastInDim S8x2048x2048 ![] bcast_S_S8x2048x2048 : (⟨S_, .i32⟩ : BufTy).Contents (Elt F) → (⟨S8x2048x2048, .i32⟩ : BufTy).Contents (Elt F)),
    binary main_arg1 main_v1 main_v2 (cmpi .eq : (⟨S8x2048x2048, .i32⟩ : BufTy).Contents (Elt F) → (⟨S8x2048x2048, .i32⟩ : BufTy).Contents (Elt F) → (⟨S8x2048x2048, .i1⟩ : BufTy).Contents (Elt F)),
    unary main_v2 main_v3 (uitofp .f32 : (⟨S8x2048x2048, .i1⟩ : BufTy).Contents (Elt F) → (⟨S8x2048x2048, .f32⟩ : BufTy).Contents (Elt F)),
    binary main_v3 main_arg0 main_v4 ((fun l r => Host.dotGeneral dot_S8x2048x2048_S8x2048x32_S8x2048x32_2_1_1_2_0_0 none l r) : (⟨S8x2048x2048, .f32⟩ : BufTy).Contents (Elt F) → (⟨S8x2048x32, .f32⟩ : BufTy).Contents (Elt F) → (⟨S8x2048x32, .f32⟩ : BufTy).Contents (Elt F)),
    unary main_arg3 main_v5 ((extractStridedSlice S1x32x64 ![0, 0, 0] · slices_S3x32x64_S1x32x64_0_0_0) : (⟨S3x32x64, .f32⟩ : BufTy).Contents (Elt F) → (⟨S1x32x64, .f32⟩ : BufTy).Contents (Elt F)),
    reshape main_v5 main_v6 rfl shapeCasts_S1x32x64_S32x64,
    binary main_v4 main_v6 main_v7 ((fun l r => Host.dotGeneral dot_S8x2048x32_S32x64_S8x2048x64_2_0_01_1_n_n none l r) : (⟨S8x2048x32, .f32⟩ : BufTy).Contents (Elt F) → (⟨S32x64, .f32⟩ : BufTy).Contents (Elt F) → (⟨S8x2048x64, .f32⟩ : BufTy).Contents (Elt F)),
    binary main_v0 main_v7 main_v8 (addf : (⟨S8x2048x64, .f32⟩ : BufTy).Contents (Elt F) → (⟨S8x2048x64, .f32⟩ : BufTy).Contents (Elt F) → (⟨S8x2048x64, .f32⟩ : BufTy).Contents (Elt F)),
    nullary main_c_0 (constantI S_ 32 2#32),
    unary main_c_0 main_v9 (broadcastInDim S8x2048x2048 ![] bcast_S_S8x2048x2048 : (⟨S_, .i32⟩ : BufTy).Contents (Elt F) → (⟨S8x2048x2048, .i32⟩ : BufTy).Contents (Elt F)),
    binary main_arg1 main_v9 main_v10 (cmpi .eq : (⟨S8x2048x2048, .i32⟩ : BufTy).Contents (Elt F) → (⟨S8x2048x2048, .i32⟩ : BufTy).Contents (Elt F) → (⟨S8x2048x2048, .i1⟩ : BufTy).Contents (Elt F)),
    unary main_v10 main_v11 (uitofp .f32 : (⟨S8x2048x2048, .i1⟩ : BufTy).Contents (Elt F) → (⟨S8x2048x2048, .f32⟩ : BufTy).Contents (Elt F)),
    binary main_v11 main_arg0 main_v12 ((fun l r => Host.dotGeneral dot_S8x2048x2048_S8x2048x32_S8x2048x32_2_1_1_2_0_0 none l r) : (⟨S8x2048x2048, .f32⟩ : BufTy).Contents (Elt F) → (⟨S8x2048x32, .f32⟩ : BufTy).Contents (Elt F) → (⟨S8x2048x32, .f32⟩ : BufTy).Contents (Elt F)),
    unary main_arg3 main_v13 ((extractStridedSlice S1x32x64 ![1, 0, 0] · slices_S3x32x64_S1x32x64_1_0_0) : (⟨S3x32x64, .f32⟩ : BufTy).Contents (Elt F) → (⟨S1x32x64, .f32⟩ : BufTy).Contents (Elt F)),
    reshape main_v13 main_v14 rfl shapeCasts_S1x32x64_S32x64,
    binary main_v12 main_v14 main_v15 ((fun l r => Host.dotGeneral dot_S8x2048x32_S32x64_S8x2048x64_2_0_01_1_n_n none l r) : (⟨S8x2048x32, .f32⟩ : BufTy).Contents (Elt F) → (⟨S32x64, .f32⟩ : BufTy).Contents (Elt F) → (⟨S8x2048x64, .f32⟩ : BufTy).Contents (Elt F)),
    binary main_v8 main_v15 main_v16 (addf : (⟨S8x2048x64, .f32⟩ : BufTy).Contents (Elt F) → (⟨S8x2048x64, .f32⟩ : BufTy).Contents (Elt F) → (⟨S8x2048x64, .f32⟩ : BufTy).Contents (Elt F)),
    nullary main_c_1 (constantI S_ 32 3#32),
    unary main_c_1 main_v17 (broadcastInDim S8x2048x2048 ![] bcast_S_S8x2048x2048 : (⟨S_, .i32⟩ : BufTy).Contents (Elt F) → (⟨S8x2048x2048, .i32⟩ : BufTy).Contents (Elt F)),
    binary main_arg1 main_v17 main_v18 (cmpi .eq : (⟨S8x2048x2048, .i32⟩ : BufTy).Contents (Elt F) → (⟨S8x2048x2048, .i32⟩ : BufTy).Contents (Elt F) → (⟨S8x2048x2048, .i1⟩ : BufTy).Contents (Elt F)),
    unary main_v18 main_v19 (uitofp .f32 : (⟨S8x2048x2048, .i1⟩ : BufTy).Contents (Elt F) → (⟨S8x2048x2048, .f32⟩ : BufTy).Contents (Elt F)),
    binary main_v19 main_arg0 main_v20 ((fun l r => Host.dotGeneral dot_S8x2048x2048_S8x2048x32_S8x2048x32_2_1_1_2_0_0 none l r) : (⟨S8x2048x2048, .f32⟩ : BufTy).Contents (Elt F) → (⟨S8x2048x32, .f32⟩ : BufTy).Contents (Elt F) → (⟨S8x2048x32, .f32⟩ : BufTy).Contents (Elt F)),
    unary main_arg3 main_v21 ((extractStridedSlice S1x32x64 ![2, 0, 0] · slices_S3x32x64_S1x32x64_2_0_0) : (⟨S3x32x64, .f32⟩ : BufTy).Contents (Elt F) → (⟨S1x32x64, .f32⟩ : BufTy).Contents (Elt F)),
    reshape main_v21 main_v22 rfl shapeCasts_S1x32x64_S32x64,
    binary main_v20 main_v22 main_v23 ((fun l r => Host.dotGeneral dot_S8x2048x32_S32x64_S8x2048x64_2_0_01_1_n_n none l r) : (⟨S8x2048x32, .f32⟩ : BufTy).Contents (Elt F) → (⟨S32x64, .f32⟩ : BufTy).Contents (Elt F) → (⟨S8x2048x64, .f32⟩ : BufTy).Contents (Elt F)),
    binary main_v16 main_v23 main_v24 (addf : (⟨S8x2048x64, .f32⟩ : BufTy).Contents (Elt F) → (⟨S8x2048x64, .f32⟩ : BufTy).Contents (Elt F) → (⟨S8x2048x64, .f32⟩ : BufTy).Contents (Elt F)),
    unary main_arg4 main_v25 (broadcastInDim S1x1x64 ![2] bcast_S64_S1x1x64_2 : (⟨S64, .f32⟩ : BufTy).Contents (Elt F) → (⟨S1x1x64, .f32⟩ : BufTy).Contents (Elt F)),
    unary main_v25 main_v26 (broadcastInDim S8x2048x64 ![0, 1, 2] bcast_S1x1x64_S8x2048x64_0_1_2 : (⟨S1x1x64, .f32⟩ : BufTy).Contents (Elt F) → (⟨S8x2048x64, .f32⟩ : BufTy).Contents (Elt F)),
    binary main_v24 main_v26 main_v27 (addf : (⟨S8x2048x64, .f32⟩ : BufTy).Contents (Elt F) → (⟨S8x2048x64, .f32⟩ : BufTy).Contents (Elt F) → (⟨S8x2048x64, .f32⟩ : BufTy).Contents (Elt F)),
    binary main_v27 main_v27 main_v28 (mulf : (⟨S8x2048x64, .f32⟩ : BufTy).Contents (Elt F) → (⟨S8x2048x64, .f32⟩ : BufTy).Contents (Elt F) → (⟨S8x2048x64, .f32⟩ : BufTy).Contents (Elt F)),
    nullary main_cst_2 (constant S_ .f32 0x00000000#32),
    binary main_v28 main_cst_2 main_v29 ((fun x v => Host.reduceAdd x v reducesTo_S8x2048x64_S8x2048_d2 h_S_) : (⟨S8x2048x64, .f32⟩ : BufTy).Contents (Elt F) → (⟨S_, .f32⟩ : BufTy).Contents (Elt F) → (⟨S8x2048, .f32⟩ : BufTy).Contents (Elt F)),
    unary main_v29 main_v30 (broadcastInDim S8x2048x1 ![0, 1] bcast_S8x2048_S8x2048x1_0_1 : (⟨S8x2048, .f32⟩ : BufTy).Contents (Elt F) → (⟨S8x2048x1, .f32⟩ : BufTy).Contents (Elt F)),
    unary main_v30 main_v31 (Host.sqrt : (⟨S8x2048x1, .f32⟩ : BufTy).Contents (Elt F) → (⟨S8x2048x1, .f32⟩ : BufTy).Contents (Elt F)),
    nullary main_cst_3 (constant S_ .f32 0x2B8CBCCC#32),
    unary main_cst_3 main_v32 (broadcastInDim S8x2048x1 ![] bcast_S_S8x2048x1 : (⟨S_, .f32⟩ : BufTy).Contents (Elt F) → (⟨S8x2048x1, .f32⟩ : BufTy).Contents (Elt F)),
    binary main_v31 main_v32 main_v33 (maximumf : (⟨S8x2048x1, .f32⟩ : BufTy).Contents (Elt F) → (⟨S8x2048x1, .f32⟩ : BufTy).Contents (Elt F) → (⟨S8x2048x1, .f32⟩ : BufTy).Contents (Elt F)),
    unary main_v33 main_v34 (broadcastInDim S8x2048x64 ![0, 1, 2] bcast_S8x2048x1_S8x2048x64_0_1_2 : (⟨S8x2048x1, .f32⟩ : BufTy).Contents (Elt F) → (⟨S8x2048x64, .f32⟩ : BufTy).Contents (Elt F)),
    binary main_v27 main_v34 main_v35 (Host.divf : (⟨S8x2048x64, .f32⟩ : BufTy).Contents (Elt F) → (⟨S8x2048x64, .f32⟩ : BufTy).Contents (Elt F) → (⟨S8x2048x64, .f32⟩ : BufTy).Contents (Elt F)) ]

abbrev ops1_W : List (Ref sig .tc) := [main_cst, main_v0, main_c, main_v1, main_v2, main_v3, main_v4, main_v5, main_v6, main_v7, main_v8, main_c_0, main_v9, main_v10, main_v11, main_v12, main_v13, main_v14, main_v15, main_v16, main_c_1, main_v17, main_v18, main_v19, main_v20, main_v21, main_v22, main_v23, main_v24, main_v25, main_v26, main_v27, main_v28, main_cst_2, main_v29, main_v30, main_v31, main_cst_3, main_v32, main_v33, main_v34, main_v35]
theorem ops1_writes : (ops1 : List (HloOp τ sig (Elt F))).Forall fun op => op.writes ⊆ (ops1_W.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

abbrev ops2 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S8x2048x64, .f32⟩) main_call0_v0) (broadcastInDim S8x2048x64 ![] bcast_S_S8x2048x64),
    TRef.binary (TRef.of (T := ⟨S8x2048x64, .f32⟩) main_v35) (TRef.of (T := ⟨S8x2048x64, .f32⟩) main_call0_v0) (TRef.of (T := ⟨S8x2048x64, .f32⟩) main_v36) maximumf,
    nullary main_cst_4 (constant S_ .f32 0x00000000#32),
    binary main_v36 main_cst_4 main_v37 ((fun x v => Host.reduceAdd x v reducesTo_S8x2048x64_S2048_d0_2 h_S_) : (⟨S8x2048x64, .f32⟩ : BufTy).Contents (Elt F) → (⟨S_, .f32⟩ : BufTy).Contents (Elt F) → (⟨S2048, .f32⟩ : BufTy).Contents (Elt F)),
    unary main_v37 main_v38 (broadcastInDim S1x2048x1 ![1] bcast_S2048_S1x2048x1_1 : (⟨S2048, .f32⟩ : BufTy).Contents (Elt F) → (⟨S1x2048x1, .f32⟩ : BufTy).Contents (Elt F)),
    nullary main_cst_5 (constant S_ .f32 0x44000000#32),
    unary main_cst_5 main_v39 (broadcastInDim S1x2048x1 ![] bcast_S_S1x2048x1 : (⟨S_, .f32⟩ : BufTy).Contents (Elt F) → (⟨S1x2048x1, .f32⟩ : BufTy).Contents (Elt F)),
    binary main_v38 main_v39 main_v40 (Host.divf : (⟨S1x2048x1, .f32⟩ : BufTy).Contents (Elt F) → (⟨S1x2048x1, .f32⟩ : BufTy).Contents (Elt F) → (⟨S1x2048x1, .f32⟩ : BufTy).Contents (Elt F)),
    unary main_v40 main_v41 (broadcastInDim S8x2048x64 ![0, 1, 2] bcast_S1x2048x1_S8x2048x64_0_1_2 : (⟨S1x2048x1, .f32⟩ : BufTy).Contents (Elt F) → (⟨S8x2048x64, .f32⟩ : BufTy).Contents (Elt F)),
    binary main_v36 main_v41 main_v42 (subf : (⟨S8x2048x64, .f32⟩ : BufTy).Contents (Elt F) → (⟨S8x2048x64, .f32⟩ : BufTy).Contents (Elt F) → (⟨S8x2048x64, .f32⟩ : BufTy).Contents (Elt F)),
    binary main_v42 main_v42 main_v43 (mulf : (⟨S8x2048x64, .f32⟩ : BufTy).Contents (Elt F) → (⟨S8x2048x64, .f32⟩ : BufTy).Contents (Elt F) → (⟨S8x2048x64, .f32⟩ : BufTy).Contents (Elt F)),
    nullary main_cst_6 (constant S_ .f32 0x00000000#32),
    binary main_v43 main_cst_6 main_v44 ((fun x v => Host.reduceAdd x v reducesTo_S8x2048x64_S2048_d0_2 h_S_) : (⟨S8x2048x64, .f32⟩ : BufTy).Contents (Elt F) → (⟨S_, .f32⟩ : BufTy).Contents (Elt F) → (⟨S2048, .f32⟩ : BufTy).Contents (Elt F)),
    unary main_v44 main_v45 (broadcastInDim S1x2048x1 ![1] bcast_S2048_S1x2048x1_1 : (⟨S2048, .f32⟩ : BufTy).Contents (Elt F) → (⟨S1x2048x1, .f32⟩ : BufTy).Contents (Elt F)),
    nullary main_cst_7 (constant S_ .f32 0x44000000#32),
    unary main_cst_7 main_v46 (broadcastInDim S1x2048x1 ![] bcast_S_S1x2048x1 : (⟨S_, .f32⟩ : BufTy).Contents (Elt F) → (⟨S1x2048x1, .f32⟩ : BufTy).Contents (Elt F)),
    binary main_v45 main_v46 main_v47 (Host.divf : (⟨S1x2048x1, .f32⟩ : BufTy).Contents (Elt F) → (⟨S1x2048x1, .f32⟩ : BufTy).Contents (Elt F) → (⟨S1x2048x1, .f32⟩ : BufTy).Contents (Elt F)),
    unary main_v40 main_v48 (broadcastInDim S8x2048x64 ![0, 1, 2] bcast_S1x2048x1_S8x2048x64_0_1_2 : (⟨S1x2048x1, .f32⟩ : BufTy).Contents (Elt F) → (⟨S8x2048x64, .f32⟩ : BufTy).Contents (Elt F)),
    binary main_v36 main_v48 main_v49 (subf : (⟨S8x2048x64, .f32⟩ : BufTy).Contents (Elt F) → (⟨S8x2048x64, .f32⟩ : BufTy).Contents (Elt F) → (⟨S8x2048x64, .f32⟩ : BufTy).Contents (Elt F)),
    nullary main_cst_8 (constant S_ .f32 0x3727C5AC#32),
    unary main_cst_8 main_v50 (broadcastInDim S1x2048x1 ![] bcast_S_S1x2048x1 : (⟨S_, .f32⟩ : BufTy).Contents (Elt F) → (⟨S1x2048x1, .f32⟩ : BufTy).Contents (Elt F)),
    binary main_v47 main_v50 main_v51 (addf : (⟨S1x2048x1, .f32⟩ : BufTy).Contents (Elt F) → (⟨S1x2048x1, .f32⟩ : BufTy).Contents (Elt F) → (⟨S1x2048x1, .f32⟩ : BufTy).Contents (Elt F)),
    unary main_v51 main_v52 (Host.rsqrt : (⟨S1x2048x1, .f32⟩ : BufTy).Contents (Elt F) → (⟨S1x2048x1, .f32⟩ : BufTy).Contents (Elt F)),
    unary main_v52 main_v53 (broadcastInDim S8x2048x64 ![0, 1, 2] bcast_S1x2048x1_S8x2048x64_0_1_2 : (⟨S1x2048x1, .f32⟩ : BufTy).Contents (Elt F) → (⟨S8x2048x64, .f32⟩ : BufTy).Contents (Elt F)),
    binary main_v49 main_v53 main_v54 (mulf : (⟨S8x2048x64, .f32⟩ : BufTy).Contents (Elt F) → (⟨S8x2048x64, .f32⟩ : BufTy).Contents (Elt F) → (⟨S8x2048x64, .f32⟩ : BufTy).Contents (Elt F)) ]

abbrev ops2_W : List (Ref sig .tc) := [main_call0_cst, main_call0_v0, main_v36, main_cst_4, main_v37, main_v38, main_cst_5, main_v39, main_v40, main_v41, main_v42, main_v43, main_cst_6, main_v44, main_v45, main_cst_7, main_v46, main_v47, main_v48, main_v49, main_cst_8, main_v50, main_v51, main_v52, main_v53, main_v54]
theorem ops2_writes : (ops2 : List (HloOp τ sig (Elt F))).Forall fun op => op.writes ⊆ (ops2_W.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

abbrev ops3 : List (HloOp τ sig (Elt F)) :=
  [ nullary main_cst_9 (constant S_ .f32 0xFF800000#32),
    binary main_v54 main_cst_9 main_v55 ((fun x v => Host.reduce FloatOps.maximumf x v reducesTo_S8x2048x64_S8x64_d1 h_S_) : (⟨S8x2048x64, .f32⟩ : BufTy).Contents (Elt F) → (⟨S_, .f32⟩ : BufTy).Contents (Elt F) → (⟨S8x64, .f32⟩ : BufTy).Contents (Elt F)) ]

abbrev ops3_W : List (Ref sig .tc) := [main_cst_9, main_v55]
theorem ops3_writes : (ops3 : List (HloOp τ sig (Elt F))).Forall fun op => op.writes ⊆ (ops3_W.map (Proc.devRef (τ := τ) .tc)).toFinset := by
  simp only [List.Forall]; exact ⟨by writes_mem, by writes_mem⟩

abbrev ops4 : List (HloOp τ sig (Elt F)) :=
  [ nullary main_cst_10 (constant S_ .f32 0x00000000#32),
    unary main_cst_10 main_v56 (broadcastInDim S8x2048x64 ![] bcast_S_S8x2048x64 : (⟨S_, .f32⟩ : BufTy).Contents (Elt F) → (⟨S8x2048x64, .f32⟩ : BufTy).Contents (Elt F)),
    nullary main_cst_11 (constant S_ .f32 0x3F800000#32),
    unary main_cst_11 main_v57 (broadcastInDim S8x2048x2048 ![] bcast_S_S8x2048x2048 : (⟨S_, .f32⟩ : BufTy).Contents (Elt F) → (⟨S8x2048x2048, .f32⟩ : BufTy).Contents (Elt F)),
    binary main_arg2 main_v57 main_v58 (cmpf .oeq : (⟨S8x2048x2048, .f32⟩ : BufTy).Contents (Elt F) → (⟨S8x2048x2048, .f32⟩ : BufTy).Contents (Elt F) → (⟨S8x2048x2048, .i1⟩ : BufTy).Contents (Elt F)),
    unary main_v58 main_v59 (uitofp .f32 : (⟨S8x2048x2048, .i1⟩ : BufTy).Contents (Elt F) → (⟨S8x2048x2048, .f32⟩ : BufTy).Contents (Elt F)),
    binary main_v59 main_v54 main_v60 ((fun l r => Host.dotGeneral dot_S8x2048x2048_S8x2048x64_S8x2048x64_2_1_1_2_0_0 none l r) : (⟨S8x2048x2048, .f32⟩ : BufTy).Contents (Elt F) → (⟨S8x2048x64, .f32⟩ : BufTy).Contents (Elt F) → (⟨S8x2048x64, .f32⟩ : BufTy).Contents (Elt F)),
    unary main_arg5 main_v61 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v61 main_v62 rfl shapeCasts_S1x64x64_S64x64,
    binary main_v60 main_v62 main_v63 ((fun l r => Host.dotGeneral dot_S8x2048x64_S64x64_S8x2048x64_2_0_01_1_n_n none l r) : (⟨S8x2048x64, .f32⟩ : BufTy).Contents (Elt F) → (⟨S64x64, .f32⟩ : BufTy).Contents (Elt F) → (⟨S8x2048x64, .f32⟩ : BufTy).Contents (Elt F)),
    binary main_v56 main_v63 main_v64 (addf : (⟨S8x2048x64, .f32⟩ : BufTy).Contents (Elt F) → (⟨S8x2048x64, .f32⟩ : BufTy).Contents (Elt F) → (⟨S8x2048x64, .f32⟩ : BufTy).Contents (Elt F)),
    nullary main_cst_12 (constant S_ .f32 0x40000000#32),
    unary main_cst_12 main_v65 (broadcastInDim S8x2048x2048 ![] bcast_S_S8x2048x2048 : (⟨S_, .f32⟩ : BufTy).Contents (Elt F) → (⟨S8x2048x2048, .f32⟩ : BufTy).Contents (Elt F)),
    binary main_arg2 main_v65 main_v66 (cmpf .oeq : (⟨S8x2048x2048, .f32⟩ : BufTy).Contents (Elt F) → (⟨S8x2048x2048, .f32⟩ : BufTy).Contents (Elt F) → (⟨S8x2048x2048, .i1⟩ : BufTy).Contents (Elt F)),
    unary main_v66 main_v67 (uitofp .f32 : (⟨S8x2048x2048, .i1⟩ : BufTy).Contents (Elt F) → (⟨S8x2048x2048, .f32⟩ : BufTy).Contents (Elt F)),
    binary main_v67 main_v54 main_v68 ((fun l r => Host.dotGeneral dot_S8x2048x2048_S8x2048x64_S8x2048x64_2_1_1_2_0_0 none l r) : (⟨S8x2048x2048, .f32⟩ : BufTy).Contents (Elt F) → (⟨S8x2048x64, .f32⟩ : BufTy).Contents (Elt F) → (⟨S8x2048x64, .f32⟩ : BufTy).Contents (Elt F)),
    unary main_arg5 main_v69 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v69 main_v70 rfl shapeCasts_S1x64x64_S64x64,
    binary main_v68 main_v70 main_v71 ((fun l r => Host.dotGeneral dot_S8x2048x64_S64x64_S8x2048x64_2_0_01_1_n_n none l r) : (⟨S8x2048x64, .f32⟩ : BufTy).Contents (Elt F) → (⟨S64x64, .f32⟩ : BufTy).Contents (Elt F) → (⟨S8x2048x64, .f32⟩ : BufTy).Contents (Elt F)),
    binary main_v64 main_v71 main_v72 (addf : (⟨S8x2048x64, .f32⟩ : BufTy).Contents (Elt F) → (⟨S8x2048x64, .f32⟩ : BufTy).Contents (Elt F) → (⟨S8x2048x64, .f32⟩ : BufTy).Contents (Elt F)),
    nullary main_cst_13 (constant S_ .f32 0x40400000#32),
    unary main_cst_13 main_v73 (broadcastInDim S8x2048x2048 ![] bcast_S_S8x2048x2048 : (⟨S_, .f32⟩ : BufTy).Contents (Elt F) → (⟨S8x2048x2048, .f32⟩ : BufTy).Contents (Elt F)),
    binary main_arg2 main_v73 main_v74 (cmpf .oeq : (⟨S8x2048x2048, .f32⟩ : BufTy).Contents (Elt F) → (⟨S8x2048x2048, .f32⟩ : BufTy).Contents (Elt F) → (⟨S8x2048x2048, .i1⟩ : BufTy).Contents (Elt F)),
    unary main_v74 main_v75 (uitofp .f32 : (⟨S8x2048x2048, .i1⟩ : BufTy).Contents (Elt F) → (⟨S8x2048x2048, .f32⟩ : BufTy).Contents (Elt F)),
    binary main_v75 main_v54 main_v76 ((fun l r => Host.dotGeneral dot_S8x2048x2048_S8x2048x64_S8x2048x64_2_1_1_2_0_0 none l r) : (⟨S8x2048x2048, .f32⟩ : BufTy).Contents (Elt F) → (⟨S8x2048x64, .f32⟩ : BufTy).Contents (Elt F) → (⟨S8x2048x64, .f32⟩ : BufTy).Contents (Elt F)),
    unary main_arg5 main_v77 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v77 main_v78 rfl shapeCasts_S1x64x64_S64x64,
    binary main_v76 main_v78 main_v79 ((fun l r => Host.dotGeneral dot_S8x2048x64_S64x64_S8x2048x64_2_0_01_1_n_n none l r) : (⟨S8x2048x64, .f32⟩ : BufTy).Contents (Elt F) → (⟨S64x64, .f32⟩ : BufTy).Contents (Elt F) → (⟨S8x2048x64, .f32⟩ : BufTy).Contents (Elt F)),
    binary main_v72 main_v79 main_v80 (addf : (⟨S8x2048x64, .f32⟩ : BufTy).Contents (Elt F) → (⟨S8x2048x64, .f32⟩ : BufTy).Contents (Elt F) → (⟨S8x2048x64, .f32⟩ : BufTy).Contents (Elt F)),
    unary main_arg6 main_v81 (broadcastInDim S1x1x64 ![2] bcast_S64_S1x1x64_2 : (⟨S64, .f32⟩ : BufTy).Contents (Elt F) → (⟨S1x1x64, .f32⟩ : BufTy).Contents (Elt F)),
    unary main_v81 main_v82 (broadcastInDim S8x2048x64 ![0, 1, 2] bcast_S1x1x64_S8x2048x64_0_1_2 : (⟨S1x1x64, .f32⟩ : BufTy).Contents (Elt F) → (⟨S8x2048x64, .f32⟩ : BufTy).Contents (Elt F)),
    binary main_v80 main_v82 main_v83 (addf : (⟨S8x2048x64, .f32⟩ : BufTy).Contents (Elt F) → (⟨S8x2048x64, .f32⟩ : BufTy).Contents (Elt F) → (⟨S8x2048x64, .f32⟩ : BufTy).Contents (Elt F)),
    binary main_v83 main_v83 main_v84 (mulf : (⟨S8x2048x64, .f32⟩ : BufTy).Contents (Elt F) → (⟨S8x2048x64, .f32⟩ : BufTy).Contents (Elt F) → (⟨S8x2048x64, .f32⟩ : BufTy).Contents (Elt F)),
    nullary main_cst_14 (constant S_ .f32 0x00000000#32),
    binary main_v84 main_cst_14 main_v85 ((fun x v => Host.reduceAdd x v reducesTo_S8x2048x64_S8x2048_d2 h_S_) : (⟨S8x2048x64, .f32⟩ : BufTy).Contents (Elt F) → (⟨S_, .f32⟩ : BufTy).Contents (Elt F) → (⟨S8x2048, .f32⟩ : BufTy).Contents (Elt F)),
    unary main_v85 main_v86 (broadcastInDim S8x2048x1 ![0, 1] bcast_S8x2048_S8x2048x1_0_1 : (⟨S8x2048, .f32⟩ : BufTy).Contents (Elt F) → (⟨S8x2048x1, .f32⟩ : BufTy).Contents (Elt F)),
    unary main_v86 main_v87 (Host.sqrt : (⟨S8x2048x1, .f32⟩ : BufTy).Contents (Elt F) → (⟨S8x2048x1, .f32⟩ : BufTy).Contents (Elt F)),
    nullary main_cst_15 (constant S_ .f32 0x2B8CBCCC#32),
    unary main_cst_15 main_v88 (broadcastInDim S8x2048x1 ![] bcast_S_S8x2048x1 : (⟨S_, .f32⟩ : BufTy).Contents (Elt F) → (⟨S8x2048x1, .f32⟩ : BufTy).Contents (Elt F)),
    binary main_v87 main_v88 main_v89 (maximumf : (⟨S8x2048x1, .f32⟩ : BufTy).Contents (Elt F) → (⟨S8x2048x1, .f32⟩ : BufTy).Contents (Elt F) → (⟨S8x2048x1, .f32⟩ : BufTy).Contents (Elt F)),
    unary main_v89 main_v90 (broadcastInDim S8x2048x64 ![0, 1, 2] bcast_S8x2048x1_S8x2048x64_0_1_2 : (⟨S8x2048x1, .f32⟩ : BufTy).Contents (Elt F) → (⟨S8x2048x64, .f32⟩ : BufTy).Contents (Elt F)),
    binary main_v83 main_v90 main_v91 (Host.divf : (⟨S8x2048x64, .f32⟩ : BufTy).Contents (Elt F) → (⟨S8x2048x64, .f32⟩ : BufTy).Contents (Elt F) → (⟨S8x2048x64, .f32⟩ : BufTy).Contents (Elt F)) ]

abbrev ops4_W : List (Ref sig .tc) := [main_cst_10, main_v56, main_cst_11, main_v57, main_v58, main_v59, main_v60, main_v61, main_v62, main_v63, main_v64, main_cst_12, main_v65, main_v66, main_v67, main_v68, main_v69, main_v70, main_v71, main_v72, main_cst_13, main_v73, main_v74, main_v75, main_v76, main_v77, main_v78, main_v79, main_v80, main_v81, main_v82, main_v83, main_v84, main_cst_14, main_v85, main_v86, main_v87, main_cst_15, main_v88, main_v89, main_v90, main_v91]
theorem ops4_writes : (ops4 : List (HloOp τ sig (Elt F))).Forall fun op => op.writes ⊆ (ops4_W.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

abbrev ops5 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S8x2048x64, .f32⟩) main_call1_v0) (broadcastInDim S8x2048x64 ![] bcast_S_S8x2048x64),
    TRef.binary (TRef.of (T := ⟨S8x2048x64, .f32⟩) main_v91) (TRef.of (T := ⟨S8x2048x64, .f32⟩) main_call1_v0) (TRef.of (T := ⟨S8x2048x64, .f32⟩) main_v92) maximumf,
    nullary main_cst_16 (constant S_ .f32 0x00000000#32),
    binary main_v92 main_cst_16 main_v93 ((fun x v => Host.reduceAdd x v reducesTo_S8x2048x64_S2048_d0_2 h_S_) : (⟨S8x2048x64, .f32⟩ : BufTy).Contents (Elt F) → (⟨S_, .f32⟩ : BufTy).Contents (Elt F) → (⟨S2048, .f32⟩ : BufTy).Contents (Elt F)),
    unary main_v93 main_v94 (broadcastInDim S1x2048x1 ![1] bcast_S2048_S1x2048x1_1 : (⟨S2048, .f32⟩ : BufTy).Contents (Elt F) → (⟨S1x2048x1, .f32⟩ : BufTy).Contents (Elt F)),
    nullary main_cst_17 (constant S_ .f32 0x44000000#32),
    unary main_cst_17 main_v95 (broadcastInDim S1x2048x1 ![] bcast_S_S1x2048x1 : (⟨S_, .f32⟩ : BufTy).Contents (Elt F) → (⟨S1x2048x1, .f32⟩ : BufTy).Contents (Elt F)),
    binary main_v94 main_v95 main_v96 (Host.divf : (⟨S1x2048x1, .f32⟩ : BufTy).Contents (Elt F) → (⟨S1x2048x1, .f32⟩ : BufTy).Contents (Elt F) → (⟨S1x2048x1, .f32⟩ : BufTy).Contents (Elt F)),
    unary main_v96 main_v97 (broadcastInDim S8x2048x64 ![0, 1, 2] bcast_S1x2048x1_S8x2048x64_0_1_2 : (⟨S1x2048x1, .f32⟩ : BufTy).Contents (Elt F) → (⟨S8x2048x64, .f32⟩ : BufTy).Contents (Elt F)),
    binary main_v92 main_v97 main_v98 (subf : (⟨S8x2048x64, .f32⟩ : BufTy).Contents (Elt F) → (⟨S8x2048x64, .f32⟩ : BufTy).Contents (Elt F) → (⟨S8x2048x64, .f32⟩ : BufTy).Contents (Elt F)),
    binary main_v98 main_v98 main_v99 (mulf : (⟨S8x2048x64, .f32⟩ : BufTy).Contents (Elt F) → (⟨S8x2048x64, .f32⟩ : BufTy).Contents (Elt F) → (⟨S8x2048x64, .f32⟩ : BufTy).Contents (Elt F)),
    nullary main_cst_18 (constant S_ .f32 0x00000000#32),
    binary main_v99 main_cst_18 main_v100 ((fun x v => Host.reduceAdd x v reducesTo_S8x2048x64_S2048_d0_2 h_S_) : (⟨S8x2048x64, .f32⟩ : BufTy).Contents (Elt F) → (⟨S_, .f32⟩ : BufTy).Contents (Elt F) → (⟨S2048, .f32⟩ : BufTy).Contents (Elt F)),
    unary main_v100 main_v101 (broadcastInDim S1x2048x1 ![1] bcast_S2048_S1x2048x1_1 : (⟨S2048, .f32⟩ : BufTy).Contents (Elt F) → (⟨S1x2048x1, .f32⟩ : BufTy).Contents (Elt F)),
    nullary main_cst_19 (constant S_ .f32 0x44000000#32),
    unary main_cst_19 main_v102 (broadcastInDim S1x2048x1 ![] bcast_S_S1x2048x1 : (⟨S_, .f32⟩ : BufTy).Contents (Elt F) → (⟨S1x2048x1, .f32⟩ : BufTy).Contents (Elt F)),
    binary main_v101 main_v102 main_v103 (Host.divf : (⟨S1x2048x1, .f32⟩ : BufTy).Contents (Elt F) → (⟨S1x2048x1, .f32⟩ : BufTy).Contents (Elt F) → (⟨S1x2048x1, .f32⟩ : BufTy).Contents (Elt F)),
    unary main_v96 main_v104 (broadcastInDim S8x2048x64 ![0, 1, 2] bcast_S1x2048x1_S8x2048x64_0_1_2 : (⟨S1x2048x1, .f32⟩ : BufTy).Contents (Elt F) → (⟨S8x2048x64, .f32⟩ : BufTy).Contents (Elt F)),
    binary main_v92 main_v104 main_v105 (subf : (⟨S8x2048x64, .f32⟩ : BufTy).Contents (Elt F) → (⟨S8x2048x64, .f32⟩ : BufTy).Contents (Elt F) → (⟨S8x2048x64, .f32⟩ : BufTy).Contents (Elt F)),
    nullary main_cst_20 (constant S_ .f32 0x3727C5AC#32),
    unary main_cst_20 main_v106 (broadcastInDim S1x2048x1 ![] bcast_S_S1x2048x1 : (⟨S_, .f32⟩ : BufTy).Contents (Elt F) → (⟨S1x2048x1, .f32⟩ : BufTy).Contents (Elt F)),
    binary main_v103 main_v106 main_v107 (addf : (⟨S1x2048x1, .f32⟩ : BufTy).Contents (Elt F) → (⟨S1x2048x1, .f32⟩ : BufTy).Contents (Elt F) → (⟨S1x2048x1, .f32⟩ : BufTy).Contents (Elt F)),
    unary main_v107 main_v108 (Host.rsqrt : (⟨S1x2048x1, .f32⟩ : BufTy).Contents (Elt F) → (⟨S1x2048x1, .f32⟩ : BufTy).Contents (Elt F)),
    unary main_v108 main_v109 (broadcastInDim S8x2048x64 ![0, 1, 2] bcast_S1x2048x1_S8x2048x64_0_1_2 : (⟨S1x2048x1, .f32⟩ : BufTy).Contents (Elt F) → (⟨S8x2048x64, .f32⟩ : BufTy).Contents (Elt F)),
    binary main_v105 main_v109 main_v110 (mulf : (⟨S8x2048x64, .f32⟩ : BufTy).Contents (Elt F) → (⟨S8x2048x64, .f32⟩ : BufTy).Contents (Elt F) → (⟨S8x2048x64, .f32⟩ : BufTy).Contents (Elt F)) ]

abbrev ops5_W : List (Ref sig .tc) := [main_call1_cst, main_call1_v0, main_v92, main_cst_16, main_v93, main_v94, main_cst_17, main_v95, main_v96, main_v97, main_v98, main_v99, main_cst_18, main_v100, main_v101, main_cst_19, main_v102, main_v103, main_v104, main_v105, main_cst_20, main_v106, main_v107, main_v108, main_v109, main_v110]
theorem ops5_writes : (ops5 : List (HloOp τ sig (Elt F))).Forall fun op => op.writes ⊆ (ops5_W.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

abbrev ops6 : List (HloOp τ sig (Elt F)) :=
  [ nullary main_cst_21 (constant S_ .f32 0xFF800000#32),
    binary main_v110 main_cst_21 main_v111 ((fun x v => Host.reduce FloatOps.maximumf x v reducesTo_S8x2048x64_S8x64_d1 h_S_) : (⟨S8x2048x64, .f32⟩ : BufTy).Contents (Elt F) → (⟨S_, .f32⟩ : BufTy).Contents (Elt F) → (⟨S8x64, .f32⟩ : BufTy).Contents (Elt F)) ]

abbrev ops6_W : List (Ref sig .tc) := [main_cst_21, main_v111]
theorem ops6_writes : (ops6 : List (HloOp τ sig (Elt F))).Forall fun op => op.writes ⊆ (ops6_W.map (Proc.devRef (τ := τ) .tc)).toFinset := by
  simp only [List.Forall]; exact ⟨by writes_mem, by writes_mem⟩

abbrev ops7 : List (HloOp τ sig (Elt F)) :=
  [ nullary main_cst_22 (constant S_ .f32 0x00000000#32),
    unary main_cst_22 main_v112 (broadcastInDim S8x2048x64 ![] bcast_S_S8x2048x64 : (⟨S_, .f32⟩ : BufTy).Contents (Elt F) → (⟨S8x2048x64, .f32⟩ : BufTy).Contents (Elt F)),
    nullary main_cst_23 (constant S_ .f32 0x3F800000#32),
    unary main_cst_23 main_v113 (broadcastInDim S8x2048x2048 ![] bcast_S_S8x2048x2048 : (⟨S_, .f32⟩ : BufTy).Contents (Elt F) → (⟨S8x2048x2048, .f32⟩ : BufTy).Contents (Elt F)),
    binary main_arg2 main_v113 main_v114 (cmpf .oeq : (⟨S8x2048x2048, .f32⟩ : BufTy).Contents (Elt F) → (⟨S8x2048x2048, .f32⟩ : BufTy).Contents (Elt F) → (⟨S8x2048x2048, .i1⟩ : BufTy).Contents (Elt F)),
    unary main_v114 main_v115 (uitofp .f32 : (⟨S8x2048x2048, .i1⟩ : BufTy).Contents (Elt F) → (⟨S8x2048x2048, .f32⟩ : BufTy).Contents (Elt F)),
    binary main_v115 main_v110 main_v116 ((fun l r => Host.dotGeneral dot_S8x2048x2048_S8x2048x64_S8x2048x64_2_1_1_2_0_0 none l r) : (⟨S8x2048x2048, .f32⟩ : BufTy).Contents (Elt F) → (⟨S8x2048x64, .f32⟩ : BufTy).Contents (Elt F) → (⟨S8x2048x64, .f32⟩ : BufTy).Contents (Elt F)),
    unary main_arg7 main_v117 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v117 main_v118 rfl shapeCasts_S1x64x64_S64x64,
    binary main_v116 main_v118 main_v119 ((fun l r => Host.dotGeneral dot_S8x2048x64_S64x64_S8x2048x64_2_0_01_1_n_n none l r) : (⟨S8x2048x64, .f32⟩ : BufTy).Contents (Elt F) → (⟨S64x64, .f32⟩ : BufTy).Contents (Elt F) → (⟨S8x2048x64, .f32⟩ : BufTy).Contents (Elt F)),
    binary main_v112 main_v119 main_v120 (addf : (⟨S8x2048x64, .f32⟩ : BufTy).Contents (Elt F) → (⟨S8x2048x64, .f32⟩ : BufTy).Contents (Elt F) → (⟨S8x2048x64, .f32⟩ : BufTy).Contents (Elt F)),
    nullary main_cst_24 (constant S_ .f32 0x40000000#32),
    unary main_cst_24 main_v121 (broadcastInDim S8x2048x2048 ![] bcast_S_S8x2048x2048 : (⟨S_, .f32⟩ : BufTy).Contents (Elt F) → (⟨S8x2048x2048, .f32⟩ : BufTy).Contents (Elt F)),
    binary main_arg2 main_v121 main_v122 (cmpf .oeq : (⟨S8x2048x2048, .f32⟩ : BufTy).Contents (Elt F) → (⟨S8x2048x2048, .f32⟩ : BufTy).Contents (Elt F) → (⟨S8x2048x2048, .i1⟩ : BufTy).Contents (Elt F)),
    unary main_v122 main_v123 (uitofp .f32 : (⟨S8x2048x2048, .i1⟩ : BufTy).Contents (Elt F) → (⟨S8x2048x2048, .f32⟩ : BufTy).Contents (Elt F)),
    binary main_v123 main_v110 main_v124 ((fun l r => Host.dotGeneral dot_S8x2048x2048_S8x2048x64_S8x2048x64_2_1_1_2_0_0 none l r) : (⟨S8x2048x2048, .f32⟩ : BufTy).Contents (Elt F) → (⟨S8x2048x64, .f32⟩ : BufTy).Contents (Elt F) → (⟨S8x2048x64, .f32⟩ : BufTy).Contents (Elt F)),
    unary main_arg7 main_v125 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v125 main_v126 rfl shapeCasts_S1x64x64_S64x64,
    binary main_v124 main_v126 main_v127 ((fun l r => Host.dotGeneral dot_S8x2048x64_S64x64_S8x2048x64_2_0_01_1_n_n none l r) : (⟨S8x2048x64, .f32⟩ : BufTy).Contents (Elt F) → (⟨S64x64, .f32⟩ : BufTy).Contents (Elt F) → (⟨S8x2048x64, .f32⟩ : BufTy).Contents (Elt F)),
    binary main_v120 main_v127 main_v128 (addf : (⟨S8x2048x64, .f32⟩ : BufTy).Contents (Elt F) → (⟨S8x2048x64, .f32⟩ : BufTy).Contents (Elt F) → (⟨S8x2048x64, .f32⟩ : BufTy).Contents (Elt F)),
    nullary main_cst_25 (constant S_ .f32 0x40400000#32),
    unary main_cst_25 main_v129 (broadcastInDim S8x2048x2048 ![] bcast_S_S8x2048x2048 : (⟨S_, .f32⟩ : BufTy).Contents (Elt F) → (⟨S8x2048x2048, .f32⟩ : BufTy).Contents (Elt F)),
    binary main_arg2 main_v129 main_v130 (cmpf .oeq : (⟨S8x2048x2048, .f32⟩ : BufTy).Contents (Elt F) → (⟨S8x2048x2048, .f32⟩ : BufTy).Contents (Elt F) → (⟨S8x2048x2048, .i1⟩ : BufTy).Contents (Elt F)),
    unary main_v130 main_v131 (uitofp .f32 : (⟨S8x2048x2048, .i1⟩ : BufTy).Contents (Elt F) → (⟨S8x2048x2048, .f32⟩ : BufTy).Contents (Elt F)),
    binary main_v131 main_v110 main_v132 ((fun l r => Host.dotGeneral dot_S8x2048x2048_S8x2048x64_S8x2048x64_2_1_1_2_0_0 none l r) : (⟨S8x2048x2048, .f32⟩ : BufTy).Contents (Elt F) → (⟨S8x2048x64, .f32⟩ : BufTy).Contents (Elt F) → (⟨S8x2048x64, .f32⟩ : BufTy).Contents (Elt F)),
    unary main_arg7 main_v133 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v133 main_v134 rfl shapeCasts_S1x64x64_S64x64,
    binary main_v132 main_v134 main_v135 ((fun l r => Host.dotGeneral dot_S8x2048x64_S64x64_S8x2048x64_2_0_01_1_n_n none l r) : (⟨S8x2048x64, .f32⟩ : BufTy).Contents (Elt F) → (⟨S64x64, .f32⟩ : BufTy).Contents (Elt F) → (⟨S8x2048x64, .f32⟩ : BufTy).Contents (Elt F)),
    binary main_v128 main_v135 main_v136 (addf : (⟨S8x2048x64, .f32⟩ : BufTy).Contents (Elt F) → (⟨S8x2048x64, .f32⟩ : BufTy).Contents (Elt F) → (⟨S8x2048x64, .f32⟩ : BufTy).Contents (Elt F)),
    unary main_arg8 main_v137 (broadcastInDim S1x1x64 ![2] bcast_S64_S1x1x64_2 : (⟨S64, .f32⟩ : BufTy).Contents (Elt F) → (⟨S1x1x64, .f32⟩ : BufTy).Contents (Elt F)),
    unary main_v137 main_v138 (broadcastInDim S8x2048x64 ![0, 1, 2] bcast_S1x1x64_S8x2048x64_0_1_2 : (⟨S1x1x64, .f32⟩ : BufTy).Contents (Elt F) → (⟨S8x2048x64, .f32⟩ : BufTy).Contents (Elt F)),
    binary main_v136 main_v138 main_v139 (addf : (⟨S8x2048x64, .f32⟩ : BufTy).Contents (Elt F) → (⟨S8x2048x64, .f32⟩ : BufTy).Contents (Elt F) → (⟨S8x2048x64, .f32⟩ : BufTy).Contents (Elt F)),
    binary main_v139 main_v139 main_v140 (mulf : (⟨S8x2048x64, .f32⟩ : BufTy).Contents (Elt F) → (⟨S8x2048x64, .f32⟩ : BufTy).Contents (Elt F) → (⟨S8x2048x64, .f32⟩ : BufTy).Contents (Elt F)),
    nullary main_cst_26 (constant S_ .f32 0x00000000#32),
    binary main_v140 main_cst_26 main_v141 ((fun x v => Host.reduceAdd x v reducesTo_S8x2048x64_S8x2048_d2 h_S_) : (⟨S8x2048x64, .f32⟩ : BufTy).Contents (Elt F) → (⟨S_, .f32⟩ : BufTy).Contents (Elt F) → (⟨S8x2048, .f32⟩ : BufTy).Contents (Elt F)),
    unary main_v141 main_v142 (broadcastInDim S8x2048x1 ![0, 1] bcast_S8x2048_S8x2048x1_0_1 : (⟨S8x2048, .f32⟩ : BufTy).Contents (Elt F) → (⟨S8x2048x1, .f32⟩ : BufTy).Contents (Elt F)),
    unary main_v142 main_v143 (Host.sqrt : (⟨S8x2048x1, .f32⟩ : BufTy).Contents (Elt F) → (⟨S8x2048x1, .f32⟩ : BufTy).Contents (Elt F)),
    nullary main_cst_27 (constant S_ .f32 0x2B8CBCCC#32),
    unary main_cst_27 main_v144 (broadcastInDim S8x2048x1 ![] bcast_S_S8x2048x1 : (⟨S_, .f32⟩ : BufTy).Contents (Elt F) → (⟨S8x2048x1, .f32⟩ : BufTy).Contents (Elt F)),
    binary main_v143 main_v144 main_v145 (maximumf : (⟨S8x2048x1, .f32⟩ : BufTy).Contents (Elt F) → (⟨S8x2048x1, .f32⟩ : BufTy).Contents (Elt F) → (⟨S8x2048x1, .f32⟩ : BufTy).Contents (Elt F)),
    unary main_v145 main_v146 (broadcastInDim S8x2048x64 ![0, 1, 2] bcast_S8x2048x1_S8x2048x64_0_1_2 : (⟨S8x2048x1, .f32⟩ : BufTy).Contents (Elt F) → (⟨S8x2048x64, .f32⟩ : BufTy).Contents (Elt F)),
    binary main_v139 main_v146 main_v147 (Host.divf : (⟨S8x2048x64, .f32⟩ : BufTy).Contents (Elt F) → (⟨S8x2048x64, .f32⟩ : BufTy).Contents (Elt F) → (⟨S8x2048x64, .f32⟩ : BufTy).Contents (Elt F)) ]

abbrev ops7_W : List (Ref sig .tc) := [main_cst_22, main_v112, main_cst_23, main_v113, main_v114, main_v115, main_v116, main_v117, main_v118, main_v119, main_v120, main_cst_24, main_v121, main_v122, main_v123, main_v124, main_v125, main_v126, main_v127, main_v128, main_cst_25, main_v129, main_v130, main_v131, main_v132, main_v133, main_v134, main_v135, main_v136, main_v137, main_v138, main_v139, main_v140, main_cst_26, main_v141, main_v142, main_v143, main_cst_27, main_v144, main_v145, main_v146, main_v147]
theorem ops7_writes : (ops7 : List (HloOp τ sig (Elt F))).Forall fun op => op.writes ⊆ (ops7_W.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

abbrev ops8 : List (HloOp τ sig (Elt F)) :=
  [ nullary main_cst_28 (constant S_ .f32 0xFF800000#32),
    binary main_v147 main_cst_28 main_v148 ((fun x v => Host.reduce FloatOps.maximumf x v reducesTo_S8x2048x64_S8x64_d1 h_S_) : (⟨S8x2048x64, .f32⟩ : BufTy).Contents (Elt F) → (⟨S_, .f32⟩ : BufTy).Contents (Elt F) → (⟨S8x64, .f32⟩ : BufTy).Contents (Elt F)) ]

abbrev ops8_W : List (Ref sig .tc) := [main_cst_28, main_v148]
theorem ops8_writes : (ops8 : List (HloOp τ sig (Elt F))).Forall fun op => op.writes ⊆ (ops8_W.map (Proc.devRef (τ := τ) .tc)).toFinset := by
  simp only [List.Forall]; exact ⟨by writes_mem, by writes_mem⟩

abbrev ops9 : List (HloOp τ sig (Elt F)) :=
  [ nary ![main_v55, main_v111, main_v148] main_v149 (fun u => concatenate S8x192 1 [⟨S8x64, u 0⟩, ⟨S8x64, u 1⟩, ⟨S8x64, u 2⟩] concatenates_S8x64_S8x64_S8x64_S8x192_d1),
    binary main_v149 main_arg9 main_v150 ((fun l r => Host.dotGeneral dot_S8x192_S192x64_S8x64_1_0_0_1_n_n none l r) : (⟨S8x192, .f32⟩ : BufTy).Contents (Elt F) → (⟨S192x64, .f32⟩ : BufTy).Contents (Elt F) → (⟨S8x64, .f32⟩ : BufTy).Contents (Elt F)),
    unary main_arg10 main_v151 (broadcastInDim S1x64 ![1] bcast_S64_S1x64_1 : (⟨S64, .f32⟩ : BufTy).Contents (Elt F) → (⟨S1x64, .f32⟩ : BufTy).Contents (Elt F)),
    unary main_v151 main_v152 (broadcastInDim S8x64 ![0, 1] bcast_S1x64_S8x64_0_1 : (⟨S1x64, .f32⟩ : BufTy).Contents (Elt F) → (⟨S8x64, .f32⟩ : BufTy).Contents (Elt F)),
    binary main_v150 main_v152 main_v153 (addf : (⟨S8x64, .f32⟩ : BufTy).Contents (Elt F) → (⟨S8x64, .f32⟩ : BufTy).Contents (Elt F) → (⟨S8x64, .f32⟩ : BufTy).Contents (Elt F)) ]

abbrev ops9_W : List (Ref sig .tc) := [main_v149, main_v150, main_v151, main_v152, main_v153]
theorem ops9_writes : (ops9 : List (HloOp τ sig (Elt F))).Forall fun op => op.writes ⊆ (ops9_W.map (Proc.devRef (τ := τ) .tc)).toFinset := by
  simp only [List.Forall]; exact ⟨by writes_mem, by writes_mem, by writes_mem, by writes_mem, by writes_mem⟩

end Cert.ReferenceIdeal.Hand

namespace Cert.ReferenceIdeal.ValueP

open Cert.ReferenceIdeal Cert.ReferenceIdeal.Gen Cert.ReferenceIdeal.Hand Idealize.ShloMosaic Idealize.ShloMosaic.TcCoe Idealize.SL.Sem Idealize.ShloMosaic.StableHlo

variable {F : FTy → Type} [FloatOps F]

abbrev ops : List (HloOp τ sig (Elt F)) := ops1 ++ (ops2 ++ (ops3 ++ (ops4 ++ (ops5 ++ (ops6 ++ (ops7 ++ (ops8 ++ ops9)))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., nullary_bufs_sub .., unary_bufs_sub .., binary_bufs_sub .., unary_bufs_sub .., binary_bufs_sub .., unary_bufs_sub .., reshape_bufs_sub .., binary_bufs_sub .., binary_bufs_sub .., nullary_bufs_sub .., unary_bufs_sub .., binary_bufs_sub .., unary_bufs_sub .., binary_bufs_sub .., unary_bufs_sub .., reshape_bufs_sub .., binary_bufs_sub .., binary_bufs_sub .., nullary_bufs_sub .., unary_bufs_sub .., binary_bufs_sub .., unary_bufs_sub .., binary_bufs_sub .., unary_bufs_sub .., reshape_bufs_sub .., binary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., nullary_bufs_sub .., unary_bufs_sub .., binary_bufs_sub .., unary_bufs_sub .., binary_bufs_sub .., unary_bufs_sub .., reshape_bufs_sub .., binary_bufs_sub .., binary_bufs_sub .., nullary_bufs_sub .., unary_bufs_sub .., binary_bufs_sub .., unary_bufs_sub .., binary_bufs_sub .., unary_bufs_sub .., reshape_bufs_sub .., binary_bufs_sub .., binary_bufs_sub .., nullary_bufs_sub .., unary_bufs_sub .., binary_bufs_sub .., unary_bufs_sub .., binary_bufs_sub .., unary_bufs_sub .., reshape_bufs_sub .., binary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., nullary_bufs_sub .., unary_bufs_sub .., binary_bufs_sub .., unary_bufs_sub .., binary_bufs_sub .., unary_bufs_sub .., reshape_bufs_sub .., binary_bufs_sub .., binary_bufs_sub .., nullary_bufs_sub .., unary_bufs_sub .., binary_bufs_sub .., unary_bufs_sub .., binary_bufs_sub .., unary_bufs_sub .., reshape_bufs_sub .., binary_bufs_sub .., binary_bufs_sub .., nullary_bufs_sub .., unary_bufs_sub .., binary_bufs_sub .., unary_bufs_sub .., binary_bufs_sub .., unary_bufs_sub .., reshape_bufs_sub .., binary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., binary_bufs_sub .., nary_bufs_sub .., binary_bufs_sub .., unary_bufs_sub .., unary_bufs_sub .., binary_bufs_sub ..⟩
theorem ops_split : (ops : List (HloOp τ sig (Elt F))) = ops1 ++ (ops2 ++ (ops3 ++ (ops4 ++ (ops5 ++ (ops6 ++ (ops7 ++ (ops8 ++ ops9))))))) := rfl

end Cert.ReferenceIdeal.ValueP

end
-- ==== Proof.RefRun.lean ====
import proofs.«149576_j9002251452429_1_alg».proof.Proof.RefRunOps
import proofs.«149576_j9002251452429_1_alg».proof.Proof.RefReadBase
import Idealize.ShloMosaic.Lib.StableHlo.Run
import Idealize.ShloMosaic.Lib.Pipeline.Frame

noncomputable section

namespace Cert.ReferenceIdeal.Hand

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

local notation "⟪" r "⟫" => Proc.devRef (τ := τ) Proc.tc r

theorem keep {W : List (Ref sig .tc)} (l : List (HloOp τ sig (Elt F))) (V : Valuation τ sig (Elt F))
    (hW : l.Forall fun op => op.writes ⊆ (W.map (Proc.devRef (τ := τ) .tc)).toFinset) {r : Ref sig .tc} (hr : r ∉ W) :
    after l V ⟪r⟫ = V ⟪r⟫ :=
  after_of_writes_sub l V hW hr

theorem stretch1 (V : Valuation τ sig (Elt F)) x0 x1 x3 x4
    (h0 : V ⟪main_arg0⟫ = x0) (h1 : V ⟪main_arg1⟫ = x1) (h3 : V ⟪main_arg3⟫ = x3) (h4 : V ⟪main_arg4⟫ = x4) :
    after ops1 V ⟪main_v35⟫ = val_main_v35 (F := F) x0 x1 x3 x4 := by
  subst h0 h1 h3 h4
  after_results_simp
  rfl

theorem stretch2 (V : Valuation τ sig (Elt F)) x0 x1 x3 x4
    (h35 : V ⟪main_v35⟫ = val_main_v35 (F := F) x0 x1 x3 x4) :
    after ops2 V ⟪main_v54⟫ = val_main_v54 (F := F) x0 x1 x3 x4 := by
  after_results_simp
  rw [h35]
  rfl

theorem stretch3 (V : Valuation τ sig (Elt F)) x0 x1 x3 x4
    (h54 : V ⟪main_v54⟫ = val_main_v54 (F := F) x0 x1 x3 x4) :
    after ops3 V ⟪main_v55⟫ = val_main_v55 (F := F) x0 x1 x3 x4 := by
  after_results_simp
  rw [h54]
  rfl

theorem stretch4 (V : Valuation τ sig (Elt F)) x0 x1 x2 x3 x4 x5 x6
    (h54 : V ⟪main_v54⟫ = val_main_v54 (F := F) x0 x1 x3 x4)
    (h2 : V ⟪main_arg2⟫ = x2) (h5 : V ⟪main_arg5⟫ = x5) (h6 : V ⟪main_arg6⟫ = x6) :
    after ops4 V ⟪main_v91⟫ = val_main_v91 (F := F) x0 x1 x2 x3 x4 x5 x6 := by
  subst h2 h5 h6
  after_results_simp
  rw [h54]
  rfl

theorem stretch5 (V : Valuation τ sig (Elt F)) x0 x1 x2 x3 x4 x5 x6
    (h91 : V ⟪main_v91⟫ = val_main_v91 (F := F) x0 x1 x2 x3 x4 x5 x6) :
    after ops5 V ⟪main_v110⟫ = val_main_v110 (F := F) x0 x1 x2 x3 x4 x5 x6 := by
  after_results_simp
  rw [h91]
  rfl

theorem stretch6 (V : Valuation τ sig (Elt F)) x0 x1 x2 x3 x4 x5 x6
    (h110 : V ⟪main_v110⟫ = val_main_v110 (F := F) x0 x1 x2 x3 x4 x5 x6) :
    after ops6 V ⟪main_v111⟫ = val_main_v111 (F := F) x0 x1 x2 x3 x4 x5 x6 := by
  after_results_simp
  rw [h110]
  rfl

theorem stretch7 (V : Valuation τ sig (Elt F)) x0 x1 x2 x3 x4 x5 x6 x7 x8
    (h110 : V ⟪main_v110⟫ = val_main_v110 (F := F) x0 x1 x2 x3 x4 x5 x6)
    (h2 : V ⟪main_arg2⟫ = x2) (h7 : V ⟪main_arg7⟫ = x7) (h8 : V ⟪main_arg8⟫ = x8) :
    after ops7 V ⟪main_v147⟫ = val_main_v147 (F := F) x0 x1 x2 x3 x4 x5 x6 x7 x8 := by
  subst h2 h7 h8
  after_results_simp
  rw [h110]
  rfl

theorem stretch8 (V : Valuation τ sig (Elt F)) x0 x1 x2 x3 x4 x5 x6 x7 x8
    (h147 : V ⟪main_v147⟫ = val_main_v147 (F := F) x0 x1 x2 x3 x4 x5 x6 x7 x8) :
    after ops8 V ⟪main_v148⟫ = val_main_v148 (F := F) x0 x1 x2 x3 x4 x5 x6 x7 x8 := by
  after_results_simp
  rw [h147]
  rfl

theorem stretch9_out (V : Valuation τ sig (Elt F)) x0 x1 x2 x3 x4 x5 x6 x7 x8
    (h55 : V ⟪main_v55⟫ = val_main_v55 (F := F) x0 x1 x3 x4)
    (h111 : V ⟪main_v111⟫ = val_main_v111 (F := F) x0 x1 x2 x3 x4 x5 x6)
    (h148 : V ⟪main_v148⟫ = val_main_v148 (F := F) x0 x1 x2 x3 x4 x5 x6 x7 x8) :
    after ops9 V ⟪main_v149⟫ = val_main_v149 (F := F) x0 x1 x2 x3 x4 x5 x6 x7 x8 := by
  after_results_simp
  unfold val_main_v149
  rw [← h55, ← h111, ← h148]
  rfl

theorem stretch9_pred (V : Valuation τ sig (Elt F)) x0 x1 x2 x3 x4 x5 x6 x7 x8 x9 x10
    (h55 : V ⟪main_v55⟫ = val_main_v55 (F := F) x0 x1 x3 x4)
    (h111 : V ⟪main_v111⟫ = val_main_v111 (F := F) x0 x1 x2 x3 x4 x5 x6)
    (h148 : V ⟪main_v148⟫ = val_main_v148 (F := F) x0 x1 x2 x3 x4 x5 x6 x7 x8)
    (h9 : V ⟪main_arg9⟫ = x9) (h10 : V ⟪main_arg10⟫ = x10) :
    after ops9 V ⟪main_v153⟫ = val_main_v153 (F := F) x0 x1 x2 x3 x4 x5 x6 x7 x8 x9 x10 := by
  subst h9 h10
  after_results_simp
  unfold val_main_v153 val_main_v150 val_main_v149
  rw [← h55, ← h111, ← h148]
  rfl

section Keep

variable (V : Valuation τ sig (Elt F)) {r : Ref sig .tc}

theorem keep3 (g1 : r ∉ ops1_W) (g2 : r ∉ ops2_W) (g3 : r ∉ ops3_W) :
    after ops3 (after ops2 (after ops1 V)) ⟪r⟫ = V ⟪r⟫ :=
  (keep ops3 _ ops3_writes g3).trans ((keep ops2 _ ops2_writes g2).trans (keep ops1 _ ops1_writes g1))

theorem keep6 (g1 : r ∉ ops1_W) (g2 : r ∉ ops2_W) (g3 : r ∉ ops3_W) (g4 : r ∉ ops4_W) (g5 : r ∉ ops5_W) (g6 : r ∉ ops6_W) :
    after ops6 (after ops5 (after ops4 (after ops3 (after ops2 (after ops1 V))))) ⟪r⟫ = V ⟪r⟫ :=
  (keep ops6 _ ops6_writes g6).trans ((keep ops5 _ ops5_writes g5).trans ((keep ops4 _ ops4_writes g4).trans (keep3 V g1 g2 g3)))

theorem keep8 (g1 : r ∉ ops1_W) (g2 : r ∉ ops2_W) (g3 : r ∉ ops3_W) (g4 : r ∉ ops4_W) (g5 : r ∉ ops5_W) (g6 : r ∉ ops6_W)
    (g7 : r ∉ ops7_W) (g8 : r ∉ ops8_W) :
    after ops8 (after ops7 (after ops6 (after ops5 (after ops4 (after ops3 (after ops2 (after ops1 V))))))) ⟪r⟫ = V ⟪r⟫ :=
  (keep ops8 _ ops8_writes g8).trans ((keep ops7 _ ops7_writes g7).trans (keep6 V g1 g2 g3 g4 g5 g6))

theorem after_ops :
    after ops V = after ops9 (after ops8 (after ops7 (after ops6 (after ops5 (after ops4 (after ops3 (after ops2 (after ops1 V)))))))) := by
  rw [ops_split]
  simp only [StableHlo.after_append]

theorem keep_all (g1 : r ∉ ops1_W) (g2 : r ∉ ops2_W) (g3 : r ∉ ops3_W) (g4 : r ∉ ops4_W) (g5 : r ∉ ops5_W) (g6 : r ∉ ops6_W)
    (g7 : r ∉ ops7_W) (g8 : r ∉ ops8_W) (g9 : r ∉ ops9_W) :
    after ops V ⟪r⟫ = V ⟪r⟫ := by
  rw [after_ops]
  exact (keep ops9 _ ops9_writes g9).trans (keep8 V g1 g2 g3 g4 g5 g6 g7 g8)

end Keep

theorem run_results (V : Valuation τ sig (Elt F)) x0 x1 x2 x3 x4 x5 x6 x7 x8 x9 x10
    (h0 : V ⟪main_arg0⟫ = x0) (h1 : V ⟪main_arg1⟫ = x1) (h2 : V ⟪main_arg2⟫ = x2) (h3 : V ⟪main_arg3⟫ = x3)
    (h4 : V ⟪main_arg4⟫ = x4) (h5 : V ⟪main_arg5⟫ = x5) (h6 : V ⟪main_arg6⟫ = x6) (h7 : V ⟪main_arg7⟫ = x7)
    (h8 : V ⟪main_arg8⟫ = x8) (h9 : V ⟪main_arg9⟫ = x9) (h10 : V ⟪main_arg10⟫ = x10) :
    after ops V ⟪main_v149⟫ = val_main_v149 (F := F) x0 x1 x2 x3 x4 x5 x6 x7 x8
      ∧ after ops V ⟪main_v153⟫ = val_main_v153 (F := F) x0 x1 x2 x3 x4 x5 x6 x7 x8 x9 x10 := by
  rw [after_ops]
  have e35 := stretch1 V x0 x1 x3 x4 h0 h1 h3 h4
  have e54 := stretch2 _ x0 x1 x3 x4 e35
  have e55 := stretch3 _ x0 x1 x3 x4 e54
  have e54' := (keep ops3 _ ops3_writes (r := main_v54) (by decide)).trans e54
  have e91 := stretch4 _ x0 x1 x2 x3 x4 x5 x6 e54' ((keep3 V (by decide) (by decide) (by decide)).trans h2)
    ((keep3 V (by decide) (by decide) (by decide)).trans h5) ((keep3 V (by decide) (by decide) (by decide)).trans h6)
  have e55_4 := (keep ops4 _ ops4_writes (r := main_v55) (by decide)).trans e55
  have e110 := stretch5 _ x0 x1 x2 x3 x4 x5 x6 e91
  have e55_5 := (keep ops5 _ ops5_writes (r := main_v55) (by decide)).trans e55_4
  have e111 := stretch6 _ x0 x1 x2 x3 x4 x5 x6 e110
  have e110' := (keep ops6 _ ops6_writes (r := main_v110) (by decide)).trans e110
  have e55_6 := (keep ops6 _ ops6_writes (r := main_v55) (by decide)).trans e55_5
  have e147 := stretch7 _ x0 x1 x2 x3 x4 x5 x6 x7 x8 e110'
    ((keep6 V (by decide) (by decide) (by decide) (by decide) (by decide) (by decide)).trans h2)
    ((keep6 V (by decide) (by decide) (by decide) (by decide) (by decide) (by decide)).trans h7)
    ((keep6 V (by decide) (by decide) (by decide) (by decide) (by decide) (by decide)).trans h8)
  have e55_7 := (keep ops7 _ ops7_writes (r := main_v55) (by decide)).trans e55_6
  have e111_7 := (keep ops7 _ ops7_writes (r := main_v111) (by decide)).trans e111
  have e148 := stretch8 _ x0 x1 x2 x3 x4 x5 x6 x7 x8 e147
  have e55_8 := (keep ops8 _ ops8_writes (r := main_v55) (by decide)).trans e55_7
  have e111_8 := (keep ops8 _ ops8_writes (r := main_v111) (by decide)).trans e111_7
  exact ⟨stretch9_out _ x0 x1 x2 x3 x4 x5 x6 x7 x8 e55_8 e111_8 e148,
    stretch9_pred _ x0 x1 x2 x3 x4 x5 x6 x7 x8 x9 x10 e55_8 e111_8 e148
      ((keep8 V (by decide) (by decide) (by decide) (by decide) (by decide) (by decide) (by decide) (by decide)).trans h9)
      ((keep8 V (by decide) (by decide) (by decide) (by decide) (by decide) (by decide) (by decide) (by decide)).trans h10)⟩

theorem ops_fresh : ∀ op ∈ (ops : List (HloOp τ sig (Elt F))), op.fresh = ∅ := by
  have h : (ops : List (HloOp τ sig (Elt F))).Forall fun op => op.fresh = ∅ := by
    simp only [ops, ops1, ops2, ops3, ops4, ops5, ops6, ops7, ops8, ops9, List.cons_append, List.nil_append, List.Forall]; repeat' constructor
  exact List.forall_iff_forall_mem.1 h

theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v149) = val_main_v149 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v153) = val_main_v153 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run (defs (F := Ideal)) _ _).mono (fun r h c => ?_)
    (run_seq scopedRefs_eq scopedSems_eq defs main (fun _ => ops) main_eq (fun _ => ops_sub) m ρ (fun _ => ops_fresh))
  have hr := run_results (F := Ideal) (launchContents m c) _ _ _ _ _ _ _ _ _ _ _ rfl rfl rfl rfl rfl rfl rfl rfl rfl rfl rfl
  have hk : ∀ {b : Ref sig .tc}, b ∉ ops1_W → b ∉ ops2_W → b ∉ ops3_W → b ∉ ops4_W → b ∉ ops5_W → b ∉ ops6_W → b ∉ ops7_W →
      b ∉ ops8_W → b ∉ ops9_W → r.2.mem ((c.tc : Thread nD τ).loc b) = m ((c.tc : Thread nD τ).loc b) :=
    fun g1 g2 g3 g4 g5 g6 g7 g8 g9 => (h c _).trans (keep_all (launchContents m c) g1 g2 g3 g4 g5 g6 g7 g8 g9)
  exact ⟨(h c main_v149).trans hr.1, (h c main_v153).trans hr.2,
    hk (by decide) (by decide) (by decide) (by decide) (by decide) (by decide) (by decide) (by decide) (by decide),
    hk (by decide) (by decide) (by decide) (by decide) (by decide) (by decide) (by decide) (by decide) (by decide),
    hk (by decide) (by decide) (by decide) (by decide) (by decide) (by decide) (by decide) (by decide) (by decide),
    hk (by decide) (by decide) (by decide) (by decide) (by decide) (by decide) (by decide) (by decide) (by decide),
    hk (by decide) (by decide) (by decide) (by decide) (by decide) (by decide) (by decide) (by decide) (by decide),
    hk (by decide) (by decide) (by decide) (by decide) (by decide) (by decide) (by decide) (by decide) (by decide),
    hk (by decide) (by decide) (by decide) (by decide) (by decide) (by decide) (by decide) (by decide) (by decide),
    hk (by decide) (by decide) (by decide) (by decide) (by decide) (by decide) (by decide) (by decide) (by decide),
    hk (by decide) (by decide) (by decide) (by decide) (by decide) (by decide) (by decide) (by decide) (by decide),
    hk (by decide) (by decide) (by decide) (by decide) (by decide) (by decide) (by decide) (by decide) (by decide),
    hk (by decide) (by decide) (by decide) (by decide) (by decide) (by decide) (by decide) (by decide) (by decide)⟩

end Cert.ReferenceIdeal.Hand

end
-- ==== Proof.RefFinal.lean ====
import proofs.«149576_j9002251452429_1_alg».proof.Proof.RefVal
import proofs.«149576_j9002251452429_1_alg».proof.Proof.RefRun

noncomputable section

namespace Cert.ReferenceIdeal.Hand

open Idealize.ShloMosaic Idealize.ShloMosaic.TcCoe Idealize.SL.Sem Idealize.ShloMosaic.StableHlo
open Cert.ReferenceIdeal Cert.ReferenceIdeal.Gen Cert.ReferenceIdeal.ReadP
open Cert.GraphConv (netOut headPred)

section Launch
variable (m : (ℓ : Loc nD τ sig) → Buf (Elt Ideal) ℓ) (c : Dev nD)

abbrev arg0 : TX := m ((c.tc : Thread nD τ).loc main_arg0)
abbrev arg1 : TI := m ((c.tc : Thread nD τ).loc main_arg1)
abbrev arg2 : TR := m ((c.tc : Thread nD τ).loc main_arg2)
abbrev arg3 : TW1 := m ((c.tc : Thread nD τ).loc main_arg3)
abbrev arg4 : TB := m ((c.tc : Thread nD τ).loc main_arg4)
abbrev arg5 : TW := m ((c.tc : Thread nD τ).loc main_arg5)
abbrev arg6 : TB := m ((c.tc : Thread nD τ).loc main_arg6)
abbrev arg7 : TW := m ((c.tc : Thread nD τ).loc main_arg7)
abbrev arg8 : TB := m ((c.tc : Thread nD τ).loc main_arg8)
abbrev arg9 : TM := m ((c.tc : Thread nD τ).loc main_arg9)
abbrev arg10 : TB := m ((c.tc : Thread nD τ).loc main_arg10)

abbrev netAt : FVec Ideal Cert.GraphConv.S8x192 .f32 :=
  netOut (G1 (arg0 m c) (arg1 m c) (arg3 m c) (arg4 m c))
    (G2 (arg0 m c) (arg1 m c) (arg2 m c) (arg3 m c) (arg4 m c) (arg5 m c) (arg6 m c))
    (G3 (arg0 m c) (arg1 m c) (arg2 m c) (arg3 m c) (arg4 m c) (arg5 m c) (arg6 m c) (arg7 m c) (arg8 m c))

end Launch

theorem ref_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v149) = netAt m c
      ∧ r.2.mem ((c.tc : Thread nD τ).loc main_v153) = headPred (netAt m c) (arg9 m c) (arg10 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono
    (fun _ h c => ⟨(h c).1.trans (ref_out0 _ _ _ _ _ _ _ _ _), (h c).2.1.trans (ref_out1 _ _ _ _ _ _ _ _ _ _ _), (h c).2.2⟩)
    (ref_run m ρ)

end Cert.ReferenceIdeal.Hand

end
-- ==== Proof.SpecLaws.lean ====
import proofs.«149576_j9002251452429_1_alg».proof.Proof.Spec
import proofs.«149576_j9002251452429_1_alg».proof.Proof.HostFns
import Mathlib.Data.EReal.Inv
import Mathlib.Data.EReal.Operations
import Mathlib.Analysis.Real.Sqrt
import Mathlib.Algebra.BigOperators.Group.Finset.Basic
import Mathlib.Algebra.BigOperators.Ring.Finset
import Mathlib.Algebra.Order.BigOperators.Group.Finset

noncomputable section

namespace Cert.GraphConv

open Idealize.ShloMosaic

def IsNN (x : EReal) : Prop := ∃ r : ℝ, 0 ≤ r ∧ x = (r : EReal)

def IsPos (x : EReal) : Prop := ∃ r : ℝ, 0 < r ∧ x = (r : EReal)

theorem IsNN.isR {a : EReal} (h : IsNN a) : IsR a := let ⟨r, _, e⟩ := h; ⟨r, e⟩

theorem IsPos.isR {a : EReal} (h : IsPos a) : IsR a := let ⟨r, _, e⟩ := h; ⟨r, e⟩

theorem isR_zero : IsR 0 := ⟨0, rfl⟩

theorem isR_one : IsR 1 := ⟨1, rfl⟩

theorem isNN_zero : IsNN 0 := ⟨0, le_rfl, rfl⟩

theorem IsR.add {a b : EReal} (ha : IsR a) (hb : IsR b) : IsR (a + b) := by
  obtain ⟨r, rfl⟩ := ha; obtain ⟨s, rfl⟩ := hb; exact ⟨r + s, (EReal.coe_add r s).symm⟩

theorem IsR.sub {a b : EReal} (ha : IsR a) (hb : IsR b) : IsR (a - b) := by
  obtain ⟨r, rfl⟩ := ha; obtain ⟨s, rfl⟩ := hb; exact ⟨r - s, (EReal.coe_sub r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.max {a b : EReal} (ha : IsR a) (hb : IsR b) : IsR (max a b) := by
  rcases le_total a b with h | h
  · rw [max_eq_right h]; exact hb
  · rw [max_eq_left h]; exact ha

theorem IsNN.add {a b : EReal} (ha : IsNN a) (hb : IsNN b) : IsNN (a + b) := by
  obtain ⟨r, hr, rfl⟩ := ha; obtain ⟨s, hs, rfl⟩ := hb
  exact ⟨r + s, add_nonneg hr hs, (EReal.coe_add r s).symm⟩

theorem IsNN.add_pos {a b : EReal} (ha : IsNN a) (hb : IsPos b) : IsPos (a + b) := by
  obtain ⟨r, hr, rfl⟩ := ha; obtain ⟨s, hs, rfl⟩ := hb
  exact ⟨r + s, add_pos_of_nonneg_of_pos hr hs, (EReal.coe_add r s).symm⟩

theorem isNN_mul_self {a : EReal} (ha : IsR a) : IsNN (a * a) := by
  obtain ⟨r, rfl⟩ := ha; exact ⟨r * r, mul_self_nonneg r, (EReal.coe_mul r r).symm⟩

theorem isPos_max_right {a b : EReal} (ha : IsR a) (hb : IsPos b) : IsPos (max a b) := by
  obtain ⟨r, rfl⟩ := ha; obtain ⟨s, hs, rfl⟩ := hb
  rcases le_total (r : EReal) (s : EReal) with h | h
  · rw [max_eq_right h]; exact ⟨s, hs, rfl⟩
  · rw [max_eq_left h]; exact ⟨r, lt_of_lt_of_le hs (EReal.coe_le_coe_iff.1 h), rfl⟩

theorem isR_sum {ι : Type} (s : Finset ι) (f : ι → EReal) (h : ∀ i ∈ s, IsR (f i)) : IsR (∑ i ∈ s, f i) := by
  classical
  induction s using Finset.induction_on with
  | empty => rw [Finset.sum_empty]; exact isR_zero
  | insert a s ha ih =>
    rw [Finset.sum_insert ha]
    exact (h a (Finset.mem_insert_self a s)).add (ih fun i hi => h i (Finset.mem_insert_of_mem hi))

theorem isNN_sum {ι : Type} (s : Finset ι) (f : ι → EReal) (h : ∀ i ∈ s, IsNN (f i)) : IsNN (∑ i ∈ s, f i) := by
  classical
  induction s using Finset.induction_on with
  | empty => rw [Finset.sum_empty]; exact isNN_zero
  | insert a s ha ih =>
    rw [Finset.sum_insert ha]
    exact (h a (Finset.mem_insert_self a s)).add (ih fun i hi => h i (Finset.mem_insert_of_mem hi))

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isR_div_pos {a b : EReal} (ha : IsR a) (hb : IsPos b) : IsR (Ideal.div a b) := by
  obtain ⟨r, rfl⟩ := ha; obtain ⟨s, hs, rfl⟩ := hb
  rw [Ideal.div_coe hs.ne']; exact ⟨r * (1 / s), (EReal.coe_mul r (1 / s)).symm⟩

theorem isNN_div_pos {a b : EReal} (ha : IsNN a) (hb : IsPos b) : IsNN (Ideal.div a b) := by
  obtain ⟨r, hr, rfl⟩ := ha; obtain ⟨s, hs, rfl⟩ := hb
  rw [Ideal.div_coe hs.ne']
  exact ⟨r * (1 / s), mul_nonneg hr (one_div_pos.2 hs).le, (EReal.coe_mul r (1 / s)).symm⟩

theorem isR_sqrt_nn {a : EReal} (ha : IsNN a) : IsR (Ideal.sqrt a) := by
  obtain ⟨r, hr, rfl⟩ := ha
  rw [Ideal.sqrt_coe, if_neg (not_lt.2 hr)]; exact ⟨Real.sqrt r, rfl⟩

theorem isR_rsqrt_pos {a : EReal} (ha : IsPos a) : IsR (Ideal.rsqrt a) := by
  obtain ⟨r, hr, rfl⟩ := ha
  rw [Ideal.rsqrt_coe, if_neg (not_lt.2 hr.le), if_neg hr.ne']; exact ⟨(Real.sqrt r)⁻¹, rfl⟩

theorem isPos_512 : IsPos (Ideal.ofBits .f32 0x44000000#32) := by
  refine ⟨512, by norm_num, ?_⟩
  simp [Ideal.ofBits, Ideal.ieee, -EReal.coe_mul]
  norm_num

theorem isPos_bnEps : IsPos (Ideal.ofBits .f32 0x3727C5AC#32) := by
  unfold IsPos
  simp [Ideal.ofBits, Ideal.ieee, -EReal.coe_mul]

theorem isPos_epsNorm : IsPos epsNorm := by
  unfold IsPos epsNorm
  simp [Ideal.ofBits, Ideal.ieee, -EReal.coe_mul]

theorem isR_ind (v k : EReal) : IsR (ind v k) := by
  unfold ind
  split
  · exact isR_one
  · exact isR_zero

theorem sum_assoc_real {J D : Type} [Fintype J] [Fintype D] (M : J → ℝ) (X : J → D → ℝ) (W : D → ℝ) :
    (∑ j, M j * ∑ d, X j d * W d) = ∑ d, (∑ j, M j * X j d) * W d := by
  simp only [Finset.mul_sum, Finset.sum_mul]
  rw [Finset.sum_comm]
  exact Finset.sum_congr rfl fun d _ => Finset.sum_congr rfl fun j _ => (mul_assoc _ _ _).symm

theorem accK_eq_accR {J D : Type} [Fintype J] [Fintype D] (m : Fin 3 → J → EReal) (x : J → D → EReal)
    (w : Fin 3 → D → EReal) (bias : EReal) (hm : ∀ r j, IsR (m r j)) (hx : ∀ j d, IsR (x j d))
    (hw : ∀ r d, IsR (w r d)) : accK m x w bias = accR m x w bias := by
  choose M hM using hm
  choose X hX using hx
  choose W hW using hw
  have key : ∀ r : Fin 3, (∑ j, m r j * ∑ d, x j d * w r d) = ∑ d, (∑ j, m r j * x j d) * w r d := by
    intro r
    simp only [hM, hX, hW, ← EReal.coe_mul, ← coe_sum]
    rw [sum_assoc_real]
  unfold accK accR
  rw [key 0, key 1, key 2]

theorem layerK_eq_layerR {D : ℕ} (x : Fin 8 → Fin 2048 → Fin D → EReal) (rel : Fin 8 → Fin 2048 → Fin 2048 → EReal)
    (w : Fin 3 → Fin D → Fin 64 → EReal) (b : Fin 64 → EReal)
    (hx : ∀ n j d, IsR (x n j d)) (hw : ∀ r d e, IsR (w r d e)) : layerK x rel w b = layerR x rel w b := by
  funext n i e
  unfold layerK layerR
  congr 1
  funext e'
  exact accK_eq_accR _ _ _ _ (fun r j => isR_ind _ _) (hx n) (fun r d => hw r d e')

theorem isR_accR {J D : Type} [Fintype J] [Fintype D] (m : Fin 3 → J → EReal) (x : J → D → EReal)
    (w : Fin 3 → D → EReal) (bias : EReal) (hm : ∀ r j, IsR (m r j)) (hx : ∀ j d, IsR (x j d))
    (hw : ∀ r d, IsR (w r d)) (hb : IsR bias) : IsR (accR m x w bias) := by
  have key : ∀ r : Fin 3, IsR (∑ d, (∑ j, m r j * x j d) * w r d) := fun r =>
    isR_sum _ _ fun d _ => (isR_sum _ _ fun j _ => (hm r j).mul (hx j d)).mul (hw r d)
  unfold accR
  exact (((key 0).add (key 1)).add (key 2)).add hb

theorem isR_normRow {E : Type} [Fintype E] (y : E → EReal) (hy : ∀ k, IsR (y k)) (e : E) : IsR (normRow y e) := by
  unfold normRow
  exact isR_div_pos (hy e)
    (isPos_max_right (isR_sqrt_nn (isNN_sum _ _ fun k _ => isNN_mul_self (hy k))) isPos_epsNorm)

theorem isR_layerR {D : ℕ} (x : Fin 8 → Fin 2048 → Fin D → EReal) (rel : Fin 8 → Fin 2048 → Fin 2048 → EReal)
    (w : Fin 3 → Fin D → Fin 64 → EReal) (b : Fin 64 → EReal)
    (hx : ∀ n j d, IsR (x n j d)) (hw : ∀ r d e, IsR (w r d e)) (hb : ∀ e, IsR (b e)) :
    ∀ n i e, IsR (layerR x rel w b n i e) := by
  intro n i e
  unfold layerR
  exact isR_normRow _ (fun e' => isR_accR _ _ _ _ (fun r j => isR_ind _ _) (hx n) (fun r d => hw r d e') (hb e')) e

section Arrays

variable {s t : Shape}

theorem all_broadcastInDim (P : EReal → Prop) (dims : Fin s.rank → Fin t.rank) (h : s.BroadcastsInDim t dims)
    (x : s.Idx → EReal) (hx : ∀ k, P (x k)) (j : t.Idx) : P (broadcastInDim t dims h x j) :=
  hx _

theorem isR_hostReduceAdd {axes : List (Fin s.rank)} (x : FVec Ideal s .f32) (h : s.ReducesTo axes t)
    (hx : ∀ k, IsR (x k)) (j : t.Idx) :
    IsR (Host.reduceAdd x (constant (F := Ideal) S_ .f32 0x00000000#32) h h_S_ j) := by
  show IsR (Ideal.ofBits .f32 0x00000000#32 + ∑ i ∈ Finset.univ.filter (fun i => h.drop i = j), x i)
  rw [Ideal.ofBits_zero_f32]
  exact isR_zero.add (isR_sum _ _ fun i _ => hx i)

theorem isNN_hostReduceAdd {axes : List (Fin s.rank)} (x : FVec Ideal s .f32) (h : s.ReducesTo axes t)
    (hx : ∀ k, IsNN (x k)) (j : t.Idx) :
    IsNN (Host.reduceAdd x (constant (F := Ideal) S_ .f32 0x00000000#32) h h_S_ j) := by
  show IsNN (Ideal.ofBits .f32 0x00000000#32 + ∑ i ∈ Finset.univ.filter (fun i => h.drop i = j), x i)
  rw [Ideal.ofBits_zero_f32]
  exact isNN_zero.add (isNN_sum _ _ fun i _ => hx i)

end Arrays

theorem isR_relu (y : FVec Ideal S8x2048x64 .f32) (hy : ∀ i, IsR (y i)) : ∀ i, IsR (relu y i) := by
  intro i
  show IsR (max (y i) (broadcastInDim S8x2048x64 ![] bcast_S_S8x2048x64 (constant (F := Ideal) S_ .f32 0x00000000#32) i))
  refine (hy i).max (all_broadcastInDim IsR _ _ _ (fun _ => ?_) i)
  show IsR (Ideal.ofBits .f32 0x00000000#32)
  rw [Ideal.ofBits_zero_f32]; exact isR_zero

theorem isR_meanB (h : FVec Ideal S8x2048x64 .f32) (hh : ∀ i, IsR (h i)) : ∀ k, IsR (meanB h k) := by
  intro k
  unfold meanB
  show IsR (Ideal.div _ _)
  exact isR_div_pos (all_broadcastInDim IsR _ _ _ (isR_hostReduceAdd h _ hh) k)
    (all_broadcastInDim IsPos _ _ _ (fun _ => isPos_512) k)

theorem isR_bn (h : FVec Ideal S8x2048x64 .f32) (hh : ∀ i, IsR (h i)) : ∀ i, IsR (bn h i) := by
  have hc : ∀ i, IsR (subf h (broadcastInDim S8x2048x64 ![0, 1, 2] bcast_S1x2048x1_S8x2048x64_0_1_2 (meanB h)) i) :=
    fun i => (hh i).sub (all_broadcastInDim IsR _ _ _ (isR_meanB h hh) i)
  intro i
  unfold bn
  show IsR (_ * _)
  refine (hc i).mul (all_broadcastInDim IsR _ _ _ (fun k => ?_) i)
  show IsR (Ideal.rsqrt (Ideal.div _ _ + _))
  refine isR_rsqrt_pos (IsNN.add_pos (isNN_div_pos ?_ ?_) ?_)
  · exact all_broadcastInDim IsNN _ _ _ (isNN_hostReduceAdd _ _ fun j => isNN_mul_self (hc j)) k
  · exact all_broadcastInDim IsPos _ _ _ (fun _ => isPos_512) k
  · exact all_broadcastInDim IsPos _ _ _ (fun _ => isPos_bnEps) k

theorem isR_bnrelu (y : FVec Ideal S8x2048x64 .f32) (hy : ∀ i, IsR (y i)) : ∀ i, IsR (bnrelu y i) :=
  isR_bn (relu y) (isR_relu y hy)

end Cert.GraphConv

end
-- ==== Proof.NetEq.lean ====
import proofs.«149576_j9002251452429_1_alg».proof.Proof.Layers
import proofs.«149576_j9002251452429_1_alg».proof.Proof.SpecLaws

noncomputable section

namespace Cert.GraphConv

open Idealize.ShloMosaic Idealize.ShloMosaic.ValueIdx

variable {D : ℕ}

theorem gcK_eq_gcR (x : FVec Ideal ⟨3, ![8, 2048, D]⟩ .f32) (rel : FVec Ideal S8x2048x2048 .f32)
    (w : FVec Ideal ⟨3, ![3, D, 64]⟩ .f32) (b : FVec Ideal S64 .f32)
    (hx : ∀ i, IsR (x i)) (hw : ∀ i, IsR (w i)) : gcK x rel w b = gcR x rel w b := by
  unfold gcK gcR
  rw [layerK_eq_layerR (cur3 x) (cur3 rel) (cur3 w) (cur1 b) (fun n j d => hx _) (fun r d e => hw _)]

theorem isR_gcR (x : FVec Ideal ⟨3, ![8, 2048, D]⟩ .f32) (rel : FVec Ideal S8x2048x2048 .f32)
    (w : FVec Ideal ⟨3, ![3, D, 64]⟩ .f32) (b : FVec Ideal S64 .f32)
    (hx : ∀ i, IsR (x i)) (hw : ∀ i, IsR (w i)) (hb : ∀ i, IsR (b i)) : ∀ i, IsR (gcR x rel w b i) := fun i =>
  isR_layerR (cur3 x) (cur3 rel) (cur3 w) (cur1 b) (fun n j d => hx _) (fun r d e => hw _) (fun e => hb _) (i 0) (i 1) (i 2)

theorem layer2_eq (x : FVec Ideal ⟨3, ![8, 2048, 32]⟩ .f32) (relf adj : FVec Ideal S8x2048x2048 .f32)
    (w1 : FVec Ideal ⟨3, ![3, 32, 64]⟩ .f32) (b1 : FVec Ideal S64 .f32)
    (w2 : FVec Ideal ⟨3, ![3, 64, 64]⟩ .f32) (b2 : FVec Ideal S64 .f32)
    (hx : ∀ i, IsR (x i)) (hw1 : ∀ i, IsR (w1 i)) (hb1 : ∀ i, IsR (b1 i)) (hw2 : ∀ i, IsR (w2 i)) :
    gcK (bnrelu (gcK x relf w1 b1)) adj w2 b2 = gcR (bnrelu (gcR x relf w1 b1)) adj w2 b2 := by
  rw [gcK_eq_gcR x relf w1 b1 hx hw1]
  exact gcK_eq_gcR _ adj w2 b2 (isR_bnrelu _ (isR_gcR x relf w1 b1 hx hw1 hb1)) hw2

theorem layer3_eq (x : FVec Ideal ⟨3, ![8, 2048, 32]⟩ .f32) (relf adj : FVec Ideal S8x2048x2048 .f32)
    (w1 : FVec Ideal ⟨3, ![3, 32, 64]⟩ .f32) (b1 : FVec Ideal S64 .f32)
    (w2 : FVec Ideal ⟨3, ![3, 64, 64]⟩ .f32) (b2 : FVec Ideal S64 .f32)
    (w3 : FVec Ideal ⟨3, ![3, 64, 64]⟩ .f32) (b3 : FVec Ideal S64 .f32)
    (hx : ∀ i, IsR (x i)) (hw1 : ∀ i, IsR (w1 i)) (hb1 : ∀ i, IsR (b1 i)) (hw2 : ∀ i, IsR (w2 i))
    (hb2 : ∀ i, IsR (b2 i)) (hw3 : ∀ i, IsR (w3 i)) :
    gcK (bnrelu (gcK (bnrelu (gcK x relf w1 b1)) adj w2 b2)) adj w3 b3
      = gcR (bnrelu (gcR (bnrelu (gcR x relf w1 b1)) adj w2 b2)) adj w3 b3 := by
  rw [layer2_eq x relf adj w1 b1 w2 b2 hx hw1 hb1 hw2]
  exact gcK_eq_gcR _ adj w3 b3
    (isR_bnrelu _ (isR_gcR _ adj w2 b2 (isR_bnrelu _ (isR_gcR x relf w1 b1 hx hw1 hb1)) hw2 hb2)) hw3

end Cert.GraphConv

end
-- ==== Proof.PreFinite.lean ====
import proofs.«149576_j9002251452429_1_alg».proof.Defs
import proofs.«149576_j9002251452429_1_alg».proof.Proof.Gen.Pre_finite_inputs
import proofs.«149576_j9002251452429_1_alg».proof.Proof.Gen.KernelIdeal
import proofs.«149576_j9002251452429_1_alg».proof.Proof.Spec
import Idealize.ShloMosaic.Lib.ReduceAll
import Idealize.ShloMosaic.Lib.Affine
import Idealize.ShloMosaic.Lib.ValueIdx
import Mathlib.Data.EReal.Basic

noncomputable section

namespace Cert.Proof.Pre

open Idealize.ShloMosaic Idealize.SL.Sem Cert.GraphConv

theorem ofBits_inf : Ideal.ofBits .f32 0x7F800000#32 = ⊤ := by
  simp [Ideal.ofBits, Ideal.ieee]

theorem isR_of_abs_lt (x : EReal)
    (h : Ideal.cmp .olt (max x (-x)) (Ideal.ofBits .f32 0x7F800000#32) = 1#1) : IsR x := by
  rw [ofBits_inf] at h
  induction x using EReal.rec with
  | bot => simp [Ideal.cmp] at h
  | coe r => exact ⟨r, rfl⟩
  | top => simp [Ideal.cmp] at h

instance : Subsingleton Cert.Pre_finite_inputs.S_.Idx := ⟨fun a b => funext fun d => d.elim0⟩

theorem isR_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
      (cmpf .olt (Host.absf x) (broadcastInDim s ![] hb (constant (F := Ideal) Cert.Pre_finite_inputs.S_ .f32 0x7F800000#32)))
      (constantI Cert.Pre_finite_inputs.S_ 1 1#1) hr hu j = 1#1) (i : s.Idx) : IsR (x i) :=
  isR_of_abs_lt (x i) (Host.reduce_andi_all _ _ hr hu j e i)

theorem finite_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsR ((m ((c.tc : Thread Cert.KernelIdeal.nD Cert.KernelIdeal.τ).loc Cert.KernelIdeal.main_arg0) : FVec Ideal Cert.Pre_finite_inputs.S8x2048x32 .f32) i))
    ∧ (∀ i, IsR ((m ((c.tc : Thread Cert.KernelIdeal.nD Cert.KernelIdeal.τ).loc Cert.KernelIdeal.main_arg2) : FVec Ideal Cert.Pre_finite_inputs.S8x2048x2048 .f32) i))
    ∧ (∀ i, IsR ((m ((c.tc : Thread Cert.KernelIdeal.nD Cert.KernelIdeal.τ).loc Cert.KernelIdeal.main_arg3) : FVec Ideal Cert.Pre_finite_inputs.S3x32x64 .f32) i))
    ∧ (∀ i, IsR ((m ((c.tc : Thread Cert.KernelIdeal.nD Cert.KernelIdeal.τ).loc Cert.KernelIdeal.main_arg4) : FVec Ideal Cert.Pre_finite_inputs.S64 .f32) i))
    ∧ (∀ i, IsR ((m ((c.tc : Thread Cert.KernelIdeal.nD Cert.KernelIdeal.τ).loc Cert.KernelIdeal.main_arg5) : FVec Ideal Cert.Pre_finite_inputs.S3x64x64 .f32) i))
    ∧ (∀ i, IsR ((m ((c.tc : Thread Cert.KernelIdeal.nD Cert.KernelIdeal.τ).loc Cert.KernelIdeal.main_arg6) : FVec Ideal Cert.Pre_finite_inputs.S64 .f32) i))
    ∧ (∀ i, IsR ((m ((c.tc : Thread Cert.KernelIdeal.nD Cert.KernelIdeal.τ).loc Cert.KernelIdeal.main_arg7) : FVec Ideal Cert.Pre_finite_inputs.S3x64x64 .f32) i))
    ∧ (∀ i, IsR ((m ((c.tc : Thread Cert.KernelIdeal.nD Cert.KernelIdeal.τ).loc Cert.KernelIdeal.main_arg8) : FVec Ideal Cert.Pre_finite_inputs.S64 .f32) i))
    ∧ (∀ i, IsR ((m ((c.tc : Thread Cert.KernelIdeal.nD Cert.KernelIdeal.τ).loc Cert.KernelIdeal.main_arg9) : FVec Ideal Cert.Pre_finite_inputs.S192x64 .f32) i))
    ∧ (∀ i, IsR ((m ((c.tc : Thread Cert.KernelIdeal.nD Cert.KernelIdeal.τ).loc Cert.KernelIdeal.main_arg10) : FVec Ideal Cert.Pre_finite_inputs.S64 .f32) i)) := by
  have h0 := congrFun (h c) ValueIdx.ix0
  dsimp only [Cert.Pre_finite_inputs.fn, Cert.Pre_finite_inputs.fn_part1, Cert.Pre_finite_inputs.fn_part2, andi] at h0
  simp only [IntOp.andi_eq_one] at h0
  obtain ⟨⟨⟨⟨⟨⟨⟨⟨⟨a0, a2⟩, a3⟩, a4⟩, a5⟩, a6⟩, a7⟩, a8⟩, a9⟩, a10⟩ := h0
  exact ⟨isR_of_all _ _ _ _ _ a0, isR_of_all _ _ _ _ _ a2, isR_of_all _ _ _ _ _ a3, isR_of_all _ _ _ _ _ a4,
    isR_of_all _ _ _ _ _ a5, isR_of_all _ _ _ _ _ a6, isR_of_all _ _ _ _ _ a7, isR_of_all _ _ _ _ _ a8,
    isR_of_all _ _ _ _ _ a9, isR_of_all _ _ _ _ _ a10⟩

end Cert.Proof.Pre

end
-- ==== Proof.Final.lean ====
import proofs.«149576_j9002251452429_1_alg».proof.Defs
import proofs.«149576_j9002251452429_1_alg».proof.Proof.Gen.Kernel
import proofs.«149576_j9002251452429_1_alg».proof.Proof.Gen.KernelIdeal
import proofs.«149576_j9002251452429_1_alg».proof.Proof.Gen.ReferenceIdeal
import proofs.«149576_j9002251452429_1_alg».proof.Proof.Gen.Pre_finite_inputs
import proofs.«149576_j9002251452429_1_alg».proof.Proof.K.RunAll
import proofs.«149576_j9002251452429_1_alg».proof.Proof.KI.RunAll
import proofs.«149576_j9002251452429_1_alg».proof.Proof.KI.Net
import proofs.«149576_j9002251452429_1_alg».proof.Proof.RefFinal
import proofs.«149576_j9002251452429_1_alg».proof.Proof.NetEq
import proofs.«149576_j9002251452429_1_alg».proof.Proof.PreFinite

noncomputable section

namespace Cert.Proof.Claims

open Idealize.ShloMosaic Idealize.ShloMosaic.TcCoe Idealize.SL.Sem
open Cert.GraphConv

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.Hand.ref_results m ρ)

section Net

open Cert.KernelIdeal Cert.KernelIdeal.Gen Cert.KernelIdeal.Hand

variable (m : (ℓ : Loc Cert.KernelIdeal.nD Cert.KernelIdeal.τ Cert.KernelIdeal.sig) → Buf (Elt Ideal) ℓ)

theorem net_eq (hpre : Cert.Pre_KernelIdeal m) (c : Dev nD) :
    netOut (arr1 (F := Ideal) m c) (arr2 (F := Ideal) m c) (arr3 (F := Ideal) m c)
      = netOut
          (gcR (m ((c : Thread Cert.KernelIdeal.nD Cert.KernelIdeal.τ).loc Cert.KernelIdeal.main_arg0)) (sitofp (F := Ideal) .f32 ((m ((c : Thread Cert.KernelIdeal.nD Cert.KernelIdeal.τ).loc Cert.KernelIdeal.main_arg1)) : IVec Cert.KernelIdeal.S8x2048x2048 32)) (m ((c : Thread Cert.KernelIdeal.nD Cert.KernelIdeal.τ).loc Cert.KernelIdeal.main_arg3)) (m ((c : Thread Cert.KernelIdeal.nD Cert.KernelIdeal.τ).loc Cert.KernelIdeal.main_arg4)))
          (gcR (bnrelu (gcR (m ((c : Thread Cert.KernelIdeal.nD Cert.KernelIdeal.τ).loc Cert.KernelIdeal.main_arg0)) (sitofp (F := Ideal) .f32 ((m ((c : Thread Cert.KernelIdeal.nD Cert.KernelIdeal.τ).loc Cert.KernelIdeal.main_arg1)) : IVec Cert.KernelIdeal.S8x2048x2048 32)) (m ((c : Thread Cert.KernelIdeal.nD Cert.KernelIdeal.τ).loc Cert.KernelIdeal.main_arg3)) (m ((c : Thread Cert.KernelIdeal.nD Cert.KernelIdeal.τ).loc Cert.KernelIdeal.main_arg4)))) (m ((c : Thread Cert.KernelIdeal.nD Cert.KernelIdeal.τ).loc Cert.KernelIdeal.main_arg2)) (m ((c : Thread Cert.KernelIdeal.nD Cert.KernelIdeal.τ).loc Cert.KernelIdeal.main_arg5)) (m ((c : Thread Cert.KernelIdeal.nD Cert.KernelIdeal.τ).loc Cert.KernelIdeal.main_arg6)))
          (gcR (bnrelu (gcR (bnrelu (gcR (m ((c : Thread Cert.KernelIdeal.nD Cert.KernelIdeal.τ).loc Cert.KernelIdeal.main_arg0)) (sitofp (F := Ideal) .f32 ((m ((c : Thread Cert.KernelIdeal.nD Cert.KernelIdeal.τ).loc Cert.KernelIdeal.main_arg1)) : IVec Cert.KernelIdeal.S8x2048x2048 32)) (m ((c : Thread Cert.KernelIdeal.nD Cert.KernelIdeal.τ).loc Cert.KernelIdeal.main_arg3)) (m ((c : Thread Cert.KernelIdeal.nD Cert.KernelIdeal.τ).loc Cert.KernelIdeal.main_arg4)))) (m ((c : Thread Cert.KernelIdeal.nD Cert.KernelIdeal.τ).loc Cert.KernelIdeal.main_arg2)) (m ((c : Thread Cert.KernelIdeal.nD Cert.KernelIdeal.τ).loc Cert.KernelIdeal.main_arg5)) (m ((c : Thread Cert.KernelIdeal.nD Cert.KernelIdeal.τ).loc Cert.KernelIdeal.main_arg6)))) (m ((c : Thread Cert.KernelIdeal.nD Cert.KernelIdeal.τ).loc Cert.KernelIdeal.main_arg2)) (m ((c : Thread Cert.KernelIdeal.nD Cert.KernelIdeal.τ).loc Cert.KernelIdeal.main_arg7)) (m ((c : Thread Cert.KernelIdeal.nD Cert.KernelIdeal.τ).loc Cert.KernelIdeal.main_arg8))) := by
  obtain ⟨h0, -, h3, h4, h5, h6, h7, -, -, -⟩ := Cert.Proof.Pre.finite_of_pre m hpre c
  rw [arr3_val, arr2_val, arr1_val]
  rw [layer3_eq _ _ _ _ _ _ _ _ _ h0 h3 h4 h5 h6 h7, layer2_eq _ _ _ _ _ _ _ h0 h3 h4 h5, gcK_eq_gcR _ _ _ _ h0 h3]

end Net

theorem algebraic : Cert.algebraic_KernelIdeal_ReferenceIdeal := by
  intro m ρ m' ρ' hpre hagree
  refine ⟨fun c => Cert.KernelIdeal.Gen.V9 m (Cert.KernelIdeal.Hand.outsC m) c Cert.KernelIdeal.main_v45,
    fun c => Cert.KernelIdeal.Gen.V9 m (Cert.KernelIdeal.Hand.outsC m) c Cert.KernelIdeal.main_v49, ?_, ?_⟩
  · refine (θ_run Cert.KernelIdeal.defs _ _).mono (fun r h c => ?_) (Cert.KernelIdeal.Hand.run m ρ)
    exact ⟨h c _ (Cert.KernelIdeal.Hand.launch_mem_uc Cert.KernelIdeal.main_v45 (by decide)),
      h c _ (Cert.KernelIdeal.Hand.launch_mem_uc Cert.KernelIdeal.main_v49 (by decide)),
      (h c _ (Cert.KernelIdeal.Hand.launch_mem_uc Cert.KernelIdeal.main_arg0 (by decide))).trans (Cert.KernelIdeal.Gen.V9_main_arg0 m _ c),
      (h c _ (Cert.KernelIdeal.Hand.launch_mem_uc Cert.KernelIdeal.main_arg1 (by decide))).trans (Cert.KernelIdeal.Gen.V9_main_arg1 m _ c),
      (h c _ (Cert.KernelIdeal.Hand.launch_mem_uc Cert.KernelIdeal.main_arg2 (by decide))).trans (Cert.KernelIdeal.Gen.V9_main_arg2 m _ c),
      (h c _ (Cert.KernelIdeal.Hand.launch_mem_uc Cert.KernelIdeal.main_arg3 (by decide))).trans (Cert.KernelIdeal.Gen.V9_main_arg3 m _ c),
      (h c _ (Cert.KernelIdeal.Hand.launch_mem_uc Cert.KernelIdeal.main_arg4 (by decide))).trans (Cert.KernelIdeal.Gen.V9_main_arg4 m _ c),
      (h c _ (Cert.KernelIdeal.Hand.launch_mem_uc Cert.KernelIdeal.main_arg5 (by decide))).trans (Cert.KernelIdeal.Gen.V9_main_arg5 m _ c),
      (h c _ (Cert.KernelIdeal.Hand.launch_mem_uc Cert.KernelIdeal.main_arg6 (by decide))).trans (Cert.KernelIdeal.Gen.V9_main_arg6 m _ c),
      (h c _ (Cert.KernelIdeal.Hand.launch_mem_uc Cert.KernelIdeal.main_arg7 (by decide))).trans (Cert.KernelIdeal.Gen.V9_main_arg7 m _ c),
      (h c _ (Cert.KernelIdeal.Hand.launch_mem_uc Cert.KernelIdeal.main_arg8 (by decide))).trans (Cert.KernelIdeal.Gen.V9_main_arg8 m _ c),
      (h c _ (Cert.KernelIdeal.Hand.launch_mem_uc Cert.KernelIdeal.main_arg9 (by decide))).trans (Cert.KernelIdeal.Gen.V9_main_arg9 m _ c),
      (h c _ (Cert.KernelIdeal.Hand.launch_mem_uc Cert.KernelIdeal.main_arg10 (by decide))).trans (Cert.KernelIdeal.Gen.V9_main_arg10 m _ c)⟩
  · refine (θ_run Cert.ReferenceIdeal.defs _ _).mono (fun r h c => ?_) (Cert.ReferenceIdeal.Hand.ref_results m' ρ')
    obtain ⟨e0, e1, e2, e3, e4, e5, e6, e7, e8, e9, e10⟩ := hagree c
    have hnet : Cert.ReferenceIdeal.Hand.netAt m' c
        = (Cert.KernelIdeal.Gen.V9 m (Cert.KernelIdeal.Hand.outsC m) c Cert.KernelIdeal.main_v45 : FVec Ideal S8x192 .f32) := by
      rw [Cert.KernelIdeal.Hand.out0_val, net_eq m hpre c]
      unfold Cert.ReferenceIdeal.Hand.netAt Cert.ReferenceIdeal.Hand.G3 Cert.ReferenceIdeal.Hand.G2 Cert.ReferenceIdeal.Hand.G1 Cert.ReferenceIdeal.Hand.arg0 Cert.ReferenceIdeal.Hand.arg1 Cert.ReferenceIdeal.Hand.arg2 Cert.ReferenceIdeal.Hand.arg3 Cert.ReferenceIdeal.Hand.arg4 Cert.ReferenceIdeal.Hand.arg5 Cert.ReferenceIdeal.Hand.arg6 Cert.ReferenceIdeal.Hand.arg7 Cert.ReferenceIdeal.Hand.arg8
      rw [e0, e1, e2, e3, e4, e5, e6, e7, e8]
    refine ⟨(h c).1.trans hnet, (h c).2.1.trans ?_, (h c).2.2⟩
    refine Eq.trans ?_ (Cert.KernelIdeal.Hand.out1_val m c).symm
    rw [← Cert.KernelIdeal.Hand.out0_val, ← hnet]
    unfold Cert.ReferenceIdeal.Hand.arg9 Cert.ReferenceIdeal.Hand.arg10
    rw [e9, e10]

end Cert.Proof.Claims

end
-- ==== Proof.lean ====
import proofs.«149576_j9002251452429_1_alg».proof.Defs
import proofs.«149576_j9002251452429_1_alg».proof.Proof.Gen.Kernel
import proofs.«149576_j9002251452429_1_alg».proof.Proof.Gen.Kernel.Skeleton
import proofs.«149576_j9002251452429_1_alg».proof.Proof.Gen.Kernel.Launch
import proofs.«149576_j9002251452429_1_alg».proof.Proof.Gen.Kernel.Regions
import proofs.«149576_j9002251452429_1_alg».proof.Proof.Gen.Kernel.Points
import proofs.«149576_j9002251452429_1_alg».proof.Proof.Gen.KernelIdeal
import proofs.«149576_j9002251452429_1_alg».proof.Proof.Gen.KernelIdeal.Skeleton
import proofs.«149576_j9002251452429_1_alg».proof.Proof.Gen.KernelIdeal.Launch
import proofs.«149576_j9002251452429_1_alg».proof.Proof.Gen.KernelIdeal.Regions
import proofs.«149576_j9002251452429_1_alg».proof.Proof.Gen.KernelIdeal.Points
import proofs.«149576_j9002251452429_1_alg».proof.Proof.Gen.ReferenceIdeal
import proofs.«149576_j9002251452429_1_alg».proof.Proof.Gen.Pre_finite_inputs
import proofs.«149576_j9002251452429_1_alg».proof.Proof.Final
import Idealize.ShloMosaic.Adequacy
import Idealize.ShloMosaic.Init

noncomputable section

namespace Cert.Proof

open Idealize.ShloMosaic Idealize.SL.Sem Cert.Kernel

/-- Both programs compute one three-layer network: per layer the kernel multiplies by the weights before it aggregates over the neighbours, the reference afterwards; over finite inputs the two double sums agree. -/
theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, trivial, Cert.Proof.Claims.algebraic⟩

end Cert.Proof

end
